-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x4096 : Shape := ⟨2, ![4096, 4096]⟩
abbrev S10000x512 : Shape := ⟨2, ![10000, 512]⟩
abbrev S6x512x512 : Shape := ⟨3, ![6, 512, 512]⟩
abbrev S6x512 : Shape := ⟨2, ![6, 512]⟩
abbrev S1024x512 : Shape := ⟨2, ![1024, 512]⟩
abbrev S512 : Shape := ⟨1, ![512]⟩
abbrev S3x512x512 : Shape := ⟨3, ![3, 512, 512]⟩
abbrev S3x512 : Shape := ⟨2, ![3, 512]⟩
abbrev S512x1 : Shape := ⟨2, ![512, 1]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S6x512x512 : S_.BroadcastsInDim S6x512x512 (![] : Fin 0 → Fin S6x512x512.rank)
  reducesTo_S6x512x512_S_d0_1_2 : S6x512x512.ReducesTo [0, 1, 2] S_
  bcast_S_S6x512 : S_.BroadcastsInDim S6x512 (![] : Fin 0 → Fin S6x512.rank)
  reducesTo_S6x512_S_d0_1 : S6x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg0 : IVec S4096 32) (main_arg1 : IVec S4096 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 4294957296#32
  let main_v54 : IVec S4096 32 := broadcastInDim S4096 ![] bcast_S_S4096 main_c_20
  let main_v55 : IVec S4096 1 := cmpi .sge main_arg0 main_v54
  let main_c_21 : IVec S_ 32 := constantI S_ 32 10000#32
  let main_v56 : IVec S4096 32 := broadcastInDim S4096 ![] bcast_S_S4096 main_c_21
  let main_v57 : IVec S4096 1 := cmpi .slt main_arg0 main_v56
  let main_v58 : IVec S4096 1 := andi main_v55 main_v57
  let main_c_22 : IVec S_ 1 := constantI S_ 1 1#1
  let main_v59 : IVec S_ 1 := (fun x v => Host.reduce IntOp.andi x v reducesTo_S4096_S_d0 h_S_) main_v58 main_c_22
  let main_v60 : IVec S_ 1 := andi main_v53 main_v59
  let main_c_23 : IVec S_ 32 := constantI S_ 32 4294957296#32
  let main_v61 : IVec S4096 32 := broadcastInDim S4096 ![] bcast_S_S4096 main_c_23
  let main_v62 : IVec S4096 1 := cmpi .sge main_arg1 main_v61
  let main_c_24 : IVec S_ 32 := constantI S_ 32 10000#32
  let main_v63 : IVec S4096 32 := broadcastInDim S4096 ![] bcast_S_S4096 main_c_24
  let main_v64 : IVec S4096 1 := cmpi .slt main_arg1 main_v63
  let main_v65 : IVec S4096 1 := andi main_v62 main_v64
  let main_c_25 : IVec S_ 1 := constantI S_ 1 1#1
  let main_v66 : IVec S_ 1 := (fun x v => Host.reduce IntOp.andi x v reducesTo_S4096_S_d0 h_S_) main_v65 main_c_25
  let main_v67 : IVec S_ 1 := andi main_v60 main_v66
  main_v67

def fn_part2 {F : FTy → Type} [FloatOps F] (main_arg0 : IVec S4096 32) (main_arg1 : IVec S4096 32) (main_arg10 : FVec F S3x512x512 .f32) (main_arg11 : FVec F S3x512 .f32) (main_arg12 : FVec F S512x1 .f32) (main_arg13 : FVec F S1 .f32) (main_v33 : IVec S_ 1) : IVec S_ 1 :=
  let main_v34 : FVec F S3x512x512 .f32 := Host.absf main_arg10
  let main_cst_12 : FVec F S_ .f32 := constant S_ .f32 0x7F800000#32
  let main_v35 : FVec F S3x512x512 .f32 := broadcastInDim S3x512x512 ![] bcast_S_S3x512x512 main_cst_12
  let main_v36 : IVec S3x512x512 1 := cmpf .olt main_v34 main_v35
  let main_c_13 : IVec S_ 1 := constantI S_ 1 1#1
  let main_v37 : IVec S_ 1 := (fun x v => Host.reduce IntOp.andi x v reducesTo_S3x512x512_S_d0_1_2 h_S_) main_v36 main_c_13
  let main_v38 : IVec S_ 1 := andi main_v33 main_v37
  let main_v39 : FVec F S3x512 .f32 := Host.absf main_arg11
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S512x1 .f32 := Host.absf main_arg12
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg0 main_arg1 main_v48 main_v49 main_v50

def fn_part1 {F : FTy → Type} [FloatOps F] (main_arg0 : IVec S4096 32) (main_arg1 : IVec S4096 32) (main_arg7 : FVec F S6x512 .f32) (main_arg8 : FVec F S1024x512 .f32) (main_arg9 : FVec F S512 .f32) (main_arg10 : FVec F S3x512x512 .f32) (main_arg11 : FVec F S3x512 .f32) (main_arg12 : FVec F S512x1 .f32) (main_arg13 : FVec F S1 .f32) (main_v13 : IVec S_ 1) (main_v16 : IVec S6x512x512 1) : IVec S_ 1 :=
  let main_c_5 : IVec S_ 1 := constantI S_ 1 1#1
  let main_v17 : IVec S_ 1 := (fun x v => Host.reduce IntOp.andi x v reducesTo_S6x512x512_S_d0_1_2 h_S_) main_v16 main_c_5
  let main_v18 : IVec S_ 1 := andi main_v13 main_v17
  let main_v19 : FVec F S6x512 .f32 := Host.absf main_arg7
  let main_cst_6 : FVec F S_ .f32 := constant S_ .f32 0x7F800000#32
  let main_v20 : FVec F S6x512 .f32 := broadcastInDim S6x512 ![] bcast_S_S6x512 main_cst_6
  let main_v21 : IVec S6x512 1 := cmpf .olt main_v19 main_v20
  let main_c_7 : IVec S_ 1 := constantI S_ 1 1#1
  let main_v22 : IVec S_ 1 := (fun x v => Host.reduce IntOp.andi x v reducesTo_S6x512_S_d0_1 h_S_) main_v21 main_c_7
  let main_v23 : IVec S_ 1 := andi main_v18 main_v22
  let main_v24 : FVec F S1024x512 .f32 := Host.absf main_arg8
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg9
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg0 main_arg1 main_arg10 main_arg11 main_arg12 main_arg13 main_v33

def fn {F : FTy → Type} [FloatOps F] (main_arg0 : IVec S4096 32) (main_arg1 : IVec S4096 32) (main_arg2 : FVec F S4096x4096 .f32) (main_arg3 : FVec F S4096x4096 .f32) (main_arg4 : IVec S4096 32) (main_arg5 : FVec F S10000x512 .f32) (main_arg6 : FVec F S6x512x512 .f32) (main_arg7 : FVec F S6x512 .f32) (main_arg8 : FVec F S1024x512 .f32) (main_arg9 : FVec F S512 .f32) (main_arg10 : FVec F S3x512x512 .f32) (main_arg11 : FVec F S3x512 .f32) (main_arg12 : FVec F S512x1 .f32) (main_arg13 : FVec F S1 .f32) : IVec S_ 1 :=
  let main_v0 : FVec F S4096x4096 .f32 := Host.absf main_arg2
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg3
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S10000x512 .f32 := Host.absf main_arg5
  let main_cst_2 : FVec F S_ .f32 := constant S_ .f32 0x7F800000#32
  let main_v10 : FVec F S10000x512 .f32 := broadcastInDim S10000x512 ![] bcast_S_S10000x512 main_cst_2
  let main_v11 : IVec S10000x512 1 := cmpf .olt main_v9 main_v10
  let main_c_3 : IVec S_ 1 := constantI S_ 1 1#1
  let main_v12 : IVec S_ 1 := (fun x v => Host.reduce IntOp.andi x v reducesTo_S10000x512_S_d0_1 h_S_) main_v11 main_c_3
  let main_v13 : IVec S_ 1 := andi main_v8 main_v12
  let main_v14 : FVec F S6x512x512 .f32 := Host.absf main_arg6
  let main_cst_4 : FVec F S_ .f32 := constant S_ .f32 0x7F800000#32
  let main_v15 : FVec F S6x512x512 .f32 := broadcastInDim S6x512x512 ![] bcast_S_S6x512x512 main_cst_4
  let main_v16 : IVec S6x512x512 1 := cmpf .olt main_v14 main_v15
  fn_part1 (F := F) main_arg0 main_arg1 main_arg7 main_arg8 main_arg9 main_arg10 main_arg11 main_arg12 main_arg13 main_v13 main_v16
-- ==== Kernel.lean ====
abbrev S4096 : Shape := ⟨1, ![4096]⟩
abbrev S4096x4096 : Shape := ⟨2, ![4096, 4096]⟩
abbrev S10000x512 : Shape := ⟨2, ![10000, 512]⟩
abbrev S6x512x512 : Shape := ⟨3, ![6, 512, 512]⟩
abbrev S6x512 : Shape := ⟨2, ![6, 512]⟩
abbrev S1024x512 : Shape := ⟨2, ![1024, 512]⟩
abbrev S512 : Shape := ⟨1, ![512]⟩
abbrev S3x512x512 : Shape := ⟨3, ![3, 512, 512]⟩
abbrev S3x512 : Shape := ⟨2, ![3, 512]⟩
abbrev S512x1 : Shape := ⟨2, ![512, 1]⟩
abbrev S1 : Shape := ⟨1, ![1]⟩
abbrev S_ : Shape := ⟨0, ![]⟩
abbrev S4096x1 : Shape := ⟨2, ![4096, 1]⟩
abbrev S1x1 : Shape := ⟨2, ![1, 1]⟩
abbrev S4096x512 : Shape := ⟨2, ![4096, 512]⟩
abbrev S1x4096x512 : Shape := ⟨3, ![1, 4096, 512]⟩
abbrev S2x4096x512 : Shape := ⟨3, ![2, 4096, 512]⟩
abbrev S1x4096x4096 : Shape := ⟨3, ![1, 4096, 4096]⟩
abbrev S2x4096x4096 : Shape := ⟨3, ![2, 4096, 4096]⟩
abbrev S1x512x512 : Shape := ⟨3, ![1, 512, 512]⟩
abbrev S512x512 : Shape := ⟨2, ![512, 512]⟩
abbrev S1x512 : Shape := ⟨2, ![1, 512]⟩
abbrev S1x256x512 : Shape := ⟨3, ![1, 256, 512]⟩
abbrev S1x4096x256 : Shape := ⟨3, ![1, 4096, 256]⟩
abbrev S256x512 : Shape := ⟨2, ![256, 512]⟩
abbrev S4096x256 : Shape := ⟨2, ![4096, 256]⟩
abbrev S128x512 : Shape := ⟨2, ![128, 512]⟩
abbrev S128x1024 : Shape := ⟨2, ![128, 1024]⟩
abbrev S128x1 : Shape := ⟨2, ![128, 1]⟩

abbrev nBuf : Space → Nat
  | .hbm => 161
  | .vmem => 60
  | .smem => 0
  | _ => 0

abbrev hbmTy0_0 (i : Nat) : BufTy := match i % 128 with
  | 0 => ⟨S4096, .i32⟩
  | 1 => ⟨S4096, .i32⟩
  | 2 => ⟨S4096x4096, .f32⟩
  | 3 => ⟨S4096x4096, .f32⟩
  | 4 => ⟨S4096, .i32⟩
  | 5 => ⟨S10000x512, .f32⟩
  | 6 => ⟨S6x512x512, .f32⟩
  | 7 => ⟨S6x512, .f32⟩
  | 8 => ⟨S1024x512, .f32⟩
  | 9 => ⟨S512, .f32⟩
  | 10 => ⟨S3x512x512, .f32⟩
  | 11 => ⟨S3x512, .f32⟩
  | 12 => ⟨S512x1, .f32⟩
  | 13 => ⟨S1, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x512, .f32⟩
  | 33 => ⟨S4096x512, .i1⟩
  | 34 => ⟨S_, .f32⟩
  | 35 => ⟨S4096x512, .f32⟩
  | 36 => ⟨S4096x512, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S1, .i32⟩
  | 46 => ⟨S_, .i32⟩
  | 47 => ⟨S4096x1, .i32⟩
  | 48 => ⟨S4096x1, .i1⟩
  | 49 => ⟨S1x1, .i32⟩
  | 50 => ⟨S4096x1, .i32⟩
  | 51 => ⟨S4096x1, .i1⟩
  | 52 => ⟨S4096x1, .i1⟩
  | 53 => ⟨S_, .i1⟩
  | 54 => ⟨S4096, .i1⟩
  | 55 => ⟨S4096x512, .f32⟩
  | 56 => ⟨S4096x512, .i1⟩
  | 57 => ⟨S_, .f32⟩
  | 58 => ⟨S4096x512, .f32⟩
  | 59 => ⟨S4096x512, .f32⟩
  | 60 => ⟨S1x4096x512, .f32⟩
  | 61 => ⟨S1x4096x512, .f32⟩
  | 62 => ⟨S2x4096x512, .f32⟩
  | 63 => ⟨S4096x4096, .bf16⟩
  | 64 => ⟨S4096x4096, .bf16⟩
  | 65 => ⟨S1x4096x4096, .bf16⟩
  | 66 => ⟨S1x4096x4096, .bf16⟩
  | 67 => ⟨S2x4096x4096, .bf16⟩
  | 68 => ⟨S1x512x512, .f32⟩
  | 69 => ⟨S512x512, .f32⟩
  | 70 => ⟨S1x512, .f32⟩
  | 71 => ⟨S512, .f32⟩
  | 72 => ⟨S1x512, .f32⟩
  | 73 => ⟨S2x4096x512, .f32⟩
  | 74 => ⟨S1x512x512, .f32⟩
  | 75 => ⟨S512x512, .f32⟩
  | 76 => ⟨S1x512, .f32⟩
  | 77 => ⟨S512, .f32⟩
  | 78 => ⟨S1x512, .f32⟩
  | 79 => ⟨S2x4096x512, .f32⟩
  | 80 => ⟨S1x512x512, .f32⟩
  | 81 => ⟨S512x512, .f32⟩
  | 82 => ⟨S1x512, .f32⟩
  | 83 => ⟨S512, .f32⟩
  | 84 => ⟨S1x512, .f32⟩
  | 85 => ⟨S2x4096x512, .f32⟩
  | 86 => ⟨S1x512x512, .f32⟩
  | 87 => ⟨S512x512, .f32⟩
  | 88 => ⟨S1x512, .f32⟩
  | 89 => ⟨S512, .f32⟩
  | 90 => ⟨S1x512, .f32⟩
  | 91 => ⟨S2x4096x512, .f32⟩
  | 92 => ⟨S1x512x512, .f32⟩
  | 93 => ⟨S512x512, .f32⟩
  | 94 => ⟨S1x512, .f32⟩
  | 95 => ⟨S512, .f32⟩
  | 96 => ⟨S1x512, .f32⟩
  | 97 => ⟨S2x4096x512, .f32⟩
  | 98 => ⟨S1x512x512, .f32⟩
  | 99 => ⟨S512x512, .f32⟩
  | 100 => ⟨S1x512, .f32⟩
  | 101 => ⟨S512, .f32⟩
  | 102 => ⟨S1x512, .f32⟩
  | 103 => ⟨S2x4096x512, .f32⟩
  | 104 => ⟨S1x4096x512, .f32⟩
  | 105 => ⟨S4096x512, .f32⟩
  | 106 => ⟨S_, .f32⟩
  | 107 => ⟨S128x512, .f32⟩
  | 108 => ⟨S4096x1, .i32⟩
  | 109 => ⟨S128x512, .f32⟩
  | 110 => ⟨S1x4096x512, .f32⟩
  | 111 => ⟨S4096x512, .f32⟩
  | 112 => ⟨S_, .f32⟩
  | 113 => ⟨S128x512, .f32⟩
  | 114 => ⟨S4096x1, .i32⟩
  | 115 => ⟨S128x512, .f32⟩
  | 116 => ⟨S128x1024, .f32⟩
  | 117 => ⟨S128x512, .f32⟩
  | 118 => ⟨S1x512, .f32⟩
  | 119 => ⟨S128x512, .f32⟩
  | 120 => ⟨S128x512, .f32⟩
  | 121 => ⟨S_, .f32⟩
  | 122 => ⟨S128x512, .f32⟩
  | 123 => ⟨S128x512, .f32⟩
  | 124 => ⟨S1x512x512, .f32⟩
  | 125 => ⟨S512x512, .f32⟩
  | 126 => ⟨S128x512, .f32⟩
  | 127 => ⟨S1x512, .f32⟩
  | _ => ⟨S4096, .i32⟩

abbrev hbmTy0_1 (i : Nat) : BufTy := match i % 128 with
  | 0 => ⟨S512, .f32⟩
  | 1 => ⟨S1x512, .f32⟩
  | 2 => ⟨S128x512, .f32⟩
  | 3 => ⟨S128x512, .f32⟩
  | 4 => ⟨S_, .f32⟩
  | 5 => ⟨S128x512, .f32⟩
  | 6 => ⟨S128x512, .f32⟩
  | 7 => ⟨S1x512x512, .f32⟩
  | 8 => ⟨S512x512, .f32⟩
  | 9 => ⟨S128x512, .f32⟩
  | 10 => ⟨S1x512, .f32⟩
  | 11 => ⟨S512, .f32⟩
  | 12 => ⟨S1x512, .f32⟩
  | 13 => ⟨S128x512, .f32⟩
  | 14 => ⟨S128x512, .f32⟩
  | 15 => ⟨S_, .f32⟩
  | 16 => ⟨S128x512, .f32⟩
  | 17 => ⟨S128x512, .f32⟩
  | 18 => ⟨S1x512x512, .f32⟩
  | 19 => ⟨S512x512, .f32⟩
  | 20 => ⟨S128x512, .f32⟩
  | 21 => ⟨S1x512, .f32⟩
  | 22 => ⟨S512, .f32⟩
  | 23 => ⟨S1x512, .f32⟩
  | 24 => ⟨S128x512, .f32⟩
  | 25 => ⟨S128x512, .f32⟩
  | 26 => ⟨S_, .f32⟩
  | 27 => ⟨S128x512, .f32⟩
  | 28 => ⟨S128x512, .f32⟩
  | 29 => ⟨S128x1, .f32⟩
  | 30 => ⟨S1x1, .f32⟩
  | 31 => ⟨S128x1, .f32⟩
  | 32 => ⟨S128x1, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x4096x256, .bf16⟩
  | .local _ .vmem, ⟨3, _⟩ => ⟨S1x4096x256, .bf16⟩
  | .local _ .vmem, ⟨4, _⟩ => ⟨S512x512, .f32⟩
  | .local _ .vmem, ⟨5, _⟩ => ⟨S1x512, .f32⟩
  | .local _ .vmem, ⟨6, _⟩ => ⟨S1x4096x512, .f32⟩
  | .local _ .vmem, ⟨7, _⟩ => ⟨S1x4096x512, .f32⟩
  | .local _ .vmem, ⟨8, _⟩ => ⟨S4096x512, .f32⟩
  | .local _ .vmem, ⟨9, _⟩ => ⟨S4096x512, .f32⟩
  | .local _ .vmem, ⟨10, _⟩ => ⟨S1x256x512, .f32⟩
  | .local _ .vmem, ⟨11, _⟩ => ⟨S1x256x512, .f32⟩
  | .local _ .vmem, ⟨12, _⟩ => ⟨S1x4096x256, .bf16⟩
  | .local _ .vmem, ⟨13, _⟩ => ⟨S1x4096x256, .bf16⟩
  | .local _ .vmem, ⟨14, _⟩ => ⟨S512x512, .f32⟩
  | .local _ .vmem, ⟨15, _⟩ => ⟨S1x512, .f32⟩
  | .local _ .vmem, ⟨16, _⟩ => ⟨S1x4096x512, .f32⟩
  | .local _ .vmem, ⟨17, _⟩ => ⟨S1x4096x512, .f32⟩
  | .local _ .vmem, ⟨18, _⟩ => ⟨S4096x512, .f32⟩
  | .local _ .vmem, ⟨19, _⟩ => ⟨S4096x512, .f32⟩
  | .local _ .vmem, ⟨20, _⟩ => ⟨S1x256x512, .f32⟩
  | .local _ .vmem, ⟨21, _⟩ => ⟨S1x256x512, .f32⟩
  | .local _ .vmem, ⟨22, _⟩ => ⟨S1x4096x256, .bf16⟩
  | .local _ .vmem, ⟨23, _⟩ => ⟨S1x4096x256, .bf16⟩
  | .local _ .vmem, ⟨24, _⟩ => ⟨S512x512, .f32⟩
  | .local _ .vmem, ⟨25, _⟩ => ⟨S1x512, .f32⟩
  | .local _ .vmem, ⟨26, _⟩ => ⟨S1x4096x512, .f32⟩
  | .local _ .vmem, ⟨27, _⟩ => ⟨S1x4096x512, .f32⟩
  | .local _ .vmem, ⟨28, _⟩ => ⟨S4096x512, .f32⟩
  | .local _ .vmem, ⟨29, _⟩ => ⟨S4096x512, .f32⟩
  | .local _ .vmem, ⟨30, _⟩ => ⟨S1x256x512, .f32⟩
  | .local _ .vmem, ⟨31, _⟩ => ⟨S1x256x512, .f32⟩
  | .local _ .vmem, ⟨32, _⟩ => ⟨S1x4096x256, .bf16⟩
  | .local _ .vmem, ⟨33, _⟩ => ⟨S1x4096x256, .bf16⟩
  | .local _ .vmem, ⟨34, _⟩ => ⟨S512x512, .f32⟩
  | .local _ .vmem, ⟨35, _⟩ => ⟨S1x512, .f32⟩
  | .local _ .vmem, ⟨36, _⟩ => ⟨S1x4096x512, .f32⟩
  | .local _ .vmem, ⟨37, _⟩ => ⟨S1x4096x512, .f32⟩
  | .local _ .vmem, ⟨38, _⟩ => ⟨S4096x512, .f32⟩
  | .local _ .vmem, ⟨39, _⟩ => ⟨S4096x512, .f32⟩
  | .local _ .vmem, ⟨40, _⟩ => ⟨S1x256x512, .f32⟩
  | .local _ .vmem, ⟨41, _⟩ => ⟨S1x256x512, .f32⟩
  | .local _ .vmem, ⟨42, _⟩ => ⟨S1x4096x256, .bf16⟩
  | .local _ .vmem, ⟨43, _⟩ => ⟨S1x4096x256, .bf16⟩
  | .local _ .vmem, ⟨44, _⟩ => ⟨S512x512, .f32⟩
  | .local _ .vmem, ⟨45, _⟩ => ⟨S1x512, .f32⟩
  | .local _ .vmem, ⟨46, _⟩ => ⟨S1x4096x512, .f32⟩
  | .local _ .vmem, ⟨47, _⟩ => ⟨S1x4096x512, .f32⟩
  | .local _ .vmem, ⟨48, _⟩ => ⟨S4096x512, .f32⟩
  | .local _ .vmem, ⟨49, _⟩ => ⟨S4096x512, .f32⟩
  | .local _ .vmem, ⟨50, _⟩ => ⟨S1x256x512, .f32⟩
  | .local _ .vmem, ⟨51, _⟩ => ⟨S1x256x512, .f32⟩
  | .local _ .vmem, ⟨52, _⟩ => ⟨S1x4096x256, .bf16⟩
  | .local _ .vmem, ⟨53, _⟩ => ⟨S1x4096x256, .bf16⟩
  | .local _ .vmem, ⟨54, _⟩ => ⟨S512x512, .f32⟩
  | .local _ .vmem, ⟨55, _⟩ => ⟨S1x512, .f32⟩
  | .local _ .vmem, ⟨56, _⟩ => ⟨S1x4096x512, .f32⟩
  | .local _ .vmem, ⟨57, _⟩ => ⟨S1x4096x512, .f32⟩
  | .local _ .vmem, ⟨58, _⟩ => ⟨S4096x512, .f32⟩
  | .local _ .vmem, ⟨59, _⟩ => ⟨S4096x512, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_cst : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_cst_0 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_call2_cst : Ref sig .tc := ⟨.hbm, 121, rfl⟩
abbrev main_call2_v0 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_call3_cst : Ref sig .tc := ⟨.hbm, 132, rfl⟩
abbrev main_call3_v0 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_call4_cst : Ref sig .tc := ⟨.hbm, 143, rfl⟩
abbrev main_call4_v0 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_call5_cst : Ref sig .tc := ⟨.hbm, 154, rfl⟩
abbrev main_call5_v0 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_scratch0 : Ref sig .tc := ⟨.vmem, 48, rfl⟩
abbrev cc4_scratch1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc5_scratch0 : Ref sig .tc := ⟨.vmem, 58, rfl⟩
abbrev cc5_scratch1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v16 : BitVec 32 := Scalar.muli arg1 c256_i32
  v16
def k0_off1 (i : grid0.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_8 : Index := 0#32
  ![v18.toNat, 0]
def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def k1_mult1 (i : grid1.Coords) : BitVec 32 :=
  let arg1 : BitVec 32 := BitVec.ofNat 32 (i 1).val
  let c256_i32 : BitVec 32 := 256#32
  let v16 : BitVec 32 := Scalar.muli arg1 c256_i32
  v16
def k1_off1 (i : grid1.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_8 : Index := 0#32
  ![v18.toNat, 0]
def k1_cond2 (i : grid1.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4096x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 16], ![false, false]⟩

def k2_mult1 (i : grid2.Coords) : BitVec 32 :=
  let arg1 : BitVec 32 := BitVec.ofNat 32 (i 1).val
  let c256_i32 : BitVec 32 := 256#32
  let v16 : BitVec 32 := Scalar.muli arg1 c256_i32
  v16
def k2_off1 (i : grid2.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_8 : Index := 0#32
  ![v18.toNat, 0]
def k2_cond2 (i : grid2.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x4096x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2, 16], ![false, false]⟩

def k3_mult1 (i : grid3.Coords) : BitVec 32 :=
  let arg1 : BitVec 32 := BitVec.ofNat 32 (i 1).val
  let c256_i32 : BitVec 32 := 256#32
  let v16 : BitVec 32 := Scalar.muli arg1 c256_i32
  v16
def k3_off1 (i : grid3.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_8 : Index := 0#32
  ![v18.toNat, 0]
def k3_cond2 (i : grid3.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x4096x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![2, 16], ![false, false]⟩

def k4_mult1 (i : grid4.Coords) : BitVec 32 :=
  let arg1 : BitVec 32 := BitVec.ofNat 32 (i 1).val
  let c256_i32 : BitVec 32 := 256#32
  let v16 : BitVec 32 := Scalar.muli arg1 c256_i32
  v16
def k4_off1 (i : grid4.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_8 : Index := 0#32
  ![v18.toNat, 0]
def k4_cond2 (i : grid4.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x4096x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2, 16], ![false, false]⟩

def k5_mult1 (i : grid5.Coords) : BitVec 32 :=
  let arg1 : BitVec 32 := BitVec.ofNat 32 (i 1).val
  let c256_i32 : BitVec 32 := 256#32
  let v16 : BitVec 32 := Scalar.muli arg1 c256_i32
  v16
def k5_off1 (i : grid5.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_8 : Index := 0#32
  ![v18.toNat, 0]
def k5_cond2 (i : grid5.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x256x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1x4096x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x512_0 : S4096.BroadcastsInDim S4096x512 (![0] : Fin 1 → Fin S4096x512.rank)
  bcast_S_S4096x512 : S_.BroadcastsInDim S4096x512 (![] : Fin 0 → Fin S4096x512.rank)
  bcast_S4096x512_S1x4096x512_1_2 : S4096x512.BroadcastsInDim S1x4096x512 (![1, 2] : Fin 2 → Fin S1x4096x512.rank)
  concatenates_S1x4096x512_S1x4096x512_S2x4096x512_d0 : Shape.Concatenates [S1x4096x512, S1x4096x512] S2x4096x512 0
  bitsLt_bf16_f32 : FTy.bits .bf16 < FTy.bits .f32
  bcast_S4096x4096_S1x4096x4096_1_2 : S4096x4096.BroadcastsInDim S1x4096x4096 (![1, 2] : Fin 2 → Fin S1x4096x4096.rank)
  concatenates_S1x4096x4096_S1x4096x4096_S2x4096x4096_d0 : Shape.Concatenates [S1x4096x4096, S1x4096x4096] S2x4096x4096 0
  slices_S6x512x512_S1x512x512_0_0_0 : S6x512x512.Slices ![0, 0, 0] S1x512x512
  shapeCasts_S1x512x512_S512x512 : S1x512x512.ShapeCasts S512x512
  slices_S6x512_S1x512_0_0 : S6x512.Slices ![0, 0] S1x512
  shapeCasts_S1x512_S512 : S1x512.ShapeCasts S512
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  h_S256x512 : 0 < S256x512.numel
  shapeCasts_S256x512_S256x512 : S256x512.ShapeCasts S256x512
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S4096x512_S4096 : S4096x512.Reduces [1] S4096
  shapeCasts_S4096_S4096x1 : S4096.ShapeCasts S4096x1
  broadcasts_S4096x1_S4096x512 : S4096x1.Broadcasts S4096x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  shapeCasts_S4096x512_S1x4096x512 : S4096x512.ShapeCasts S1x4096x512
  slices_S6x512x512_S1x512x512_1_0_0 : S6x512x512.Slices ![1, 0, 0] S1x512x512
  slices_S6x512_S1x512_1_0 : S6x512.Slices ![1, 0] S1x512
  slices_S6x512x512_S1x512x512_2_0_0 : S6x512x512.Slices ![2, 0, 0] S1x512x512
  slices_S6x512_S1x512_2_0 : S6x512.Slices ![2, 0] S1x512
  slices_S6x512x512_S1x512x512_3_0_0 : S6x512x512.Slices ![3, 0, 0] S1x512x512
  slices_S6x512_S1x512_3_0 : S6x512.Slices ![3, 0] S1x512
  slices_S6x512x512_S1x512x512_4_0_0 : S6x512x512.Slices ![4, 0, 0] S1x512x512
  slices_S6x512_S1x512_4_0 : S6x512.Slices ![4, 0] S1x512
  slices_S6x512x512_S1x512x512_5_0_0 : S6x512x512.Slices ![5, 0, 0] S1x512x512
  slices_S6x512_S1x512_5_0 : S6x512.Slices ![5, 0] S1x512
  slices_S2x4096x512_S1x4096x512_0_0_0 : S2x4096x512.Slices ![0, 0, 0] S1x4096x512
  bcast_S_S128x512 : S_.BroadcastsInDim S128x512 (![] : Fin 0 → Fin S128x512.rank)
  slices_S2x4096x512_S1x4096x512_1_0_0 : S2x4096x512.Slices ![1, 0, 0] S1x4096x512
  concatenates_S128x512_S128x512_S128x1024_d1 : Shape.Concatenates [S128x512, S128x512] S128x1024 1
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  slices_S3x512x512_S1x512x512_0_0_0 : S3x512x512.Slices ![0, 0, 0] S1x512x512
  slices_S3x512_S1x512_0_0 : S3x512.Slices ![0, 0] S1x512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S1x1_S128x1_0_1 : S1x1.BroadcastsInDim S128x1 (![0, 1] : Fin 2 → Fin S128x1.rank)
  gather_S10000x512_S4096x1_S4096x512_1_0_n_n_0_1_1512_wf : GatherDims.WF S10000x512 S4096x1 S4096x512 [1] [0] [] [0] [] 1 ![1, 512]
  dot_S256x512_S512x512_S256x512_1_0_0_1_n_n_wf : DotDims.WF S256x512 S512x512 S256x512 [1] [0] [0] [1] [] []
  dot_S4096x256_S256x512_S4096x512_1_0_0_1_n_n_wf : DotDims.WF S4096x256 S256x512 S4096x512 [1] [0] [0] [1] [] []
  scatter_S128x512_S4096x1_S4096x512_1_0_0_1_wf : ScatterDims.WF S128x512 S4096x1 S4096x512 [1] [0] [0] 1
  dot_S128x1024_S1024x512_S128x512_1_0_0_1_n_n_wf : DotDims.WF S128x1024 S1024x512 S128x512 [1] [0] [0] [1] [] []
  dot_S128x512_S512x512_S128x512_1_0_0_1_n_n_wf : DotDims.WF S128x512 S512x512 S128x512 [1] [0] [0] [1] [] []
  dot_S128x512_S512x1_S128x1_1_0_0_1_n_n_wf : DotDims.WF S128x512 S512x1 S128x1 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S2x4096x512.size a
  hwx0_0 : ∀ i : grid0.Coords, EltTy.bits .f32 = 32 ∨ (Rect.block (s := S2x4096x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S2x4096x4096.size a
  hwx0_1 : ∀ i : grid0.Coords, EltTy.bits .bf16 = 32 ∨ (Rect.block (s := S2x4096x4096) S1x4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x512.size a ≤ S2x4096x512.size a
  hwx0_4 : ∀ i : grid0.Coords, EltTy.bits .f32 = 32 ∨ (Rect.block (s := S2x4096x512) S1x4096x512.size (cc0_transform_4 i) (hinb0_4 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x512.size a ≤ S4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S2x4096x512.size a
  hwx1_0 : ∀ i : grid1.Coords, EltTy.bits .f32 = 32 ∨ (Rect.block (s := S2x4096x512) S1x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S2x4096x4096.size a
  hwx1_1 : ∀ i : grid1.Coords, EltTy.bits .bf16 = 32 ∨ (Rect.block (s := S2x4096x4096) S1x4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x512.size a ≤ S2x4096x512.size a
  hwx1_4 : ∀ i : grid1.Coords, EltTy.bits .f32 = 32 ∨ (Rect.block (s := S2x4096x512) S1x4096x512.size (cc1_transform_4 i) (hinb1_4 i)).WholeWords (EltTy.packing .f32)
  hrank2 : 0 < grid2.rank
  k2_mult1_dvd : ∀ i : grid2.Coords, 256 ∣ (k2_mult1 i).toNat
  k2_off1_inb : ∀ i : grid2.Coords, ∀ a, (k2_off1 i) a + S256x512.size a ≤ S4096x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x512.size a ≤ S2x4096x512.size a
  hwx2_0 : ∀ i : grid2.Coords, EltTy.bits .f32 = 32 ∨ (Rect.block (s := S2x4096x512) S1x256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x256.size a ≤ S2x4096x4096.size a
  hwx2_1 : ∀ i : grid2.Coords, EltTy.bits .bf16 = 32 ∨ (Rect.block (s := S2x4096x4096) S1x4096x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4096x512.size a ≤ S2x4096x512.size a
  hwx2_4 : ∀ i : grid2.Coords, EltTy.bits .f32 = 32 ∨ (Rect.block (s := S2x4096x512) S1x4096x512.size (cc2_transform_4 i) (hinb2_4 i)).WholeWords (EltTy.packing .f32)
  hrank3 : 0 < grid3.rank
  k3_mult1_dvd : ∀ i : grid3.Coords, 256 ∣ (k3_mult1 i).toNat
  k3_off1_inb : ∀ i : grid3.Coords, ∀ a, (k3_off1 i) a + S256x512.size a ≤ S4096x512.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x512.size a ≤ S2x4096x512.size a
  hwx3_0 : ∀ i : grid3.Coords, EltTy.bits .f32 = 32 ∨ (Rect.block (s := S2x4096x512) S1x256x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x4096x256.size a ≤ S2x4096x4096.size a
  hwx3_1 : ∀ i : grid3.Coords, EltTy.bits .bf16 = 32 ∨ (Rect.block (s := S2x4096x4096) S1x4096x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x4096x512.size a ≤ S2x4096x512.size a
  hwx3_4 : ∀ i : grid3.Coords, EltTy.bits .f32 = 32 ∨ (Rect.block (s := S2x4096x512) S1x4096x512.size (cc3_transform_4 i) (hinb3_4 i)).WholeWords (EltTy.packing .f32)
  hrank4 : 0 < grid4.rank
  k4_mult1_dvd : ∀ i : grid4.Coords, 256 ∣ (k4_mult1 i).toNat
  k4_off1_inb : ∀ i : grid4.Coords, ∀ a, (k4_off1 i) a + S256x512.size a ≤ S4096x512.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x512.size a ≤ S2x4096x512.size a
  hwx4_0 : ∀ i : grid4.Coords, EltTy.bits .f32 = 32 ∨ (Rect.block (s := S2x4096x512) S1x256x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x4096x256.size a ≤ S2x4096x4096.size a
  hwx4_1 : ∀ i : grid4.Coords, EltTy.bits .bf16 = 32 ∨ (Rect.block (s := S2x4096x4096) S1x4096x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S512x512.size a
  hwx4_2 : ∀ i : grid4.Coords, EltTy.bits .f32 = 32 ∨ (Rect.block (s := S512x512) S512x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x4096x512.size a ≤ S2x4096x512.size a
  hwx4_4 : ∀ i : grid4.Coords, EltTy.bits .f32 = 32 ∨ (Rect.block (s := S2x4096x512) S1x4096x512.size (cc4_transform_4 i) (hinb4_4 i)).WholeWords (EltTy.packing .f32)
  hrank5 : 0 < grid5.rank
  k5_mult1_dvd : ∀ i : grid5.Coords, 256 ∣ (k5_mult1 i).toNat
  k5_off1_inb : ∀ i : grid5.Coords, ∀ a, (k5_off1 i) a + S256x512.size a ≤ S4096x512.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x256x512.size a ≤ S2x4096x512.size a
  hwx5_0 : ∀ i : grid5.Coords, EltTy.bits .f32 = 32 ∨ (Rect.block (s := S2x4096x512) S1x256x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x4096x256.size a ≤ S2x4096x4096.size a
  hwx5_1 : ∀ i : grid5.Coords, EltTy.bits .bf16 = 32 ∨ (Rect.block (s := S2x4096x4096) S1x4096x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S512x512.size a
  hwx5_2 : ∀ i : grid5.Coords, EltTy.bits .f32 = 32 ∨ (Rect.block (s := S512x512) S512x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x4096x512.size a ≤ S2x4096x512.size a
  hwx5_4 : ∀ i : grid5.Coords, EltTy.bits .f32 = 32 ∨ (Rect.block (s := S2x4096x512) S1x4096x512.size (cc5_transform_4 i) (hinb5_4 i)).WholeWords (EltTy.packing .f32)

variable [Facts₀]

def gather_S10000x512_S4096x1_S4096x512_1_0_n_n_0_1_1512 : GatherDims S10000x512 S4096x1 S4096x512 where
  offsetDims := [1]
  collapsedSliceDims := [0]
  operandBatchingDims := []
  startIndicesBatchingDims := []
  startIndexMap := [0]
  indexVectorDim := 1
  sliceSizes := ![1, 512]
  wf := gather_S10000x512_S4096x1_S4096x512_1_0_n_n_0_1_1512_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def scatter_S128x512_S4096x1_S4096x512_1_0_0_1 : ScatterDims S128x512 S4096x1 S4096x512 where
  updateWindowDims := [1]
  insertedWindowDims := [0]
  scatterDimsToOperandDims := [0]
  indexVectorDim := 1
  wf := scatter_S128x512_S4096x1_S4096x512_1_0_0_1_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

abbrev win0_0 : Pipeline.Window sig grid0 :=
  Pipeline.Window.ofSpec (Memref.whole main_v4) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v15) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x4096x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v21) S1x256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x4096x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v27) S1x256x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x4096x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x4096x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v33) S1x256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S1x4096x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S512x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S1x4096x512.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v39) S1x256x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S1x4096x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v41) S512x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S1x4096x512.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S4096 : Shape := ⟨1, ![4096]⟩
abbrev S4096x4096 : Shape := ⟨2, ![4096, 4096]⟩
abbrev S10000x512 : Shape := ⟨2, ![10000, 512]⟩
abbrev S6x512x512 : Shape := ⟨3, ![6, 512, 512]⟩
abbrev S6x512 : Shape := ⟨2, ![6, 512]⟩
abbrev S1024x512 : Shape := ⟨2, ![1024, 512]⟩
abbrev S512 : Shape := ⟨1, ![512]⟩
abbrev S3x512x512 : Shape := ⟨3, ![3, 512, 512]⟩
abbrev S3x512 : Shape := ⟨2, ![3, 512]⟩
abbrev S512x1 : Shape := ⟨2, ![512, 1]⟩
abbrev S1 : Shape := ⟨1, ![1]⟩
abbrev S_ : Shape := ⟨0, ![]⟩
abbrev S4096x1 : Shape := ⟨2, ![4096, 1]⟩
abbrev S4096x512 : Shape := ⟨2, ![4096, 512]⟩
abbrev S1x512x512 : Shape := ⟨3, ![1, 512, 512]⟩
abbrev S512x512 : Shape := ⟨2, ![512, 512]⟩
abbrev S1x512 : Shape := ⟨2, ![1, 512]⟩
abbrev S128x512 : Shape := ⟨2, ![128, 512]⟩
abbrev S128x1024 : Shape := ⟨2, ![128, 1024]⟩
abbrev S128x1 : Shape := ⟨2, ![128, 1]⟩
abbrev S1x1 : Shape := ⟨2, ![1, 1]⟩

abbrev nBuf : Space → Nat
  | .hbm => 361
  | .vmem => 0
  | .smem => 0
  | _ => 0

abbrev hbmTy0_0 (i : Nat) : BufTy := match i % 128 with
  | 0 => ⟨S4096, .i32⟩
  | 1 => ⟨S4096, .i32⟩
  | 2 => ⟨S4096x4096, .f32⟩
  | 3 => ⟨S4096x4096, .f32⟩
  | 4 => ⟨S4096, .i32⟩
  | 5 => ⟨S10000x512, .f32⟩
  | 6 => ⟨S6x512x512, .f32⟩
  | 7 => ⟨S6x512, .f32⟩
  | 8 => ⟨S1024x512, .f32⟩
  | 9 => ⟨S512, .f32⟩
  | 10 => ⟨S3x512x512, .f32⟩
  | 11 => ⟨S3x512, .f32⟩
  | 12 => ⟨S512x1, .f32⟩
  | 13 => ⟨S1, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x512, .f32⟩
  | 23 => ⟨S1x512x512, .f32⟩
  | 24 => ⟨S512x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S4096, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x512, .f32⟩
  | 45 => ⟨S4096x512, .f32⟩
  | 46 => ⟨S1x512x512, .f32⟩
  | 47 => ⟨S512x512, .f32⟩
  | 48 => ⟨S4096x512, .f32⟩
  | 49 => ⟨S1x512, .f32⟩
  | 50 => ⟨S512, .f32⟩
  | 51 => ⟨S1x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S_, .f32⟩
  | 61 => ⟨S4096, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x512, .f32⟩
  | 68 => ⟨S4096x512, .f32⟩
  | 69 => ⟨S1x512x512, .f32⟩
  | 70 => ⟨S512x512, .f32⟩
  | 71 => ⟨S4096x512, .f32⟩
  | 72 => ⟨S1x512, .f32⟩
  | 73 => ⟨S512, .f32⟩
  | 74 => ⟨S1x512, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S_, .f32⟩
  | 84 => ⟨S4096, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x512, .f32⟩
  | 91 => ⟨S4096x512, .f32⟩
  | 92 => ⟨S1x512x512, .f32⟩
  | 93 => ⟨S512x512, .f32⟩
  | 94 => ⟨S4096x512, .f32⟩
  | 95 => ⟨S1x512, .f32⟩
  | 96 => ⟨S512, .f32⟩
  | 97 => ⟨S1x512, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S_, .f32⟩
  | 107 => ⟨S4096, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x512, .f32⟩
  | 114 => ⟨S4096x512, .f32⟩
  | 115 => ⟨S1x512x512, .f32⟩
  | 116 => ⟨S512x512, .f32⟩
  | 117 => ⟨S4096x512, .f32⟩
  | 118 => ⟨S1x512, .f32⟩
  | 119 => ⟨S512, .f32⟩
  | 120 => ⟨S1x512, .f32⟩
  | 121 => ⟨S4096x512, .f32⟩
  | 122 => ⟨S4096x512, .f32⟩
  | 123 => ⟨S_, .f32⟩
  | 124 => ⟨S4096x512, .f32⟩
  | 125 => ⟨S4096x512, .f32⟩
  | 126 => ⟨S4096x512, .f32⟩
  | 127 => ⟨S4096x512, .f32⟩
  | _ => ⟨S4096, .i32⟩

abbrev hbmTy0_1 (i : Nat) : BufTy := match i % 128 with
  | 0 => ⟨S4096x512, .f32⟩
  | 1 => ⟨S_, .f32⟩
  | 2 => ⟨S4096, .f32⟩
  | 3 => ⟨S4096x1, .f32⟩
  | 4 => ⟨S4096x1, .f32⟩
  | 5 => ⟨S_, .f32⟩
  | 6 => ⟨S4096x1, .f32⟩
  | 7 => ⟨S4096x1, .f32⟩
  | 8 => ⟨S4096x512, .f32⟩
  | 9 => ⟨S4096x512, .f32⟩
  | 10 => ⟨S1x512x512, .f32⟩
  | 11 => ⟨S512x512, .f32⟩
  | 12 => ⟨S4096x512, .f32⟩
  | 13 => ⟨S1x512, .f32⟩
  | 14 => ⟨S512, .f32⟩
  | 15 => ⟨S1x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S_, .f32⟩
  | 25 => ⟨S4096, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x512, .f32⟩
  | 32 => ⟨S4096x512, .f32⟩
  | 33 => ⟨S_, .f32⟩
  | 34 => ⟨S128x512, .f32⟩
  | 35 => ⟨S4096x1, .i32⟩
  | 36 => ⟨S128x512, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x512, .f32⟩
  | 46 => ⟨S1x512x512, .f32⟩
  | 47 => ⟨S512x512, .f32⟩
  | 48 => ⟨S4096x512, .f32⟩
  | 49 => ⟨S1x512, .f32⟩
  | 50 => ⟨S512, .f32⟩
  | 51 => ⟨S1x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S_, .f32⟩
  | 61 => ⟨S4096, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x512, .f32⟩
  | 68 => ⟨S4096x512, .f32⟩
  | 69 => ⟨S1x512x512, .f32⟩
  | 70 => ⟨S512x512, .f32⟩
  | 71 => ⟨S4096x512, .f32⟩
  | 72 => ⟨S1x512, .f32⟩
  | 73 => ⟨S512, .f32⟩
  | 74 => ⟨S1x512, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S_, .f32⟩
  | 84 => ⟨S4096, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x512, .f32⟩
  | 91 => ⟨S4096x512, .f32⟩
  | 92 => ⟨S1x512x512, .f32⟩
  | 93 => ⟨S512x512, .f32⟩
  | 94 => ⟨S4096x512, .f32⟩
  | 95 => ⟨S1x512, .f32⟩
  | 96 => ⟨S512, .f32⟩
  | 97 => ⟨S1x512, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S_, .f32⟩
  | 107 => ⟨S4096, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x512, .f32⟩
  | 114 => ⟨S4096x512, .f32⟩
  | 115 => ⟨S1x512x512, .f32⟩
  | 116 => ⟨S512x512, .f32⟩
  | 117 => ⟨S4096x512, .f32⟩
  | 118 => ⟨S1x512, .f32⟩
  | 119 => ⟨S512, .f32⟩
  | 120 => ⟨S1x512, .f32⟩
  | 121 => ⟨S4096x512, .f32⟩
  | 122 => ⟨S4096x512, .f32⟩
  | 123 => ⟨S_, .f32⟩
  | 124 => ⟨S4096x512, .f32⟩
  | 125 => ⟨S4096x512, .f32⟩
  | 126 => ⟨S4096x512, .f32⟩
  | 127 => ⟨S4096x512, .f32⟩
  | _ => ⟨S4096, .i32⟩

abbrev hbmTy0_2 (i : Nat) : BufTy := match i % 128 with
  | 0 => ⟨S4096x512, .f32⟩
  | 1 => ⟨S_, .f32⟩
  | 2 => ⟨S4096, .f32⟩
  | 3 => ⟨S4096x1, .f32⟩
  | 4 => ⟨S4096x1, .f32⟩
  | 5 => ⟨S_, .f32⟩
  | 6 => ⟨S4096x1, .f32⟩
  | 7 => ⟨S4096x1, .f32⟩
  | 8 => ⟨S4096x512, .f32⟩
  | 9 => ⟨S4096x512, .f32⟩
  | 10 => ⟨S1x512x512, .f32⟩
  | 11 => ⟨S512x512, .f32⟩
  | 12 => ⟨S4096x512, .f32⟩
  | 13 => ⟨S1x512, .f32⟩
  | 14 => ⟨S512, .f32⟩
  | 15 => ⟨S1x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S_, .f32⟩
  | 25 => ⟨S4096, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x512, .f32⟩
  | 32 => ⟨S4096x512, .f32⟩
  | 33 => ⟨S1x512x512, .f32⟩
  | 34 => ⟨S512x512, .f32⟩
  | 35 => ⟨S4096x512, .f32⟩
  | 36 => ⟨S1x512, .f32⟩
  | 37 => ⟨S512, .f32⟩
  | 38 => ⟨S1x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S_, .f32⟩
  | 48 => ⟨S4096, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x512, .f32⟩
  | 55 => ⟨S4096x512, .f32⟩
  | 56 => ⟨S_, .f32⟩
  | 57 => ⟨S128x512, .f32⟩
  | 58 => ⟨S4096x1, .i32⟩
  | 59 => ⟨S128x512, .f32⟩
  | 60 => ⟨S128x1024, .f32⟩
  | 61 => ⟨S128x512, .f32⟩
  | 62 => ⟨S1x512, .f32⟩
  | 63 => ⟨S128x512, .f32⟩
  | 64 => ⟨S128x512, .f32⟩
  | 65 => ⟨S_, .f32⟩
  | 66 => ⟨S128x512, .f32⟩
  | 67 => ⟨S128x512, .f32⟩
  | 68 => ⟨S1x512x512, .f32⟩
  | 69 => ⟨S512x512, .f32⟩
  | 70 => ⟨S128x512, .f32⟩
  | 71 => ⟨S1x512, .f32⟩
  | 72 => ⟨S512, .f32⟩
  | 73 => ⟨S1x512, .f32⟩
  | 74 => ⟨S128x512, .f32⟩
  | 75 => ⟨S128x512, .f32⟩
  | 76 => ⟨S_, .f32⟩
  | 77 => ⟨S128x512, .f32⟩
  | 78 => ⟨S128x512, .f32⟩
  | 79 => ⟨S1x512x512, .f32⟩
  | 80 => ⟨S512x512, .f32⟩
  | 81 => ⟨S128x512, .f32⟩
  | 82 => ⟨S1x512, .f32⟩
  | 83 => ⟨S512, .f32⟩
  | 84 => ⟨S1x512, .f32⟩
  | 85 => ⟨S128x512, .f32⟩
  | 86 => ⟨S128x512, .f32⟩
  | 87 => ⟨S_, .f32⟩
  | 88 => ⟨S128x512, .f32⟩
  | 89 => ⟨S128x512, .f32⟩
  | 90 => ⟨S1x512x512, .f32⟩
  | 91 => ⟨S512x512, .f32⟩
  | 92 => ⟨S128x512, .f32⟩
  | 93 => ⟨S1x512, .f32⟩
  | 94 => ⟨S512, .f32⟩
  | 95 => ⟨S1x512, .f32⟩
  | 96 => ⟨S128x512, .f32⟩
  | 97 => ⟨S128x512, .f32⟩
  | 98 => ⟨S_, .f32⟩
  | 99 => ⟨S128x512, .f32⟩
  | 100 => ⟨S128x512, .f32⟩
  | 101 => ⟨S128x1, .f32⟩
  | 102 => ⟨S1x1, .f32⟩
  | 103 => ⟨S128x1, .f32⟩
  | 104 => ⟨S128x1, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_cst : Ref sig .tc := ⟨.hbm, 77, rfl⟩
abbrev main_call2_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_4 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call3_cst : Ref sig .tc := ⟨.hbm, 100, rfl⟩
abbrev main_call3_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_7 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call4_cst : Ref sig .tc := ⟨.hbm, 123, rfl⟩
abbrev main_call4_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_8 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_9 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_call5_cst : Ref sig .tc := ⟨.hbm, 146, rfl⟩
abbrev main_call5_v0 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_10 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_11 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_12 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_13 : Ref sig .tc := ⟨.hbm, 165, rfl⟩
abbrev main_v124 : Ref sig .tc := ⟨.hbm, 166, rfl⟩
abbrev main_v125 : Ref sig .tc := ⟨.hbm, 167, rfl⟩
abbrev main_c_14 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_call6_cst : Ref sig .tc := ⟨.hbm, 182, rfl⟩
abbrev main_call6_v0 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_15 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_16 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_call7_cst : Ref sig .tc := ⟨.hbm, 205, rfl⟩
abbrev main_call7_v0 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_17 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_18 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_call8_cst : Ref sig .tc := ⟨.hbm, 228, rfl⟩
abbrev main_call8_v0 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_19 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_20 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_call9_cst : Ref sig .tc := ⟨.hbm, 251, rfl⟩
abbrev main_call9_v0 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_21 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_22 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_call10_cst : Ref sig .tc := ⟨.hbm, 274, rfl⟩
abbrev main_call10_v0 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_cst_23 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_cst_24 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_call11_cst : Ref sig .tc := ⟨.hbm, 297, rfl⟩
abbrev main_call11_v0 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_cst_25 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_cst_26 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_cst_27 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_call12_cst : Ref sig .tc := ⟨.hbm, 321, rfl⟩
abbrev main_call12_v0 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_call13_cst : Ref sig .tc := ⟨.hbm, 332, rfl⟩
abbrev main_call13_v0 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_call14_cst : Ref sig .tc := ⟨.hbm, 343, rfl⟩
abbrev main_call14_v0 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_call15_cst : Ref sig .tc := ⟨.hbm, 354, rfl⟩
abbrev main_call15_v0 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S6x512x512_S1x512x512_0_0_0 : S6x512x512.Slices ![0, 0, 0] S1x512x512
  shapeCasts_S1x512x512_S512x512 : S1x512x512.ShapeCasts S512x512
  slices_S6x512_S1x512_0_0 : S6x512.Slices ![0, 0] S1x512
  shapeCasts_S1x512_S512 : S1x512.ShapeCasts S512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  reducesTo_S4096x512_S4096_d1 : S4096x512.ReducesTo [1] S4096
  h_S_ : 0 < S_.numel
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  slices_S6x512x512_S1x512x512_1_0_0 : S6x512x512.Slices ![1, 0, 0] S1x512x512
  slices_S6x512_S1x512_1_0 : S6x512.Slices ![1, 0] S1x512
  slices_S6x512x512_S1x512x512_2_0_0 : S6x512x512.Slices ![2, 0, 0] S1x512x512
  slices_S6x512_S1x512_2_0 : S6x512.Slices ![2, 0] S1x512
  slices_S6x512x512_S1x512x512_3_0_0 : S6x512x512.Slices ![3, 0, 0] S1x512x512
  slices_S6x512_S1x512_3_0 : S6x512.Slices ![3, 0] S1x512
  slices_S6x512x512_S1x512x512_4_0_0 : S6x512x512.Slices ![4, 0, 0] S1x512x512
  slices_S6x512_S1x512_4_0 : S6x512.Slices ![4, 0] S1x512
  slices_S6x512x512_S1x512x512_5_0_0 : S6x512x512.Slices ![5, 0, 0] S1x512x512
  slices_S6x512_S1x512_5_0 : S6x512.Slices ![5, 0] S1x512
  bcast_S_S128x512 : S_.BroadcastsInDim S128x512 (![] : Fin 0 → Fin S128x512.rank)
  concatenates_S128x512_S128x512_S128x1024_d1 : Shape.Concatenates [S128x512, S128x512] S128x1024 1
  bcast_S1x512_S128x512_0_1 : S1x512.BroadcastsInDim S128x512 (![0, 1] : Fin 2 → Fin S128x512.rank)
  slices_S3x512x512_S1x512x512_0_0_0 : S3x512x512.Slices ![0, 0, 0] S1x512x512
  slices_S3x512_S1x512_0_0 : S3x512.Slices ![0, 0] S1x512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  gather_S10000x512_S4096x1_S4096x512_1_0_n_n_0_1_1512_wf : GatherDims.WF S10000x512 S4096x1 S4096x512 [1] [0] [] [0] [] 1 ![1, 512]
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  scatter_S128x512_S4096x1_S4096x512_1_0_0_1_wf : ScatterDims.WF S128x512 S4096x1 S4096x512 [1] [0] [0] 1
  dot_S128x1024_S1024x512_S128x512_1_0_0_1_n_n_wf : DotDims.WF S128x1024 S1024x512 S128x512 [1] [0] [0] [1] [] []
  dot_S128x512_S512x512_S128x512_1_0_0_1_n_n_wf : DotDims.WF S128x512 S512x512 S128x512 [1] [0] [0] [1] [] []
  dot_S128x512_S512x1_S128x1_1_0_0_1_n_n_wf : DotDims.WF S128x512 S512x1 S128x1 [1] [0] [0] [1] [] []

variable [Facts₀]

def gather_S10000x512_S4096x1_S4096x512_1_0_n_n_0_1_1512 : GatherDims S10000x512 S4096x1 S4096x512 where
  offsetDims := [1]
  collapsedSliceDims := [0]
  operandBatchingDims := []
  startIndicesBatchingDims := []
  startIndexMap := [0]
  indexVectorDim := 1
  sliceSizes := ![1, 512]
  wf := gather_S10000x512_S4096x1_S4096x512_1_0_n_n_0_1_1512_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def scatter_S128x512_S4096x1_S4096x512_1_0_0_1 : ScatterDims S128x512 S4096x1 S4096x512 where
  updateWindowDims := [1]
  insertedWindowDims := [0]
  scatterDimsToOperandDims := [0]
  indexVectorDim := 1
  wf := scatter_S128x512_S4096x1_S4096x512_1_0_0_1_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

class Facts : Prop extends Facts₀ where

variable [Facts]
-- ==== Proof.KB.Shared0.lean ====
import proofs.«426140_j3899830305296_1_alg».proof.Proof.Gen.Kernel.Launch
import proofs.«426140_j3899830305296_1_alg».proof.Proof.Gen.Kernel.Skeleton
import proofs.«426140_j3899830305296_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem idleAt0_4 : ∀ t : Fin cfg0.N, ¬cond0_1 (grid0.coords t) → cfg0.idle 4 (grid0.coords t) = true := by decide +kernel
theorem liveAt0_4 : ∀ t : Fin cfg0.N, cond0_1 (grid0.coords t) → cfg0.idle 4 (grid0.coords t) = false := by decide +kernel
theorem noFlush0_4 : ∀ t : Fin cfg0.N, ¬cond0_1 (grid0.coords t) → (cfg0.win 4).flush t = false := by decide +kernel

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x512 .f32 := win0_4.stage (cfg0.slots t 4)
abbrev hs0_4 (t : Fin cfg0.N) : (ms0_4 t).IsWhole := hstage0_4 ((cfg0.slots t 4).cast nbuf0_4)

abbrev scM0_0 : Memref sig .tc .vmem S4096x512 .f32 := Memref.whole cc0_scratch0
abbrev scM0_1 : Memref sig .tc .vmem S4096x512 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Gen

end
-- ==== Proof.BlockSum.lean ====
import Mathlib.Algebra.BigOperators.Fin
import Mathlib.Data.Fintype.BigOperators
import Mathlib.Logic.Equiv.Fin.Basic
import Idealize.ShloMosaic.PureOps.Ideal

namespace Cert.BlockSum

theorem sum_blocks (g : Fin 4096 → EReal) :
    (∑ k : Fin 16, ∑ j : Fin 256, g ⟨256 * k.val + j.val, by omega⟩) = ∑ i : Fin 4096, g i := by
  rw [← Equiv.sum_comp (finProdFinEquiv : Fin 16 × Fin 256 ≃ Fin 4096) g, Fintype.sum_prod_type]
  refine Finset.sum_congr rfl fun k _ => Finset.sum_congr rfl fun j _ => ?_
  refine congrArg g (Fin.ext ?_)
  show 256 * k.val + j.val = j.val + 256 * k.val
  omega

theorem fold_blocks (g : Fin 4096 → EReal) (a : ℕ → EReal)
    (h0 : a 0 = 0 + ∑ j : Fin 256, g ⟨j.val, by omega⟩)
    (hs : ∀ k (hk : k < 15), a (k + 1) = a k + ∑ j : Fin 256, g ⟨256 * (k + 1) + j.val, by omega⟩) :
    a 15 = ∑ i : Fin 4096, g i := by

  let blk : ℕ → EReal := fun k => if h : k < 16 then ∑ j : Fin 256, g ⟨256 * k + j.val, by omega⟩ else 0
  have hblk : ∀ k (h : k < 16), blk k = ∑ j : Fin 256, g ⟨256 * k + j.val, by omega⟩ := fun k h => dif_pos h
  have key : ∀ n, n ≤ 15 → a n = ∑ k ∈ Finset.range (n + 1), blk k := by
    intro n
    induction n with
    | zero =>
      intro _
      rw [h0, zero_add, Finset.sum_range_one, hblk 0 (by omega)]
      refine Finset.sum_congr rfl fun j _ => congrArg g (Fin.ext ?_)
      show j.val = 256 * 0 + j.val
      omega
    | succ n ih =>
      intro hn
      rw [hs n (by omega), ih (by omega), Finset.sum_range_succ _ (n + 1), hblk (n + 1) (by omega)]
  have h15 : a 15 = ∑ k ∈ Finset.range 16, blk k := key 15 le_rfl
  rw [h15, ← Fin.sum_univ_eq_sum_range blk 16, ← sum_blocks g]
  exact Finset.sum_congr rfl fun k _ => hblk k.val k.isLt

end Cert.BlockSum
-- ==== Proof.Steps.lean ====
import proofs.«426140_j3899830305296_1_alg».proof.Proof.BlockSum

namespace Cert.Steps

variable {α β : Type} {N : ℕ}

/-- The accumulator after point n of a grid of streams of sixteen steps: restarted from z at a stream's first step. -/
def accAt (step : Fin N → α → α) (z : α) : (n : ℕ) → n < N → α
  | 0, hn => step ⟨0, hn⟩ z
  | n + 1, hn =>
    if (n + 1) % 16 = 0 then step ⟨n + 1, hn⟩ z
    else step ⟨n + 1, hn⟩ (accAt step z n (Nat.lt_of_succ_lt hn))

variable (step : Fin N → α → α) (z : α)

theorem accAt_first (t : Fin N) (h : t.val % 16 = 0) : accAt step z t.val t.isLt = step t z := by
  obtain ⟨n, hn⟩ := t
  cases n with
  | zero => rfl
  | succ n => exact if_pos h

theorem accAt_next (t : Fin N) (h : ¬t.val % 16 = 0) :
    accAt step z t.val t.isLt = step t (accAt step z (t.val - 1) (Nat.lt_of_le_of_lt (Nat.sub_le _ _) t.isLt)) := by
  obtain ⟨n, hn⟩ := t
  cases n with
  | zero => exact absurd (Nat.zero_mod _) h
  | succ n => exact if_neg h

theorem accAt_idx {m m' : ℕ} (h : m = m') (hm : m < N) (hm' : m' < N) : accAt step z m hm = accAt step z m' hm' := by
  subst h; rfl

variable (hN : N = 32)
include hN

theorem stream_lt (n : ℕ) (hn : n < N) : n / 16 < 2 := by omega

theorem step_lt (b : ℕ) (hb : b < 2) (r : Fin 4096) : 16 * b + r.val / 256 < N := by
  have := r.isLt
  omega

variable (blk : Fin N → Fin 256 → Fin 512 → β)

/-- Row r of a stream's 4096 rows is row r mod 256 of the block its step r / 256 computes. -/
def row (b : ℕ) (hb : b < 2) (r : Fin 4096) (q : Fin 512) : β :=
  blk ⟨16 * b + r.val / 256, step_lt hN b hb r⟩ ⟨r.val % 256, Nat.mod_lt _ (by decide)⟩ q

/-- After point n the buffer g is right on the slabs its stream has written so far. -/
def RowsOk (n : ℕ) (hn : n < N) (g : Fin 4096 → Fin 512 → β) : Prop :=
  ∀ (r : Fin 4096) (q : Fin 512), r.val < 256 * (n % 16 + 1) → g r q = row hN blk (n / 16) (stream_lt hN n hn) r q

theorem row_congr (b b' : ℕ) (hb : b < 2) (hb' : b' < 2) (e : b = b') (r : Fin 4096) (q : Fin 512) :
    row hN blk b hb r q = row hN blk b' hb' r q := by
  subst e; rfl

theorem row_slab (t : Fin N) (k : ℕ) (hk : k = t.val % 16) (r : Fin 4096) (q : Fin 512)
    (h1 : 256 * k ≤ r.val) (h2 : r.val < 256 * k + 256) (hlt : r.val - 256 * k < 256) :
    row hN blk (t.val / 16) (stream_lt hN t.val t.isLt) r q = blk t ⟨r.val - 256 * k, hlt⟩ q := by
  have e1 : (⟨16 * (t.val / 16) + r.val / 256, step_lt hN (t.val / 16) (stream_lt hN t.val t.isLt) r⟩ : Fin N) = t :=
    Fin.ext (by show 16 * (t.val / 16) + r.val / 256 = t.val; omega)
  have e2 : (⟨r.val % 256, Nat.mod_lt _ (by decide)⟩ : Fin 256) = ⟨r.val - 256 * k, hlt⟩ :=
    Fin.ext (by show r.val % 256 = r.val - 256 * k; omega)
  unfold row
  rw [e1, e2]

/-- One step: slab k = t mod 16 is overwritten with the step's block, the rest kept. -/
theorem rowsOk_step (t : Fin N) (k : ℕ) (hk : k = t.val % 16) (g g' : Fin 4096 → Fin 512 → β)
    (hprev : ¬t.val % 16 = 0 → RowsOk hN blk (t.val - 1) (Nat.lt_of_le_of_lt (Nat.sub_le _ _) t.isLt) g)
    (hg' : ∀ (r : Fin 4096) (q : Fin 512), g' r q
      = if h : 256 * k ≤ r.val ∧ r.val < 256 * k + 256 then blk t ⟨r.val - 256 * k, by omega⟩ q else g r q) :
    RowsOk hN blk t.val t.isLt g' := by
  intro r q hr
  rw [hg' r q]
  by_cases hin : 256 * k ≤ r.val ∧ r.val < 256 * k + 256
  · rw [dif_pos hin]
    exact (row_slab hN blk t k hk r q hin.1 hin.2 (by omega)).symm
  · rw [dif_neg hin]
    have hne : ¬t.val % 16 = 0 := by omega
    rw [hprev hne r q (by omega)]
    exact row_congr hN blk _ _ _ _ (by omega) r q

/-- After a stream's last step every row is right. -/
theorem rows_of_ok (t : Fin N) (h15 : t.val % 16 = 15) (g : Fin 4096 → Fin 512 → β)
    (hok : RowsOk hN blk t.val t.isLt g) (r : Fin 4096) (q : Fin 512) :
    g r q = row hN blk (t.val / 16) (stream_lt hN t.val t.isLt) r q :=
  hok r q (by have := r.isLt; omega)

/-- With start value 0 at entry i and step k adding slab k's 256 terms there, the last step leaves the sum of all 4096 terms. -/
theorem accAt_last {ι : Type} (stp : Fin N → (ι → EReal) → ι → EReal) (z0 : ι → EReal) (i : ι) (term : Fin 4096 → EReal)
    (b : ℕ) (hb : b < 2) (hz : z0 i = 0)
    (hstep : ∀ (t : Fin N) (k : ℕ) (hk : k < 16), t.val = 16 * b + k → ∀ prev : ι → EReal,
      stp t prev i = prev i + ∑ j : Fin 256, term ⟨256 * k + j.val, by omega⟩) :
    accAt stp z0 (16 * b + 15) (by omega) i = ∑ j : Fin 4096, term j := by
  have pt : ∀ n, n < 16 → 16 * b + n < N := fun n hn => by omega
  let a : ℕ → EReal := fun n => if h : n < 16 then accAt stp z0 (16 * b + n) (pt n h) i else 0
  have ha : ∀ n (h : n < 16), a n = accAt stp z0 (16 * b + n) (pt n h) i := fun n h => dif_pos h
  have h0 : a 0 = 0 + ∑ j : Fin 256, term ⟨j.val, by omega⟩ := by
    rw [ha 0 (by decide)]
    refine (congrFun (accAt_first stp z0 ⟨16 * b + 0, pt 0 (by decide)⟩ (by show (16 * b + 0) % 16 = 0; omega)) i).trans ?_
    refine (hstep ⟨16 * b + 0, pt 0 (by decide)⟩ 0 (by decide) rfl z0).trans ?_
    refine congrArg₂ (· + ·) hz (Finset.sum_congr rfl fun j _ => ?_)
    exact congrArg term (Fin.ext (by show 256 * 0 + j.val = j.val; omega))
  have hs : ∀ n (hn : n < 15), a (n + 1) = a n + ∑ j : Fin 256, term ⟨256 * (n + 1) + j.val, by omega⟩ := by
    intro n hn
    rw [ha (n + 1) (by omega), ha n (by omega)]
    refine (congrFun (accAt_next stp z0 ⟨16 * b + (n + 1), pt (n + 1) (by omega)⟩
      (by show ¬(16 * b + (n + 1)) % 16 = 0; omega)) i).trans ?_
    refine (hstep ⟨16 * b + (n + 1), pt (n + 1) (by omega)⟩ (n + 1) (by omega) rfl _).trans ?_
    exact congrArg (fun s => s + _)
      (congrFun (accAt_idx stp z0 (by show 16 * b + (n + 1) - 1 = 16 * b + n; omega) _ _) i)
  have key := Cert.BlockSum.fold_blocks term a h0 hs
  rw [ha 15 (by decide)] at key
  exact key

end Cert.Steps
-- ==== Proof.KB.Data0.lean ====
import proofs.«426140_j3899830305296_1_alg».proof.Proof.KB.Shared0
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S1x256x512 .f32 := iblk0 V c 0 t
abbrev ablk0 (c : Dev nD) (t : Fin cfg0.N) : Vec F S1x4096x256 .bf16 := iblk0 V c 1 t
abbrev wblk0 (c : Dev nD) (t : Fin cfg0.N) : Vec F S512x512 .f32 := iblk0 V c 2 t
abbrev bblk0 (c : Dev nD) (t : Fin cfg0.N) : Vec F S1x512 .f32 := iblk0 V c 3 t

theorem hN0 : cfg0.N = 32 := N_0

/-- One reduction step on the accumulator: prev + A[:, slab k] · relu(x[slab k]·W + b). -/
abbrev step0 (c : Dev nD) (t : Fin cfg0.N) (prev : Vec F S4096x512 .f32) : Vec F S4096x512 .f32 :=
  k0_pay5 (xblk0 V c t) (wblk0 V c t) (bblk0 V c t) prev (ablk0 V c t)

abbrev accAt0 (c : Dev nD) : (n : ℕ) → n < cfg0.N → Vec F S4096x512 .f32 :=
  Steps.accAt (step0 V c) (k0_pay2 (F := F))

theorem accAt0_first (c : Dev nD) (t : Fin cfg0.N) (h : t.val % 16 = 0) :
    accAt0 V c t.val t.isLt = step0 V c t (k0_pay2 (F := F)) := Steps.accAt_first _ _ t h

theorem accAt0_next (c : Dev nD) (t : Fin cfg0.N) (h : ¬t.val % 16 = 0) :
    accAt0 V c t.val t.isLt = step0 V c t (accAt0 V c (t.val - 1) (Nat.lt_of_le_of_lt (Nat.sub_le _ _) t.isLt)) :=
  Steps.accAt_next _ _ t h

abbrev hblk0 (c : Dev nD) (t : Fin cfg0.N) (p : Fin 256) (q : Fin 512) :=
  (k0_pay4 (xblk0 V c t) (wblk0 V c t) (bblk0 V c t) : Vec F S256x512 .f32) (ix2 p q)

/-- A stream's hidden state relu(x·W + b), all 4096 rows, assembled from the blocks its sixteen steps compute. -/
def hfull0 (c : Dev nD) (b : ℕ) (hb : b < 2) : Vec F S4096x512 .f32 :=
  fun idx => Steps.row hN0 (hblk0 V c) b hb ⟨(idx 0).val, (idx 0).isLt⟩ ⟨(idx 1).val, (idx 1).isLt⟩

/-- The output block: hidden state plus accumulator, each row divided by the larger of its norm and the floor. -/
def outAt0 (c : Dev nD) (t : Fin cfg0.N) : Vec F S1x4096x512 .f32 :=
  k0_pay1 (hfull0 V c (t.val / 16) (Steps.stream_lt hN0 t.val t.isLt)) (accAt0 V c t.val t.isLt)

def HfOk0 (c : Dev nD) (n : ℕ) (hn : n < cfg0.N) (g : Vec F S4096x512 .f32) : Prop :=
  Steps.RowsOk hN0 (hblk0 V c) n hn fun r q => g (ix2 r q)

/-- Between grid points: the accumulator holds the partial sum, and the hidden rows written so far are right. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn)
        ∗ (∃ g, owns (c : Thread nD τ) scM0_1 fullShare g ∗ ⌜HfOk0 V c n hn g⌝))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn)
        ∗ (∃ g, owns (c : Thread nD τ) scM0_1 fullShare g ∗ ⌜HfOk0 V c n hn g⌝))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega))
        ∗ (∃ g, owns (c : Thread nD τ) scM0_1 fullShare g ∗ ⌜HfOk0 V c (n - 1) (by omega) g⌝))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

end Cert.Kernel.Gen

end
-- ==== Proof.KB.RunA.lean ====
import proofs.«426140_j3899830305296_1_alg».proof.Proof.KB.Shared0
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at a stream's first step, from whole buffers at named contents, with what its stores leave. -/
noncomputable def kernelRun_A (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : cond0_0 i) (hc1 : ¬cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) :
    Σ' (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.Kernel.Gen

end
-- ==== Proof.KB.RunB.lean ====
import proofs.«426140_j3899830305296_1_alg».proof.Proof.KB.Shared0
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at a middle step, from whole buffers at named contents, with what its stores leave. -/
noncomputable def kernelRun_B (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : ¬cond0_0 i) (hc1 : ¬cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) :
    Σ' (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.Kernel.Gen

end
-- ==== Proof.KB.RunC.lean ====
import proofs.«426140_j3899830305296_1_alg».proof.Proof.KB.Shared0
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at a stream's last step, from whole buffers at named contents, with what its stores leave. -/
noncomputable def kernelRun_C (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : ¬cond0_0 i) (hc1 : cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) :
    Σ' (L6 : List (View.Piece (Elt F) S1x4096x512 .f32)), Σ' (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [HS0]; · iexists _; iexact HS0
    iexact HS1

end Cert.Kernel.Gen

end
-- ==== Proof.KB.Left.lean ====
import proofs.«426140_j3899830305296_1_alg».proof.Proof.KB.RunA
import proofs.«426140_j3899830305296_1_alg».proof.Proof.KB.RunB
import proofs.«426140_j3899830305296_1_alg».proof.Proof.KB.RunC
import Idealize.ShloMosaic.Lib.Pipeline.Value
import Idealize.ShloMosaic.Lib.WritesUnit
import Idealize.ShloMosaic.Lib.ValueIdx

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem offs2_zero : (![0, 0] : Fin 2 → ℕ) = fun _ => 0 := funext fun a => by fin_cases a <;> rfl

theorem offs3_zero : (![0, 0, 0] : Fin 3 → ℕ) = fun _ => 0 := funext fun a => by fin_cases a <;> rfl

/-- After a step, rows [256·k, 256·k + 256) read the step's block and every other row reads what it held before. -/
theorem hfLeft_C (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : ¬cond0_0 i) (hc1 : cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) (r : Fin 4096) (q : Fin 512) :
    arg8.view.read (Elt F) (arg8.view.writes (Elt F) (harg8.unread xs1) (kernelRun_C c i arg2 harg2 arg3 harg3 arg4 harg4 arg5 harg5 arg6 harg6 arg7 harg7 arg8 harg8 hc0 hc1 x0 x1 x2 x3 xs0 xs1).2.2.1) (ix2 r q)
      = if h : 256 * (i 1).val ≤ r.val ∧ r.val < 256 * (i 1).val + 256 then
          k0_pay4 x0 x2 x3 (ix2 ⟨r.val - 256 * (i 1).val, by omega⟩ q)
        else xs1 (ix2 r q) := by
  unfold kernelRun_C
  dsimp only
  try sl_unfold_run_names
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]
  by_cases h : 256 * (i 1).val ≤ r.val ∧ r.val < 256 * (i 1).val + 256
  · rw [dif_pos h]
    exact View.read_writes_cons_rows_of_mem arg8.view _ (k0_off1_inb i) _ [] (ix2 r q)
      (ix2 ⟨r.val - 256 * (i 1).val, by omega⟩ q) (k0_off1_eq i)
      (by show r.val = 256 * (i 1).val + (r.val - 256 * (i 1).val); omega) rfl
  · rw [dif_neg h]
    refine (View.read_writes_cons_rows_of_not_mem (W := 256) arg8.view _ (k0_off1_inb i) _ [] (ix2 r q)
      (k0_off1_eq i) rfl (by show r.val < 256 * (i 1).val ∨ 256 * (i 1).val + 256 ≤ r.val; omega)).trans ?_
    rw [View.writes_nil, harg8.read_unread]

variable {c : Dev nD} {i : grid0.Coords} {arg2 : Memref sig .tc .vmem S1x256x512 .f32} {harg2 : arg2.IsWhole}
  {arg3 : Memref sig .tc .vmem S1x4096x256 .bf16} {harg3 : arg3.IsWhole} {arg4 : Memref sig .tc .vmem S512x512 .f32} {harg4 : arg4.IsWhole}
  {arg5 : Memref sig .tc .vmem S1x512 .f32} {harg5 : arg5.IsWhole} {arg6 : Memref sig .tc .vmem S1x4096x512 .f32} {harg6 : arg6.IsWhole}
  {arg7 : Memref sig .tc .vmem S4096x512 .f32} {harg7 : arg7.IsWhole} {arg8 : Memref sig .tc .vmem S4096x512 .f32} {harg8 : arg8.IsWhole}
  {x0 : Vec F S1x256x512 .f32} {x1 : Vec F S1x4096x256 .bf16} {x2 : Vec F S512x512 .f32} {x3 : Vec F S1x512 .f32}
  {xs0 : Vec F S4096x512 .f32} {xs1 : Vec F S4096x512 .f32}

/-- The accumulator is stored whole, so it reads back as the last value stored. -/
theorem accLeft_A {hc0 : cond0_0 i} {hc1 : ¬cond0_1 i} :
    ∀ f, arg7.view.read (Elt F) (arg7.view.writes (Elt F) f (kernelRun_A c i arg2 harg2 arg3 harg3 arg4 harg4 arg5 harg5 arg6 harg6 arg7 harg7 arg8 harg8 hc0 hc1 x0 x1 x2 x3 xs0 xs1).1) = k0_pay5 x0 x2 x3 (k0_pay2 (F := F)) x1 := by
  intro f
  rw [View.read_writes_eq_canon _ _ _ (View.cover_of_tiledL (kernelRun_A c i arg2 harg2 arg3 harg3 arg4 harg4 arg5 harg5 arg6 harg6 arg7 harg7 arg8 harg8 hc0 hc1 x0 x1 x2 x3 xs0 xs1).1 S4096x512.size (by sl_kernel_rfl))]
  unfold kernelRun_A
  dsimp only
  sl_unfold_words
  rw [View.canon_cons_unit_zero (S := S4096x512) offs2_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero, View.readCov_unit_zero (S := S4096x512) _ offs2_zero]

theorem accLeft_B {hc0 : ¬cond0_0 i} {hc1 : ¬cond0_1 i} :
    ∀ f, arg7.view.read (Elt F) (arg7.view.writes (Elt F) f (kernelRun_B c i arg2 harg2 arg3 harg3 arg4 harg4 arg5 harg5 arg6 harg6 arg7 harg7 arg8 harg8 hc0 hc1 x0 x1 x2 x3 xs0 xs1).1) = k0_pay5 x0 x2 x3 xs0 x1 := by
  intro f
  rw [View.read_writes_eq_canon _ _ _ (View.cover_of_tiledL (kernelRun_B c i arg2 harg2 arg3 harg3 arg4 harg4 arg5 harg5 arg6 harg6 arg7 harg7 arg8 harg8 hc0 hc1 x0 x1 x2 x3 xs0 xs1).1 S4096x512.size (by sl_kernel_rfl))]
  unfold kernelRun_B
  dsimp only
  sl_unfold_words
  rw [View.canon_unit_zero offs2_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]

theorem accLeft_C {hc0 : ¬cond0_0 i} {hc1 : cond0_1 i} :
    ∀ f, arg7.view.read (Elt F) (arg7.view.writes (Elt F) f (kernelRun_C c i arg2 harg2 arg3 harg3 arg4 harg4 arg5 harg5 arg6 harg6 arg7 harg7 arg8 harg8 hc0 hc1 x0 x1 x2 x3 xs0 xs1).2.1) = k0_pay5 x0 x2 x3 xs0 x1 := by
  intro f
  rw [View.read_writes_eq_canon _ _ _ (View.cover_of_tiledL (kernelRun_C c i arg2 harg2 arg3 harg3 arg4 harg4 arg5 harg5 arg6 harg6 arg7 harg7 arg8 harg8 hc0 hc1 x0 x1 x2 x3 xs0 xs1).2.1 S4096x512.size (by sl_kernel_rfl))]
  unfold kernelRun_C
  dsimp only
  sl_unfold_words
  rw [View.canon_unit_zero offs2_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]

theorem hfLeft_A {hc0 : cond0_0 i} {hc1 : ¬cond0_1 i} (r : Fin 4096) (q : Fin 512) :
    arg8.view.read (Elt F) (arg8.view.writes (Elt F) (harg8.unread xs1) (kernelRun_A c i arg2 harg2 arg3 harg3 arg4 harg4 arg5 harg5 arg6 harg6 arg7 harg7 arg8 harg8 hc0 hc1 x0 x1 x2 x3 xs0 xs1).2.1) (ix2 r q)
      = if h : 256 * (i 1).val ≤ r.val ∧ r.val < 256 * (i 1).val + 256 then
          k0_pay4 x0 x2 x3 (ix2 ⟨r.val - 256 * (i 1).val, by omega⟩ q)
        else xs1 (ix2 r q) := by
  unfold kernelRun_A
  dsimp only
  try sl_unfold_run_names
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]
  by_cases h : 256 * (i 1).val ≤ r.val ∧ r.val < 256 * (i 1).val + 256
  · rw [dif_pos h]
    exact View.read_writes_cons_rows_of_mem arg8.view _ (k0_off1_inb i) _ [] (ix2 r q)
      (ix2 ⟨r.val - 256 * (i 1).val, by omega⟩ q) (k0_off1_eq i)
      (by show r.val = 256 * (i 1).val + (r.val - 256 * (i 1).val); omega) rfl
  · rw [dif_neg h]
    refine (View.read_writes_cons_rows_of_not_mem (W := 256) arg8.view _ (k0_off1_inb i) _ [] (ix2 r q)
      (k0_off1_eq i) rfl (by show r.val < 256 * (i 1).val ∨ 256 * (i 1).val + 256 ≤ r.val; omega)).trans ?_
    rw [View.writes_nil, harg8.read_unread]

theorem hfLeft_B {hc0 : ¬cond0_0 i} {hc1 : ¬cond0_1 i} (r : Fin 4096) (q : Fin 512) :
    arg8.view.read (Elt F) (arg8.view.writes (Elt F) (harg8.unread xs1) (kernelRun_B c i arg2 harg2 arg3 harg3 arg4 harg4 arg5 harg5 arg6 harg6 arg7 harg7 arg8 harg8 hc0 hc1 x0 x1 x2 x3 xs0 xs1).2.1) (ix2 r q)
      = if h : 256 * (i 1).val ≤ r.val ∧ r.val < 256 * (i 1).val + 256 then
          k0_pay4 x0 x2 x3 (ix2 ⟨r.val - 256 * (i 1).val, by omega⟩ q)
        else xs1 (ix2 r q) := by
  unfold kernelRun_B
  dsimp only
  try sl_unfold_run_names
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]
  by_cases h : 256 * (i 1).val ≤ r.val ∧ r.val < 256 * (i 1).val + 256
  · rw [dif_pos h]
    exact View.read_writes_cons_rows_of_mem arg8.view _ (k0_off1_inb i) _ [] (ix2 r q)
      (ix2 ⟨r.val - 256 * (i 1).val, by omega⟩ q) (k0_off1_eq i)
      (by show r.val = 256 * (i 1).val + (r.val - 256 * (i 1).val); omega) rfl
  · rw [dif_neg h]
    refine (View.read_writes_cons_rows_of_not_mem (W := 256) arg8.view _ (k0_off1_inb i) _ [] (ix2 r q)
      (k0_off1_eq i) rfl (by show r.val < 256 * (i 1).val ∨ 256 * (i 1).val + 256 ≤ r.val; omega)).trans ?_
    rw [View.writes_nil, harg8.read_unread]

theorem outLeft_C {hc0 : ¬cond0_0 i} {hc1 : cond0_1 i} :
    ∀ f, arg6.view.read (Elt F) (arg6.view.writes (Elt F) f (kernelRun_C c i arg2 harg2 arg3 harg3 arg4 harg4 arg5 harg5 arg6 harg6 arg7 harg7 arg8 harg8 hc0 hc1 x0 x1 x2 x3 xs0 xs1).1)
      = k0_pay1 (arg8.view.read (Elt F) (arg8.view.writes (Elt F) (harg8.unread xs1) (kernelRun_C c i arg2 harg2 arg3 harg3 arg4 harg4 arg5 harg5 arg6 harg6 arg7 harg7 arg8 harg8 hc0 hc1 x0 x1 x2 x3 xs0 xs1).2.2.1)) (k0_pay5 x0 x2 x3 xs0 x1) := by
  intro f
  rw [View.read_writes_eq_canon _ _ _ (View.cover_of_tiledL (kernelRun_C c i arg2 harg2 arg3 harg3 arg4 harg4 arg5 harg5 arg6 harg6 arg7 harg7 arg8 harg8 hc0 hc1 x0 x1 x2 x3 xs0 xs1).1 S1x4096x512.size (by sl_kernel_rfl))]
  unfold kernelRun_C
  dsimp only
  sl_unfold_words
  rw [View.canon_unit_zero (S := S1x4096x512) offs3_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero, View.readCov_unit_zero (S := S4096x512) _ offs2_zero]

end Cert.Kernel.Gen

end
-- ==== Proof.KB.Body0.lean ====
import proofs.«426140_j3899830305296_1_alg».proof.Proof.KB.Data0
import proofs.«426140_j3899830305296_1_alg».proof.Proof.KB.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem stepVal0 : ∀ t : Fin cfg0.N, ((grid0.coords t) 1).val = t.val % 16 :=
  (by decide +kernel : ∀ t : Fin grid0.N, ((grid0.coords t) 1).val = t.val % 16)

theorem hfull0_of_ok (c : Dev nD) (t : Fin cfg0.N) (h15 : t.val % 16 = 15) (g : Vec F S4096x512 .f32)
    (hok : HfOk0 V c t.val t.isLt g) : g = hfull0 V c (t.val / 16) (Steps.stream_lt hN0 t.val t.isLt) :=
  funext fun idx => (congrArg g (eq_ix2 idx)).trans
    (Steps.rows_of_ok hN0 (hblk0 V c) t h15 _ hok ⟨(idx 0).val, (idx 0).isLt⟩ ⟨(idx 1).val, (idx 1).isLt⟩)

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout0 (c : Dev nD) : (dat0 V c).Φ (Fin.last cfg0.N) ⊢ Pipeline.ΦA spec0 c :=
  Phi_out0 V c _ (by rw [Fin.val_last]; have : cfg0.N = 32 := N_0; omega)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop(PhiS0 V c (t.val + 1) t.isLt ∗ (dat0 V c).owesAt () t.castSucc
    ∗ owns (c : Thread nD τ) (ms0_0 t) fullShare (xblk0 V c t)
    ∗ owns (c : Thread nD τ) (ms0_1 t) fullShare (ablk0 V c t)
    ∗ owns (c : Thread nD τ) (ms0_2 t) fullShare (wblk0 V c t)
    ∗ owns (c : Thread nD τ) (ms0_3 t) fullShare (bblk0 V c t)
    ∗ (dat0 V c).leavesExact 4 t)

theorem Phi_fgt0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
    try exact Idealize.SL.BI.Entails.refl _
  · exact Phi_out0 V c t ht

/-- First step of a stream: the accumulator restarts from zero, so what it held before is not consulted. -/
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  have h15 : ¬t.val % 16 = 15 := by omega
  have hc0 : cond0_0 (grid0.coords t) := (hcond0_0 t).mpr h0
  have hc1 : ¬cond0_1 (grid0.coords t) := fun h => h15 ((hcond0_1 t).mp h)
  unfold bodyPre0 bodyPost0 bodyAt0
  simp only [before0_0, before0_1, before0_2, before0_3]
  rw [PhiS0_succ]
  rw [Dat.leavesExact_idle (dat0 V c) 4 t (idleAt0_4 t hc1) (noFlush0_4 t hc1)]
  refine (sep_mono_left (Phi_fgt0 V c t.castSucc)).trans ?_
  rw [PhiA0_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt0_first V c t h0).symm)
        · iexists _; isplitl [HS1]
          · unfold owns; iexists _; isplitr
            swap; · iexact HS1
            ipureintro; rfl
          · ipureintro; exact Steps.rowsOk_step hN0 (hblk0 V c) t _ (stepVal0 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body0_B (c : Dev nD) (t : Fin cfg0.N) (h0 : ¬t.val % 16 = 0) (h15 : ¬t.val % 16 = 15) :
    bodyPre0 V c t ⊢ wp frame (wpE (defs₀ (F := F)) Variants.none c none) Set.univ (bodyAt0 t) (fun _ => bodyPost0 V c t) := by
  have hz : t.val ≠ 0 := fun e => h0 (by rw [e])
  have hc0 : ¬cond0_0 (grid0.coords t) := fun h => h0 ((hcond0_0 t).mp h)
  have hc1 : ¬cond0_1 (grid0.coords t) := fun h => h15 ((hcond0_1 t).mp h)
  unfold bodyPre0 bodyPost0 bodyAt0
  simp only [before0_0, before0_1, before0_2, before0_3]
  rw [PhiS0_succ]
  rw [Dat.leavesExact_idle (dat0 V c) 4 t (idleAt0_4 t hc1) (noFlush0_4 t hc1)]
  rw [PhiS0_castSucc V c t, PhiS0_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) (accAt0 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt0_next V c t h0).symm)
        · iexists _; isplitl [HS1]
          · unfold owns; iexists _; isplitr
            swap; · iexact HS1
            ipureintro; rfl
          · ipureintro; exact Steps.rowsOk_step hN0 (hblk0 V c) t _ (stepVal0 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body0_C (c : Dev nD) (t : Fin cfg0.N) (h15 : t.val % 16 = 15) :
    bodyPre0 V c t ⊢ wp frame (wpE (defs₀ (F := F)) Variants.none c none) Set.univ (bodyAt0 t) (fun _ => bodyPost0 V c t) := by
  have h0 : ¬t.val % 16 = 0 := by omega
  have hz : t.val ≠ 0 := fun e => h0 (by rw [e])
  have hc0 : ¬cond0_0 (grid0.coords t) := fun h => h0 ((hcond0_0 t).mp h)
  have hc1 : cond0_1 (grid0.coords t) := (hcond0_1 t).mpr h15
  unfold bodyPre0 bodyPost0 bodyAt0
  simp only [before0_0, before0_1, before0_2, before0_3]
  rw [PhiS0_succ]
  rw [show (dat0 V c).leavesExact 4 t = owns (c : Thread nD τ) (ms0_4 t) fullShare ((dat0 V c).after 4 t) from by
      unfold Dat.leavesExact; rw [liveAt0_4 t hc1], after0_4]
  rw [PhiS0_castSucc V c t, PhiS0_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN0 (hblk0 V c) t _ (stepVal0 t) (fun r q => g (ix2 r q)) _ (fun _ => hg) (fun r q => hfLeft_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) (accAt0 V c (t.val - 1) (Nat.lt_of_le_of_lt (Nat.sub_le _ _) t.isLt)) g r q)
  iapply ((kernelRun_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) (accAt0 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt0_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt0
  rw [← hfull0_of_ok V c t h15 _ hok, accAt0_next V c t h0]

theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h15 : t.val % 16 = 15
    · exact sound_body0_C V c t h15
    · exact sound_body0_B V c t h0 h15

theorem body_obligation0 (c : Dev nD) : BodyObligation (dat0 (F := F) V c) (defs₀ (F := F)) Variants.none () Set.univ :=
  fun t => by rw [bigSep_W0, bigSep_W0]; exact sound_body0 V c t

end Cert.Kernel.Gen

end
-- ==== Proof.KB.Shared1.lean ====
import proofs.«426140_j3899830305296_1_alg».proof.Proof.Gen.Kernel.Launch
import proofs.«426140_j3899830305296_1_alg».proof.Proof.Gen.Kernel.Skeleton
import proofs.«426140_j3899830305296_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem idleAt1_4 : ∀ t : Fin cfg1.N, ¬cond1_1 (grid1.coords t) → cfg1.idle 4 (grid1.coords t) = true := by decide +kernel
theorem liveAt1_4 : ∀ t : Fin cfg1.N, cond1_1 (grid1.coords t) → cfg1.idle 4 (grid1.coords t) = false := by decide +kernel
theorem noFlush1_4 : ∀ t : Fin cfg1.N, ¬cond1_1 (grid1.coords t) → (cfg1.win 4).flush t = false := by decide +kernel

abbrev ms1_0 (t : Fin cfg1.N) : Memref sig .tc .vmem S1x256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096x512 .f32 := win1_4.stage (cfg1.slots t 4)
abbrev hs1_4 (t : Fin cfg1.N) : (ms1_4 t).IsWhole := hstage1_4 ((cfg1.slots t 4).cast nbuf1_4)

abbrev scM1_0 : Memref sig .tc .vmem S4096x512 .f32 := Memref.whole cc1_scratch0
abbrev scM1_1 : Memref sig .tc .vmem S4096x512 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Gen

end
-- ==== Proof.KB.Data1.lean ====
import proofs.«426140_j3899830305296_1_alg».proof.Proof.KB.Shared1
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S1x256x512 .f32 := iblk1 V c 0 t
abbrev ablk1 (c : Dev nD) (t : Fin cfg1.N) : Vec F S1x4096x256 .bf16 := iblk1 V c 1 t
abbrev wblk1 (c : Dev nD) (t : Fin cfg1.N) : Vec F S512x512 .f32 := iblk1 V c 2 t
abbrev bblk1 (c : Dev nD) (t : Fin cfg1.N) : Vec F S1x512 .f32 := iblk1 V c 3 t

theorem hN1 : cfg1.N = 32 := N_1

/-- One reduction step on the accumulator: prev + A[:, slab k] · relu(x[slab k]·W + b). -/
abbrev step1 (c : Dev nD) (t : Fin cfg1.N) (prev : Vec F S4096x512 .f32) : Vec F S4096x512 .f32 :=
  k0_pay5 (xblk1 V c t) (wblk1 V c t) (bblk1 V c t) prev (ablk1 V c t)

abbrev accAt1 (c : Dev nD) : (n : ℕ) → n < cfg1.N → Vec F S4096x512 .f32 :=
  Steps.accAt (step1 V c) (k0_pay2 (F := F))

theorem accAt1_first (c : Dev nD) (t : Fin cfg1.N) (h : t.val % 16 = 0) :
    accAt1 V c t.val t.isLt = step1 V c t (k0_pay2 (F := F)) := Steps.accAt_first _ _ t h

theorem accAt1_next (c : Dev nD) (t : Fin cfg1.N) (h : ¬t.val % 16 = 0) :
    accAt1 V c t.val t.isLt = step1 V c t (accAt1 V c (t.val - 1) (Nat.lt_of_le_of_lt (Nat.sub_le _ _) t.isLt)) :=
  Steps.accAt_next _ _ t h

abbrev hblk1 (c : Dev nD) (t : Fin cfg1.N) (p : Fin 256) (q : Fin 512) :=
  (k0_pay4 (xblk1 V c t) (wblk1 V c t) (bblk1 V c t) : Vec F S256x512 .f32) (ix2 p q)

/-- A stream's hidden state relu(x·W + b), all 4096 rows, assembled from the blocks its sixteen steps compute. -/
def hfull1 (c : Dev nD) (b : ℕ) (hb : b < 2) : Vec F S4096x512 .f32 :=
  fun idx => Steps.row hN1 (hblk1 V c) b hb ⟨(idx 0).val, (idx 0).isLt⟩ ⟨(idx 1).val, (idx 1).isLt⟩

/-- The output block: hidden state plus accumulator, each row divided by the larger of its norm and the floor. -/
def outAt1 (c : Dev nD) (t : Fin cfg1.N) : Vec F S1x4096x512 .f32 :=
  k0_pay1 (hfull1 V c (t.val / 16) (Steps.stream_lt hN1 t.val t.isLt)) (accAt1 V c t.val t.isLt)

def HfOk1 (c : Dev nD) (n : ℕ) (hn : n < cfg1.N) (g : Vec F S4096x512 .f32) : Prop :=
  Steps.RowsOk hN1 (hblk1 V c) n hn fun r q => g (ix2 r q)

/-- Between grid points: the accumulator holds the partial sum, and the hidden rows written so far are right. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn)
        ∗ (∃ g, owns (c : Thread nD τ) scM1_1 fullShare g ∗ ⌜HfOk1 V c n hn g⌝))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn)
        ∗ (∃ g, owns (c : Thread nD τ) scM1_1 fullShare g ∗ ⌜HfOk1 V c n hn g⌝))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega))
        ∗ (∃ g, owns (c : Thread nD τ) scM1_1 fullShare g ∗ ⌜HfOk1 V c (n - 1) (by omega) g⌝))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

end Cert.Kernel.Gen

end
-- ==== Proof.KB.Body1.lean ====
import proofs.«426140_j3899830305296_1_alg».proof.Proof.KB.Data1
import proofs.«426140_j3899830305296_1_alg».proof.Proof.KB.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem stepVal1 : ∀ t : Fin cfg1.N, ((grid1.coords t) 1).val = t.val % 16 :=
  (by decide +kernel : ∀ t : Fin grid1.N, ((grid1.coords t) 1).val = t.val % 16)

theorem hfull1_of_ok (c : Dev nD) (t : Fin cfg1.N) (h15 : t.val % 16 = 15) (g : Vec F S4096x512 .f32)
    (hok : HfOk1 V c t.val t.isLt g) : g = hfull1 V c (t.val / 16) (Steps.stream_lt hN1 t.val t.isLt) :=
  funext fun idx => (congrArg g (eq_ix2 idx)).trans
    (Steps.rows_of_ok hN1 (hblk1 V c) t h15 _ hok ⟨(idx 0).val, (idx 0).isLt⟩ ⟨(idx 1).val, (idx 1).isLt⟩)

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout1 (c : Dev nD) : (dat1 V c).Φ (Fin.last cfg1.N) ⊢ Pipeline.ΦA spec1 c :=
  Phi_out1 V c _ (by rw [Fin.val_last]; have : cfg1.N = 32 := N_1; omega)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop(PhiS1 V c (t.val + 1) t.isLt ∗ (dat1 V c).owesAt () t.castSucc
    ∗ owns (c : Thread nD τ) (ms1_0 t) fullShare (xblk1 V c t)
    ∗ owns (c : Thread nD τ) (ms1_1 t) fullShare (ablk1 V c t)
    ∗ owns (c : Thread nD τ) (ms1_2 t) fullShare (wblk1 V c t)
    ∗ owns (c : Thread nD τ) (ms1_3 t) fullShare (bblk1 V c t)
    ∗ (dat1 V c).leavesExact 4 t)

theorem Phi_fgt1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
    try exact Idealize.SL.BI.Entails.refl _
  · exact Phi_out1 V c t ht

/-- First step of a stream: the accumulator restarts from zero, so what it held before is not consulted. -/
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  have h15 : ¬t.val % 16 = 15 := by omega
  have hc0 : cond1_0 (grid1.coords t) := (hcond1_0 t).mpr h0
  have hc1 : ¬cond1_1 (grid1.coords t) := fun h => h15 ((hcond1_1 t).mp h)
  unfold bodyPre1 bodyPost1 bodyAt1
  simp only [before1_0, before1_1, before1_2, before1_3]
  rw [PhiS1_succ]
  rw [Dat.leavesExact_idle (dat1 V c) 4 t (idleAt1_4 t hc1) (noFlush1_4 t hc1)]
  refine (sep_mono_left (Phi_fgt1 V c t.castSucc)).trans ?_
  rw [PhiA1_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt1_first V c t h0).symm)
        · iexists _; isplitl [HS1]
          · unfold owns; iexists _; isplitr
            swap; · iexact HS1
            ipureintro; rfl
          · ipureintro; exact Steps.rowsOk_step hN1 (hblk1 V c) t _ (stepVal1 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body1_B (c : Dev nD) (t : Fin cfg1.N) (h0 : ¬t.val % 16 = 0) (h15 : ¬t.val % 16 = 15) :
    bodyPre1 V c t ⊢ wp frame (wpE (defs₀ (F := F)) Variants.none c none) Set.univ (bodyAt1 t) (fun _ => bodyPost1 V c t) := by
  have hz : t.val ≠ 0 := fun e => h0 (by rw [e])
  have hc0 : ¬cond1_0 (grid1.coords t) := fun h => h0 ((hcond1_0 t).mp h)
  have hc1 : ¬cond1_1 (grid1.coords t) := fun h => h15 ((hcond1_1 t).mp h)
  unfold bodyPre1 bodyPost1 bodyAt1
  simp only [before1_0, before1_1, before1_2, before1_3]
  rw [PhiS1_succ]
  rw [Dat.leavesExact_idle (dat1 V c) 4 t (idleAt1_4 t hc1) (noFlush1_4 t hc1)]
  rw [PhiS1_castSucc V c t, PhiS1_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) (accAt1 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt1_next V c t h0).symm)
        · iexists _; isplitl [HS1]
          · unfold owns; iexists _; isplitr
            swap; · iexact HS1
            ipureintro; rfl
          · ipureintro; exact Steps.rowsOk_step hN1 (hblk1 V c) t _ (stepVal1 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body1_C (c : Dev nD) (t : Fin cfg1.N) (h15 : t.val % 16 = 15) :
    bodyPre1 V c t ⊢ wp frame (wpE (defs₀ (F := F)) Variants.none c none) Set.univ (bodyAt1 t) (fun _ => bodyPost1 V c t) := by
  have h0 : ¬t.val % 16 = 0 := by omega
  have hz : t.val ≠ 0 := fun e => h0 (by rw [e])
  have hc0 : ¬cond1_0 (grid1.coords t) := fun h => h0 ((hcond1_0 t).mp h)
  have hc1 : cond1_1 (grid1.coords t) := (hcond1_1 t).mpr h15
  unfold bodyPre1 bodyPost1 bodyAt1
  simp only [before1_0, before1_1, before1_2, before1_3]
  rw [PhiS1_succ]
  rw [show (dat1 V c).leavesExact 4 t = owns (c : Thread nD τ) (ms1_4 t) fullShare ((dat1 V c).after 4 t) from by
      unfold Dat.leavesExact; rw [liveAt1_4 t hc1], after1_4]
  rw [PhiS1_castSucc V c t, PhiS1_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN1 (hblk1 V c) t _ (stepVal1 t) (fun r q => g (ix2 r q)) _ (fun _ => hg) (fun r q => hfLeft_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) (accAt1 V c (t.val - 1) (Nat.lt_of_le_of_lt (Nat.sub_le _ _) t.isLt)) g r q)
  iapply ((kernelRun_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) (accAt1 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt1_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt1
  rw [← hfull1_of_ok V c t h15 _ hok, accAt1_next V c t h0]

theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h15 : t.val % 16 = 15
    · exact sound_body1_C V c t h15
    · exact sound_body1_B V c t h0 h15

theorem body_obligation1 (c : Dev nD) : BodyObligation (dat1 (F := F) V c) (defs₀ (F := F)) Variants.none () Set.univ :=
  fun t => by rw [bigSep_W1, bigSep_W1]; exact sound_body1 V c t

end Cert.Kernel.Gen

end
-- ==== Proof.KB.Shared2.lean ====
import proofs.«426140_j3899830305296_1_alg».proof.Proof.Gen.Kernel.Launch
import proofs.«426140_j3899830305296_1_alg».proof.Proof.Gen.Kernel.Skeleton
import proofs.«426140_j3899830305296_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem idleAt2_4 : ∀ t : Fin cfg2.N, ¬cond2_1 (grid2.coords t) → cfg2.idle 4 (grid2.coords t) = true := by decide +kernel
theorem liveAt2_4 : ∀ t : Fin cfg2.N, cond2_1 (grid2.coords t) → cfg2.idle 4 (grid2.coords t) = false := by decide +kernel
theorem noFlush2_4 : ∀ t : Fin cfg2.N, ¬cond2_1 (grid2.coords t) → (cfg2.win 4).flush t = false := by decide +kernel

abbrev ms2_0 (t : Fin cfg2.N) : Memref sig .tc .vmem S1x256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x4096x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4096x512 .f32 := win2_4.stage (cfg2.slots t 4)
abbrev hs2_4 (t : Fin cfg2.N) : (ms2_4 t).IsWhole := hstage2_4 ((cfg2.slots t 4).cast nbuf2_4)

abbrev scM2_0 : Memref sig .tc .vmem S4096x512 .f32 := Memref.whole cc2_scratch0
abbrev scM2_1 : Memref sig .tc .vmem S4096x512 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Gen

end
-- ==== Proof.KB.Data2.lean ====
import proofs.«426140_j3899830305296_1_alg».proof.Proof.KB.Shared2
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S1x256x512 .f32 := iblk2 V c 0 t
abbrev ablk2 (c : Dev nD) (t : Fin cfg2.N) : Vec F S1x4096x256 .bf16 := iblk2 V c 1 t
abbrev wblk2 (c : Dev nD) (t : Fin cfg2.N) : Vec F S512x512 .f32 := iblk2 V c 2 t
abbrev bblk2 (c : Dev nD) (t : Fin cfg2.N) : Vec F S1x512 .f32 := iblk2 V c 3 t

theorem hN2 : cfg2.N = 32 := N_2

/-- One reduction step on the accumulator: prev + A[:, slab k] · relu(x[slab k]·W + b). -/
abbrev step2 (c : Dev nD) (t : Fin cfg2.N) (prev : Vec F S4096x512 .f32) : Vec F S4096x512 .f32 :=
  k0_pay5 (xblk2 V c t) (wblk2 V c t) (bblk2 V c t) prev (ablk2 V c t)

abbrev accAt2 (c : Dev nD) : (n : ℕ) → n < cfg2.N → Vec F S4096x512 .f32 :=
  Steps.accAt (step2 V c) (k0_pay2 (F := F))

theorem accAt2_first (c : Dev nD) (t : Fin cfg2.N) (h : t.val % 16 = 0) :
    accAt2 V c t.val t.isLt = step2 V c t (k0_pay2 (F := F)) := Steps.accAt_first _ _ t h

theorem accAt2_next (c : Dev nD) (t : Fin cfg2.N) (h : ¬t.val % 16 = 0) :
    accAt2 V c t.val t.isLt = step2 V c t (accAt2 V c (t.val - 1) (Nat.lt_of_le_of_lt (Nat.sub_le _ _) t.isLt)) :=
  Steps.accAt_next _ _ t h

abbrev hblk2 (c : Dev nD) (t : Fin cfg2.N) (p : Fin 256) (q : Fin 512) :=
  (k0_pay4 (xblk2 V c t) (wblk2 V c t) (bblk2 V c t) : Vec F S256x512 .f32) (ix2 p q)

/-- A stream's hidden state relu(x·W + b), all 4096 rows, assembled from the blocks its sixteen steps compute. -/
def hfull2 (c : Dev nD) (b : ℕ) (hb : b < 2) : Vec F S4096x512 .f32 :=
  fun idx => Steps.row hN2 (hblk2 V c) b hb ⟨(idx 0).val, (idx 0).isLt⟩ ⟨(idx 1).val, (idx 1).isLt⟩

/-- The output block: hidden state plus accumulator, each row divided by the larger of its norm and the floor. -/
def outAt2 (c : Dev nD) (t : Fin cfg2.N) : Vec F S1x4096x512 .f32 :=
  k0_pay1 (hfull2 V c (t.val / 16) (Steps.stream_lt hN2 t.val t.isLt)) (accAt2 V c t.val t.isLt)

def HfOk2 (c : Dev nD) (n : ℕ) (hn : n < cfg2.N) (g : Vec F S4096x512 .f32) : Prop :=
  Steps.RowsOk hN2 (hblk2 V c) n hn fun r q => g (ix2 r q)

/-- Between grid points: the accumulator holds the partial sum, and the hidden rows written so far are right. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn)
        ∗ (∃ g, owns (c : Thread nD τ) scM2_1 fullShare g ∗ ⌜HfOk2 V c n hn g⌝))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn)
        ∗ (∃ g, owns (c : Thread nD τ) scM2_1 fullShare g ∗ ⌜HfOk2 V c n hn g⌝))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega))
        ∗ (∃ g, owns (c : Thread nD τ) scM2_1 fullShare g ∗ ⌜HfOk2 V c (n - 1) (by omega) g⌝))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

end Cert.Kernel.Gen

end
-- ==== Proof.KB.Body2.lean ====
import proofs.«426140_j3899830305296_1_alg».proof.Proof.KB.Data2
import proofs.«426140_j3899830305296_1_alg».proof.Proof.KB.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem stepVal2 : ∀ t : Fin cfg2.N, ((grid2.coords t) 1).val = t.val % 16 :=
  (by decide +kernel : ∀ t : Fin grid2.N, ((grid2.coords t) 1).val = t.val % 16)

theorem hfull2_of_ok (c : Dev nD) (t : Fin cfg2.N) (h15 : t.val % 16 = 15) (g : Vec F S4096x512 .f32)
    (hok : HfOk2 V c t.val t.isLt g) : g = hfull2 V c (t.val / 16) (Steps.stream_lt hN2 t.val t.isLt) :=
  funext fun idx => (congrArg g (eq_ix2 idx)).trans
    (Steps.rows_of_ok hN2 (hblk2 V c) t h15 _ hok ⟨(idx 0).val, (idx 0).isLt⟩ ⟨(idx 1).val, (idx 1).isLt⟩)

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout2 (c : Dev nD) : (dat2 V c).Φ (Fin.last cfg2.N) ⊢ Pipeline.ΦA spec2 c :=
  Phi_out2 V c _ (by rw [Fin.val_last]; have : cfg2.N = 32 := N_2; omega)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop(PhiS2 V c (t.val + 1) t.isLt ∗ (dat2 V c).owesAt () t.castSucc
    ∗ owns (c : Thread nD τ) (ms2_0 t) fullShare (xblk2 V c t)
    ∗ owns (c : Thread nD τ) (ms2_1 t) fullShare (ablk2 V c t)
    ∗ owns (c : Thread nD τ) (ms2_2 t) fullShare (wblk2 V c t)
    ∗ owns (c : Thread nD τ) (ms2_3 t) fullShare (bblk2 V c t)
    ∗ (dat2 V c).leavesExact 4 t)

theorem Phi_fgt2 (c : Dev nD) (t : Fin (cfg2.N + 1)) : (dat2 V c).Φ t ⊢ Pipeline.ΦA spec2 c := by
  by_cases ht : t.val = 0
  · rw [show (dat2 V c).Φ t = PhiS2 V c t.val (Nat.le_of_lt_succ t.isLt) from rfl, PhiS2_zero V c _ _ ht]
    try exact Idealize.SL.BI.Entails.refl _
  · exact Phi_out2 V c t ht

/-- First step of a stream: the accumulator restarts from zero, so what it held before is not consulted. -/
theorem sound_body2_A (c : Dev nD) (t : Fin cfg2.N) (h0 : t.val % 16 = 0) :
    bodyPre2 V c t ⊢ wp frame (wpE (defs₀ (F := F)) Variants.none c none) Set.univ (bodyAt2 t) (fun _ => bodyPost2 V c t) := by
  have h15 : ¬t.val % 16 = 15 := by omega
  have hc0 : cond2_0 (grid2.coords t) := (hcond2_0 t).mpr h0
  have hc1 : ¬cond2_1 (grid2.coords t) := fun h => h15 ((hcond2_1 t).mp h)
  unfold bodyPre2 bodyPost2 bodyAt2
  simp only [before2_0, before2_1, before2_2, before2_3]
  rw [PhiS2_succ]
  rw [Dat.leavesExact_idle (dat2 V c) 4 t (idleAt2_4 t hc1) (noFlush2_4 t hc1)]
  refine (sep_mono_left (Phi_fgt2 V c t.castSucc)).trans ?_
  rw [PhiA2_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt2_first V c t h0).symm)
        · iexists _; isplitl [HS1]
          · unfold owns; iexists _; isplitr
            swap; · iexact HS1
            ipureintro; rfl
          · ipureintro; exact Steps.rowsOk_step hN2 (hblk2 V c) t _ (stepVal2 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body2_B (c : Dev nD) (t : Fin cfg2.N) (h0 : ¬t.val % 16 = 0) (h15 : ¬t.val % 16 = 15) :
    bodyPre2 V c t ⊢ wp frame (wpE (defs₀ (F := F)) Variants.none c none) Set.univ (bodyAt2 t) (fun _ => bodyPost2 V c t) := by
  have hz : t.val ≠ 0 := fun e => h0 (by rw [e])
  have hc0 : ¬cond2_0 (grid2.coords t) := fun h => h0 ((hcond2_0 t).mp h)
  have hc1 : ¬cond2_1 (grid2.coords t) := fun h => h15 ((hcond2_1 t).mp h)
  unfold bodyPre2 bodyPost2 bodyAt2
  simp only [before2_0, before2_1, before2_2, before2_3]
  rw [PhiS2_succ]
  rw [Dat.leavesExact_idle (dat2 V c) 4 t (idleAt2_4 t hc1) (noFlush2_4 t hc1)]
  rw [PhiS2_castSucc V c t, PhiS2_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) (accAt2 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt2_next V c t h0).symm)
        · iexists _; isplitl [HS1]
          · unfold owns; iexists _; isplitr
            swap; · iexact HS1
            ipureintro; rfl
          · ipureintro; exact Steps.rowsOk_step hN2 (hblk2 V c) t _ (stepVal2 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body2_C (c : Dev nD) (t : Fin cfg2.N) (h15 : t.val % 16 = 15) :
    bodyPre2 V c t ⊢ wp frame (wpE (defs₀ (F := F)) Variants.none c none) Set.univ (bodyAt2 t) (fun _ => bodyPost2 V c t) := by
  have h0 : ¬t.val % 16 = 0 := by omega
  have hz : t.val ≠ 0 := fun e => h0 (by rw [e])
  have hc0 : ¬cond2_0 (grid2.coords t) := fun h => h0 ((hcond2_0 t).mp h)
  have hc1 : cond2_1 (grid2.coords t) := (hcond2_1 t).mpr h15
  unfold bodyPre2 bodyPost2 bodyAt2
  simp only [before2_0, before2_1, before2_2, before2_3]
  rw [PhiS2_succ]
  rw [show (dat2 V c).leavesExact 4 t = owns (c : Thread nD τ) (ms2_4 t) fullShare ((dat2 V c).after 4 t) from by
      unfold Dat.leavesExact; rw [liveAt2_4 t hc1], after2_4]
  rw [PhiS2_castSucc V c t, PhiS2_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN2 (hblk2 V c) t _ (stepVal2 t) (fun r q => g (ix2 r q)) _ (fun _ => hg) (fun r q => hfLeft_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) (accAt2 V c (t.val - 1) (Nat.lt_of_le_of_lt (Nat.sub_le _ _) t.isLt)) g r q)
  iapply ((kernelRun_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) (accAt2 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt2_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt2
  rw [← hfull2_of_ok V c t h15 _ hok, accAt2_next V c t h0]

theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 16 = 0
  · exact sound_body2_A V c t h0
  · by_cases h15 : t.val % 16 = 15
    · exact sound_body2_C V c t h15
    · exact sound_body2_B V c t h0 h15

theorem body_obligation2 (c : Dev nD) : BodyObligation (dat2 (F := F) V c) (defs₀ (F := F)) Variants.none () Set.univ :=
  fun t => by rw [bigSep_W2, bigSep_W2]; exact sound_body2 V c t

end Cert.Kernel.Gen

end
-- ==== Proof.KB.Shared3.lean ====
import proofs.«426140_j3899830305296_1_alg».proof.Proof.Gen.Kernel.Launch
import proofs.«426140_j3899830305296_1_alg».proof.Proof.Gen.Kernel.Skeleton
import proofs.«426140_j3899830305296_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem idleAt3_4 : ∀ t : Fin cfg3.N, ¬cond3_1 (grid3.coords t) → cfg3.idle 4 (grid3.coords t) = true := by decide +kernel
theorem liveAt3_4 : ∀ t : Fin cfg3.N, cond3_1 (grid3.coords t) → cfg3.idle 4 (grid3.coords t) = false := by decide +kernel
theorem noFlush3_4 : ∀ t : Fin cfg3.N, ¬cond3_1 (grid3.coords t) → (cfg3.win 4).flush t = false := by decide +kernel

abbrev ms3_0 (t : Fin cfg3.N) : Memref sig .tc .vmem S1x256x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x4096x512 .f32 := win3_4.stage (cfg3.slots t 4)
abbrev hs3_4 (t : Fin cfg3.N) : (ms3_4 t).IsWhole := hstage3_4 ((cfg3.slots t 4).cast nbuf3_4)

abbrev scM3_0 : Memref sig .tc .vmem S4096x512 .f32 := Memref.whole cc3_scratch0
abbrev scM3_1 : Memref sig .tc .vmem S4096x512 .f32 := Memref.whole cc3_scratch1

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Gen

end
-- ==== Proof.KB.Data3.lean ====
import proofs.«426140_j3899830305296_1_alg».proof.Proof.KB.Shared3
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 (c : Dev nD) (t : Fin cfg3.N) : Vec F S1x256x512 .f32 := iblk3 V c 0 t
abbrev ablk3 (c : Dev nD) (t : Fin cfg3.N) : Vec F S1x4096x256 .bf16 := iblk3 V c 1 t
abbrev wblk3 (c : Dev nD) (t : Fin cfg3.N) : Vec F S512x512 .f32 := iblk3 V c 2 t
abbrev bblk3 (c : Dev nD) (t : Fin cfg3.N) : Vec F S1x512 .f32 := iblk3 V c 3 t

theorem hN3 : cfg3.N = 32 := N_3

/-- One reduction step on the accumulator: prev + A[:, slab k] · relu(x[slab k]·W + b). -/
abbrev step3 (c : Dev nD) (t : Fin cfg3.N) (prev : Vec F S4096x512 .f32) : Vec F S4096x512 .f32 :=
  k0_pay5 (xblk3 V c t) (wblk3 V c t) (bblk3 V c t) prev (ablk3 V c t)

abbrev accAt3 (c : Dev nD) : (n : ℕ) → n < cfg3.N → Vec F S4096x512 .f32 :=
  Steps.accAt (step3 V c) (k0_pay2 (F := F))

theorem accAt3_first (c : Dev nD) (t : Fin cfg3.N) (h : t.val % 16 = 0) :
    accAt3 V c t.val t.isLt = step3 V c t (k0_pay2 (F := F)) := Steps.accAt_first _ _ t h

theorem accAt3_next (c : Dev nD) (t : Fin cfg3.N) (h : ¬t.val % 16 = 0) :
    accAt3 V c t.val t.isLt = step3 V c t (accAt3 V c (t.val - 1) (Nat.lt_of_le_of_lt (Nat.sub_le _ _) t.isLt)) :=
  Steps.accAt_next _ _ t h

abbrev hblk3 (c : Dev nD) (t : Fin cfg3.N) (p : Fin 256) (q : Fin 512) :=
  (k0_pay4 (xblk3 V c t) (wblk3 V c t) (bblk3 V c t) : Vec F S256x512 .f32) (ix2 p q)

/-- A stream's hidden state relu(x·W + b), all 4096 rows, assembled from the blocks its sixteen steps compute. -/
def hfull3 (c : Dev nD) (b : ℕ) (hb : b < 2) : Vec F S4096x512 .f32 :=
  fun idx => Steps.row hN3 (hblk3 V c) b hb ⟨(idx 0).val, (idx 0).isLt⟩ ⟨(idx 1).val, (idx 1).isLt⟩

/-- The output block: hidden state plus accumulator, each row divided by the larger of its norm and the floor. -/
def outAt3 (c : Dev nD) (t : Fin cfg3.N) : Vec F S1x4096x512 .f32 :=
  k0_pay1 (hfull3 V c (t.val / 16) (Steps.stream_lt hN3 t.val t.isLt)) (accAt3 V c t.val t.isLt)

def HfOk3 (c : Dev nD) (n : ℕ) (hn : n < cfg3.N) (g : Vec F S4096x512 .f32) : Prop :=
  Steps.RowsOk hN3 (hblk3 V c) n hn fun r q => g (ix2 r q)

/-- Between grid points: the accumulator holds the partial sum, and the hidden rows written so far are right. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn)
        ∗ (∃ g, owns (c : Thread nD τ) scM3_1 fullShare g ∗ ⌜HfOk3 V c n hn g⌝))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn)
        ∗ (∃ g, owns (c : Thread nD τ) scM3_1 fullShare g ∗ ⌜HfOk3 V c n hn g⌝))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (accAt3 V c (n - 1) (by omega))
        ∗ (∃ g, owns (c : Thread nD τ) scM3_1 fullShare g ∗ ⌜HfOk3 V c (n - 1) (by omega) g⌝))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

end Cert.Kernel.Gen

end
-- ==== Proof.KB.Body3.lean ====
import proofs.«426140_j3899830305296_1_alg».proof.Proof.KB.Data3
import proofs.«426140_j3899830305296_1_alg».proof.Proof.KB.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

theorem stepVal3 : ∀ t : Fin cfg3.N, ((grid3.coords t) 1).val = t.val % 16 :=
  (by decide +kernel : ∀ t : Fin grid3.N, ((grid3.coords t) 1).val = t.val % 16)

theorem hfull3_of_ok (c : Dev nD) (t : Fin cfg3.N) (h15 : t.val % 16 = 15) (g : Vec F S4096x512 .f32)
    (hok : HfOk3 V c t.val t.isLt g) : g = hfull3 V c (t.val / 16) (Steps.stream_lt hN3 t.val t.isLt) :=
  funext fun idx => (congrArg g (eq_ix2 idx)).trans
    (Steps.rows_of_ok hN3 (hblk3 V c) t h15 _ hok ⟨(idx 0).val, (idx 0).isLt⟩ ⟨(idx 1).val, (idx 1).isLt⟩)

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout3 (c : Dev nD) : (dat3 V c).Φ (Fin.last cfg3.N) ⊢ Pipeline.ΦA spec3 c :=
  Phi_out3 V c _ (by rw [Fin.val_last]; have : cfg3.N = 32 := N_3; omega)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop(PhiS3 V c (t.val + 1) t.isLt ∗ (dat3 V c).owesAt () t.castSucc
    ∗ owns (c : Thread nD τ) (ms3_0 t) fullShare (xblk3 V c t)
    ∗ owns (c : Thread nD τ) (ms3_1 t) fullShare (ablk3 V c t)
    ∗ owns (c : Thread nD τ) (ms3_2 t) fullShare (wblk3 V c t)
    ∗ owns (c : Thread nD τ) (ms3_3 t) fullShare (bblk3 V c t)
    ∗ (dat3 V c).leavesExact 4 t)

theorem Phi_fgt3 (c : Dev nD) (t : Fin (cfg3.N + 1)) : (dat3 V c).Φ t ⊢ Pipeline.ΦA spec3 c := by
  by_cases ht : t.val = 0
  · rw [show (dat3 V c).Φ t = PhiS3 V c t.val (Nat.le_of_lt_succ t.isLt) from rfl, PhiS3_zero V c _ _ ht]
    try exact Idealize.SL.BI.Entails.refl _
  · exact Phi_out3 V c t ht

/-- First step of a stream: the accumulator restarts from zero, so what it held before is not consulted. -/
theorem sound_body3_A (c : Dev nD) (t : Fin cfg3.N) (h0 : t.val % 16 = 0) :
    bodyPre3 V c t ⊢ wp frame (wpE (defs₀ (F := F)) Variants.none c none) Set.univ (bodyAt3 t) (fun _ => bodyPost3 V c t) := by
  have h15 : ¬t.val % 16 = 15 := by omega
  have hc0 : cond3_0 (grid3.coords t) := (hcond3_0 t).mpr h0
  have hc1 : ¬cond3_1 (grid3.coords t) := fun h => h15 ((hcond3_1 t).mp h)
  unfold bodyPre3 bodyPost3 bodyAt3
  simp only [before3_0, before3_1, before3_2, before3_3]
  rw [PhiS3_succ]
  rw [Dat.leavesExact_idle (dat3 V c) 4 t (idleAt3_4 t hc1) (noFlush3_4 t hc1)]
  refine (sep_mono_left (Phi_fgt3 V c t.castSucc)).trans ?_
  rw [PhiA3_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt3_first V c t h0).symm)
        · iexists _; isplitl [HS1]
          · unfold owns; iexists _; isplitr
            swap; · iexact HS1
            ipureintro; rfl
          · ipureintro; exact Steps.rowsOk_step hN3 (hblk3 V c) t _ (stepVal3 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body3_B (c : Dev nD) (t : Fin cfg3.N) (h0 : ¬t.val % 16 = 0) (h15 : ¬t.val % 16 = 15) :
    bodyPre3 V c t ⊢ wp frame (wpE (defs₀ (F := F)) Variants.none c none) Set.univ (bodyAt3 t) (fun _ => bodyPost3 V c t) := by
  have hz : t.val ≠ 0 := fun e => h0 (by rw [e])
  have hc0 : ¬cond3_0 (grid3.coords t) := fun h => h0 ((hcond3_0 t).mp h)
  have hc1 : ¬cond3_1 (grid3.coords t) := fun h => h15 ((hcond3_1 t).mp h)
  unfold bodyPre3 bodyPost3 bodyAt3
  simp only [before3_0, before3_1, before3_2, before3_3]
  rw [PhiS3_succ]
  rw [Dat.leavesExact_idle (dat3 V c) 4 t (idleAt3_4 t hc1) (noFlush3_4 t hc1)]
  rw [PhiS3_castSucc V c t, PhiS3_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) (accAt3 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt3_next V c t h0).symm)
        · iexists _; isplitl [HS1]
          · unfold owns; iexists _; isplitr
            swap; · iexact HS1
            ipureintro; rfl
          · ipureintro; exact Steps.rowsOk_step hN3 (hblk3 V c) t _ (stepVal3 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body3_C (c : Dev nD) (t : Fin cfg3.N) (h15 : t.val % 16 = 15) :
    bodyPre3 V c t ⊢ wp frame (wpE (defs₀ (F := F)) Variants.none c none) Set.univ (bodyAt3 t) (fun _ => bodyPost3 V c t) := by
  have h0 : ¬t.val % 16 = 0 := by omega
  have hz : t.val ≠ 0 := fun e => h0 (by rw [e])
  have hc0 : ¬cond3_0 (grid3.coords t) := fun h => h0 ((hcond3_0 t).mp h)
  have hc1 : cond3_1 (grid3.coords t) := (hcond3_1 t).mpr h15
  unfold bodyPre3 bodyPost3 bodyAt3
  simp only [before3_0, before3_1, before3_2, before3_3]
  rw [PhiS3_succ]
  rw [show (dat3 V c).leavesExact 4 t = owns (c : Thread nD τ) (ms3_4 t) fullShare ((dat3 V c).after 4 t) from by
      unfold Dat.leavesExact; rw [liveAt3_4 t hc1], after3_4]
  rw [PhiS3_castSucc V c t, PhiS3_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN3 (hblk3 V c) t _ (stepVal3 t) (fun r q => g (ix2 r q)) _ (fun _ => hg) (fun r q => hfLeft_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) (accAt3 V c (t.val - 1) (Nat.lt_of_le_of_lt (Nat.sub_le _ _) t.isLt)) g r q)
  iapply ((kernelRun_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) (accAt3 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt3_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt3
  rw [← hfull3_of_ok V c t h15 _ hok, accAt3_next V c t h0]

theorem sound_body3 (c : Dev nD) (t : Fin cfg3.N) :
    bodyPre3 V c t ⊢ wp frame (wpE (defs₀ (F := F)) Variants.none c none) Set.univ (bodyAt3 t) (fun _ => bodyPost3 V c t) := by
  by_cases h0 : t.val % 16 = 0
  · exact sound_body3_A V c t h0
  · by_cases h15 : t.val % 16 = 15
    · exact sound_body3_C V c t h15
    · exact sound_body3_B V c t h0 h15

theorem body_obligation3 (c : Dev nD) : BodyObligation (dat3 (F := F) V c) (defs₀ (F := F)) Variants.none () Set.univ :=
  fun t => by rw [bigSep_W3, bigSep_W3]; exact sound_body3 V c t

end Cert.Kernel.Gen

end
-- ==== Proof.KB.Shared4.lean ====
import proofs.«426140_j3899830305296_1_alg».proof.Proof.Gen.Kernel.Launch
import proofs.«426140_j3899830305296_1_alg».proof.Proof.Gen.Kernel.Skeleton
import proofs.«426140_j3899830305296_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond4_0 : ∀ t : Fin cfg4.N, cond4_0 (grid4.coords t) ↔ t.val % 16 = 0 :=
  (by decide +kernel : ∀ t : Fin grid4.N, cond4_0 (grid4.coords t) ↔ t.val % 16 = 0)

abbrev cond4_1 (i : grid4.Coords) : Prop := k4_cond2 i = 1#1
theorem hcond4_1 : ∀ t : Fin cfg4.N, cond4_1 (grid4.coords t) ↔ t.val % 16 = 15 :=
  (by decide +kernel : ∀ t : Fin grid4.N, cond4_1 (grid4.coords t) ↔ t.val % 16 = 15)

theorem idleAt4_4 : ∀ t : Fin cfg4.N, ¬cond4_1 (grid4.coords t) → cfg4.idle 4 (grid4.coords t) = true := by decide +kernel
theorem liveAt4_4 : ∀ t : Fin cfg4.N, cond4_1 (grid4.coords t) → cfg4.idle 4 (grid4.coords t) = false := by decide +kernel
theorem noFlush4_4 : ∀ t : Fin cfg4.N, ¬cond4_1 (grid4.coords t) → (cfg4.win 4).flush t = false := by decide +kernel

abbrev ms4_0 (t : Fin cfg4.N) : Memref sig .tc .vmem S1x256x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x4096x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x4096x512 .f32 := win4_4.stage (cfg4.slots t 4)
abbrev hs4_4 (t : Fin cfg4.N) : (ms4_4 t).IsWhole := hstage4_4 ((cfg4.slots t 4).cast nbuf4_4)

abbrev scM4_0 : Memref sig .tc .vmem S4096x512 .f32 := Memref.whole cc4_scratch0
abbrev scM4_1 : Memref sig .tc .vmem S4096x512 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Gen

end
-- ==== Proof.KB.Data4.lean ====
import proofs.«426140_j3899830305296_1_alg».proof.Proof.KB.Shared4
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xblk4 (c : Dev nD) (t : Fin cfg4.N) : Vec F S1x256x512 .f32 := iblk4 V c 0 t
abbrev ablk4 (c : Dev nD) (t : Fin cfg4.N) : Vec F S1x4096x256 .bf16 := iblk4 V c 1 t
abbrev wblk4 (c : Dev nD) (t : Fin cfg4.N) : Vec F S512x512 .f32 := iblk4 V c 2 t
abbrev bblk4 (c : Dev nD) (t : Fin cfg4.N) : Vec F S1x512 .f32 := iblk4 V c 3 t

theorem hN4 : cfg4.N = 32 := N_4

/-- One reduction step on the accumulator: prev + A[:, slab k] · relu(x[slab k]·W + b). -/
abbrev step4 (c : Dev nD) (t : Fin cfg4.N) (prev : Vec F S4096x512 .f32) : Vec F S4096x512 .f32 :=
  k0_pay5 (xblk4 V c t) (wblk4 V c t) (bblk4 V c t) prev (ablk4 V c t)

abbrev accAt4 (c : Dev nD) : (n : ℕ) → n < cfg4.N → Vec F S4096x512 .f32 :=
  Steps.accAt (step4 V c) (k0_pay2 (F := F))

theorem accAt4_first (c : Dev nD) (t : Fin cfg4.N) (h : t.val % 16 = 0) :
    accAt4 V c t.val t.isLt = step4 V c t (k0_pay2 (F := F)) := Steps.accAt_first _ _ t h

theorem accAt4_next (c : Dev nD) (t : Fin cfg4.N) (h : ¬t.val % 16 = 0) :
    accAt4 V c t.val t.isLt = step4 V c t (accAt4 V c (t.val - 1) (Nat.lt_of_le_of_lt (Nat.sub_le _ _) t.isLt)) :=
  Steps.accAt_next _ _ t h

abbrev hblk4 (c : Dev nD) (t : Fin cfg4.N) (p : Fin 256) (q : Fin 512) :=
  (k0_pay4 (xblk4 V c t) (wblk4 V c t) (bblk4 V c t) : Vec F S256x512 .f32) (ix2 p q)

/-- A stream's hidden state relu(x·W + b), all 4096 rows, assembled from the blocks its sixteen steps compute. -/
def hfull4 (c : Dev nD) (b : ℕ) (hb : b < 2) : Vec F S4096x512 .f32 :=
  fun idx => Steps.row hN4 (hblk4 V c) b hb ⟨(idx 0).val, (idx 0).isLt⟩ ⟨(idx 1).val, (idx 1).isLt⟩

/-- The output block: hidden state plus accumulator, each row divided by the larger of its norm and the floor. -/
def outAt4 (c : Dev nD) (t : Fin cfg4.N) : Vec F S1x4096x512 .f32 :=
  k0_pay1 (hfull4 V c (t.val / 16) (Steps.stream_lt hN4 t.val t.isLt)) (accAt4 V c t.val t.isLt)

def HfOk4 (c : Dev nD) (n : ℕ) (hn : n < cfg4.N) (g : Vec F S4096x512 .f32) : Prop :=
  Steps.RowsOk hN4 (hblk4 V c) n hn fun r q => g (ix2 r q)

/-- Between grid points: the accumulator holds the partial sum, and the hidden rows written so far are right. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn)
        ∗ (∃ g, owns (c : Thread nD τ) scM4_1 fullShare g ∗ ⌜HfOk4 V c n hn g⌝))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn)
        ∗ (∃ g, owns (c : Thread nD τ) scM4_1 fullShare g ∗ ⌜HfOk4 V c n hn g⌝))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega))
        ∗ (∃ g, owns (c : Thread nD τ) scM4_1 fullShare g ∗ ⌜HfOk4 V c (n - 1) (by omega) g⌝))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

end Cert.Kernel.Gen

end
-- ==== Proof.KB.Body4.lean ====
import proofs.«426140_j3899830305296_1_alg».proof.Proof.KB.Data4
import proofs.«426140_j3899830305296_1_alg».proof.Proof.KB.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

theorem stepVal4 : ∀ t : Fin cfg4.N, ((grid4.coords t) 1).val = t.val % 16 :=
  (by decide +kernel : ∀ t : Fin grid4.N, ((grid4.coords t) 1).val = t.val % 16)

theorem hfull4_of_ok (c : Dev nD) (t : Fin cfg4.N) (h15 : t.val % 16 = 15) (g : Vec F S4096x512 .f32)
    (hok : HfOk4 V c t.val t.isLt g) : g = hfull4 V c (t.val / 16) (Steps.stream_lt hN4 t.val t.isLt) :=
  funext fun idx => (congrArg g (eq_ix2 idx)).trans
    (Steps.rows_of_ok hN4 (hblk4 V c) t h15 _ hok ⟨(idx 0).val, (idx 0).isLt⟩ ⟨(idx 1).val, (idx 1).isLt⟩)

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout4 (c : Dev nD) : (dat4 V c).Φ (Fin.last cfg4.N) ⊢ Pipeline.ΦA spec4 c :=
  Phi_out4 V c _ (by rw [Fin.val_last]; have : cfg4.N = 32 := N_4; omega)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop(PhiS4 V c (t.val + 1) t.isLt ∗ (dat4 V c).owesAt () t.castSucc
    ∗ owns (c : Thread nD τ) (ms4_0 t) fullShare (xblk4 V c t)
    ∗ owns (c : Thread nD τ) (ms4_1 t) fullShare (ablk4 V c t)
    ∗ owns (c : Thread nD τ) (ms4_2 t) fullShare (wblk4 V c t)
    ∗ owns (c : Thread nD τ) (ms4_3 t) fullShare (bblk4 V c t)
    ∗ (dat4 V c).leavesExact 4 t)

theorem Phi_fgt4 (c : Dev nD) (t : Fin (cfg4.N + 1)) : (dat4 V c).Φ t ⊢ Pipeline.ΦA spec4 c := by
  by_cases ht : t.val = 0
  · rw [show (dat4 V c).Φ t = PhiS4 V c t.val (Nat.le_of_lt_succ t.isLt) from rfl, PhiS4_zero V c _ _ ht]
    try exact Idealize.SL.BI.Entails.refl _
  · exact Phi_out4 V c t ht

/-- First step of a stream: the accumulator restarts from zero, so what it held before is not consulted. -/
theorem sound_body4_A (c : Dev nD) (t : Fin cfg4.N) (h0 : t.val % 16 = 0) :
    bodyPre4 V c t ⊢ wp frame (wpE (defs₀ (F := F)) Variants.none c none) Set.univ (bodyAt4 t) (fun _ => bodyPost4 V c t) := by
  have h15 : ¬t.val % 16 = 15 := by omega
  have hc0 : cond4_0 (grid4.coords t) := (hcond4_0 t).mpr h0
  have hc1 : ¬cond4_1 (grid4.coords t) := fun h => h15 ((hcond4_1 t).mp h)
  unfold bodyPre4 bodyPost4 bodyAt4
  simp only [before4_0, before4_1, before4_2, before4_3]
  rw [PhiS4_succ]
  rw [Dat.leavesExact_idle (dat4 V c) 4 t (idleAt4_4 t hc1) (noFlush4_4 t hc1)]
  refine (sep_mono_left (Phi_fgt4 V c t.castSucc)).trans ?_
  rw [PhiA4_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt4_first V c t h0).symm)
        · iexists _; isplitl [HS1]
          · unfold owns; iexists _; isplitr
            swap; · iexact HS1
            ipureintro; rfl
          · ipureintro; exact Steps.rowsOk_step hN4 (hblk4 V c) t _ (stepVal4 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body4_B (c : Dev nD) (t : Fin cfg4.N) (h0 : ¬t.val % 16 = 0) (h15 : ¬t.val % 16 = 15) :
    bodyPre4 V c t ⊢ wp frame (wpE (defs₀ (F := F)) Variants.none c none) Set.univ (bodyAt4 t) (fun _ => bodyPost4 V c t) := by
  have hz : t.val ≠ 0 := fun e => h0 (by rw [e])
  have hc0 : ¬cond4_0 (grid4.coords t) := fun h => h0 ((hcond4_0 t).mp h)
  have hc1 : ¬cond4_1 (grid4.coords t) := fun h => h15 ((hcond4_1 t).mp h)
  unfold bodyPre4 bodyPost4 bodyAt4
  simp only [before4_0, before4_1, before4_2, before4_3]
  rw [PhiS4_succ]
  rw [Dat.leavesExact_idle (dat4 V c) 4 t (idleAt4_4 t hc1) (noFlush4_4 t hc1)]
  rw [PhiS4_castSucc V c t, PhiS4_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) (accAt4 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt4_next V c t h0).symm)
        · iexists _; isplitl [HS1]
          · unfold owns; iexists _; isplitr
            swap; · iexact HS1
            ipureintro; rfl
          · ipureintro; exact Steps.rowsOk_step hN4 (hblk4 V c) t _ (stepVal4 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body4_C (c : Dev nD) (t : Fin cfg4.N) (h15 : t.val % 16 = 15) :
    bodyPre4 V c t ⊢ wp frame (wpE (defs₀ (F := F)) Variants.none c none) Set.univ (bodyAt4 t) (fun _ => bodyPost4 V c t) := by
  have h0 : ¬t.val % 16 = 0 := by omega
  have hz : t.val ≠ 0 := fun e => h0 (by rw [e])
  have hc0 : ¬cond4_0 (grid4.coords t) := fun h => h0 ((hcond4_0 t).mp h)
  have hc1 : cond4_1 (grid4.coords t) := (hcond4_1 t).mpr h15
  unfold bodyPre4 bodyPost4 bodyAt4
  simp only [before4_0, before4_1, before4_2, before4_3]
  rw [PhiS4_succ]
  rw [show (dat4 V c).leavesExact 4 t = owns (c : Thread nD τ) (ms4_4 t) fullShare ((dat4 V c).after 4 t) from by
      unfold Dat.leavesExact; rw [liveAt4_4 t hc1], after4_4]
  rw [PhiS4_castSucc V c t, PhiS4_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN4 (hblk4 V c) t _ (stepVal4 t) (fun r q => g (ix2 r q)) _ (fun _ => hg) (fun r q => hfLeft_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) (accAt4 V c (t.val - 1) (Nat.lt_of_le_of_lt (Nat.sub_le _ _) t.isLt)) g r q)
  iapply ((kernelRun_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) (accAt4 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt4_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt4
  rw [← hfull4_of_ok V c t h15 _ hok, accAt4_next V c t h0]

theorem sound_body4 (c : Dev nD) (t : Fin cfg4.N) :
    bodyPre4 V c t ⊢ wp frame (wpE (defs₀ (F := F)) Variants.none c none) Set.univ (bodyAt4 t) (fun _ => bodyPost4 V c t) := by
  by_cases h0 : t.val % 16 = 0
  · exact sound_body4_A V c t h0
  · by_cases h15 : t.val % 16 = 15
    · exact sound_body4_C V c t h15
    · exact sound_body4_B V c t h0 h15

theorem body_obligation4 (c : Dev nD) : BodyObligation (dat4 (F := F) V c) (defs₀ (F := F)) Variants.none () Set.univ :=
  fun t => by rw [bigSep_W4, bigSep_W4]; exact sound_body4 V c t

end Cert.Kernel.Gen

end
-- ==== Proof.KB.Shared5.lean ====
import proofs.«426140_j3899830305296_1_alg».proof.Proof.Gen.Kernel.Launch
import proofs.«426140_j3899830305296_1_alg».proof.Proof.Gen.Kernel.Skeleton
import proofs.«426140_j3899830305296_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond5_0 : ∀ t : Fin cfg5.N, cond5_0 (grid5.coords t) ↔ t.val % 16 = 0 :=
  (by decide +kernel : ∀ t : Fin grid5.N, cond5_0 (grid5.coords t) ↔ t.val % 16 = 0)

abbrev cond5_1 (i : grid5.Coords) : Prop := k5_cond2 i = 1#1
theorem hcond5_1 : ∀ t : Fin cfg5.N, cond5_1 (grid5.coords t) ↔ t.val % 16 = 15 :=
  (by decide +kernel : ∀ t : Fin grid5.N, cond5_1 (grid5.coords t) ↔ t.val % 16 = 15)

theorem idleAt5_4 : ∀ t : Fin cfg5.N, ¬cond5_1 (grid5.coords t) → cfg5.idle 4 (grid5.coords t) = true := by decide +kernel
theorem liveAt5_4 : ∀ t : Fin cfg5.N, cond5_1 (grid5.coords t) → cfg5.idle 4 (grid5.coords t) = false := by decide +kernel
theorem noFlush5_4 : ∀ t : Fin cfg5.N, ¬cond5_1 (grid5.coords t) → (cfg5.win 4).flush t = false := by decide +kernel

abbrev ms5_0 (t : Fin cfg5.N) : Memref sig .tc .vmem S1x256x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x4096x256 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x4096x512 .f32 := win5_4.stage (cfg5.slots t 4)
abbrev hs5_4 (t : Fin cfg5.N) : (ms5_4 t).IsWhole := hstage5_4 ((cfg5.slots t 4).cast nbuf5_4)

abbrev scM5_0 : Memref sig .tc .vmem S4096x512 .f32 := Memref.whole cc5_scratch0
abbrev scM5_1 : Memref sig .tc .vmem S4096x512 .f32 := Memref.whole cc5_scratch1

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.Kernel.Gen

end
-- ==== Proof.KB.Data5.lean ====
import proofs.«426140_j3899830305296_1_alg».proof.Proof.KB.Shared5
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xblk5 (c : Dev nD) (t : Fin cfg5.N) : Vec F S1x256x512 .f32 := iblk5 V c 0 t
abbrev ablk5 (c : Dev nD) (t : Fin cfg5.N) : Vec F S1x4096x256 .bf16 := iblk5 V c 1 t
abbrev wblk5 (c : Dev nD) (t : Fin cfg5.N) : Vec F S512x512 .f32 := iblk5 V c 2 t
abbrev bblk5 (c : Dev nD) (t : Fin cfg5.N) : Vec F S1x512 .f32 := iblk5 V c 3 t

theorem hN5 : cfg5.N = 32 := N_5

/-- One reduction step on the accumulator: prev + A[:, slab k] · relu(x[slab k]·W + b). -/
abbrev step5 (c : Dev nD) (t : Fin cfg5.N) (prev : Vec F S4096x512 .f32) : Vec F S4096x512 .f32 :=
  k0_pay5 (xblk5 V c t) (wblk5 V c t) (bblk5 V c t) prev (ablk5 V c t)

abbrev accAt5 (c : Dev nD) : (n : ℕ) → n < cfg5.N → Vec F S4096x512 .f32 :=
  Steps.accAt (step5 V c) (k0_pay2 (F := F))

theorem accAt5_first (c : Dev nD) (t : Fin cfg5.N) (h : t.val % 16 = 0) :
    accAt5 V c t.val t.isLt = step5 V c t (k0_pay2 (F := F)) := Steps.accAt_first _ _ t h

theorem accAt5_next (c : Dev nD) (t : Fin cfg5.N) (h : ¬t.val % 16 = 0) :
    accAt5 V c t.val t.isLt = step5 V c t (accAt5 V c (t.val - 1) (Nat.lt_of_le_of_lt (Nat.sub_le _ _) t.isLt)) :=
  Steps.accAt_next _ _ t h

abbrev hblk5 (c : Dev nD) (t : Fin cfg5.N) (p : Fin 256) (q : Fin 512) :=
  (k0_pay4 (xblk5 V c t) (wblk5 V c t) (bblk5 V c t) : Vec F S256x512 .f32) (ix2 p q)

/-- A stream's hidden state relu(x·W + b), all 4096 rows, assembled from the blocks its sixteen steps compute. -/
def hfull5 (c : Dev nD) (b : ℕ) (hb : b < 2) : Vec F S4096x512 .f32 :=
  fun idx => Steps.row hN5 (hblk5 V c) b hb ⟨(idx 0).val, (idx 0).isLt⟩ ⟨(idx 1).val, (idx 1).isLt⟩

/-- The output block: hidden state plus accumulator, each row divided by the larger of its norm and the floor. -/
def outAt5 (c : Dev nD) (t : Fin cfg5.N) : Vec F S1x4096x512 .f32 :=
  k0_pay1 (hfull5 V c (t.val / 16) (Steps.stream_lt hN5 t.val t.isLt)) (accAt5 V c t.val t.isLt)

def HfOk5 (c : Dev nD) (n : ℕ) (hn : n < cfg5.N) (g : Vec F S4096x512 .f32) : Prop :=
  Steps.RowsOk hN5 (hblk5 V c) n hn fun r q => g (ix2 r q)

/-- Between grid points: the accumulator holds the partial sum, and the hidden rows written so far are right. -/
def PhiS5 (c : Dev nD) : (n : ℕ) → n ≤ cfg5.N → sProp 𝕄
  | 0, _ => Pipeline.ΦA spec5 c
  | n + 1, hn => iprop(iprop(iprop(owns (c : Thread nD τ) scM5_0 fullShare (accAt5 V c n hn)
        ∗ (∃ g, owns (c : Thread nD τ) scM5_1 fullShare g ∗ ⌜HfOk5 V c n hn g⌝))
      ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (accAt5 V c n hn)
        ∗ (∃ g, owns (c : Thread nD τ) scM5_1 fullShare g ∗ ⌜HfOk5 V c n hn g⌝))
      ∗ Pipeline.scopedRestBut (Ix := Unit) (Name := ℕ) (U := UR sig nD τ) (Lvl := ℕ) (Val := Elt F) spec5 c [cc5_scratch0, cc5_scratch1]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (accAt5 V c (n - 1) (by omega))
        ∗ (∃ g, owns (c : Thread nD τ) scM5_1 fullShare g ∗ ⌜HfOk5 V c (n - 1) (by omega) g⌝))
      ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = outAt5 V c t := by dsimp only [dat5]

end Cert.Kernel.Gen

end
-- ==== Proof.KB.Body5.lean ====
import proofs.«426140_j3899830305296_1_alg».proof.Proof.KB.Data5
import proofs.«426140_j3899830305296_1_alg».proof.Proof.KB.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

theorem stepVal5 : ∀ t : Fin cfg5.N, ((grid5.coords t) 1).val = t.val % 16 :=
  (by decide +kernel : ∀ t : Fin grid5.N, ((grid5.coords t) 1).val = t.val % 16)

theorem hfull5_of_ok (c : Dev nD) (t : Fin cfg5.N) (h15 : t.val % 16 = 15) (g : Vec F S4096x512 .f32)
    (hok : HfOk5 V c t.val t.isLt g) : g = hfull5 V c (t.val / 16) (Steps.stream_lt hN5 t.val t.isLt) :=
  funext fun idx => (congrArg g (eq_ix2 idx)).trans
    (Steps.rows_of_ok hN5 (hblk5 V c) t h15 _ hok ⟨(idx 0).val, (idx 0).isLt⟩ ⟨(idx 1).val, (idx 1).isLt⟩)

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout5 (c : Dev nD) : (dat5 V c).Φ (Fin.last cfg5.N) ⊢ Pipeline.ΦA spec5 c :=
  Phi_out5 V c _ (by rw [Fin.val_last]; have : cfg5.N = 32 := N_5; omega)

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop(PhiS5 V c (t.val + 1) t.isLt ∗ (dat5 V c).owesAt () t.castSucc
    ∗ owns (c : Thread nD τ) (ms5_0 t) fullShare (xblk5 V c t)
    ∗ owns (c : Thread nD τ) (ms5_1 t) fullShare (ablk5 V c t)
    ∗ owns (c : Thread nD τ) (ms5_2 t) fullShare (wblk5 V c t)
    ∗ owns (c : Thread nD τ) (ms5_3 t) fullShare (bblk5 V c t)
    ∗ (dat5 V c).leavesExact 4 t)

theorem Phi_fgt5 (c : Dev nD) (t : Fin (cfg5.N + 1)) : (dat5 V c).Φ t ⊢ Pipeline.ΦA spec5 c := by
  by_cases ht : t.val = 0
  · rw [show (dat5 V c).Φ t = PhiS5 V c t.val (Nat.le_of_lt_succ t.isLt) from rfl, PhiS5_zero V c _ _ ht]
    try exact Idealize.SL.BI.Entails.refl _
  · exact Phi_out5 V c t ht

/-- First step of a stream: the accumulator restarts from zero, so what it held before is not consulted. -/
theorem sound_body5_A (c : Dev nD) (t : Fin cfg5.N) (h0 : t.val % 16 = 0) :
    bodyPre5 V c t ⊢ wp frame (wpE (defs₀ (F := F)) Variants.none c none) Set.univ (bodyAt5 t) (fun _ => bodyPost5 V c t) := by
  have h15 : ¬t.val % 16 = 15 := by omega
  have hc0 : cond5_0 (grid5.coords t) := (hcond5_0 t).mpr h0
  have hc1 : ¬cond5_1 (grid5.coords t) := fun h => h15 ((hcond5_1 t).mp h)
  unfold bodyPre5 bodyPost5 bodyAt5
  simp only [before5_0, before5_1, before5_2, before5_3]
  rw [PhiS5_succ]
  rw [Dat.leavesExact_idle (dat5 V c) 4 t (idleAt5_4 t hc1) (noFlush5_4 t hc1)]
  refine (sep_mono_left (Phi_fgt5 V c t.castSucc)).trans ?_
  rw [PhiA5_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt5_first V c t h0).symm)
        · iexists _; isplitl [HS1]
          · unfold owns; iexists _; isplitr
            swap; · iexact HS1
            ipureintro; rfl
          · ipureintro; exact Steps.rowsOk_step hN5 (hblk5 V c) t _ (stepVal5 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body5_B (c : Dev nD) (t : Fin cfg5.N) (h0 : ¬t.val % 16 = 0) (h15 : ¬t.val % 16 = 15) :
    bodyPre5 V c t ⊢ wp frame (wpE (defs₀ (F := F)) Variants.none c none) Set.univ (bodyAt5 t) (fun _ => bodyPost5 V c t) := by
  have hz : t.val ≠ 0 := fun e => h0 (by rw [e])
  have hc0 : ¬cond5_0 (grid5.coords t) := fun h => h0 ((hcond5_0 t).mp h)
  have hc1 : ¬cond5_1 (grid5.coords t) := fun h => h15 ((hcond5_1 t).mp h)
  unfold bodyPre5 bodyPost5 bodyAt5
  simp only [before5_0, before5_1, before5_2, before5_3]
  rw [PhiS5_succ]
  rw [Dat.leavesExact_idle (dat5 V c) 4 t (idleAt5_4 t hc1) (noFlush5_4 t hc1)]
  rw [PhiS5_castSucc V c t, PhiS5_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) (accAt5 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt5_next V c t h0).symm)
        · iexists _; isplitl [HS1]
          · unfold owns; iexists _; isplitr
            swap; · iexact HS1
            ipureintro; rfl
          · ipureintro; exact Steps.rowsOk_step hN5 (hblk5 V c) t _ (stepVal5 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body5_C (c : Dev nD) (t : Fin cfg5.N) (h15 : t.val % 16 = 15) :
    bodyPre5 V c t ⊢ wp frame (wpE (defs₀ (F := F)) Variants.none c none) Set.univ (bodyAt5 t) (fun _ => bodyPost5 V c t) := by
  have h0 : ¬t.val % 16 = 0 := by omega
  have hz : t.val ≠ 0 := fun e => h0 (by rw [e])
  have hc0 : ¬cond5_0 (grid5.coords t) := fun h => h0 ((hcond5_0 t).mp h)
  have hc1 : cond5_1 (grid5.coords t) := (hcond5_1 t).mpr h15
  unfold bodyPre5 bodyPost5 bodyAt5
  simp only [before5_0, before5_1, before5_2, before5_3]
  rw [PhiS5_succ]
  rw [show (dat5 V c).leavesExact 4 t = owns (c : Thread nD τ) (ms5_4 t) fullShare ((dat5 V c).after 4 t) from by
      unfold Dat.leavesExact; rw [liveAt5_4 t hc1], after5_4]
  rw [PhiS5_castSucc V c t, PhiS5_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN5 (hblk5 V c) t _ (stepVal5 t) (fun r q => g (ix2 r q)) _ (fun _ => hg) (fun r q => hfLeft_C c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) (accAt5 V c (t.val - 1) (Nat.lt_of_le_of_lt (Nat.sub_le _ _) t.isLt)) g r q)
  iapply ((kernelRun_C c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) (accAt5 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt5_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt5
  rw [← hfull5_of_ok V c t h15 _ hok, accAt5_next V c t h0]

theorem sound_body5 (c : Dev nD) (t : Fin cfg5.N) :
    bodyPre5 V c t ⊢ wp frame (wpE (defs₀ (F := F)) Variants.none c none) Set.univ (bodyAt5 t) (fun _ => bodyPost5 V c t) := by
  by_cases h0 : t.val % 16 = 0
  · exact sound_body5_A V c t h0
  · by_cases h15 : t.val % 16 = 15
    · exact sound_body5_C V c t h15
    · exact sound_body5_B V c t h0 h15

theorem body_obligation5 (c : Dev nD) : BodyObligation (dat5 (F := F) V c) (defs₀ (F := F)) Variants.none () Set.univ :=
  fun t => by rw [bigSep_W5, bigSep_W5]; exact sound_body5 V c t

end Cert.Kernel.Gen

end
-- ==== Proof.KB.Run6.lean ====
import proofs.«426140_j3899830305296_1_alg».proof.Proof.KB.Body0
import proofs.«426140_j3899830305296_1_alg».proof.Proof.KB.Body1
import proofs.«426140_j3899830305296_1_alg».proof.Proof.KB.Body2
import proofs.«426140_j3899830305296_1_alg».proof.Proof.KB.Body3
import proofs.«426140_j3899830305296_1_alg».proof.Proof.KB.Body4
import proofs.«426140_j3899830305296_1_alg».proof.Proof.KB.Body5
import proofs.«426140_j3899830305296_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

abbrev W1 : Dev nD → Valuation τ sig (Elt F) := fun c => StableHlo.after hostOps0 (W0 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)

theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)

theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev Vin0 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

abbrev Vout0 : (c : Dev nD) → (b : Ref sig .tc) → Buf (Elt F) ((c : Thread nD τ).loc b) := fun c b => W4 m ρ c b

theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)

theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

abbrev Vin1 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

abbrev Vout1 : (c : Dev nD) → (b : Ref sig .tc) → Buf (Elt F) ((c : Thread nD τ).loc b) := fun c b => W6 m ρ c b

theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h

abbrev Vin2 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

abbrev Vout2 : (c : Dev nD) → (b : Ref sig .tc) → Buf (Elt F) ((c : Thread nD τ).loc b) := fun c b => W8 m ρ c b

theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)

theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

abbrev Vin3 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (Vin3 m ρ) c).arrAt w cfg3.N
theorem W10_arr (c : Dev nD) (w : Fin cfg3.W) :
    W10 m ρ c (Proc.devRef .tc (Pipeline.arrRef spec3 w)) = (dat3 (Vin3 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb

abbrev Vout3 : (c : Dev nD) → (b : Ref sig .tc) → Buf (Elt F) ((c : Thread nD τ).loc b) := fun c b => W10 m ρ c b

theorem hF3 (c : Dev nD) (w : Fin cfg3.W) : (dat3 (Vin3 m ρ) c).arrAt w cfg3.N = Vout3 m ρ c (Pipeline.arrRef spec3 w) :=
  (W10_arr m ρ c w).symm
theorem hrest3 (c : Dev nD) : ∀ b, b ∉ Finset.univ.image (Pipeline.arrRef spec3) → Vout3 m ρ c b = Vin3 m ρ c b :=
  fun b hb => W10_of_ne m ρ c b fun w e => hb (Finset.mem_image.mpr ⟨w, Finset.mem_univ _, e⟩)

abbrev W11 : Dev nD → Valuation τ sig (Elt F) := fun c => StableHlo.after hostOps4 (W10 m ρ c)

theorem W11_of (c : Dev nD) (r : Ref sig .tc) (h : r ∉ hostOps4_W) :
    W11 m ρ c (Proc.devRef .tc r) = W10 m ρ c (Proc.devRef .tc r) :=
  StableHlo.after_of_writes_sub hostOps4 _ hostOps4_writes h

abbrev Vin4 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => (dat4 (Vin4 m ρ) c).arrAt w cfg4.N
theorem W12_arr (c : Dev nD) (w : Fin cfg4.W) :
    W12 m ρ c (Proc.devRef .tc (Pipeline.arrRef spec4 w)) = (dat4 (Vin4 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb

abbrev Vout4 : (c : Dev nD) → (b : Ref sig .tc) → Buf (Elt F) ((c : Thread nD τ).loc b) := fun c b => W12 m ρ c b

theorem hF4 (c : Dev nD) (w : Fin cfg4.W) : (dat4 (Vin4 m ρ) c).arrAt w cfg4.N = Vout4 m ρ c (Pipeline.arrRef spec4 w) :=
  (W12_arr m ρ c w).symm
theorem hrest4 (c : Dev nD) : ∀ b, b ∉ Finset.univ.image (Pipeline.arrRef spec4) → Vout4 m ρ c b = Vin4 m ρ c b :=
  fun b hb => W12_of_ne m ρ c b fun w e => hb (Finset.mem_image.mpr ⟨w, Finset.mem_univ _, e⟩)

abbrev W13 : Dev nD → Valuation τ sig (Elt F) := fun c => StableHlo.after hostOps5 (W12 m ρ c)

theorem W13_of (c : Dev nD) (r : Ref sig .tc) (h : r ∉ hostOps5_W) :
    W13 m ρ c (Proc.devRef .tc r) = W12 m ρ c (Proc.devRef .tc r) :=
  StableHlo.after_of_writes_sub hostOps5 _ hostOps5_writes h

abbrev Vin5 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => (dat5 (Vin5 m ρ) c).arrAt w cfg5.N
theorem W14_arr (c : Dev nD) (w : Fin cfg5.W) :
    W14 m ρ c (Proc.devRef .tc (Pipeline.arrRef spec5 w)) = (dat5 (Vin5 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb

abbrev Vout5 : (c : Dev nD) → (b : Ref sig .tc) → Buf (Elt F) ((c : Thread nD τ).loc b) := fun c b => W14 m ρ c b

theorem hF5 (c : Dev nD) (w : Fin cfg5.W) : (dat5 (Vin5 m ρ) c).arrAt w cfg5.N = Vout5 m ρ c (Pipeline.arrRef spec5 w) :=
  (W14_arr m ρ c w).symm
theorem hrest5 (c : Dev nD) : ∀ b, b ∉ Finset.univ.image (Pipeline.arrRef spec5) → Vout5 m ρ c b = Vin5 m ρ c b :=
  fun b hb => W14_of_ne m ρ c b fun w e => hb (Finset.mem_image.mpr ⟨w, Finset.mem_univ _, e⟩)

abbrev W15 : Dev nD → Valuation τ sig (Elt F) := fun c => StableHlo.after hostOps6 (W14 m ρ c)

theorem W15_of (c : Dev nD) (r : Ref sig .tc) (h : r ∉ hostOps6_W) :
    W15 m ρ c (Proc.devRef .tc r) = W14 m ρ c (Proc.devRef .tc r) :=
  StableHlo.after_of_writes_sub hostOps6 _ hostOps6_writes h

abbrev W16 : Dev nD → Valuation τ sig (Elt F) := fun c => StableHlo.after hostOps6_1 (W15 m ρ c)

theorem W16_of (c : Dev nD) (r : Ref sig .tc) (h : r ∉ hostOps6_1_W) :
    W16 m ρ c (Proc.devRef .tc r) = W15 m ρ c (Proc.devRef .tc r) :=
  StableHlo.after_of_writes_sub hostOps6_1 _ hostOps6_1_writes h

abbrev W17 : Dev nD → Valuation τ sig (Elt F) := fun c => StableHlo.after hostOps6_2 (W16 m ρ c)

theorem W17_of (c : Dev nD) (r : Ref sig .tc) (h : r ∉ hostOps6_2_W) :
    W17 m ρ c (Proc.devRef .tc r) = W16 m ρ c (Proc.devRef .tc r) :=
  StableHlo.after_of_writes_sub hostOps6_2 _ hostOps6_2_writes h

abbrev W18 : Dev nD → Valuation τ sig (Elt F) := fun c => StableHlo.after hostOps6_3 (W17 m ρ c)

theorem W18_of (c : Dev nD) (r : Ref sig .tc) (h : r ∉ hostOps6_3_W) :
    W18 m ρ c (Proc.devRef .tc r) = W17 m ρ c (Proc.devRef .tc r) :=
  StableHlo.after_of_writes_sub hostOps6_3 _ hostOps6_3_writes h

abbrev W19 : Dev nD → Valuation τ sig (Elt F) := fun c => StableHlo.after hostOps6_4 (W18 m ρ c)

theorem W19_of (c : Dev nD) (r : Ref sig .tc) (h : r ∉ hostOps6_4_W) :
    W19 m ρ c (Proc.devRef .tc r) = W18 m ρ c (Proc.devRef .tc r) :=
  StableHlo.after_of_writes_sub hostOps6_4 _ hostOps6_4_writes h

abbrev W20 : Dev nD → Valuation τ sig (Elt F) := fun c => StableHlo.after hostOps6_5 (W19 m ρ c)

theorem W20_of (c : Dev nD) (r : Ref sig .tc) (h : r ∉ hostOps6_5_W) :
    W20 m ρ c (Proc.devRef .tc r) = W19 m ρ c (Proc.devRef .tc r) :=
  StableHlo.after_of_writes_sub hostOps6_5 _ hostOps6_5_writes h

abbrev W21 : Dev nD → Valuation τ sig (Elt F) := fun c => StableHlo.after hostOps6_6 (W20 m ρ c)

theorem W21_of (c : Dev nD) (r : Ref sig .tc) (h : r ∉ hostOps6_6_W) :
    W21 m ρ c (Proc.devRef .tc r) = W20 m ρ c (Proc.devRef .tc r) :=
  StableHlo.after_of_writes_sub hostOps6_6 _ hostOps6_6_writes h

abbrev W22 : Dev nD → Valuation τ sig (Elt F) := fun c => StableHlo.after hostOps6_7 (W21 m ρ c)

theorem W22_of (c : Dev nD) (r : Ref sig .tc) (h : r ∉ hostOps6_7_W) :
    W22 m ρ c (Proc.devRef .tc r) = W21 m ρ c (Proc.devRef .tc r) :=
  StableHlo.after_of_writes_sub hostOps6_7 _ hostOps6_7_writes h

abbrev W23 : Dev nD → Valuation τ sig (Elt F) := fun c => StableHlo.after hostOps6_8 (W22 m ρ c)

theorem W23_of (c : Dev nD) (r : Ref sig .tc) (h : r ∉ hostOps6_8_W) :
    W23 m ρ c (Proc.devRef .tc r) = W22 m ρ c (Proc.devRef .tc r) :=
  StableHlo.after_of_writes_sub hostOps6_8 _ hostOps6_8_writes h

theorem W23_of_untouched (c : Dev nD) (r : Ref sig .tc)
    (h0 : r ∉ hostOps0_W)
    (h1 : r ∉ hostOps0_1_W)
    (h2 : r ∉ hostOps0_2_W)
    (h3 : ∀ w, Pipeline.arrRef spec0 w ≠ r)
    (h4 : r ∉ hostOps1_W)
    (h5 : ∀ w, Pipeline.arrRef spec1 w ≠ r)
    (h6 : r ∉ hostOps2_W)
    (h7 : ∀ w, Pipeline.arrRef spec2 w ≠ r)
    (h8 : r ∉ hostOps3_W)
    (h9 : ∀ w, Pipeline.arrRef spec3 w ≠ r)
    (h10 : r ∉ hostOps4_W)
    (h11 : ∀ w, Pipeline.arrRef spec4 w ≠ r)
    (h12 : r ∉ hostOps5_W)
    (h13 : ∀ w, Pipeline.arrRef spec5 w ≠ r)
    (h14 : r ∉ hostOps6_W)
    (h15 : r ∉ hostOps6_1_W)
    (h16 : r ∉ hostOps6_2_W)
    (h17 : r ∉ hostOps6_3_W)
    (h18 : r ∉ hostOps6_4_W)
    (h19 : r ∉ hostOps6_5_W)
    (h20 : r ∉ hostOps6_6_W)
    (h21 : r ∉ hostOps6_7_W)
    (h22 : r ∉ hostOps6_8_W)
    : W23 m ρ c (Proc.devRef .tc r) = m ((c : Thread nD τ).loc r) :=
  (W23_of m ρ c r h22).trans <|
  (W22_of m ρ c r h21).trans <|
  (W21_of m ρ c r h20).trans <|
  (W20_of m ρ c r h19).trans <|
  (W19_of m ρ c r h18).trans <|
  (W18_of m ρ c r h17).trans <|
  (W17_of m ρ c r h16).trans <|
  (W16_of m ρ c r h15).trans <|
  (W15_of m ρ c r h14).trans <|
  (W14_of_ne m ρ c r h13).trans <|
  (W13_of m ρ c r h12).trans <|
  (W12_of_ne m ρ c r h11).trans <|
  (W11_of m ρ c r h10).trans <|
  (W10_of_ne m ρ c r h9).trans <|
  (W9_of m ρ c r h8).trans <|
  (W8_of_ne m ρ c r h7).trans <|
  (W7_of m ρ c r h6).trans <|
  (W6_of_ne m ρ c r h5).trans <|
  (W5_of m ρ c r h4).trans <|
  (W4_of_ne m ρ c r h3).trans <|
  (W3_of m ρ c r h2).trans <|
  (W2_of m ρ c r h1).trans <|
  (W1_of m ρ c r h0).trans <| rfl

theorem W23_main_arg0 (c : Dev nD) : W23 m ρ c (Proc.devRef .tc main_arg0) = m ((c : Thread nD τ).loc main_arg0) :=
  W23_of_untouched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg1 (c : Dev nD) : W23 m ρ c (Proc.devRef .tc main_arg1) = m ((c : Thread nD τ).loc main_arg1) :=
  W23_of_untouched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg2 (c : Dev nD) : W23 m ρ c (Proc.devRef .tc main_arg2) = m ((c : Thread nD τ).loc main_arg2) :=
  W23_of_untouched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg3 (c : Dev nD) : W23 m ρ c (Proc.devRef .tc main_arg3) = m ((c : Thread nD τ).loc main_arg3) :=
  W23_of_untouched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg4 (c : Dev nD) : W23 m ρ c (Proc.devRef .tc main_arg4) = m ((c : Thread nD τ).loc main_arg4) :=
  W23_of_untouched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg5 (c : Dev nD) : W23 m ρ c (Proc.devRef .tc main_arg5) = m ((c : Thread nD τ).loc main_arg5) :=
  W23_of_untouched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg6 (c : Dev nD) : W23 m ρ c (Proc.devRef .tc main_arg6) = m ((c : Thread nD τ).loc main_arg6) :=
  W23_of_untouched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg7 (c : Dev nD) : W23 m ρ c (Proc.devRef .tc main_arg7) = m ((c : Thread nD τ).loc main_arg7) :=
  W23_of_untouched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg8 (c : Dev nD) : W23 m ρ c (Proc.devRef .tc main_arg8) = m ((c : Thread nD τ).loc main_arg8) :=
  W23_of_untouched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg9 (c : Dev nD) : W23 m ρ c (Proc.devRef .tc main_arg9) = m ((c : Thread nD τ).loc main_arg9) :=
  W23_of_untouched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg10 (c : Dev nD) : W23 m ρ c (Proc.devRef .tc main_arg10) = m ((c : Thread nD τ).loc main_arg10) :=
  W23_of_untouched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg11 (c : Dev nD) : W23 m ρ c (Proc.devRef .tc main_arg11) = m ((c : Thread nD τ).loc main_arg11) :=
  W23_of_untouched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg12 (c : Dev nD) : W23 m ρ c (Proc.devRef .tc main_arg12) = m ((c : Thread nD τ).loc main_arg12) :=
  W23_of_untouched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg13 (c : Dev nD) : W23 m ρ c (Proc.devRef .tc main_arg13) = m ((c : Thread nD τ).loc main_arg13) :=
  W23_of_untouched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide)

def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W23 m ρ c) ∗ ∃ r, prngReg c r)

set_option backward.isDefEq.respectTransparency.types false in

def reg0 : Pipeline.RegionSeg (pcfgs (F := F)) adm (pdats m ρ) () defs₀ Variants.none L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => A_eq0 (Vin0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    refine BIBase.Entails.trans (hout0 (Vin0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ Variants.none L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    refine BIBase.Entails.trans (hout1 (Vin1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ Variants.none L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun w => A_eq2 (Vin2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m ρ) c)
    unfold Pipeline.ΦA
    iintro ⟨Hp, -, Hr⟩
    isplitl [Hr]; · iexact Hr
    iexact Hp
  hout c := by
    refine BIBase.Entails.trans (hout2 (Vin2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ Variants.none L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun w => A_eq3 (Vin3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m ρ) c)
    unfold Pipeline.ΦA
    iintro ⟨Hp, -, Hr⟩
    isplitl [Hr]; · iexact Hr
    iexact Hp
  hout c := by
    refine BIBase.Entails.trans (hout3 (Vin3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ Variants.none L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun w => A_eq4 (Vin4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Vin4 m ρ) c)
    unfold Pipeline.ΦA
    iintro ⟨Hp, -, Hr⟩
    isplitl [Hr]; · iexact Hr
    iexact Hp
  hout c := by
    refine BIBase.Entails.trans (hout4 (Vin4 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ Variants.none L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun w => A_eq5 (Vin5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Vin5 m ρ) c)
    unfold Pipeline.ΦA
    iintro ⟨Hp, -, Hr⟩
    isplitl [Hr]; · iexact Hr
    iexact Hp
  hout c := by
    refine BIBase.Entails.trans (hout5 (Vin5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs6 : List (Pipeline.Seg (pcfgs (F := F)) adm (pdats m ρ) () defs₀ Variants.none L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .host (hseg hostOps6_1 hostOps6_1_sub hostOps6_1_fresh (W15 m ρ)),
    .host (hseg hostOps6_2 hostOps6_2_sub hostOps6_2_fresh (W16 m ρ)),
    .host (hseg hostOps6_3 hostOps6_3_sub hostOps6_3_fresh (W17 m ρ)),
    .host (hseg hostOps6_4 hostOps6_4_sub hostOps6_4_fresh (W18 m ρ)),
    .host (hseg hostOps6_5 hostOps6_5_sub hostOps6_5_fresh (W19 m ρ)),
    .host (hseg hostOps6_6 hostOps6_6_sub hostOps6_6_fresh (W20 m ρ)),
    .host (hseg hostOps6_7 hostOps6_7_sub hostOps6_7_fresh (W21 m ρ)),
    .host (hseg hostOps6_8 hostOps6_8_sub hostOps6_8_fresh (W22 m ρ)) ]

theorem segs6_prog : (segs6 m ρ).map Pipeline.Seg.prog = [
    StableHlo.seq hostOps0,
    StableHlo.seq hostOps0_1,
    StableHlo.seq hostOps0_2,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    StableHlo.seq hostOps6_1,
    StableHlo.seq hostOps6_2,
    StableHlo.seq hostOps6_3,
    StableHlo.seq hostOps6_4,
    StableHlo.seq hostOps6_5,
    StableHlo.seq hostOps6_6,
    StableHlo.seq hostOps6_7,
    StableHlo.seq hostOps6_8 ] := rfl

theorem main_run (c : Dev nD) : main (F := F) c = Pipeline.Seg.run (segs6 m ρ) := by
  rw [main_chain c, Pipeline.Seg.run_eq_chain, segs6_prog]

set_option backward.isDefEq.respectTransparency.types false in

theorem run6 : θ_run defs (onTc (τ := τ) (main (F := F))) ⟨m, fun _ => 0, ρ⟩ (fun r => ∀ c : Dev nD,
      r.2.mem ((c.tc : Thread nD τ).loc main_v92) = W23 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ Variants.none L lv m ρ main (segs6 m ρ)
    (fun c Q => by rw [main_run m ρ c])
    (by simp only [segs6, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m ρ c) ∗ R c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v92 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c)⟩)

theorem frame6 : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (run6 m ρ).mono fun r h c => (h c).2

end Cert.Kernel.Gen

end
-- ==== Proof.KI.Shared0.lean ====
import proofs.«426140_j3899830305296_1_alg».proof.Proof.Gen.KernelIdeal.Launch
import proofs.«426140_j3899830305296_1_alg».proof.Proof.Gen.KernelIdeal.Skeleton
import proofs.«426140_j3899830305296_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem idleAt0_4 : ∀ t : Fin cfg0.N, ¬cond0_1 (grid0.coords t) → cfg0.idle 4 (grid0.coords t) = true := by decide +kernel
theorem liveAt0_4 : ∀ t : Fin cfg0.N, cond0_1 (grid0.coords t) → cfg0.idle 4 (grid0.coords t) = false := by decide +kernel
theorem noFlush0_4 : ∀ t : Fin cfg0.N, ¬cond0_1 (grid0.coords t) → (cfg0.win 4).flush t = false := by decide +kernel

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x512 .f32 := win0_4.stage (cfg0.slots t 4)
abbrev hs0_4 (t : Fin cfg0.N) : (ms0_4 t).IsWhole := hstage0_4 ((cfg0.slots t 4).cast nbuf0_4)

abbrev scM0_0 : Memref sig .tc .vmem S4096x512 .f32 := Memref.whole cc0_scratch0
abbrev scM0_1 : Memref sig .tc .vmem S4096x512 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Gen

end
-- ==== Proof.KI.Data0.lean ====
import proofs.«426140_j3899830305296_1_alg».proof.Proof.KI.Shared0
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S1x256x512 .f32 := iblk0 V c 0 t
abbrev ablk0 (c : Dev nD) (t : Fin cfg0.N) : Vec F S1x4096x256 .bf16 := iblk0 V c 1 t
abbrev wblk0 (c : Dev nD) (t : Fin cfg0.N) : Vec F S512x512 .f32 := iblk0 V c 2 t
abbrev bblk0 (c : Dev nD) (t : Fin cfg0.N) : Vec F S1x512 .f32 := iblk0 V c 3 t

theorem hN0 : cfg0.N = 32 := N_0

/-- One reduction step on the accumulator: prev + A[:, slab k] · relu(x[slab k]·W + b). -/
abbrev step0 (c : Dev nD) (t : Fin cfg0.N) (prev : Vec F S4096x512 .f32) : Vec F S4096x512 .f32 :=
  k0_pay5 (xblk0 V c t) (wblk0 V c t) (bblk0 V c t) prev (ablk0 V c t)

abbrev accAt0 (c : Dev nD) : (n : ℕ) → n < cfg0.N → Vec F S4096x512 .f32 :=
  Steps.accAt (step0 V c) (k0_pay2 (F := F))

theorem accAt0_first (c : Dev nD) (t : Fin cfg0.N) (h : t.val % 16 = 0) :
    accAt0 V c t.val t.isLt = step0 V c t (k0_pay2 (F := F)) := Steps.accAt_first _ _ t h

theorem accAt0_next (c : Dev nD) (t : Fin cfg0.N) (h : ¬t.val % 16 = 0) :
    accAt0 V c t.val t.isLt = step0 V c t (accAt0 V c (t.val - 1) (Nat.lt_of_le_of_lt (Nat.sub_le _ _) t.isLt)) :=
  Steps.accAt_next _ _ t h

abbrev hblk0 (c : Dev nD) (t : Fin cfg0.N) (p : Fin 256) (q : Fin 512) :=
  (k0_pay4 (xblk0 V c t) (wblk0 V c t) (bblk0 V c t) : Vec F S256x512 .f32) (ix2 p q)

/-- A stream's hidden state relu(x·W + b), all 4096 rows, assembled from the blocks its sixteen steps compute. -/
def hfull0 (c : Dev nD) (b : ℕ) (hb : b < 2) : Vec F S4096x512 .f32 :=
  fun idx => Steps.row hN0 (hblk0 V c) b hb ⟨(idx 0).val, (idx 0).isLt⟩ ⟨(idx 1).val, (idx 1).isLt⟩

/-- The output block: hidden state plus accumulator, each row divided by the larger of its norm and the floor. -/
def outAt0 (c : Dev nD) (t : Fin cfg0.N) : Vec F S1x4096x512 .f32 :=
  k0_pay1 (hfull0 V c (t.val / 16) (Steps.stream_lt hN0 t.val t.isLt)) (accAt0 V c t.val t.isLt)

def HfOk0 (c : Dev nD) (n : ℕ) (hn : n < cfg0.N) (g : Vec F S4096x512 .f32) : Prop :=
  Steps.RowsOk hN0 (hblk0 V c) n hn fun r q => g (ix2 r q)

/-- Between grid points: the accumulator holds the partial sum, and the hidden rows written so far are right. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn)
        ∗ (∃ g, owns (c : Thread nD τ) scM0_1 fullShare g ∗ ⌜HfOk0 V c n hn g⌝))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn)
        ∗ (∃ g, owns (c : Thread nD τ) scM0_1 fullShare g ∗ ⌜HfOk0 V c n hn g⌝))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega))
        ∗ (∃ g, owns (c : Thread nD τ) scM0_1 fullShare g ∗ ⌜HfOk0 V c (n - 1) (by omega) g⌝))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

end Cert.KernelIdeal.Gen

end
-- ==== Proof.KI.RunA.lean ====
import proofs.«426140_j3899830305296_1_alg».proof.Proof.KI.Shared0
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at a stream's first step, from whole buffers at named contents, with what its stores leave. -/
noncomputable def kernelRun_A (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : cond0_0 i) (hc1 : ¬cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) :
    Σ' (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.KernelIdeal.Gen

end
-- ==== Proof.KI.RunB.lean ====
import proofs.«426140_j3899830305296_1_alg».proof.Proof.KI.Shared0
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at a middle step, from whole buffers at named contents, with what its stores leave. -/
noncomputable def kernelRun_B (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : ¬cond0_0 i) (hc1 : ¬cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) :
    Σ' (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.KernelIdeal.Gen

end
-- ==== Proof.KI.RunC.lean ====
import proofs.«426140_j3899830305296_1_alg».proof.Proof.KI.Shared0
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at a stream's last step, from whole buffers at named contents, with what its stores leave. -/
noncomputable def kernelRun_C (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : ¬cond0_0 i) (hc1 : cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) :
    Σ' (L6 : List (View.Piece (Elt F) S1x4096x512 .f32)), Σ' (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [HS0]; · iexists _; iexact HS0
    iexact HS1

end Cert.KernelIdeal.Gen

end
-- ==== Proof.KI.Left.lean ====
import proofs.«426140_j3899830305296_1_alg».proof.Proof.KI.RunA
import proofs.«426140_j3899830305296_1_alg».proof.Proof.KI.RunB
import proofs.«426140_j3899830305296_1_alg».proof.Proof.KI.RunC
import Idealize.ShloMosaic.Lib.Pipeline.Value
import Idealize.ShloMosaic.Lib.WritesUnit
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem offs2_zero : (![0, 0] : Fin 2 → ℕ) = fun _ => 0 := funext fun a => by fin_cases a <;> rfl

theorem offs3_zero : (![0, 0, 0] : Fin 3 → ℕ) = fun _ => 0 := funext fun a => by fin_cases a <;> rfl

/-- After a step, rows [256·k, 256·k + 256) read the step's block and every other row reads what it held before. -/
theorem hfLeft_C (c : Dev nD) (i : grid0.Coords) (arg2 : Memref sig .tc .vmem S1x256x512 .f32) (harg2 : arg2.IsWhole) (arg3 : Memref sig .tc .vmem S1x4096x256 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1x4096x512 .f32) (harg6 : arg6.IsWhole) (arg7 : Memref sig .tc .vmem S4096x512 .f32) (harg7 : arg7.IsWhole) (arg8 : Memref sig .tc .vmem S4096x512 .f32) (harg8 : arg8.IsWhole) (hc0 : ¬cond0_0 i) (hc1 : cond0_1 i)
    (x0 : Vec F S1x256x512 .f32) (x1 : Vec F S1x4096x256 .bf16) (x2 : Vec F S512x512 .f32) (x3 : Vec F S1x512 .f32) (xs0 : Vec F S4096x512 .f32) (xs1 : Vec F S4096x512 .f32) (r : Fin 4096) (q : Fin 512) :
    arg8.view.read (Elt F) (arg8.view.writes (Elt F) (harg8.unread xs1) (kernelRun_C c i arg2 harg2 arg3 harg3 arg4 harg4 arg5 harg5 arg6 harg6 arg7 harg7 arg8 harg8 hc0 hc1 x0 x1 x2 x3 xs0 xs1).2.2.1) (ix2 r q)
      = if h : 256 * (i 1).val ≤ r.val ∧ r.val < 256 * (i 1).val + 256 then
          k0_pay4 x0 x2 x3 (ix2 ⟨r.val - 256 * (i 1).val, by omega⟩ q)
        else xs1 (ix2 r q) := by
  unfold kernelRun_C
  dsimp only
  try sl_unfold_run_names
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]
  by_cases h : 256 * (i 1).val ≤ r.val ∧ r.val < 256 * (i 1).val + 256
  · rw [dif_pos h]
    exact View.read_writes_cons_rows_of_mem arg8.view _ (k0_off1_inb i) _ [] (ix2 r q)
      (ix2 ⟨r.val - 256 * (i 1).val, by omega⟩ q) (k0_off1_eq i)
      (by show r.val = 256 * (i 1).val + (r.val - 256 * (i 1).val); omega) rfl
  · rw [dif_neg h]
    refine (View.read_writes_cons_rows_of_not_mem (W := 256) arg8.view _ (k0_off1_inb i) _ [] (ix2 r q)
      (k0_off1_eq i) rfl (by show r.val < 256 * (i 1).val ∨ 256 * (i 1).val + 256 ≤ r.val; omega)).trans ?_
    rw [View.writes_nil, harg8.read_unread]

variable {c : Dev nD} {i : grid0.Coords} {arg2 : Memref sig .tc .vmem S1x256x512 .f32} {harg2 : arg2.IsWhole}
  {arg3 : Memref sig .tc .vmem S1x4096x256 .bf16} {harg3 : arg3.IsWhole} {arg4 : Memref sig .tc .vmem S512x512 .f32} {harg4 : arg4.IsWhole}
  {arg5 : Memref sig .tc .vmem S1x512 .f32} {harg5 : arg5.IsWhole} {arg6 : Memref sig .tc .vmem S1x4096x512 .f32} {harg6 : arg6.IsWhole}
  {arg7 : Memref sig .tc .vmem S4096x512 .f32} {harg7 : arg7.IsWhole} {arg8 : Memref sig .tc .vmem S4096x512 .f32} {harg8 : arg8.IsWhole}
  {x0 : Vec F S1x256x512 .f32} {x1 : Vec F S1x4096x256 .bf16} {x2 : Vec F S512x512 .f32} {x3 : Vec F S1x512 .f32}
  {xs0 : Vec F S4096x512 .f32} {xs1 : Vec F S4096x512 .f32}

/-- The accumulator is stored whole, so it reads back as the last value stored. -/
theorem accLeft_A {hc0 : cond0_0 i} {hc1 : ¬cond0_1 i} :
    ∀ f, arg7.view.read (Elt F) (arg7.view.writes (Elt F) f (kernelRun_A c i arg2 harg2 arg3 harg3 arg4 harg4 arg5 harg5 arg6 harg6 arg7 harg7 arg8 harg8 hc0 hc1 x0 x1 x2 x3 xs0 xs1).1) = k0_pay5 x0 x2 x3 (k0_pay2 (F := F)) x1 := by
  intro f
  rw [View.read_writes_eq_canon _ _ _ (View.cover_of_tiledL (kernelRun_A c i arg2 harg2 arg3 harg3 arg4 harg4 arg5 harg5 arg6 harg6 arg7 harg7 arg8 harg8 hc0 hc1 x0 x1 x2 x3 xs0 xs1).1 S4096x512.size (by sl_kernel_rfl))]
  unfold kernelRun_A
  dsimp only
  sl_unfold_words
  rw [View.canon_cons_unit_zero (S := S4096x512) offs2_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero, View.readCov_unit_zero (S := S4096x512) _ offs2_zero]

theorem accLeft_B {hc0 : ¬cond0_0 i} {hc1 : ¬cond0_1 i} :
    ∀ f, arg7.view.read (Elt F) (arg7.view.writes (Elt F) f (kernelRun_B c i arg2 harg2 arg3 harg3 arg4 harg4 arg5 harg5 arg6 harg6 arg7 harg7 arg8 harg8 hc0 hc1 x0 x1 x2 x3 xs0 xs1).1) = k0_pay5 x0 x2 x3 xs0 x1 := by
  intro f
  rw [View.read_writes_eq_canon _ _ _ (View.cover_of_tiledL (kernelRun_B c i arg2 harg2 arg3 harg3 arg4 harg4 arg5 harg5 arg6 harg6 arg7 harg7 arg8 harg8 hc0 hc1 x0 x1 x2 x3 xs0 xs1).1 S4096x512.size (by sl_kernel_rfl))]
  unfold kernelRun_B
  dsimp only
  sl_unfold_words
  rw [View.canon_unit_zero offs2_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]

theorem accLeft_C {hc0 : ¬cond0_0 i} {hc1 : cond0_1 i} :
    ∀ f, arg7.view.read (Elt F) (arg7.view.writes (Elt F) f (kernelRun_C c i arg2 harg2 arg3 harg3 arg4 harg4 arg5 harg5 arg6 harg6 arg7 harg7 arg8 harg8 hc0 hc1 x0 x1 x2 x3 xs0 xs1).2.1) = k0_pay5 x0 x2 x3 xs0 x1 := by
  intro f
  rw [View.read_writes_eq_canon _ _ _ (View.cover_of_tiledL (kernelRun_C c i arg2 harg2 arg3 harg3 arg4 harg4 arg5 harg5 arg6 harg6 arg7 harg7 arg8 harg8 hc0 hc1 x0 x1 x2 x3 xs0 xs1).2.1 S4096x512.size (by sl_kernel_rfl))]
  unfold kernelRun_C
  dsimp only
  sl_unfold_words
  rw [View.canon_unit_zero offs2_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]

theorem hfLeft_A {hc0 : cond0_0 i} {hc1 : ¬cond0_1 i} (r : Fin 4096) (q : Fin 512) :
    arg8.view.read (Elt F) (arg8.view.writes (Elt F) (harg8.unread xs1) (kernelRun_A c i arg2 harg2 arg3 harg3 arg4 harg4 arg5 harg5 arg6 harg6 arg7 harg7 arg8 harg8 hc0 hc1 x0 x1 x2 x3 xs0 xs1).2.1) (ix2 r q)
      = if h : 256 * (i 1).val ≤ r.val ∧ r.val < 256 * (i 1).val + 256 then
          k0_pay4 x0 x2 x3 (ix2 ⟨r.val - 256 * (i 1).val, by omega⟩ q)
        else xs1 (ix2 r q) := by
  unfold kernelRun_A
  dsimp only
  try sl_unfold_run_names
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]
  by_cases h : 256 * (i 1).val ≤ r.val ∧ r.val < 256 * (i 1).val + 256
  · rw [dif_pos h]
    exact View.read_writes_cons_rows_of_mem arg8.view _ (k0_off1_inb i) _ [] (ix2 r q)
      (ix2 ⟨r.val - 256 * (i 1).val, by omega⟩ q) (k0_off1_eq i)
      (by show r.val = 256 * (i 1).val + (r.val - 256 * (i 1).val); omega) rfl
  · rw [dif_neg h]
    refine (View.read_writes_cons_rows_of_not_mem (W := 256) arg8.view _ (k0_off1_inb i) _ [] (ix2 r q)
      (k0_off1_eq i) rfl (by show r.val < 256 * (i 1).val ∨ 256 * (i 1).val + 256 ≤ r.val; omega)).trans ?_
    rw [View.writes_nil, harg8.read_unread]

theorem hfLeft_B {hc0 : ¬cond0_0 i} {hc1 : ¬cond0_1 i} (r : Fin 4096) (q : Fin 512) :
    arg8.view.read (Elt F) (arg8.view.writes (Elt F) (harg8.unread xs1) (kernelRun_B c i arg2 harg2 arg3 harg3 arg4 harg4 arg5 harg5 arg6 harg6 arg7 harg7 arg8 harg8 hc0 hc1 x0 x1 x2 x3 xs0 xs1).2.1) (ix2 r q)
      = if h : 256 * (i 1).val ≤ r.val ∧ r.val < 256 * (i 1).val + 256 then
          k0_pay4 x0 x2 x3 (ix2 ⟨r.val - 256 * (i 1).val, by omega⟩ q)
        else xs1 (ix2 r q) := by
  unfold kernelRun_B
  dsimp only
  try sl_unfold_run_names
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero]
  by_cases h : 256 * (i 1).val ≤ r.val ∧ r.val < 256 * (i 1).val + 256
  · rw [dif_pos h]
    exact View.read_writes_cons_rows_of_mem arg8.view _ (k0_off1_inb i) _ [] (ix2 r q)
      (ix2 ⟨r.val - 256 * (i 1).val, by omega⟩ q) (k0_off1_eq i)
      (by show r.val = 256 * (i 1).val + (r.val - 256 * (i 1).val); omega) rfl
  · rw [dif_neg h]
    refine (View.read_writes_cons_rows_of_not_mem (W := 256) arg8.view _ (k0_off1_inb i) _ [] (ix2 r q)
      (k0_off1_eq i) rfl (by show r.val < 256 * (i 1).val ∨ 256 * (i 1).val + 256 ≤ r.val; omega)).trans ?_
    rw [View.writes_nil, harg8.read_unread]

theorem outLeft_C {hc0 : ¬cond0_0 i} {hc1 : cond0_1 i} :
    ∀ f, arg6.view.read (Elt F) (arg6.view.writes (Elt F) f (kernelRun_C c i arg2 harg2 arg3 harg3 arg4 harg4 arg5 harg5 arg6 harg6 arg7 harg7 arg8 harg8 hc0 hc1 x0 x1 x2 x3 xs0 xs1).1)
      = k0_pay1 (arg8.view.read (Elt F) (arg8.view.writes (Elt F) (harg8.unread xs1) (kernelRun_C c i arg2 harg2 arg3 harg3 arg4 harg4 arg5 harg5 arg6 harg6 arg7 harg7 arg8 harg8 hc0 hc1 x0 x1 x2 x3 xs0 xs1).2.2.1)) (k0_pay5 x0 x2 x3 xs0 x1) := by
  intro f
  rw [View.read_writes_eq_canon _ _ _ (View.cover_of_tiledL (kernelRun_C c i arg2 harg2 arg3 harg3 arg4 harg4 arg5 harg5 arg6 harg6 arg7 harg7 arg8 harg8 hc0 hc1 x0 x1 x2 x3 xs0 xs1).1 S1x4096x512.size (by sl_kernel_rfl))]
  unfold kernelRun_C
  dsimp only
  sl_unfold_words
  rw [View.canon_unit_zero (S := S1x4096x512) offs3_zero]
  simp only [View.readAt_eq_ld, harg2.read_unread, harg3.read_unread, harg4.read_unread, harg5.read_unread, harg7.read_unread,
    View.ld_unit_zero (S := S1x256x512) offs3_zero, View.ld_unit_zero (S := S1x4096x256) offs3_zero, View.ld_unit_zero (S := S512x512) offs2_zero,
    View.ld_unit_zero (S := S1x512) offs2_zero, View.ld_unit_zero (S := S4096x512) offs2_zero, View.readCov_unit_zero (S := S4096x512) _ offs2_zero]

end Cert.KernelIdeal.Gen

end
-- ==== Proof.KI.Body0.lean ====
import proofs.«426140_j3899830305296_1_alg».proof.Proof.KI.Data0
import proofs.«426140_j3899830305296_1_alg».proof.Proof.KI.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem stepVal0 : ∀ t : Fin cfg0.N, ((grid0.coords t) 1).val = t.val % 16 :=
  (by decide +kernel : ∀ t : Fin grid0.N, ((grid0.coords t) 1).val = t.val % 16)

theorem hfull0_of_ok (c : Dev nD) (t : Fin cfg0.N) (h15 : t.val % 16 = 15) (g : Vec F S4096x512 .f32)
    (hok : HfOk0 V c t.val t.isLt g) : g = hfull0 V c (t.val / 16) (Steps.stream_lt hN0 t.val t.isLt) :=
  funext fun idx => (congrArg g (eq_ix2 idx)).trans
    (Steps.rows_of_ok hN0 (hblk0 V c) t h15 _ hok ⟨(idx 0).val, (idx 0).isLt⟩ ⟨(idx 1).val, (idx 1).isLt⟩)

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout0 (c : Dev nD) : (dat0 V c).Φ (Fin.last cfg0.N) ⊢ Pipeline.ΦA spec0 c :=
  Phi_out0 V c _ (by rw [Fin.val_last]; have : cfg0.N = 32 := N_0; omega)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop(PhiS0 V c (t.val + 1) t.isLt ∗ (dat0 V c).owesAt () t.castSucc
    ∗ owns (c : Thread nD τ) (ms0_0 t) fullShare (xblk0 V c t)
    ∗ owns (c : Thread nD τ) (ms0_1 t) fullShare (ablk0 V c t)
    ∗ owns (c : Thread nD τ) (ms0_2 t) fullShare (wblk0 V c t)
    ∗ owns (c : Thread nD τ) (ms0_3 t) fullShare (bblk0 V c t)
    ∗ (dat0 V c).leavesExact 4 t)

theorem Phi_fgt0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
    try exact Idealize.SL.BI.Entails.refl _
  · exact Phi_out0 V c t ht

/-- First step of a stream: the accumulator restarts from zero, so what it held before is not consulted. -/
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  have h15 : ¬t.val % 16 = 15 := by omega
  have hc0 : cond0_0 (grid0.coords t) := (hcond0_0 t).mpr h0
  have hc1 : ¬cond0_1 (grid0.coords t) := fun h => h15 ((hcond0_1 t).mp h)
  unfold bodyPre0 bodyPost0 bodyAt0
  simp only [before0_0, before0_1, before0_2, before0_3]
  rw [PhiS0_succ]
  rw [Dat.leavesExact_idle (dat0 V c) 4 t (idleAt0_4 t hc1) (noFlush0_4 t hc1)]
  refine (sep_mono_left (Phi_fgt0 V c t.castSucc)).trans ?_
  rw [PhiA0_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt0_first V c t h0).symm)
        · iexists _; isplitl [HS1]
          · unfold owns; iexists _; isplitr
            swap; · iexact HS1
            ipureintro; rfl
          · ipureintro; exact Steps.rowsOk_step hN0 (hblk0 V c) t _ (stepVal0 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body0_B (c : Dev nD) (t : Fin cfg0.N) (h0 : ¬t.val % 16 = 0) (h15 : ¬t.val % 16 = 15) :
    bodyPre0 V c t ⊢ wp frame (wpE (defs₀ (F := F)) Variants.none c none) Set.univ (bodyAt0 t) (fun _ => bodyPost0 V c t) := by
  have hz : t.val ≠ 0 := fun e => h0 (by rw [e])
  have hc0 : ¬cond0_0 (grid0.coords t) := fun h => h0 ((hcond0_0 t).mp h)
  have hc1 : ¬cond0_1 (grid0.coords t) := fun h => h15 ((hcond0_1 t).mp h)
  unfold bodyPre0 bodyPost0 bodyAt0
  simp only [before0_0, before0_1, before0_2, before0_3]
  rw [PhiS0_succ]
  rw [Dat.leavesExact_idle (dat0 V c) 4 t (idleAt0_4 t hc1) (noFlush0_4 t hc1)]
  rw [PhiS0_castSucc V c t, PhiS0_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) (accAt0 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt0_next V c t h0).symm)
        · iexists _; isplitl [HS1]
          · unfold owns; iexists _; isplitr
            swap; · iexact HS1
            ipureintro; rfl
          · ipureintro; exact Steps.rowsOk_step hN0 (hblk0 V c) t _ (stepVal0 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body0_C (c : Dev nD) (t : Fin cfg0.N) (h15 : t.val % 16 = 15) :
    bodyPre0 V c t ⊢ wp frame (wpE (defs₀ (F := F)) Variants.none c none) Set.univ (bodyAt0 t) (fun _ => bodyPost0 V c t) := by
  have h0 : ¬t.val % 16 = 0 := by omega
  have hz : t.val ≠ 0 := fun e => h0 (by rw [e])
  have hc0 : ¬cond0_0 (grid0.coords t) := fun h => h0 ((hcond0_0 t).mp h)
  have hc1 : cond0_1 (grid0.coords t) := (hcond0_1 t).mpr h15
  unfold bodyPre0 bodyPost0 bodyAt0
  simp only [before0_0, before0_1, before0_2, before0_3]
  rw [PhiS0_succ]
  rw [show (dat0 V c).leavesExact 4 t = owns (c : Thread nD τ) (ms0_4 t) fullShare ((dat0 V c).after 4 t) from by
      unfold Dat.leavesExact; rw [liveAt0_4 t hc1], after0_4]
  rw [PhiS0_castSucc V c t, PhiS0_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN0 (hblk0 V c) t _ (stepVal0 t) (fun r q => g (ix2 r q)) _ (fun _ => hg) (fun r q => hfLeft_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) (accAt0 V c (t.val - 1) (Nat.lt_of_le_of_lt (Nat.sub_le _ _) t.isLt)) g r q)
  iapply ((kernelRun_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk0 V c t) (ablk0 V c t) (wblk0 V c t) (bblk0 V c t) (accAt0 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt0_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt0
  rw [← hfull0_of_ok V c t h15 _ hok, accAt0_next V c t h0]

theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h15 : t.val % 16 = 15
    · exact sound_body0_C V c t h15
    · exact sound_body0_B V c t h0 h15

theorem body_obligation0 (c : Dev nD) : BodyObligation (dat0 (F := F) V c) (defs₀ (F := F)) Variants.none () Set.univ :=
  fun t => by rw [bigSep_W0, bigSep_W0]; exact sound_body0 V c t

end Cert.KernelIdeal.Gen

end
-- ==== Proof.KI.Shared1.lean ====
import proofs.«426140_j3899830305296_1_alg».proof.Proof.Gen.KernelIdeal.Launch
import proofs.«426140_j3899830305296_1_alg».proof.Proof.Gen.KernelIdeal.Skeleton
import proofs.«426140_j3899830305296_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem idleAt1_4 : ∀ t : Fin cfg1.N, ¬cond1_1 (grid1.coords t) → cfg1.idle 4 (grid1.coords t) = true := by decide +kernel
theorem liveAt1_4 : ∀ t : Fin cfg1.N, cond1_1 (grid1.coords t) → cfg1.idle 4 (grid1.coords t) = false := by decide +kernel
theorem noFlush1_4 : ∀ t : Fin cfg1.N, ¬cond1_1 (grid1.coords t) → (cfg1.win 4).flush t = false := by decide +kernel

abbrev ms1_0 (t : Fin cfg1.N) : Memref sig .tc .vmem S1x256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096x512 .f32 := win1_4.stage (cfg1.slots t 4)
abbrev hs1_4 (t : Fin cfg1.N) : (ms1_4 t).IsWhole := hstage1_4 ((cfg1.slots t 4).cast nbuf1_4)

abbrev scM1_0 : Memref sig .tc .vmem S4096x512 .f32 := Memref.whole cc1_scratch0
abbrev scM1_1 : Memref sig .tc .vmem S4096x512 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Gen

end
-- ==== Proof.KI.Data1.lean ====
import proofs.«426140_j3899830305296_1_alg».proof.Proof.KI.Shared1
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S1x256x512 .f32 := iblk1 V c 0 t
abbrev ablk1 (c : Dev nD) (t : Fin cfg1.N) : Vec F S1x4096x256 .bf16 := iblk1 V c 1 t
abbrev wblk1 (c : Dev nD) (t : Fin cfg1.N) : Vec F S512x512 .f32 := iblk1 V c 2 t
abbrev bblk1 (c : Dev nD) (t : Fin cfg1.N) : Vec F S1x512 .f32 := iblk1 V c 3 t

theorem hN1 : cfg1.N = 32 := N_1

/-- One reduction step on the accumulator: prev + A[:, slab k] · relu(x[slab k]·W + b). -/
abbrev step1 (c : Dev nD) (t : Fin cfg1.N) (prev : Vec F S4096x512 .f32) : Vec F S4096x512 .f32 :=
  k0_pay5 (xblk1 V c t) (wblk1 V c t) (bblk1 V c t) prev (ablk1 V c t)

abbrev accAt1 (c : Dev nD) : (n : ℕ) → n < cfg1.N → Vec F S4096x512 .f32 :=
  Steps.accAt (step1 V c) (k0_pay2 (F := F))

theorem accAt1_first (c : Dev nD) (t : Fin cfg1.N) (h : t.val % 16 = 0) :
    accAt1 V c t.val t.isLt = step1 V c t (k0_pay2 (F := F)) := Steps.accAt_first _ _ t h

theorem accAt1_next (c : Dev nD) (t : Fin cfg1.N) (h : ¬t.val % 16 = 0) :
    accAt1 V c t.val t.isLt = step1 V c t (accAt1 V c (t.val - 1) (Nat.lt_of_le_of_lt (Nat.sub_le _ _) t.isLt)) :=
  Steps.accAt_next _ _ t h

abbrev hblk1 (c : Dev nD) (t : Fin cfg1.N) (p : Fin 256) (q : Fin 512) :=
  (k0_pay4 (xblk1 V c t) (wblk1 V c t) (bblk1 V c t) : Vec F S256x512 .f32) (ix2 p q)

/-- A stream's hidden state relu(x·W + b), all 4096 rows, assembled from the blocks its sixteen steps compute. -/
def hfull1 (c : Dev nD) (b : ℕ) (hb : b < 2) : Vec F S4096x512 .f32 :=
  fun idx => Steps.row hN1 (hblk1 V c) b hb ⟨(idx 0).val, (idx 0).isLt⟩ ⟨(idx 1).val, (idx 1).isLt⟩

/-- The output block: hidden state plus accumulator, each row divided by the larger of its norm and the floor. -/
def outAt1 (c : Dev nD) (t : Fin cfg1.N) : Vec F S1x4096x512 .f32 :=
  k0_pay1 (hfull1 V c (t.val / 16) (Steps.stream_lt hN1 t.val t.isLt)) (accAt1 V c t.val t.isLt)

def HfOk1 (c : Dev nD) (n : ℕ) (hn : n < cfg1.N) (g : Vec F S4096x512 .f32) : Prop :=
  Steps.RowsOk hN1 (hblk1 V c) n hn fun r q => g (ix2 r q)

/-- Between grid points: the accumulator holds the partial sum, and the hidden rows written so far are right. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn)
        ∗ (∃ g, owns (c : Thread nD τ) scM1_1 fullShare g ∗ ⌜HfOk1 V c n hn g⌝))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn)
        ∗ (∃ g, owns (c : Thread nD τ) scM1_1 fullShare g ∗ ⌜HfOk1 V c n hn g⌝))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega))
        ∗ (∃ g, owns (c : Thread nD τ) scM1_1 fullShare g ∗ ⌜HfOk1 V c (n - 1) (by omega) g⌝))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

end Cert.KernelIdeal.Gen

end
-- ==== Proof.KI.Body1.lean ====
import proofs.«426140_j3899830305296_1_alg».proof.Proof.KI.Data1
import proofs.«426140_j3899830305296_1_alg».proof.Proof.KI.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem stepVal1 : ∀ t : Fin cfg1.N, ((grid1.coords t) 1).val = t.val % 16 :=
  (by decide +kernel : ∀ t : Fin grid1.N, ((grid1.coords t) 1).val = t.val % 16)

theorem hfull1_of_ok (c : Dev nD) (t : Fin cfg1.N) (h15 : t.val % 16 = 15) (g : Vec F S4096x512 .f32)
    (hok : HfOk1 V c t.val t.isLt g) : g = hfull1 V c (t.val / 16) (Steps.stream_lt hN1 t.val t.isLt) :=
  funext fun idx => (congrArg g (eq_ix2 idx)).trans
    (Steps.rows_of_ok hN1 (hblk1 V c) t h15 _ hok ⟨(idx 0).val, (idx 0).isLt⟩ ⟨(idx 1).val, (idx 1).isLt⟩)

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout1 (c : Dev nD) : (dat1 V c).Φ (Fin.last cfg1.N) ⊢ Pipeline.ΦA spec1 c :=
  Phi_out1 V c _ (by rw [Fin.val_last]; have : cfg1.N = 32 := N_1; omega)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop(PhiS1 V c (t.val + 1) t.isLt ∗ (dat1 V c).owesAt () t.castSucc
    ∗ owns (c : Thread nD τ) (ms1_0 t) fullShare (xblk1 V c t)
    ∗ owns (c : Thread nD τ) (ms1_1 t) fullShare (ablk1 V c t)
    ∗ owns (c : Thread nD τ) (ms1_2 t) fullShare (wblk1 V c t)
    ∗ owns (c : Thread nD τ) (ms1_3 t) fullShare (bblk1 V c t)
    ∗ (dat1 V c).leavesExact 4 t)

theorem Phi_fgt1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
    try exact Idealize.SL.BI.Entails.refl _
  · exact Phi_out1 V c t ht

/-- First step of a stream: the accumulator restarts from zero, so what it held before is not consulted. -/
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  have h15 : ¬t.val % 16 = 15 := by omega
  have hc0 : cond1_0 (grid1.coords t) := (hcond1_0 t).mpr h0
  have hc1 : ¬cond1_1 (grid1.coords t) := fun h => h15 ((hcond1_1 t).mp h)
  unfold bodyPre1 bodyPost1 bodyAt1
  simp only [before1_0, before1_1, before1_2, before1_3]
  rw [PhiS1_succ]
  rw [Dat.leavesExact_idle (dat1 V c) 4 t (idleAt1_4 t hc1) (noFlush1_4 t hc1)]
  refine (sep_mono_left (Phi_fgt1 V c t.castSucc)).trans ?_
  rw [PhiA1_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt1_first V c t h0).symm)
        · iexists _; isplitl [HS1]
          · unfold owns; iexists _; isplitr
            swap; · iexact HS1
            ipureintro; rfl
          · ipureintro; exact Steps.rowsOk_step hN1 (hblk1 V c) t _ (stepVal1 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body1_B (c : Dev nD) (t : Fin cfg1.N) (h0 : ¬t.val % 16 = 0) (h15 : ¬t.val % 16 = 15) :
    bodyPre1 V c t ⊢ wp frame (wpE (defs₀ (F := F)) Variants.none c none) Set.univ (bodyAt1 t) (fun _ => bodyPost1 V c t) := by
  have hz : t.val ≠ 0 := fun e => h0 (by rw [e])
  have hc0 : ¬cond1_0 (grid1.coords t) := fun h => h0 ((hcond1_0 t).mp h)
  have hc1 : ¬cond1_1 (grid1.coords t) := fun h => h15 ((hcond1_1 t).mp h)
  unfold bodyPre1 bodyPost1 bodyAt1
  simp only [before1_0, before1_1, before1_2, before1_3]
  rw [PhiS1_succ]
  rw [Dat.leavesExact_idle (dat1 V c) 4 t (idleAt1_4 t hc1) (noFlush1_4 t hc1)]
  rw [PhiS1_castSucc V c t, PhiS1_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) (accAt1 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt1_next V c t h0).symm)
        · iexists _; isplitl [HS1]
          · unfold owns; iexists _; isplitr
            swap; · iexact HS1
            ipureintro; rfl
          · ipureintro; exact Steps.rowsOk_step hN1 (hblk1 V c) t _ (stepVal1 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body1_C (c : Dev nD) (t : Fin cfg1.N) (h15 : t.val % 16 = 15) :
    bodyPre1 V c t ⊢ wp frame (wpE (defs₀ (F := F)) Variants.none c none) Set.univ (bodyAt1 t) (fun _ => bodyPost1 V c t) := by
  have h0 : ¬t.val % 16 = 0 := by omega
  have hz : t.val ≠ 0 := fun e => h0 (by rw [e])
  have hc0 : ¬cond1_0 (grid1.coords t) := fun h => h0 ((hcond1_0 t).mp h)
  have hc1 : cond1_1 (grid1.coords t) := (hcond1_1 t).mpr h15
  unfold bodyPre1 bodyPost1 bodyAt1
  simp only [before1_0, before1_1, before1_2, before1_3]
  rw [PhiS1_succ]
  rw [show (dat1 V c).leavesExact 4 t = owns (c : Thread nD τ) (ms1_4 t) fullShare ((dat1 V c).after 4 t) from by
      unfold Dat.leavesExact; rw [liveAt1_4 t hc1], after1_4]
  rw [PhiS1_castSucc V c t, PhiS1_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN1 (hblk1 V c) t _ (stepVal1 t) (fun r q => g (ix2 r q)) _ (fun _ => hg) (fun r q => hfLeft_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) (accAt1 V c (t.val - 1) (Nat.lt_of_le_of_lt (Nat.sub_le _ _) t.isLt)) g r q)
  iapply ((kernelRun_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 (xblk1 V c t) (ablk1 V c t) (wblk1 V c t) (bblk1 V c t) (accAt1 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt1_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt1
  rw [← hfull1_of_ok V c t h15 _ hok, accAt1_next V c t h0]

theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h15 : t.val % 16 = 15
    · exact sound_body1_C V c t h15
    · exact sound_body1_B V c t h0 h15

theorem body_obligation1 (c : Dev nD) : BodyObligation (dat1 (F := F) V c) (defs₀ (F := F)) Variants.none () Set.univ :=
  fun t => by rw [bigSep_W1, bigSep_W1]; exact sound_body1 V c t

end Cert.KernelIdeal.Gen

end
-- ==== Proof.KI.Shared2.lean ====
import proofs.«426140_j3899830305296_1_alg».proof.Proof.Gen.KernelIdeal.Launch
import proofs.«426140_j3899830305296_1_alg».proof.Proof.Gen.KernelIdeal.Skeleton
import proofs.«426140_j3899830305296_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem idleAt2_4 : ∀ t : Fin cfg2.N, ¬cond2_1 (grid2.coords t) → cfg2.idle 4 (grid2.coords t) = true := by decide +kernel
theorem liveAt2_4 : ∀ t : Fin cfg2.N, cond2_1 (grid2.coords t) → cfg2.idle 4 (grid2.coords t) = false := by decide +kernel
theorem noFlush2_4 : ∀ t : Fin cfg2.N, ¬cond2_1 (grid2.coords t) → (cfg2.win 4).flush t = false := by decide +kernel

abbrev ms2_0 (t : Fin cfg2.N) : Memref sig .tc .vmem S1x256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x4096x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4096x512 .f32 := win2_4.stage (cfg2.slots t 4)
abbrev hs2_4 (t : Fin cfg2.N) : (ms2_4 t).IsWhole := hstage2_4 ((cfg2.slots t 4).cast nbuf2_4)

abbrev scM2_0 : Memref sig .tc .vmem S4096x512 .f32 := Memref.whole cc2_scratch0
abbrev scM2_1 : Memref sig .tc .vmem S4096x512 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Gen

end
-- ==== Proof.KI.Data2.lean ====
import proofs.«426140_j3899830305296_1_alg».proof.Proof.KI.Shared2
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S1x256x512 .f32 := iblk2 V c 0 t
abbrev ablk2 (c : Dev nD) (t : Fin cfg2.N) : Vec F S1x4096x256 .bf16 := iblk2 V c 1 t
abbrev wblk2 (c : Dev nD) (t : Fin cfg2.N) : Vec F S512x512 .f32 := iblk2 V c 2 t
abbrev bblk2 (c : Dev nD) (t : Fin cfg2.N) : Vec F S1x512 .f32 := iblk2 V c 3 t

theorem hN2 : cfg2.N = 32 := N_2

/-- One reduction step on the accumulator: prev + A[:, slab k] · relu(x[slab k]·W + b). -/
abbrev step2 (c : Dev nD) (t : Fin cfg2.N) (prev : Vec F S4096x512 .f32) : Vec F S4096x512 .f32 :=
  k0_pay5 (xblk2 V c t) (wblk2 V c t) (bblk2 V c t) prev (ablk2 V c t)

abbrev accAt2 (c : Dev nD) : (n : ℕ) → n < cfg2.N → Vec F S4096x512 .f32 :=
  Steps.accAt (step2 V c) (k0_pay2 (F := F))

theorem accAt2_first (c : Dev nD) (t : Fin cfg2.N) (h : t.val % 16 = 0) :
    accAt2 V c t.val t.isLt = step2 V c t (k0_pay2 (F := F)) := Steps.accAt_first _ _ t h

theorem accAt2_next (c : Dev nD) (t : Fin cfg2.N) (h : ¬t.val % 16 = 0) :
    accAt2 V c t.val t.isLt = step2 V c t (accAt2 V c (t.val - 1) (Nat.lt_of_le_of_lt (Nat.sub_le _ _) t.isLt)) :=
  Steps.accAt_next _ _ t h

abbrev hblk2 (c : Dev nD) (t : Fin cfg2.N) (p : Fin 256) (q : Fin 512) :=
  (k0_pay4 (xblk2 V c t) (wblk2 V c t) (bblk2 V c t) : Vec F S256x512 .f32) (ix2 p q)

/-- A stream's hidden state relu(x·W + b), all 4096 rows, assembled from the blocks its sixteen steps compute. -/
def hfull2 (c : Dev nD) (b : ℕ) (hb : b < 2) : Vec F S4096x512 .f32 :=
  fun idx => Steps.row hN2 (hblk2 V c) b hb ⟨(idx 0).val, (idx 0).isLt⟩ ⟨(idx 1).val, (idx 1).isLt⟩

/-- The output block: hidden state plus accumulator, each row divided by the larger of its norm and the floor. -/
def outAt2 (c : Dev nD) (t : Fin cfg2.N) : Vec F S1x4096x512 .f32 :=
  k0_pay1 (hfull2 V c (t.val / 16) (Steps.stream_lt hN2 t.val t.isLt)) (accAt2 V c t.val t.isLt)

def HfOk2 (c : Dev nD) (n : ℕ) (hn : n < cfg2.N) (g : Vec F S4096x512 .f32) : Prop :=
  Steps.RowsOk hN2 (hblk2 V c) n hn fun r q => g (ix2 r q)

/-- Between grid points: the accumulator holds the partial sum, and the hidden rows written so far are right. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn)
        ∗ (∃ g, owns (c : Thread nD τ) scM2_1 fullShare g ∗ ⌜HfOk2 V c n hn g⌝))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn)
        ∗ (∃ g, owns (c : Thread nD τ) scM2_1 fullShare g ∗ ⌜HfOk2 V c n hn g⌝))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega))
        ∗ (∃ g, owns (c : Thread nD τ) scM2_1 fullShare g ∗ ⌜HfOk2 V c (n - 1) (by omega) g⌝))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

end Cert.KernelIdeal.Gen

end
-- ==== Proof.KI.Body2.lean ====
import proofs.«426140_j3899830305296_1_alg».proof.Proof.KI.Data2
import proofs.«426140_j3899830305296_1_alg».proof.Proof.KI.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem stepVal2 : ∀ t : Fin cfg2.N, ((grid2.coords t) 1).val = t.val % 16 :=
  (by decide +kernel : ∀ t : Fin grid2.N, ((grid2.coords t) 1).val = t.val % 16)

theorem hfull2_of_ok (c : Dev nD) (t : Fin cfg2.N) (h15 : t.val % 16 = 15) (g : Vec F S4096x512 .f32)
    (hok : HfOk2 V c t.val t.isLt g) : g = hfull2 V c (t.val / 16) (Steps.stream_lt hN2 t.val t.isLt) :=
  funext fun idx => (congrArg g (eq_ix2 idx)).trans
    (Steps.rows_of_ok hN2 (hblk2 V c) t h15 _ hok ⟨(idx 0).val, (idx 0).isLt⟩ ⟨(idx 1).val, (idx 1).isLt⟩)

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout2 (c : Dev nD) : (dat2 V c).Φ (Fin.last cfg2.N) ⊢ Pipeline.ΦA spec2 c :=
  Phi_out2 V c _ (by rw [Fin.val_last]; have : cfg2.N = 32 := N_2; omega)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop(PhiS2 V c (t.val + 1) t.isLt ∗ (dat2 V c).owesAt () t.castSucc
    ∗ owns (c : Thread nD τ) (ms2_0 t) fullShare (xblk2 V c t)
    ∗ owns (c : Thread nD τ) (ms2_1 t) fullShare (ablk2 V c t)
    ∗ owns (c : Thread nD τ) (ms2_2 t) fullShare (wblk2 V c t)
    ∗ owns (c : Thread nD τ) (ms2_3 t) fullShare (bblk2 V c t)
    ∗ (dat2 V c).leavesExact 4 t)

theorem Phi_fgt2 (c : Dev nD) (t : Fin (cfg2.N + 1)) : (dat2 V c).Φ t ⊢ Pipeline.ΦA spec2 c := by
  by_cases ht : t.val = 0
  · rw [show (dat2 V c).Φ t = PhiS2 V c t.val (Nat.le_of_lt_succ t.isLt) from rfl, PhiS2_zero V c _ _ ht]
    try exact Idealize.SL.BI.Entails.refl _
  · exact Phi_out2 V c t ht

/-- First step of a stream: the accumulator restarts from zero, so what it held before is not consulted. -/
theorem sound_body2_A (c : Dev nD) (t : Fin cfg2.N) (h0 : t.val % 16 = 0) :
    bodyPre2 V c t ⊢ wp frame (wpE (defs₀ (F := F)) Variants.none c none) Set.univ (bodyAt2 t) (fun _ => bodyPost2 V c t) := by
  have h15 : ¬t.val % 16 = 15 := by omega
  have hc0 : cond2_0 (grid2.coords t) := (hcond2_0 t).mpr h0
  have hc1 : ¬cond2_1 (grid2.coords t) := fun h => h15 ((hcond2_1 t).mp h)
  unfold bodyPre2 bodyPost2 bodyAt2
  simp only [before2_0, before2_1, before2_2, before2_3]
  rw [PhiS2_succ]
  rw [Dat.leavesExact_idle (dat2 V c) 4 t (idleAt2_4 t hc1) (noFlush2_4 t hc1)]
  refine (sep_mono_left (Phi_fgt2 V c t.castSucc)).trans ?_
  rw [PhiA2_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt2_first V c t h0).symm)
        · iexists _; isplitl [HS1]
          · unfold owns; iexists _; isplitr
            swap; · iexact HS1
            ipureintro; rfl
          · ipureintro; exact Steps.rowsOk_step hN2 (hblk2 V c) t _ (stepVal2 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body2_B (c : Dev nD) (t : Fin cfg2.N) (h0 : ¬t.val % 16 = 0) (h15 : ¬t.val % 16 = 15) :
    bodyPre2 V c t ⊢ wp frame (wpE (defs₀ (F := F)) Variants.none c none) Set.univ (bodyAt2 t) (fun _ => bodyPost2 V c t) := by
  have hz : t.val ≠ 0 := fun e => h0 (by rw [e])
  have hc0 : ¬cond2_0 (grid2.coords t) := fun h => h0 ((hcond2_0 t).mp h)
  have hc1 : ¬cond2_1 (grid2.coords t) := fun h => h15 ((hcond2_1 t).mp h)
  unfold bodyPre2 bodyPost2 bodyAt2
  simp only [before2_0, before2_1, before2_2, before2_3]
  rw [PhiS2_succ]
  rw [Dat.leavesExact_idle (dat2 V c) 4 t (idleAt2_4 t hc1) (noFlush2_4 t hc1)]
  rw [PhiS2_castSucc V c t, PhiS2_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) (accAt2 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt2_next V c t h0).symm)
        · iexists _; isplitl [HS1]
          · unfold owns; iexists _; isplitr
            swap; · iexact HS1
            ipureintro; rfl
          · ipureintro; exact Steps.rowsOk_step hN2 (hblk2 V c) t _ (stepVal2 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body2_C (c : Dev nD) (t : Fin cfg2.N) (h15 : t.val % 16 = 15) :
    bodyPre2 V c t ⊢ wp frame (wpE (defs₀ (F := F)) Variants.none c none) Set.univ (bodyAt2 t) (fun _ => bodyPost2 V c t) := by
  have h0 : ¬t.val % 16 = 0 := by omega
  have hz : t.val ≠ 0 := fun e => h0 (by rw [e])
  have hc0 : ¬cond2_0 (grid2.coords t) := fun h => h0 ((hcond2_0 t).mp h)
  have hc1 : cond2_1 (grid2.coords t) := (hcond2_1 t).mpr h15
  unfold bodyPre2 bodyPost2 bodyAt2
  simp only [before2_0, before2_1, before2_2, before2_3]
  rw [PhiS2_succ]
  rw [show (dat2 V c).leavesExact 4 t = owns (c : Thread nD τ) (ms2_4 t) fullShare ((dat2 V c).after 4 t) from by
      unfold Dat.leavesExact; rw [liveAt2_4 t hc1], after2_4]
  rw [PhiS2_castSucc V c t, PhiS2_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN2 (hblk2 V c) t _ (stepVal2 t) (fun r q => g (ix2 r q)) _ (fun _ => hg) (fun r q => hfLeft_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) (accAt2 V c (t.val - 1) (Nat.lt_of_le_of_lt (Nat.sub_le _ _) t.isLt)) g r q)
  iapply ((kernelRun_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hc0 hc1 (xblk2 V c t) (ablk2 V c t) (wblk2 V c t) (bblk2 V c t) (accAt2 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt2_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt2
  rw [← hfull2_of_ok V c t h15 _ hok, accAt2_next V c t h0]

theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 16 = 0
  · exact sound_body2_A V c t h0
  · by_cases h15 : t.val % 16 = 15
    · exact sound_body2_C V c t h15
    · exact sound_body2_B V c t h0 h15

theorem body_obligation2 (c : Dev nD) : BodyObligation (dat2 (F := F) V c) (defs₀ (F := F)) Variants.none () Set.univ :=
  fun t => by rw [bigSep_W2, bigSep_W2]; exact sound_body2 V c t

end Cert.KernelIdeal.Gen

end
-- ==== Proof.KI.Shared3.lean ====
import proofs.«426140_j3899830305296_1_alg».proof.Proof.Gen.KernelIdeal.Launch
import proofs.«426140_j3899830305296_1_alg».proof.Proof.Gen.KernelIdeal.Skeleton
import proofs.«426140_j3899830305296_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem idleAt3_4 : ∀ t : Fin cfg3.N, ¬cond3_1 (grid3.coords t) → cfg3.idle 4 (grid3.coords t) = true := by decide +kernel
theorem liveAt3_4 : ∀ t : Fin cfg3.N, cond3_1 (grid3.coords t) → cfg3.idle 4 (grid3.coords t) = false := by decide +kernel
theorem noFlush3_4 : ∀ t : Fin cfg3.N, ¬cond3_1 (grid3.coords t) → (cfg3.win 4).flush t = false := by decide +kernel

abbrev ms3_0 (t : Fin cfg3.N) : Memref sig .tc .vmem S1x256x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x4096x512 .f32 := win3_4.stage (cfg3.slots t 4)
abbrev hs3_4 (t : Fin cfg3.N) : (ms3_4 t).IsWhole := hstage3_4 ((cfg3.slots t 4).cast nbuf3_4)

abbrev scM3_0 : Memref sig .tc .vmem S4096x512 .f32 := Memref.whole cc3_scratch0
abbrev scM3_1 : Memref sig .tc .vmem S4096x512 .f32 := Memref.whole cc3_scratch1

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Gen

end
-- ==== Proof.KI.Data3.lean ====
import proofs.«426140_j3899830305296_1_alg».proof.Proof.KI.Shared3
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 (c : Dev nD) (t : Fin cfg3.N) : Vec F S1x256x512 .f32 := iblk3 V c 0 t
abbrev ablk3 (c : Dev nD) (t : Fin cfg3.N) : Vec F S1x4096x256 .bf16 := iblk3 V c 1 t
abbrev wblk3 (c : Dev nD) (t : Fin cfg3.N) : Vec F S512x512 .f32 := iblk3 V c 2 t
abbrev bblk3 (c : Dev nD) (t : Fin cfg3.N) : Vec F S1x512 .f32 := iblk3 V c 3 t

theorem hN3 : cfg3.N = 32 := N_3

/-- One reduction step on the accumulator: prev + A[:, slab k] · relu(x[slab k]·W + b). -/
abbrev step3 (c : Dev nD) (t : Fin cfg3.N) (prev : Vec F S4096x512 .f32) : Vec F S4096x512 .f32 :=
  k0_pay5 (xblk3 V c t) (wblk3 V c t) (bblk3 V c t) prev (ablk3 V c t)

abbrev accAt3 (c : Dev nD) : (n : ℕ) → n < cfg3.N → Vec F S4096x512 .f32 :=
  Steps.accAt (step3 V c) (k0_pay2 (F := F))

theorem accAt3_first (c : Dev nD) (t : Fin cfg3.N) (h : t.val % 16 = 0) :
    accAt3 V c t.val t.isLt = step3 V c t (k0_pay2 (F := F)) := Steps.accAt_first _ _ t h

theorem accAt3_next (c : Dev nD) (t : Fin cfg3.N) (h : ¬t.val % 16 = 0) :
    accAt3 V c t.val t.isLt = step3 V c t (accAt3 V c (t.val - 1) (Nat.lt_of_le_of_lt (Nat.sub_le _ _) t.isLt)) :=
  Steps.accAt_next _ _ t h

abbrev hblk3 (c : Dev nD) (t : Fin cfg3.N) (p : Fin 256) (q : Fin 512) :=
  (k0_pay4 (xblk3 V c t) (wblk3 V c t) (bblk3 V c t) : Vec F S256x512 .f32) (ix2 p q)

/-- A stream's hidden state relu(x·W + b), all 4096 rows, assembled from the blocks its sixteen steps compute. -/
def hfull3 (c : Dev nD) (b : ℕ) (hb : b < 2) : Vec F S4096x512 .f32 :=
  fun idx => Steps.row hN3 (hblk3 V c) b hb ⟨(idx 0).val, (idx 0).isLt⟩ ⟨(idx 1).val, (idx 1).isLt⟩

/-- The output block: hidden state plus accumulator, each row divided by the larger of its norm and the floor. -/
def outAt3 (c : Dev nD) (t : Fin cfg3.N) : Vec F S1x4096x512 .f32 :=
  k0_pay1 (hfull3 V c (t.val / 16) (Steps.stream_lt hN3 t.val t.isLt)) (accAt3 V c t.val t.isLt)

def HfOk3 (c : Dev nD) (n : ℕ) (hn : n < cfg3.N) (g : Vec F S4096x512 .f32) : Prop :=
  Steps.RowsOk hN3 (hblk3 V c) n hn fun r q => g (ix2 r q)

/-- Between grid points: the accumulator holds the partial sum, and the hidden rows written so far are right. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn)
        ∗ (∃ g, owns (c : Thread nD τ) scM3_1 fullShare g ∗ ⌜HfOk3 V c n hn g⌝))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn)
        ∗ (∃ g, owns (c : Thread nD τ) scM3_1 fullShare g ∗ ⌜HfOk3 V c n hn g⌝))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (accAt3 V c (n - 1) (by omega))
        ∗ (∃ g, owns (c : Thread nD τ) scM3_1 fullShare g ∗ ⌜HfOk3 V c (n - 1) (by omega) g⌝))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

end Cert.KernelIdeal.Gen

end
-- ==== Proof.KI.Body3.lean ====
import proofs.«426140_j3899830305296_1_alg».proof.Proof.KI.Data3
import proofs.«426140_j3899830305296_1_alg».proof.Proof.KI.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

theorem stepVal3 : ∀ t : Fin cfg3.N, ((grid3.coords t) 1).val = t.val % 16 :=
  (by decide +kernel : ∀ t : Fin grid3.N, ((grid3.coords t) 1).val = t.val % 16)

theorem hfull3_of_ok (c : Dev nD) (t : Fin cfg3.N) (h15 : t.val % 16 = 15) (g : Vec F S4096x512 .f32)
    (hok : HfOk3 V c t.val t.isLt g) : g = hfull3 V c (t.val / 16) (Steps.stream_lt hN3 t.val t.isLt) :=
  funext fun idx => (congrArg g (eq_ix2 idx)).trans
    (Steps.rows_of_ok hN3 (hblk3 V c) t h15 _ hok ⟨(idx 0).val, (idx 0).isLt⟩ ⟨(idx 1).val, (idx 1).isLt⟩)

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout3 (c : Dev nD) : (dat3 V c).Φ (Fin.last cfg3.N) ⊢ Pipeline.ΦA spec3 c :=
  Phi_out3 V c _ (by rw [Fin.val_last]; have : cfg3.N = 32 := N_3; omega)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop(PhiS3 V c (t.val + 1) t.isLt ∗ (dat3 V c).owesAt () t.castSucc
    ∗ owns (c : Thread nD τ) (ms3_0 t) fullShare (xblk3 V c t)
    ∗ owns (c : Thread nD τ) (ms3_1 t) fullShare (ablk3 V c t)
    ∗ owns (c : Thread nD τ) (ms3_2 t) fullShare (wblk3 V c t)
    ∗ owns (c : Thread nD τ) (ms3_3 t) fullShare (bblk3 V c t)
    ∗ (dat3 V c).leavesExact 4 t)

theorem Phi_fgt3 (c : Dev nD) (t : Fin (cfg3.N + 1)) : (dat3 V c).Φ t ⊢ Pipeline.ΦA spec3 c := by
  by_cases ht : t.val = 0
  · rw [show (dat3 V c).Φ t = PhiS3 V c t.val (Nat.le_of_lt_succ t.isLt) from rfl, PhiS3_zero V c _ _ ht]
    try exact Idealize.SL.BI.Entails.refl _
  · exact Phi_out3 V c t ht

/-- First step of a stream: the accumulator restarts from zero, so what it held before is not consulted. -/
theorem sound_body3_A (c : Dev nD) (t : Fin cfg3.N) (h0 : t.val % 16 = 0) :
    bodyPre3 V c t ⊢ wp frame (wpE (defs₀ (F := F)) Variants.none c none) Set.univ (bodyAt3 t) (fun _ => bodyPost3 V c t) := by
  have h15 : ¬t.val % 16 = 15 := by omega
  have hc0 : cond3_0 (grid3.coords t) := (hcond3_0 t).mpr h0
  have hc1 : ¬cond3_1 (grid3.coords t) := fun h => h15 ((hcond3_1 t).mp h)
  unfold bodyPre3 bodyPost3 bodyAt3
  simp only [before3_0, before3_1, before3_2, before3_3]
  rw [PhiS3_succ]
  rw [Dat.leavesExact_idle (dat3 V c) 4 t (idleAt3_4 t hc1) (noFlush3_4 t hc1)]
  refine (sep_mono_left (Phi_fgt3 V c t.castSucc)).trans ?_
  rw [PhiA3_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt3_first V c t h0).symm)
        · iexists _; isplitl [HS1]
          · unfold owns; iexists _; isplitr
            swap; · iexact HS1
            ipureintro; rfl
          · ipureintro; exact Steps.rowsOk_step hN3 (hblk3 V c) t _ (stepVal3 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body3_B (c : Dev nD) (t : Fin cfg3.N) (h0 : ¬t.val % 16 = 0) (h15 : ¬t.val % 16 = 15) :
    bodyPre3 V c t ⊢ wp frame (wpE (defs₀ (F := F)) Variants.none c none) Set.univ (bodyAt3 t) (fun _ => bodyPost3 V c t) := by
  have hz : t.val ≠ 0 := fun e => h0 (by rw [e])
  have hc0 : ¬cond3_0 (grid3.coords t) := fun h => h0 ((hcond3_0 t).mp h)
  have hc1 : ¬cond3_1 (grid3.coords t) := fun h => h15 ((hcond3_1 t).mp h)
  unfold bodyPre3 bodyPost3 bodyAt3
  simp only [before3_0, before3_1, before3_2, before3_3]
  rw [PhiS3_succ]
  rw [Dat.leavesExact_idle (dat3 V c) 4 t (idleAt3_4 t hc1) (noFlush3_4 t hc1)]
  rw [PhiS3_castSucc V c t, PhiS3_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) (accAt3 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt3_next V c t h0).symm)
        · iexists _; isplitl [HS1]
          · unfold owns; iexists _; isplitr
            swap; · iexact HS1
            ipureintro; rfl
          · ipureintro; exact Steps.rowsOk_step hN3 (hblk3 V c) t _ (stepVal3 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body3_C (c : Dev nD) (t : Fin cfg3.N) (h15 : t.val % 16 = 15) :
    bodyPre3 V c t ⊢ wp frame (wpE (defs₀ (F := F)) Variants.none c none) Set.univ (bodyAt3 t) (fun _ => bodyPost3 V c t) := by
  have h0 : ¬t.val % 16 = 0 := by omega
  have hz : t.val ≠ 0 := fun e => h0 (by rw [e])
  have hc0 : ¬cond3_0 (grid3.coords t) := fun h => h0 ((hcond3_0 t).mp h)
  have hc1 : cond3_1 (grid3.coords t) := (hcond3_1 t).mpr h15
  unfold bodyPre3 bodyPost3 bodyAt3
  simp only [before3_0, before3_1, before3_2, before3_3]
  rw [PhiS3_succ]
  rw [show (dat3 V c).leavesExact 4 t = owns (c : Thread nD τ) (ms3_4 t) fullShare ((dat3 V c).after 4 t) from by
      unfold Dat.leavesExact; rw [liveAt3_4 t hc1], after3_4]
  rw [PhiS3_castSucc V c t, PhiS3_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN3 (hblk3 V c) t _ (stepVal3 t) (fun r q => g (ix2 r q)) _ (fun _ => hg) (fun r q => hfLeft_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) (accAt3 V c (t.val - 1) (Nat.lt_of_le_of_lt (Nat.sub_le _ _) t.isLt)) g r q)
  iapply ((kernelRun_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) hc0 hc1 (xblk3 V c t) (ablk3 V c t) (wblk3 V c t) (bblk3 V c t) (accAt3 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt3_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt3
  rw [← hfull3_of_ok V c t h15 _ hok, accAt3_next V c t h0]

theorem sound_body3 (c : Dev nD) (t : Fin cfg3.N) :
    bodyPre3 V c t ⊢ wp frame (wpE (defs₀ (F := F)) Variants.none c none) Set.univ (bodyAt3 t) (fun _ => bodyPost3 V c t) := by
  by_cases h0 : t.val % 16 = 0
  · exact sound_body3_A V c t h0
  · by_cases h15 : t.val % 16 = 15
    · exact sound_body3_C V c t h15
    · exact sound_body3_B V c t h0 h15

theorem body_obligation3 (c : Dev nD) : BodyObligation (dat3 (F := F) V c) (defs₀ (F := F)) Variants.none () Set.univ :=
  fun t => by rw [bigSep_W3, bigSep_W3]; exact sound_body3 V c t

end Cert.KernelIdeal.Gen

end
-- ==== Proof.KI.Shared4.lean ====
import proofs.«426140_j3899830305296_1_alg».proof.Proof.Gen.KernelIdeal.Launch
import proofs.«426140_j3899830305296_1_alg».proof.Proof.Gen.KernelIdeal.Skeleton
import proofs.«426140_j3899830305296_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond4_0 : ∀ t : Fin cfg4.N, cond4_0 (grid4.coords t) ↔ t.val % 16 = 0 :=
  (by decide +kernel : ∀ t : Fin grid4.N, cond4_0 (grid4.coords t) ↔ t.val % 16 = 0)

abbrev cond4_1 (i : grid4.Coords) : Prop := k4_cond2 i = 1#1
theorem hcond4_1 : ∀ t : Fin cfg4.N, cond4_1 (grid4.coords t) ↔ t.val % 16 = 15 :=
  (by decide +kernel : ∀ t : Fin grid4.N, cond4_1 (grid4.coords t) ↔ t.val % 16 = 15)

theorem idleAt4_4 : ∀ t : Fin cfg4.N, ¬cond4_1 (grid4.coords t) → cfg4.idle 4 (grid4.coords t) = true := by decide +kernel
theorem liveAt4_4 : ∀ t : Fin cfg4.N, cond4_1 (grid4.coords t) → cfg4.idle 4 (grid4.coords t) = false := by decide +kernel
theorem noFlush4_4 : ∀ t : Fin cfg4.N, ¬cond4_1 (grid4.coords t) → (cfg4.win 4).flush t = false := by decide +kernel

abbrev ms4_0 (t : Fin cfg4.N) : Memref sig .tc .vmem S1x256x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x4096x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x4096x512 .f32 := win4_4.stage (cfg4.slots t 4)
abbrev hs4_4 (t : Fin cfg4.N) : (ms4_4 t).IsWhole := hstage4_4 ((cfg4.slots t 4).cast nbuf4_4)

abbrev scM4_0 : Memref sig .tc .vmem S4096x512 .f32 := Memref.whole cc4_scratch0
abbrev scM4_1 : Memref sig .tc .vmem S4096x512 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Gen

end
-- ==== Proof.KI.Data4.lean ====
import proofs.«426140_j3899830305296_1_alg».proof.Proof.KI.Shared4
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xblk4 (c : Dev nD) (t : Fin cfg4.N) : Vec F S1x256x512 .f32 := iblk4 V c 0 t
abbrev ablk4 (c : Dev nD) (t : Fin cfg4.N) : Vec F S1x4096x256 .bf16 := iblk4 V c 1 t
abbrev wblk4 (c : Dev nD) (t : Fin cfg4.N) : Vec F S512x512 .f32 := iblk4 V c 2 t
abbrev bblk4 (c : Dev nD) (t : Fin cfg4.N) : Vec F S1x512 .f32 := iblk4 V c 3 t

theorem hN4 : cfg4.N = 32 := N_4

/-- One reduction step on the accumulator: prev + A[:, slab k] · relu(x[slab k]·W + b). -/
abbrev step4 (c : Dev nD) (t : Fin cfg4.N) (prev : Vec F S4096x512 .f32) : Vec F S4096x512 .f32 :=
  k0_pay5 (xblk4 V c t) (wblk4 V c t) (bblk4 V c t) prev (ablk4 V c t)

abbrev accAt4 (c : Dev nD) : (n : ℕ) → n < cfg4.N → Vec F S4096x512 .f32 :=
  Steps.accAt (step4 V c) (k0_pay2 (F := F))

theorem accAt4_first (c : Dev nD) (t : Fin cfg4.N) (h : t.val % 16 = 0) :
    accAt4 V c t.val t.isLt = step4 V c t (k0_pay2 (F := F)) := Steps.accAt_first _ _ t h

theorem accAt4_next (c : Dev nD) (t : Fin cfg4.N) (h : ¬t.val % 16 = 0) :
    accAt4 V c t.val t.isLt = step4 V c t (accAt4 V c (t.val - 1) (Nat.lt_of_le_of_lt (Nat.sub_le _ _) t.isLt)) :=
  Steps.accAt_next _ _ t h

abbrev hblk4 (c : Dev nD) (t : Fin cfg4.N) (p : Fin 256) (q : Fin 512) :=
  (k0_pay4 (xblk4 V c t) (wblk4 V c t) (bblk4 V c t) : Vec F S256x512 .f32) (ix2 p q)

/-- A stream's hidden state relu(x·W + b), all 4096 rows, assembled from the blocks its sixteen steps compute. -/
def hfull4 (c : Dev nD) (b : ℕ) (hb : b < 2) : Vec F S4096x512 .f32 :=
  fun idx => Steps.row hN4 (hblk4 V c) b hb ⟨(idx 0).val, (idx 0).isLt⟩ ⟨(idx 1).val, (idx 1).isLt⟩

/-- The output block: hidden state plus accumulator, each row divided by the larger of its norm and the floor. -/
def outAt4 (c : Dev nD) (t : Fin cfg4.N) : Vec F S1x4096x512 .f32 :=
  k0_pay1 (hfull4 V c (t.val / 16) (Steps.stream_lt hN4 t.val t.isLt)) (accAt4 V c t.val t.isLt)

def HfOk4 (c : Dev nD) (n : ℕ) (hn : n < cfg4.N) (g : Vec F S4096x512 .f32) : Prop :=
  Steps.RowsOk hN4 (hblk4 V c) n hn fun r q => g (ix2 r q)

/-- Between grid points: the accumulator holds the partial sum, and the hidden rows written so far are right. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn)
        ∗ (∃ g, owns (c : Thread nD τ) scM4_1 fullShare g ∗ ⌜HfOk4 V c n hn g⌝))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn)
        ∗ (∃ g, owns (c : Thread nD τ) scM4_1 fullShare g ∗ ⌜HfOk4 V c n hn g⌝))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega))
        ∗ (∃ g, owns (c : Thread nD τ) scM4_1 fullShare g ∗ ⌜HfOk4 V c (n - 1) (by omega) g⌝))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

end Cert.KernelIdeal.Gen

end
-- ==== Proof.KI.Body4.lean ====
import proofs.«426140_j3899830305296_1_alg».proof.Proof.KI.Data4
import proofs.«426140_j3899830305296_1_alg».proof.Proof.KI.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

theorem stepVal4 : ∀ t : Fin cfg4.N, ((grid4.coords t) 1).val = t.val % 16 :=
  (by decide +kernel : ∀ t : Fin grid4.N, ((grid4.coords t) 1).val = t.val % 16)

theorem hfull4_of_ok (c : Dev nD) (t : Fin cfg4.N) (h15 : t.val % 16 = 15) (g : Vec F S4096x512 .f32)
    (hok : HfOk4 V c t.val t.isLt g) : g = hfull4 V c (t.val / 16) (Steps.stream_lt hN4 t.val t.isLt) :=
  funext fun idx => (congrArg g (eq_ix2 idx)).trans
    (Steps.rows_of_ok hN4 (hblk4 V c) t h15 _ hok ⟨(idx 0).val, (idx 0).isLt⟩ ⟨(idx 1).val, (idx 1).isLt⟩)

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout4 (c : Dev nD) : (dat4 V c).Φ (Fin.last cfg4.N) ⊢ Pipeline.ΦA spec4 c :=
  Phi_out4 V c _ (by rw [Fin.val_last]; have : cfg4.N = 32 := N_4; omega)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop(PhiS4 V c (t.val + 1) t.isLt ∗ (dat4 V c).owesAt () t.castSucc
    ∗ owns (c : Thread nD τ) (ms4_0 t) fullShare (xblk4 V c t)
    ∗ owns (c : Thread nD τ) (ms4_1 t) fullShare (ablk4 V c t)
    ∗ owns (c : Thread nD τ) (ms4_2 t) fullShare (wblk4 V c t)
    ∗ owns (c : Thread nD τ) (ms4_3 t) fullShare (bblk4 V c t)
    ∗ (dat4 V c).leavesExact 4 t)

theorem Phi_fgt4 (c : Dev nD) (t : Fin (cfg4.N + 1)) : (dat4 V c).Φ t ⊢ Pipeline.ΦA spec4 c := by
  by_cases ht : t.val = 0
  · rw [show (dat4 V c).Φ t = PhiS4 V c t.val (Nat.le_of_lt_succ t.isLt) from rfl, PhiS4_zero V c _ _ ht]
    try exact Idealize.SL.BI.Entails.refl _
  · exact Phi_out4 V c t ht

/-- First step of a stream: the accumulator restarts from zero, so what it held before is not consulted. -/
theorem sound_body4_A (c : Dev nD) (t : Fin cfg4.N) (h0 : t.val % 16 = 0) :
    bodyPre4 V c t ⊢ wp frame (wpE (defs₀ (F := F)) Variants.none c none) Set.univ (bodyAt4 t) (fun _ => bodyPost4 V c t) := by
  have h15 : ¬t.val % 16 = 15 := by omega
  have hc0 : cond4_0 (grid4.coords t) := (hcond4_0 t).mpr h0
  have hc1 : ¬cond4_1 (grid4.coords t) := fun h => h15 ((hcond4_1 t).mp h)
  unfold bodyPre4 bodyPost4 bodyAt4
  simp only [before4_0, before4_1, before4_2, before4_3]
  rw [PhiS4_succ]
  rw [Dat.leavesExact_idle (dat4 V c) 4 t (idleAt4_4 t hc1) (noFlush4_4 t hc1)]
  refine (sep_mono_left (Phi_fgt4 V c t.castSucc)).trans ?_
  rw [PhiA4_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt4_first V c t h0).symm)
        · iexists _; isplitl [HS1]
          · unfold owns; iexists _; isplitr
            swap; · iexact HS1
            ipureintro; rfl
          · ipureintro; exact Steps.rowsOk_step hN4 (hblk4 V c) t _ (stepVal4 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body4_B (c : Dev nD) (t : Fin cfg4.N) (h0 : ¬t.val % 16 = 0) (h15 : ¬t.val % 16 = 15) :
    bodyPre4 V c t ⊢ wp frame (wpE (defs₀ (F := F)) Variants.none c none) Set.univ (bodyAt4 t) (fun _ => bodyPost4 V c t) := by
  have hz : t.val ≠ 0 := fun e => h0 (by rw [e])
  have hc0 : ¬cond4_0 (grid4.coords t) := fun h => h0 ((hcond4_0 t).mp h)
  have hc1 : ¬cond4_1 (grid4.coords t) := fun h => h15 ((hcond4_1 t).mp h)
  unfold bodyPre4 bodyPost4 bodyAt4
  simp only [before4_0, before4_1, before4_2, before4_3]
  rw [PhiS4_succ]
  rw [Dat.leavesExact_idle (dat4 V c) 4 t (idleAt4_4 t hc1) (noFlush4_4 t hc1)]
  rw [PhiS4_castSucc V c t, PhiS4_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) (accAt4 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt4_next V c t h0).symm)
        · iexists _; isplitl [HS1]
          · unfold owns; iexists _; isplitr
            swap; · iexact HS1
            ipureintro; rfl
          · ipureintro; exact Steps.rowsOk_step hN4 (hblk4 V c) t _ (stepVal4 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body4_C (c : Dev nD) (t : Fin cfg4.N) (h15 : t.val % 16 = 15) :
    bodyPre4 V c t ⊢ wp frame (wpE (defs₀ (F := F)) Variants.none c none) Set.univ (bodyAt4 t) (fun _ => bodyPost4 V c t) := by
  have h0 : ¬t.val % 16 = 0 := by omega
  have hz : t.val ≠ 0 := fun e => h0 (by rw [e])
  have hc0 : ¬cond4_0 (grid4.coords t) := fun h => h0 ((hcond4_0 t).mp h)
  have hc1 : cond4_1 (grid4.coords t) := (hcond4_1 t).mpr h15
  unfold bodyPre4 bodyPost4 bodyAt4
  simp only [before4_0, before4_1, before4_2, before4_3]
  rw [PhiS4_succ]
  rw [show (dat4 V c).leavesExact 4 t = owns (c : Thread nD τ) (ms4_4 t) fullShare ((dat4 V c).after 4 t) from by
      unfold Dat.leavesExact; rw [liveAt4_4 t hc1], after4_4]
  rw [PhiS4_castSucc V c t, PhiS4_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN4 (hblk4 V c) t _ (stepVal4 t) (fun r q => g (ix2 r q)) _ (fun _ => hg) (fun r q => hfLeft_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) (accAt4 V c (t.val - 1) (Nat.lt_of_le_of_lt (Nat.sub_le _ _) t.isLt)) g r q)
  iapply ((kernelRun_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc0 hc1 (xblk4 V c t) (ablk4 V c t) (wblk4 V c t) (bblk4 V c t) (accAt4 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt4_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt4
  rw [← hfull4_of_ok V c t h15 _ hok, accAt4_next V c t h0]

theorem sound_body4 (c : Dev nD) (t : Fin cfg4.N) :
    bodyPre4 V c t ⊢ wp frame (wpE (defs₀ (F := F)) Variants.none c none) Set.univ (bodyAt4 t) (fun _ => bodyPost4 V c t) := by
  by_cases h0 : t.val % 16 = 0
  · exact sound_body4_A V c t h0
  · by_cases h15 : t.val % 16 = 15
    · exact sound_body4_C V c t h15
    · exact sound_body4_B V c t h0 h15

theorem body_obligation4 (c : Dev nD) : BodyObligation (dat4 (F := F) V c) (defs₀ (F := F)) Variants.none () Set.univ :=
  fun t => by rw [bigSep_W4, bigSep_W4]; exact sound_body4 V c t

end Cert.KernelIdeal.Gen

end
-- ==== Proof.KI.Shared5.lean ====
import proofs.«426140_j3899830305296_1_alg».proof.Proof.Gen.KernelIdeal.Launch
import proofs.«426140_j3899830305296_1_alg».proof.Proof.Gen.KernelIdeal.Skeleton
import proofs.«426140_j3899830305296_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop := (Scalar.cmpi .ne (Scalar.extui (Scalar.cmpi .eq (BitVec.ofNat 32 (i 1).val) 0#32)) 0#32) = 1#1
/-- The reset branch is taken exactly at a stream's first step (and the finishing branch, below, exactly at its last). -/
theorem hcond5_0 : ∀ t : Fin cfg5.N, cond5_0 (grid5.coords t) ↔ t.val % 16 = 0 :=
  (by decide +kernel : ∀ t : Fin grid5.N, cond5_0 (grid5.coords t) ↔ t.val % 16 = 0)

abbrev cond5_1 (i : grid5.Coords) : Prop := k5_cond2 i = 1#1
theorem hcond5_1 : ∀ t : Fin cfg5.N, cond5_1 (grid5.coords t) ↔ t.val % 16 = 15 :=
  (by decide +kernel : ∀ t : Fin grid5.N, cond5_1 (grid5.coords t) ↔ t.val % 16 = 15)

theorem idleAt5_4 : ∀ t : Fin cfg5.N, ¬cond5_1 (grid5.coords t) → cfg5.idle 4 (grid5.coords t) = true := by decide +kernel
theorem liveAt5_4 : ∀ t : Fin cfg5.N, cond5_1 (grid5.coords t) → cfg5.idle 4 (grid5.coords t) = false := by decide +kernel
theorem noFlush5_4 : ∀ t : Fin cfg5.N, ¬cond5_1 (grid5.coords t) → (cfg5.win 4).flush t = false := by decide +kernel

abbrev ms5_0 (t : Fin cfg5.N) : Memref sig .tc .vmem S1x256x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x4096x256 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x4096x512 .f32 := win5_4.stage (cfg5.slots t 4)
abbrev hs5_4 (t : Fin cfg5.N) : (ms5_4 t).IsWhole := hstage5_4 ((cfg5.slots t 4).cast nbuf5_4)

abbrev scM5_0 : Memref sig .tc .vmem S4096x512 .f32 := Memref.whole cc5_scratch0
abbrev scM5_1 : Memref sig .tc .vmem S4096x512 .f32 := Memref.whole cc5_scratch1

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.KernelIdeal.Gen

end
-- ==== Proof.KI.Data5.lean ====
import proofs.«426140_j3899830305296_1_alg».proof.Proof.KI.Shared5
import proofs.«426140_j3899830305296_1_alg».proof.Proof.Steps
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xblk5 (c : Dev nD) (t : Fin cfg5.N) : Vec F S1x256x512 .f32 := iblk5 V c 0 t
abbrev ablk5 (c : Dev nD) (t : Fin cfg5.N) : Vec F S1x4096x256 .bf16 := iblk5 V c 1 t
abbrev wblk5 (c : Dev nD) (t : Fin cfg5.N) : Vec F S512x512 .f32 := iblk5 V c 2 t
abbrev bblk5 (c : Dev nD) (t : Fin cfg5.N) : Vec F S1x512 .f32 := iblk5 V c 3 t

theorem hN5 : cfg5.N = 32 := N_5

/-- One reduction step on the accumulator: prev + A[:, slab k] · relu(x[slab k]·W + b). -/
abbrev step5 (c : Dev nD) (t : Fin cfg5.N) (prev : Vec F S4096x512 .f32) : Vec F S4096x512 .f32 :=
  k0_pay5 (xblk5 V c t) (wblk5 V c t) (bblk5 V c t) prev (ablk5 V c t)

abbrev accAt5 (c : Dev nD) : (n : ℕ) → n < cfg5.N → Vec F S4096x512 .f32 :=
  Steps.accAt (step5 V c) (k0_pay2 (F := F))

theorem accAt5_first (c : Dev nD) (t : Fin cfg5.N) (h : t.val % 16 = 0) :
    accAt5 V c t.val t.isLt = step5 V c t (k0_pay2 (F := F)) := Steps.accAt_first _ _ t h

theorem accAt5_next (c : Dev nD) (t : Fin cfg5.N) (h : ¬t.val % 16 = 0) :
    accAt5 V c t.val t.isLt = step5 V c t (accAt5 V c (t.val - 1) (Nat.lt_of_le_of_lt (Nat.sub_le _ _) t.isLt)) :=
  Steps.accAt_next _ _ t h

abbrev hblk5 (c : Dev nD) (t : Fin cfg5.N) (p : Fin 256) (q : Fin 512) :=
  (k0_pay4 (xblk5 V c t) (wblk5 V c t) (bblk5 V c t) : Vec F S256x512 .f32) (ix2 p q)

/-- A stream's hidden state relu(x·W + b), all 4096 rows, assembled from the blocks its sixteen steps compute. -/
def hfull5 (c : Dev nD) (b : ℕ) (hb : b < 2) : Vec F S4096x512 .f32 :=
  fun idx => Steps.row hN5 (hblk5 V c) b hb ⟨(idx 0).val, (idx 0).isLt⟩ ⟨(idx 1).val, (idx 1).isLt⟩

/-- The output block: hidden state plus accumulator, each row divided by the larger of its norm and the floor. -/
def outAt5 (c : Dev nD) (t : Fin cfg5.N) : Vec F S1x4096x512 .f32 :=
  k0_pay1 (hfull5 V c (t.val / 16) (Steps.stream_lt hN5 t.val t.isLt)) (accAt5 V c t.val t.isLt)

def HfOk5 (c : Dev nD) (n : ℕ) (hn : n < cfg5.N) (g : Vec F S4096x512 .f32) : Prop :=
  Steps.RowsOk hN5 (hblk5 V c) n hn fun r q => g (ix2 r q)

/-- Between grid points: the accumulator holds the partial sum, and the hidden rows written so far are right. -/
def PhiS5 (c : Dev nD) : (n : ℕ) → n ≤ cfg5.N → sProp 𝕄
  | 0, _ => Pipeline.ΦA spec5 c
  | n + 1, hn => iprop(iprop(iprop(owns (c : Thread nD τ) scM5_0 fullShare (accAt5 V c n hn)
        ∗ (∃ g, owns (c : Thread nD τ) scM5_1 fullShare g ∗ ⌜HfOk5 V c n hn g⌝))
      ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (accAt5 V c n hn)
        ∗ (∃ g, owns (c : Thread nD τ) scM5_1 fullShare g ∗ ⌜HfOk5 V c n hn g⌝))
      ∗ Pipeline.scopedRestBut (Ix := Unit) (Name := ℕ) (U := UR sig nD τ) (Lvl := ℕ) (Val := Elt F) spec5 c [cc5_scratch0, cc5_scratch1]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (accAt5 V c (n - 1) (by omega))
        ∗ (∃ g, owns (c : Thread nD τ) scM5_1 fullShare g ∗ ⌜HfOk5 V c (n - 1) (by omega) g⌝))
      ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = outAt5 V c t := by dsimp only [dat5]

end Cert.KernelIdeal.Gen

end
-- ==== Proof.KI.Body5.lean ====
import proofs.«426140_j3899830305296_1_alg».proof.Proof.KI.Data5
import proofs.«426140_j3899830305296_1_alg».proof.Proof.KI.Left
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

theorem stepVal5 : ∀ t : Fin cfg5.N, ((grid5.coords t) 1).val = t.val % 16 :=
  (by decide +kernel : ∀ t : Fin grid5.N, ((grid5.coords t) 1).val = t.val % 16)

theorem hfull5_of_ok (c : Dev nD) (t : Fin cfg5.N) (h15 : t.val % 16 = 15) (g : Vec F S4096x512 .f32)
    (hok : HfOk5 V c t.val t.isLt g) : g = hfull5 V c (t.val / 16) (Steps.stream_lt hN5 t.val t.isLt) :=
  funext fun idx => (congrArg g (eq_ix2 idx)).trans
    (Steps.rows_of_ok hN5 (hblk5 V c) t h15 _ hok ⟨(idx 0).val, (idx 0).isLt⟩ ⟨(idx 1).val, (idx 1).isLt⟩)

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, ⟨%g, HS1, %hg⟩⟩, HR⟩, HP⟩
  isplitr [HP]
  · isplitr [HR]
    · isplitl [HS0]
      · iexists _; iexact HS0
      · iexists _; iexact HS1
    · iexact HR
  · iexact HP

theorem hout5 (c : Dev nD) : (dat5 V c).Φ (Fin.last cfg5.N) ⊢ Pipeline.ΦA spec5 c :=
  Phi_out5 V c _ (by rw [Fin.val_last]; have : cfg5.N = 32 := N_5; omega)

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop(PhiS5 V c (t.val + 1) t.isLt ∗ (dat5 V c).owesAt () t.castSucc
    ∗ owns (c : Thread nD τ) (ms5_0 t) fullShare (xblk5 V c t)
    ∗ owns (c : Thread nD τ) (ms5_1 t) fullShare (ablk5 V c t)
    ∗ owns (c : Thread nD τ) (ms5_2 t) fullShare (wblk5 V c t)
    ∗ owns (c : Thread nD τ) (ms5_3 t) fullShare (bblk5 V c t)
    ∗ (dat5 V c).leavesExact 4 t)

theorem Phi_fgt5 (c : Dev nD) (t : Fin (cfg5.N + 1)) : (dat5 V c).Φ t ⊢ Pipeline.ΦA spec5 c := by
  by_cases ht : t.val = 0
  · rw [show (dat5 V c).Φ t = PhiS5 V c t.val (Nat.le_of_lt_succ t.isLt) from rfl, PhiS5_zero V c _ _ ht]
    try exact Idealize.SL.BI.Entails.refl _
  · exact Phi_out5 V c t ht

/-- First step of a stream: the accumulator restarts from zero, so what it held before is not consulted. -/
theorem sound_body5_A (c : Dev nD) (t : Fin cfg5.N) (h0 : t.val % 16 = 0) :
    bodyPre5 V c t ⊢ wp frame (wpE (defs₀ (F := F)) Variants.none c none) Set.univ (bodyAt5 t) (fun _ => bodyPost5 V c t) := by
  have h15 : ¬t.val % 16 = 15 := by omega
  have hc0 : cond5_0 (grid5.coords t) := (hcond5_0 t).mpr h0
  have hc1 : ¬cond5_1 (grid5.coords t) := fun h => h15 ((hcond5_1 t).mp h)
  unfold bodyPre5 bodyPost5 bodyAt5
  simp only [before5_0, before5_1, before5_2, before5_3]
  rw [PhiS5_succ]
  rw [Dat.leavesExact_idle (dat5 V c) 4 t (idleAt5_4 t hc1) (noFlush5_4 t hc1)]
  refine (sep_mono_left (Phi_fgt5 V c t.castSucc)).trans ?_
  rw [PhiA5_eq]
  iintro ⟨⟨⟨⟨⟨%d0, HS0⟩, ⟨%d1, HS1⟩⟩, HR⟩, HP⟩, Ho, ⟨%e0, H0⟩, ⟨%e1, H1⟩, ⟨%e2, H2⟩, ⟨%e3, H3⟩, H4⟩
  iapply ((kernelRun_A c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) d0 d1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_A f7).trans (accAt5_first V c t h0).symm)
        · iexists _; isplitl [HS1]
          · unfold owns; iexists _; isplitr
            swap; · iexact HS1
            ipureintro; rfl
          · ipureintro; exact Steps.rowsOk_step hN5 (hblk5 V c) t _ (stepVal5 t) (fun r q => d1 (ix2 r q)) _ (fun h => absurd h0 h) (fun r q => hfLeft_A r q)
      · iexact HR
    · iexact HP
  isplitl [Ho]; · iexact Ho
  isplitl [H0]; · iexact H0
  isplitl [H1]; · iexact H1
  isplitl [H2]; · iexact H2
  isplitl [H3]; · iexact H3
  iexact H4

/-- Middle step: one more slab's product joins the partial sum, and one more slab of hidden rows is right. -/
theorem sound_body5_B (c : Dev nD) (t : Fin cfg5.N) (h0 : ¬t.val % 16 = 0) (h15 : ¬t.val % 16 = 15) :
    bodyPre5 V c t ⊢ wp frame (wpE (defs₀ (F := F)) Variants.none c none) Set.univ (bodyAt5 t) (fun _ => bodyPost5 V c t) := by
  have hz : t.val ≠ 0 := fun e => h0 (by rw [e])
  have hc0 : ¬cond5_0 (grid5.coords t) := fun h => h0 ((hcond5_0 t).mp h)
  have hc1 : ¬cond5_1 (grid5.coords t) := fun h => h15 ((hcond5_1 t).mp h)
  unfold bodyPre5 bodyPost5 bodyAt5
  simp only [before5_0, before5_1, before5_2, before5_3]
  rw [PhiS5_succ]
  rw [Dat.leavesExact_idle (dat5 V c) 4 t (idleAt5_4 t hc1) (noFlush5_4 t hc1)]
  rw [PhiS5_castSucc V c t, PhiS5_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, H4⟩
  iapply ((kernelRun_B c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) (accAt5 V c (t.val - 1) (Nat.lt_of_le_of_lt (Nat.sub_le _ _) t.isLt)) g).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_B f7).trans (accAt5_next V c t h0).symm)
        · iexists _; isplitl [HS1]
          · unfold owns; iexists _; isplitr
            swap; · iexact HS1
            ipureintro; rfl
          · ipureintro; exact Steps.rowsOk_step hN5 (hblk5 V c) t _ (stepVal5 t) (fun r q => g (ix2 r q)) _ (fun _ => hg) (fun r q => hfLeft_B r q)
      · iexact HR
    · iexact HP
  isplitl [Ho]; · iexact Ho
  isplitl [H0]; · iexact H0
  isplitl [H1]; · iexact H1
  isplitl [H2]; · iexact H2
  isplitl [H3]; · iexact H3
  iexact H4

/-- Last step: all sixteen slabs are right, so the block stored is the normalized sum of hidden state and accumulator. -/
theorem sound_body5_C (c : Dev nD) (t : Fin cfg5.N) (h15 : t.val % 16 = 15) :
    bodyPre5 V c t ⊢ wp frame (wpE (defs₀ (F := F)) Variants.none c none) Set.univ (bodyAt5 t) (fun _ => bodyPost5 V c t) := by
  have h0 : ¬t.val % 16 = 0 := by omega
  have hz : t.val ≠ 0 := fun e => h0 (by rw [e])
  have hc0 : ¬cond5_0 (grid5.coords t) := fun h => h0 ((hcond5_0 t).mp h)
  have hc1 : cond5_1 (grid5.coords t) := (hcond5_1 t).mpr h15
  unfold bodyPre5 bodyPost5 bodyAt5
  simp only [before5_0, before5_1, before5_2, before5_3]
  rw [PhiS5_succ]
  rw [show (dat5 V c).leavesExact 4 t = owns (c : Thread nD τ) (ms5_4 t) fullShare ((dat5 V c).after 4 t) from by
      unfold Dat.leavesExact; rw [liveAt5_4 t hc1], after5_4]
  rw [PhiS5_castSucc V c t, PhiS5_pos V c _ _ hz]
  iintro ⟨⟨⟨⟨HS0, ⟨%g, HS1, %hg⟩⟩, HR⟩, HP⟩, Ho, ⟨%e0, H0⟩, ⟨%e1, H1⟩, ⟨%e2, H2⟩, ⟨%e3, H3⟩, ⟨%e4, H4⟩⟩
  have hok := Steps.rowsOk_step hN5 (hblk5 V c) t _ (stepVal5 t) (fun r q => g (ix2 r q)) _ (fun _ => hg) (fun r q => hfLeft_C c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) (accAt5 V c (t.val - 1) (Nat.lt_of_le_of_lt (Nat.sub_le _ _) t.isLt)) g r q)
  iapply ((kernelRun_C c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) hc0 hc1 (xblk5 V c t) (ablk5 V c t) (wblk5 V c t) (bblk5 V c t) (accAt5 V c (t.val - 1) (Nat.lt_of_le_of_lt (Nat.sub_le _ _) t.isLt)) g).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f6, H4⟩, ⟨%f7, HS0⟩, HS1⟩
  isplitr [Ho H0 H1 H2 H3 H4]
  · isplitr [HP]
    · isplitr [HR]
      · isplitl [HS0]
        · unfold owns; iexists _; isplitr
          swap; · iexact HS0
          ipureintro; exact ((accLeft_C f7).trans (accAt5_next V c t h0).symm)
        · iexists _; isplitl [HS1]
          · unfold owns; iexists _; isplitr
            swap; · iexact HS1
            ipureintro; rfl
          · ipureintro; exact hok
      · iexact HR
    · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro
  refine (outLeft_C f6).trans ?_
  unfold outAt5
  rw [← hfull5_of_ok V c t h15 _ hok, accAt5_next V c t h0]

theorem sound_body5 (c : Dev nD) (t : Fin cfg5.N) :
    bodyPre5 V c t ⊢ wp frame (wpE (defs₀ (F := F)) Variants.none c none) Set.univ (bodyAt5 t) (fun _ => bodyPost5 V c t) := by
  by_cases h0 : t.val % 16 = 0
  · exact sound_body5_A V c t h0
  · by_cases h15 : t.val % 16 = 15
    · exact sound_body5_C V c t h15
    · exact sound_body5_B V c t h0 h15

theorem body_obligation5 (c : Dev nD) : BodyObligation (dat5 (F := F) V c) (defs₀ (F := F)) Variants.none () Set.univ :=
  fun t => by rw [bigSep_W5, bigSep_W5]; exact sound_body5 V c t

end Cert.KernelIdeal.Gen

end
-- ==== Proof.KI.Run6.lean ====
import proofs.«426140_j3899830305296_1_alg».proof.Proof.KI.Body0
import proofs.«426140_j3899830305296_1_alg».proof.Proof.KI.Body1
import proofs.«426140_j3899830305296_1_alg».proof.Proof.KI.Body2
import proofs.«426140_j3899830305296_1_alg».proof.Proof.KI.Body3
import proofs.«426140_j3899830305296_1_alg».proof.Proof.KI.Body4
import proofs.«426140_j3899830305296_1_alg».proof.Proof.KI.Body5
import proofs.«426140_j3899830305296_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

abbrev W1 : Dev nD → Valuation τ sig (Elt F) := fun c => StableHlo.after hostOps0 (W0 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)

theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)

theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev Vin0 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

abbrev Vout0 : (c : Dev nD) → (b : Ref sig .tc) → Buf (Elt F) ((c : Thread nD τ).loc b) := fun c b => W4 m ρ c b

theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)

theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

abbrev Vin1 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

abbrev Vout1 : (c : Dev nD) → (b : Ref sig .tc) → Buf (Elt F) ((c : Thread nD τ).loc b) := fun c b => W6 m ρ c b

theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h

abbrev Vin2 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

abbrev Vout2 : (c : Dev nD) → (b : Ref sig .tc) → Buf (Elt F) ((c : Thread nD τ).loc b) := fun c b => W8 m ρ c b

theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)

theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

abbrev Vin3 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (Vin3 m ρ) c).arrAt w cfg3.N
theorem W10_arr (c : Dev nD) (w : Fin cfg3.W) :
    W10 m ρ c (Proc.devRef .tc (Pipeline.arrRef spec3 w)) = (dat3 (Vin3 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb

abbrev Vout3 : (c : Dev nD) → (b : Ref sig .tc) → Buf (Elt F) ((c : Thread nD τ).loc b) := fun c b => W10 m ρ c b

theorem hF3 (c : Dev nD) (w : Fin cfg3.W) : (dat3 (Vin3 m ρ) c).arrAt w cfg3.N = Vout3 m ρ c (Pipeline.arrRef spec3 w) :=
  (W10_arr m ρ c w).symm
theorem hrest3 (c : Dev nD) : ∀ b, b ∉ Finset.univ.image (Pipeline.arrRef spec3) → Vout3 m ρ c b = Vin3 m ρ c b :=
  fun b hb => W10_of_ne m ρ c b fun w e => hb (Finset.mem_image.mpr ⟨w, Finset.mem_univ _, e⟩)

abbrev W11 : Dev nD → Valuation τ sig (Elt F) := fun c => StableHlo.after hostOps4 (W10 m ρ c)

theorem W11_of (c : Dev nD) (r : Ref sig .tc) (h : r ∉ hostOps4_W) :
    W11 m ρ c (Proc.devRef .tc r) = W10 m ρ c (Proc.devRef .tc r) :=
  StableHlo.after_of_writes_sub hostOps4 _ hostOps4_writes h

abbrev Vin4 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => (dat4 (Vin4 m ρ) c).arrAt w cfg4.N
theorem W12_arr (c : Dev nD) (w : Fin cfg4.W) :
    W12 m ρ c (Proc.devRef .tc (Pipeline.arrRef spec4 w)) = (dat4 (Vin4 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb

abbrev Vout4 : (c : Dev nD) → (b : Ref sig .tc) → Buf (Elt F) ((c : Thread nD τ).loc b) := fun c b => W12 m ρ c b

theorem hF4 (c : Dev nD) (w : Fin cfg4.W) : (dat4 (Vin4 m ρ) c).arrAt w cfg4.N = Vout4 m ρ c (Pipeline.arrRef spec4 w) :=
  (W12_arr m ρ c w).symm
theorem hrest4 (c : Dev nD) : ∀ b, b ∉ Finset.univ.image (Pipeline.arrRef spec4) → Vout4 m ρ c b = Vin4 m ρ c b :=
  fun b hb => W12_of_ne m ρ c b fun w e => hb (Finset.mem_image.mpr ⟨w, Finset.mem_univ _, e⟩)

abbrev W13 : Dev nD → Valuation τ sig (Elt F) := fun c => StableHlo.after hostOps5 (W12 m ρ c)

theorem W13_of (c : Dev nD) (r : Ref sig .tc) (h : r ∉ hostOps5_W) :
    W13 m ρ c (Proc.devRef .tc r) = W12 m ρ c (Proc.devRef .tc r) :=
  StableHlo.after_of_writes_sub hostOps5 _ hostOps5_writes h

abbrev Vin5 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => (dat5 (Vin5 m ρ) c).arrAt w cfg5.N
theorem W14_arr (c : Dev nD) (w : Fin cfg5.W) :
    W14 m ρ c (Proc.devRef .tc (Pipeline.arrRef spec5 w)) = (dat5 (Vin5 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb

abbrev Vout5 : (c : Dev nD) → (b : Ref sig .tc) → Buf (Elt F) ((c : Thread nD τ).loc b) := fun c b => W14 m ρ c b

theorem hF5 (c : Dev nD) (w : Fin cfg5.W) : (dat5 (Vin5 m ρ) c).arrAt w cfg5.N = Vout5 m ρ c (Pipeline.arrRef spec5 w) :=
  (W14_arr m ρ c w).symm
theorem hrest5 (c : Dev nD) : ∀ b, b ∉ Finset.univ.image (Pipeline.arrRef spec5) → Vout5 m ρ c b = Vin5 m ρ c b :=
  fun b hb => W14_of_ne m ρ c b fun w e => hb (Finset.mem_image.mpr ⟨w, Finset.mem_univ _, e⟩)

abbrev W15 : Dev nD → Valuation τ sig (Elt F) := fun c => StableHlo.after hostOps6 (W14 m ρ c)

theorem W15_of (c : Dev nD) (r : Ref sig .tc) (h : r ∉ hostOps6_W) :
    W15 m ρ c (Proc.devRef .tc r) = W14 m ρ c (Proc.devRef .tc r) :=
  StableHlo.after_of_writes_sub hostOps6 _ hostOps6_writes h

abbrev W16 : Dev nD → Valuation τ sig (Elt F) := fun c => StableHlo.after hostOps6_1 (W15 m ρ c)

theorem W16_of (c : Dev nD) (r : Ref sig .tc) (h : r ∉ hostOps6_1_W) :
    W16 m ρ c (Proc.devRef .tc r) = W15 m ρ c (Proc.devRef .tc r) :=
  StableHlo.after_of_writes_sub hostOps6_1 _ hostOps6_1_writes h

abbrev W17 : Dev nD → Valuation τ sig (Elt F) := fun c => StableHlo.after hostOps6_2 (W16 m ρ c)

theorem W17_of (c : Dev nD) (r : Ref sig .tc) (h : r ∉ hostOps6_2_W) :
    W17 m ρ c (Proc.devRef .tc r) = W16 m ρ c (Proc.devRef .tc r) :=
  StableHlo.after_of_writes_sub hostOps6_2 _ hostOps6_2_writes h

abbrev W18 : Dev nD → Valuation τ sig (Elt F) := fun c => StableHlo.after hostOps6_3 (W17 m ρ c)

theorem W18_of (c : Dev nD) (r : Ref sig .tc) (h : r ∉ hostOps6_3_W) :
    W18 m ρ c (Proc.devRef .tc r) = W17 m ρ c (Proc.devRef .tc r) :=
  StableHlo.after_of_writes_sub hostOps6_3 _ hostOps6_3_writes h

abbrev W19 : Dev nD → Valuation τ sig (Elt F) := fun c => StableHlo.after hostOps6_4 (W18 m ρ c)

theorem W19_of (c : Dev nD) (r : Ref sig .tc) (h : r ∉ hostOps6_4_W) :
    W19 m ρ c (Proc.devRef .tc r) = W18 m ρ c (Proc.devRef .tc r) :=
  StableHlo.after_of_writes_sub hostOps6_4 _ hostOps6_4_writes h

abbrev W20 : Dev nD → Valuation τ sig (Elt F) := fun c => StableHlo.after hostOps6_5 (W19 m ρ c)

theorem W20_of (c : Dev nD) (r : Ref sig .tc) (h : r ∉ hostOps6_5_W) :
    W20 m ρ c (Proc.devRef .tc r) = W19 m ρ c (Proc.devRef .tc r) :=
  StableHlo.after_of_writes_sub hostOps6_5 _ hostOps6_5_writes h

abbrev W21 : Dev nD → Valuation τ sig (Elt F) := fun c => StableHlo.after hostOps6_6 (W20 m ρ c)

theorem W21_of (c : Dev nD) (r : Ref sig .tc) (h : r ∉ hostOps6_6_W) :
    W21 m ρ c (Proc.devRef .tc r) = W20 m ρ c (Proc.devRef .tc r) :=
  StableHlo.after_of_writes_sub hostOps6_6 _ hostOps6_6_writes h

abbrev W22 : Dev nD → Valuation τ sig (Elt F) := fun c => StableHlo.after hostOps6_7 (W21 m ρ c)

theorem W22_of (c : Dev nD) (r : Ref sig .tc) (h : r ∉ hostOps6_7_W) :
    W22 m ρ c (Proc.devRef .tc r) = W21 m ρ c (Proc.devRef .tc r) :=
  StableHlo.after_of_writes_sub hostOps6_7 _ hostOps6_7_writes h

abbrev W23 : Dev nD → Valuation τ sig (Elt F) := fun c => StableHlo.after hostOps6_8 (W22 m ρ c)

theorem W23_of (c : Dev nD) (r : Ref sig .tc) (h : r ∉ hostOps6_8_W) :
    W23 m ρ c (Proc.devRef .tc r) = W22 m ρ c (Proc.devRef .tc r) :=
  StableHlo.after_of_writes_sub hostOps6_8 _ hostOps6_8_writes h

theorem W23_of_untouched (c : Dev nD) (r : Ref sig .tc)
    (h0 : r ∉ hostOps0_W)
    (h1 : r ∉ hostOps0_1_W)
    (h2 : r ∉ hostOps0_2_W)
    (h3 : ∀ w, Pipeline.arrRef spec0 w ≠ r)
    (h4 : r ∉ hostOps1_W)
    (h5 : ∀ w, Pipeline.arrRef spec1 w ≠ r)
    (h6 : r ∉ hostOps2_W)
    (h7 : ∀ w, Pipeline.arrRef spec2 w ≠ r)
    (h8 : r ∉ hostOps3_W)
    (h9 : ∀ w, Pipeline.arrRef spec3 w ≠ r)
    (h10 : r ∉ hostOps4_W)
    (h11 : ∀ w, Pipeline.arrRef spec4 w ≠ r)
    (h12 : r ∉ hostOps5_W)
    (h13 : ∀ w, Pipeline.arrRef spec5 w ≠ r)
    (h14 : r ∉ hostOps6_W)
    (h15 : r ∉ hostOps6_1_W)
    (h16 : r ∉ hostOps6_2_W)
    (h17 : r ∉ hostOps6_3_W)
    (h18 : r ∉ hostOps6_4_W)
    (h19 : r ∉ hostOps6_5_W)
    (h20 : r ∉ hostOps6_6_W)
    (h21 : r ∉ hostOps6_7_W)
    (h22 : r ∉ hostOps6_8_W)
    : W23 m ρ c (Proc.devRef .tc r) = m ((c : Thread nD τ).loc r) :=
  (W23_of m ρ c r h22).trans <|
  (W22_of m ρ c r h21).trans <|
  (W21_of m ρ c r h20).trans <|
  (W20_of m ρ c r h19).trans <|
  (W19_of m ρ c r h18).trans <|
  (W18_of m ρ c r h17).trans <|
  (W17_of m ρ c r h16).trans <|
  (W16_of m ρ c r h15).trans <|
  (W15_of m ρ c r h14).trans <|
  (W14_of_ne m ρ c r h13).trans <|
  (W13_of m ρ c r h12).trans <|
  (W12_of_ne m ρ c r h11).trans <|
  (W11_of m ρ c r h10).trans <|
  (W10_of_ne m ρ c r h9).trans <|
  (W9_of m ρ c r h8).trans <|
  (W8_of_ne m ρ c r h7).trans <|
  (W7_of m ρ c r h6).trans <|
  (W6_of_ne m ρ c r h5).trans <|
  (W5_of m ρ c r h4).trans <|
  (W4_of_ne m ρ c r h3).trans <|
  (W3_of m ρ c r h2).trans <|
  (W2_of m ρ c r h1).trans <|
  (W1_of m ρ c r h0).trans <| rfl

theorem W23_main_arg0 (c : Dev nD) : W23 m ρ c (Proc.devRef .tc main_arg0) = m ((c : Thread nD τ).loc main_arg0) :=
  W23_of_untouched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg1 (c : Dev nD) : W23 m ρ c (Proc.devRef .tc main_arg1) = m ((c : Thread nD τ).loc main_arg1) :=
  W23_of_untouched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg2 (c : Dev nD) : W23 m ρ c (Proc.devRef .tc main_arg2) = m ((c : Thread nD τ).loc main_arg2) :=
  W23_of_untouched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg3 (c : Dev nD) : W23 m ρ c (Proc.devRef .tc main_arg3) = m ((c : Thread nD τ).loc main_arg3) :=
  W23_of_untouched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg4 (c : Dev nD) : W23 m ρ c (Proc.devRef .tc main_arg4) = m ((c : Thread nD τ).loc main_arg4) :=
  W23_of_untouched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg5 (c : Dev nD) : W23 m ρ c (Proc.devRef .tc main_arg5) = m ((c : Thread nD τ).loc main_arg5) :=
  W23_of_untouched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg6 (c : Dev nD) : W23 m ρ c (Proc.devRef .tc main_arg6) = m ((c : Thread nD τ).loc main_arg6) :=
  W23_of_untouched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg7 (c : Dev nD) : W23 m ρ c (Proc.devRef .tc main_arg7) = m ((c : Thread nD τ).loc main_arg7) :=
  W23_of_untouched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg8 (c : Dev nD) : W23 m ρ c (Proc.devRef .tc main_arg8) = m ((c : Thread nD τ).loc main_arg8) :=
  W23_of_untouched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg9 (c : Dev nD) : W23 m ρ c (Proc.devRef .tc main_arg9) = m ((c : Thread nD τ).loc main_arg9) :=
  W23_of_untouched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg10 (c : Dev nD) : W23 m ρ c (Proc.devRef .tc main_arg10) = m ((c : Thread nD τ).loc main_arg10) :=
  W23_of_untouched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg11 (c : Dev nD) : W23 m ρ c (Proc.devRef .tc main_arg11) = m ((c : Thread nD τ).loc main_arg11) :=
  W23_of_untouched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg12 (c : Dev nD) : W23 m ρ c (Proc.devRef .tc main_arg12) = m ((c : Thread nD τ).loc main_arg12) :=
  W23_of_untouched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg13 (c : Dev nD) : W23 m ρ c (Proc.devRef .tc main_arg13) = m ((c : Thread nD τ).loc main_arg13) :=
  W23_of_untouched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide)

def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W23 m ρ c) ∗ ∃ r, prngReg c r)

set_option backward.isDefEq.respectTransparency.types false in

def reg0 : Pipeline.RegionSeg (pcfgs (F := F)) adm (pdats m ρ) () defs₀ Variants.none L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => A_eq0 (Vin0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    refine BIBase.Entails.trans (hout0 (Vin0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ Variants.none L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    refine BIBase.Entails.trans (hout1 (Vin1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ Variants.none L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun w => A_eq2 (Vin2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m ρ) c)
    unfold Pipeline.ΦA
    iintro ⟨Hp, -, Hr⟩
    isplitl [Hr]; · iexact Hr
    iexact Hp
  hout c := by
    refine BIBase.Entails.trans (hout2 (Vin2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ Variants.none L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun w => A_eq3 (Vin3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m ρ) c)
    unfold Pipeline.ΦA
    iintro ⟨Hp, -, Hr⟩
    isplitl [Hr]; · iexact Hr
    iexact Hp
  hout c := by
    refine BIBase.Entails.trans (hout3 (Vin3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ Variants.none L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun w => A_eq4 (Vin4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Vin4 m ρ) c)
    unfold Pipeline.ΦA
    iintro ⟨Hp, -, Hr⟩
    isplitl [Hr]; · iexact Hr
    iexact Hp
  hout c := by
    refine BIBase.Entails.trans (hout4 (Vin4 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ Variants.none L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun w => A_eq5 (Vin5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Vin5 m ρ) c)
    unfold Pipeline.ΦA
    iintro ⟨Hp, -, Hr⟩
    isplitl [Hr]; · iexact Hr
    iexact Hp
  hout c := by
    refine BIBase.Entails.trans (hout5 (Vin5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs6 : List (Pipeline.Seg (pcfgs (F := F)) adm (pdats m ρ) () defs₀ Variants.none L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .host (hseg hostOps6_1 hostOps6_1_sub hostOps6_1_fresh (W15 m ρ)),
    .host (hseg hostOps6_2 hostOps6_2_sub hostOps6_2_fresh (W16 m ρ)),
    .host (hseg hostOps6_3 hostOps6_3_sub hostOps6_3_fresh (W17 m ρ)),
    .host (hseg hostOps6_4 hostOps6_4_sub hostOps6_4_fresh (W18 m ρ)),
    .host (hseg hostOps6_5 hostOps6_5_sub hostOps6_5_fresh (W19 m ρ)),
    .host (hseg hostOps6_6 hostOps6_6_sub hostOps6_6_fresh (W20 m ρ)),
    .host (hseg hostOps6_7 hostOps6_7_sub hostOps6_7_fresh (W21 m ρ)),
    .host (hseg hostOps6_8 hostOps6_8_sub hostOps6_8_fresh (W22 m ρ)) ]

theorem segs6_prog : (segs6 m ρ).map Pipeline.Seg.prog = [
    StableHlo.seq hostOps0,
    StableHlo.seq hostOps0_1,
    StableHlo.seq hostOps0_2,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    StableHlo.seq hostOps6_1,
    StableHlo.seq hostOps6_2,
    StableHlo.seq hostOps6_3,
    StableHlo.seq hostOps6_4,
    StableHlo.seq hostOps6_5,
    StableHlo.seq hostOps6_6,
    StableHlo.seq hostOps6_7,
    StableHlo.seq hostOps6_8 ] := rfl

theorem main_run (c : Dev nD) : main (F := F) c = Pipeline.Seg.run (segs6 m ρ) := by
  rw [main_chain c, Pipeline.Seg.run_eq_chain, segs6_prog]

set_option backward.isDefEq.respectTransparency.types false in

theorem run6 : θ_run defs (onTc (τ := τ) (main (F := F))) ⟨m, fun _ => 0, ρ⟩ (fun r => ∀ c : Dev nD,
      r.2.mem ((c.tc : Thread nD τ).loc main_v92) = W23 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ Variants.none L lv m ρ main (segs6 m ρ)
    (fun c Q => by rw [main_run m ρ c])
    (by simp only [segs6, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m ρ c) ∗ R c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v92 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c)⟩)

theorem frame6 : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (run6 m ρ).mono fun r h c => (h c).2

end Cert.KernelIdeal.Gen

end
-- ==== Proof.KI.Blocks0.lean ====
import proofs.«426140_j3899830305296_1_alg».proof.Proof.KI.Data0
import Idealize.ShloMosaic.Lib.ValueIdx
import Idealize.ShloMosaic.Lib.Pipeline.FrameBody
import Idealize.ShloMosaic.Lib.Pipeline.Value
import Idealize.ShloMosaic.Lib.Pipeline.Cells
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem blkIdx0 : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = t.val % 16
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 16 ∧ win0_4.index t (1 : Fin 3) = 0 ∧ win0_4.index t (2 : Fin 3) = 0 :=
  (by decide +kernel : ∀ t : Fin grid0.N, _)

theorem stream0_lt (t : Fin cfg0.N) (b k : ℕ) (ht : t.val = 16 * b + k) : b < 2 := by
  have hN : cfg0.N = 32 := N_0
  have := t.isLt
  omega

theorem slab0_lt (k : ℕ) (hk : k < 16) (p : Fin 256) : 256 * k + p.val < 4096 := by
  have := p.isLt
  omega

theorem xblk0_apply (c : Dev nD) (t : Fin cfg0.N) (b k : ℕ) (ht : t.val = 16 * b + k) (hk : k < 16)
    (p : Fin 256) (kk : Fin 512) :
    xblk0 V c t (ix3 0 p kk)
      = (V c (Pipeline.arrRef spec0 0) : S2x4096x512.Idx → Elt F .f32)
          (ix3 ⟨b, stream0_lt t b k ht⟩ ⟨256 * k + p.val, slab0_lt k hk p⟩ kk) := by
  obtain ⟨e0, e1, e2, -⟩ := blkIdx0 t
  show (V c (Pipeline.arrRef spec0 0) : S2x4096x512.Idx → Elt F .f32) (((cfg0.win 0).blk t).view.emb (ix3 0 p kk)) = _
  refine congrArg _ (funext fun a => Fin.ext ?_)
  match a with
  | ⟨0, _⟩ => show win0_0.index t (0 : Fin 3) * 1 + 1 * 0 = b; omega
  | ⟨1, _⟩ => show win0_0.index t (1 : Fin 3) * 256 + 1 * p.val = 256 * k + p.val; omega
  | ⟨2, _⟩ => show win0_0.index t (2 : Fin 3) * 512 + 1 * kk.val = kk.val; omega

theorem ablk0_apply (c : Dev nD) (t : Fin cfg0.N) (b k : ℕ) (ht : t.val = 16 * b + k) (hk : k < 16)
    (r : Fin 4096) (j : Fin 256) :
    ablk0 V c t (ix3 0 r j)
      = (V c (Pipeline.arrRef spec0 1) : S2x4096x4096.Idx → Elt F .bf16)
          (ix3 ⟨b, stream0_lt t b k ht⟩ r ⟨256 * k + j.val, slab0_lt k hk j⟩) := by
  obtain ⟨-, -, -, e0, e1, e2, -⟩ := blkIdx0 t
  show (V c (Pipeline.arrRef spec0 1) : S2x4096x4096.Idx → Elt F .bf16) (((cfg0.win 1).blk t).view.emb (ix3 0 r j)) = _
  refine congrArg _ (funext fun a => Fin.ext ?_)
  match a with
  | ⟨0, _⟩ => show win0_1.index t (0 : Fin 3) * 1 + 1 * 0 = b; omega
  | ⟨1, _⟩ => show win0_1.index t (1 : Fin 3) * 4096 + 1 * r.val = r.val; omega
  | ⟨2, _⟩ => show win0_1.index t (2 : Fin 3) * 256 + 1 * j.val = 256 * k + j.val; omega

theorem wblk0_apply (c : Dev nD) (t : Fin cfg0.N) (a : Fin 512) (q : Fin 512) :
    wblk0 V c t (ix2 a q) = (V c (Pipeline.arrRef spec0 2) : S512x512.Idx → Elt F .f32) (ix2 a q) := by
  obtain ⟨-, -, -, -, -, -, e0, e1, -⟩ := blkIdx0 t
  show (V c (Pipeline.arrRef spec0 2) : S512x512.Idx → Elt F .f32) (((cfg0.win 2).blk t).view.emb (ix2 a q)) = _
  refine congrArg _ (funext fun d => Fin.ext ?_)
  match d with
  | ⟨0, _⟩ => show win0_2.index t (0 : Fin 2) * 512 + 1 * a.val = a.val; omega
  | ⟨1, _⟩ => show win0_2.index t (1 : Fin 2) * 512 + 1 * q.val = q.val; omega

theorem bblk0_apply (c : Dev nD) (t : Fin cfg0.N) (q : Fin 512) :
    bblk0 V c t (ix2 0 q) = (V c (Pipeline.arrRef spec0 3) : S1x512.Idx → Elt F .f32) (ix2 0 q) := by
  obtain ⟨-, -, -, -, -, -, -, -, e0, e1, -⟩ := blkIdx0 t
  show (V c (Pipeline.arrRef spec0 3) : S1x512.Idx → Elt F .f32) (((cfg0.win 3).blk t).view.emb (ix2 0 q)) = _
  refine congrArg _ (funext fun d => Fin.ext ?_)
  match d with
  | ⟨0, _⟩ => show win0_3.index t (0 : Fin 2) * 1 + 1 * 0 = 0; omega
  | ⟨1, _⟩ => show win0_3.index t (1 : Fin 2) * 512 + 1 * q.val = q.val; omega

theorem last0_lt (b : ℕ) (hb : b < 2) : 16 * b + 15 < cfg0.N := by
  have hN : cfg0.N = 32 := N_0
  omega

def outArr0 (c : Dev nD) : S2x4096x512.Idx → Elt F .f32 :=
  fun i => outAt0 V c ⟨16 * (i 0).val + 15, last0_lt (i 0).val (i 0).isLt⟩ (ix3 0 (i 1) (i 2))

theorem outAt0_congr (c : Dev nD) (t t' : Fin cfg0.N) (j j' : S1x4096x512.Idx) (ht : t.val = t'.val)
    (hj : ∀ a, (j a).val = (j' a).val) : outAt0 V c t j = outAt0 V c t' j' := by
  obtain rfl : t = t' := Fin.ext ht
  obtain rfl : j = j' := funext fun a => Fin.ext (hj a)
  rfl

theorem flushed0_4_eq (c : Dev nD) (t : Fin cfg0.N) (hf : (cfg0.win 4).flush t = true) :
    (dat0 V c).flushed 4 t = ((cfg0.win 4).blk t).view.read (Elt F) (outArr0 V c) := by
  have h15 : t.val % 16 = 15 := (flush0_4 t).mp hf
  obtain ⟨-, -, -, -, -, -, -, -, -, -, e0, e1, e2⟩ := blkIdx0 t
  show (cfg0.win 4).cut (grid0.coords t) ((dat0 V c).after 4 t) = _
  rw [after0_4]
  funext j
  show outAt0 V c t ((cfg0.win 4).xinj (grid0.coords t) j) = outArr0 V c (((cfg0.win 4).blk t).view.emb j)
  have hj0 : (j 0).val < 1 := (j 0).isLt
  have hj1 : (j 1).val < 4096 := (j 1).isLt
  have hj2 : (j 2).val < 512 := (j 2).isLt
  have q0 : ((((cfg0.win 4).blk t).view.emb j) 0).val = t.val / 16 := by
    show win0_4.index t (0 : Fin 3) * 1 + 1 * (j 0).val = t.val / 16; omega
  have q1 : ((((cfg0.win 4).blk t).view.emb j) 1).val = (j 1).val := by
    show win0_4.index t (1 : Fin 3) * 4096 + 1 * (j 1).val = (j 1).val; omega
  have q2 : ((((cfg0.win 4).blk t).view.emb j) 2).val = (j 2).val := by
    show win0_4.index t (2 : Fin 3) * 512 + 1 * (j 2).val = (j 2).val; omega
  unfold outArr0
  refine outAt0_congr V c _ _ _ _ ?_ ?_
  · show t.val = 16 * ((((cfg0.win 4).blk t).view.emb j) 0).val + 15
    omega
  · intro a
    match a with
    | ⟨0, _⟩ => show (j 0).val = 0; omega
    | ⟨1, _⟩ => show (j 1).val = ((((cfg0.win 4).blk t).view.emb j) 1).val; omega
    | ⟨2, _⟩ => show (j 2).val = ((((cfg0.win 4).blk t).view.emb j) 2).val; omega

theorem mem_blk0_4 (t : Fin cfg0.N) (i : S2x4096x512.Idx) :
    i ∈ ((cfg0.win 4).blk t).view.set
      ↔ ∀ a : Fin 3, win0_4.index t a * S1x4096x512.size a ≤ (i a).val
          ∧ (i a).val < win0_4.index t a * S1x4096x512.size a + S1x4096x512.size a := by
  show i ∈ ((View.whole (Pipeline.arrRef spec0 4)).slice (win0_4.rect t)).set ↔ _
  rw [View.set_slice_whole, Rect.mem_set_unit]
  exact Iff.rfl

theorem cover0_4 (i : S2x4096x512.Idx) :
    ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 512 := (i 2).isLt
  refine ⟨⟨16 * (i 0).val + 15, last0_lt (i 0).val hi0⟩, (flush0_4 _).mpr (by show (16 * (i 0).val + 15) % 16 = 15; omega), ?_⟩
  obtain ⟨-, -, -, -, -, -, -, -, -, -, e0, e1, e2⟩ := blkIdx0 ⟨16 * (i 0).val + 15, last0_lt (i 0).val hi0⟩
  have e0' : win0_4.index ⟨16 * (i 0).val + 15, last0_lt (i 0).val hi0⟩ (0 : Fin 3) = (i 0).val := by
    rw [e0]; show (16 * (i 0).val + 15) / 16 = (i 0).val; omega
  rw [mem_blk0_4]
  intro a
  match a with
  | ⟨0, _⟩ =>
    show win0_4.index ⟨16 * (i 0).val + 15, last0_lt (i 0).val hi0⟩ (0 : Fin 3) * 1 ≤ (i 0).val
      ∧ (i 0).val < win0_4.index ⟨16 * (i 0).val + 15, last0_lt (i 0).val hi0⟩ (0 : Fin 3) * 1 + 1
    omega
  | ⟨1, _⟩ =>
    show win0_4.index ⟨16 * (i 0).val + 15, last0_lt (i 0).val hi0⟩ (1 : Fin 3) * 4096 ≤ (i 1).val
      ∧ (i 1).val < win0_4.index ⟨16 * (i 0).val + 15, last0_lt (i 0).val hi0⟩ (1 : Fin 3) * 4096 + 4096
    omega
  | ⟨2, _⟩ =>
    show win0_4.index ⟨16 * (i 0).val + 15, last0_lt (i 0).val hi0⟩ (2 : Fin 3) * 512 ≤ (i 2).val
      ∧ (i 2).val < win0_4.index ⟨16 * (i 0).val + 15, last0_lt (i 0).val hi0⟩ (2 : Fin 3) * 512 + 512
    omega

/-- The blocks written at the two streams' last steps tile the output array. -/
theorem arrAt0_4 (c : Dev nD) : (dat0 V c).arrAt 4 cfg0.N = outArr0 V c :=
  (dat0 V c).arrAt_eq_of_cover 4 (outArr0 V c) (fun t hf => flushed0_4_eq V c t hf) cover0_4

theorem arrAt0_out (c : Dev nD) (b : Fin 2) (r : Fin 4096) (q : Fin 512) :
    ((dat0 V c).arrAt 4 cfg0.N : S2x4096x512.Idx → Elt F .f32) (ix3 b r q)
      = outAt0 V c ⟨16 * b.val + 15, last0_lt b.val b.isLt⟩ (ix3 0 r q) := by
  rw [arrAt0_4]
  rfl

theorem arrAt0_in (c : Dev nD) (w : Fin 5) (hw : w ≠ 4) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  rw [Dat.arrAt_in (dat0 V c) w hin cfg0.N]
  exact A_eq0 V c w

end Cert.KernelIdeal.Gen

end
-- ==== Proof.Spec.lean ====
import Idealize.ShloMosaic.PureOps.Ideal

noncomputable section

namespace Cert.Spec

open Idealize.ShloMosaic

abbrev Mat (a b : Nat) : Type := Fin a → Fin b → EReal

abbrev eps : EReal := Ideal.ofBits .f32 0x2B8CBCCC#32

def hid (x : Mat 4096 512) (W : Mat 512 512) (b : Fin 512 → EReal) : Mat 4096 512 :=
  fun r c => max ((∑ k : Fin 512, x r k * W k c) + b c) 0

def msg (A : Mat 4096 4096) (h : Mat 4096 512) : Mat 4096 512 :=
  fun r c => h r c + ∑ j : Fin 4096, A r j * h j c

def nrm (u : Mat 4096 512) : Mat 4096 512 :=
  fun r c => Ideal.div (u r c) (max (Ideal.sqrt (∑ c' : Fin 512, u r c' * u r c')) eps)

def layer (x : Mat 4096 512) (A : Mat 4096 4096) (W : Mat 512 512) (b : Fin 512 → EReal) : Mat 4096 512 :=
  nrm (msg A (hid x W b))

def gnn (x : Mat 4096 512) (A : Mat 4096 4096) (Wf : Fin 6 → Mat 512 512) (bf : Fin 6 → Fin 512 → EReal) : Mat 4096 512 :=
  layer (layer (layer (layer (layer (layer x A (Wf 0) (bf 0)) A (Wf 1) (bf 1)) A (Wf 2) (bf 2)) A (Wf 3) (bf 3)) A (Wf 4) (bf 4)) A (Wf 5) (bf 5)

end Cert.Spec

end
-- ==== Proof.PayIdeal.lean ====
import proofs.«426140_j3899830305296_1_alg».proof.Proof.Gen.KernelIdeal.Skeleton
import proofs.«426140_j3899830305296_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdeal

open Cert.KernelIdeal Cert.KernelIdeal.Gen Idealize.ShloMosaic Idealize.ShloMosaic.ValueIdx Idealize.SL.Sem

theorem lhsW_0 (i : S256x512.Idx) (c : dot_S256x512_S512x512_S256x512_1_0_0_1_n_n.contr.Idx) :
    (dot_S256x512_S512x512_S256x512_1_0_0_1_n_n.lhsIdx i c 0).val = (i 0).val := by
  unfold DotDims.lhsIdx
  rw [dif_neg (show ¬(0 : Fin S256x512.rank) ∈ dot_S256x512_S512x512_S256x512_1_0_0_1_n_n.lhsBatch by decide),
    dif_pos (show (0 : Fin S256x512.rank) ∈ dot_S256x512_S512x512_S256x512_1_0_0_1_n_n.lhsNonContracting by decide)]
  rfl
theorem lhsW_1 (i : S256x512.Idx) (c : dot_S256x512_S512x512_S256x512_1_0_0_1_n_n.contr.Idx) :
    (dot_S256x512_S512x512_S256x512_1_0_0_1_n_n.lhsIdx i c 1).val = (c ⟨0, by decide⟩).val :=
  dot_S256x512_S512x512_S256x512_1_0_0_1_n_n.lhsIdx_val_of_single rfl i c
theorem rhsW_0 (i : S256x512.Idx) (c : dot_S256x512_S512x512_S256x512_1_0_0_1_n_n.contr.Idx) :
    (dot_S256x512_S512x512_S256x512_1_0_0_1_n_n.rhsIdx i c 0).val = (c ⟨0, by decide⟩).val :=
  dot_S256x512_S512x512_S256x512_1_0_0_1_n_n.rhsIdx_val_of_single rfl i c
theorem rhsW_1 (i : S256x512.Idx) (c : dot_S256x512_S512x512_S256x512_1_0_0_1_n_n.contr.Idx) :
    (dot_S256x512_S512x512_S256x512_1_0_0_1_n_n.rhsIdx i c 1).val = (i 1).val := by
  unfold DotDims.rhsIdx
  rw [dif_neg (show ¬(1 : Fin S512x512.rank) ∈ dot_S256x512_S512x512_S256x512_1_0_0_1_n_n.rhsBatch by decide),
    dif_pos (show (1 : Fin S512x512.rank) ∈ dot_S256x512_S512x512_S256x512_1_0_0_1_n_n.rhsNonContracting by decide)]
  rfl

theorem matmulW_apply (a : FVec Ideal S256x512 .bf16) (b : FVec Ideal S512x512 .bf16) (p : Fin 256) (q : Fin 512) :
    matmul dot_S256x512_S512x512_S256x512_1_0_0_1_n_n none a b (constant (F := Ideal) S256x512 .f32 0x00000000#32) (ix2 p q)
      = ∑ k : Fin 512, a (ix2 p k) * b (ix2 k q) := by
  simp only [matmul]
  rw [Ideal.matmul_constant_zero_apply,
    ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p q)
      ((contrEquiv1 dot_S256x512_S512x512_S256x512_1_0_0_1_n_n 512 rfl rfl).symm k) = ix2 p k :=
    funext fun ax => Fin.ext (by
      match ax with
      | ⟨0, _⟩ => exact lhsW_0 _ _
      | ⟨1, _⟩ => exact (lhsW_1 _ _).trans hk)
  have er : dot_S256x512_S512x512_S256x512_1_0_0_1_n_n.rhsIdx (ix2 p q)
      ((contrEquiv1 dot_S256x512_S512x512_S256x512_1_0_0_1_n_n 512 rfl rfl).symm k) = ix2 k q :=
    funext fun ax => Fin.ext (by
      match ax with
      | ⟨0, _⟩ => exact (rhsW_0 _ _).trans hk
      | ⟨1, _⟩ => exact rhsW_1 _ _)
  rw [el, er]

theorem pay3_apply (v3 : Vec Ideal S1x256x512 .f32) (v6 : Vec Ideal S512x512 .f32) (v10 : Vec Ideal S1x512 .f32)
    (p : Fin 256) (q : Fin 512) :
    k0_pay3 (F := Ideal) v3 v6 v10 (ix2 p q)
      = max ((∑ k : Fin 512, v3 (ix3 0 p k) * v6 (ix2 k q)) + v10 (ix2 0 q)) 0 := by
  unfold k0_pay3
  simp only [maximumf_apply, addf_apply, broadcast_apply]
  rw [matmulW_apply, broadcastTo_1b_ab_apply]
  simp only [truncf_apply, shapeCast_self]
  congr 1
  · congr 1
    refine Finset.sum_congr rfl fun k _ => ?_
    rw [shapeCast_1ab_ab_apply]
  · exact Ideal.ofBits_zero_f32

theorem pay4_eq (v3 : Vec Ideal S1x256x512 .f32) (v6 : Vec Ideal S512x512 .f32) (v10 : Vec Ideal S1x512 .f32) :
    k0_pay4 (F := Ideal) v3 v6 v10 = k0_pay3 (F := Ideal) v3 v6 v10 := by
  unfold k0_pay4
  exact shapeCast_self _ _

theorem pay2_apply (j : S4096x512.Idx) : k0_pay2 (F := Ideal) j = 0 := by
  unfold k0_pay2
  simp only [shapeCast_self, broadcast_apply]
  exact Ideal.ofBits_zero_f32

theorem lhsA_0 (i : S4096x512.Idx) (c : dot_S4096x256_S256x512_S4096x512_1_0_0_1_n_n.contr.Idx) :
    (dot_S4096x256_S256x512_S4096x512_1_0_0_1_n_n.lhsIdx i c 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl
theorem lhsA_1 (i : S4096x512.Idx) (c : dot_S4096x256_S256x512_S4096x512_1_0_0_1_n_n.contr.Idx) :
    (dot_S4096x256_S256x512_S4096x512_1_0_0_1_n_n.lhsIdx i c 1).val = (c ⟨0, by decide⟩).val :=
  dot_S4096x256_S256x512_S4096x512_1_0_0_1_n_n.lhsIdx_val_of_single rfl i c
theorem rhsA_0 (i : S4096x512.Idx) (c : dot_S4096x256_S256x512_S4096x512_1_0_0_1_n_n.contr.Idx) :
    (dot_S4096x256_S256x512_S4096x512_1_0_0_1_n_n.rhsIdx i c 0).val = (c ⟨0, by decide⟩).val :=
  dot_S4096x256_S256x512_S4096x512_1_0_0_1_n_n.rhsIdx_val_of_single rfl i c
theorem rhsA_1 (i : S4096x512.Idx) (c : dot_S4096x256_S256x512_S4096x512_1_0_0_1_n_n.contr.Idx) :
    (dot_S4096x256_S256x512_S4096x512_1_0_0_1_n_n.rhsIdx i c 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

theorem matmulA_apply (a : FVec Ideal S4096x256 .bf16) (b : FVec Ideal S256x512 .bf16) (r : Fin 4096) (q : Fin 512) :
    matmul dot_S4096x256_S256x512_S4096x512_1_0_0_1_n_n none a b (constant (F := Ideal) S4096x512 .f32 0x00000000#32) (ix2 r q)
      = ∑ j : Fin 256, a (ix2 r j) * b (ix2 j q) := by
  simp only [matmul]
  rw [Ideal.matmul_constant_zero_apply,
    ← Equiv.sum_comp (contrEquiv1 dot_S4096x256_S256x512_S4096x512_1_0_0_1_n_n 256 rfl rfl).symm]
  refine Finset.sum_congr rfl fun j _ => ?_
  have hj := contrEquiv1_symm_val dot_S4096x256_S256x512_S4096x512_1_0_0_1_n_n 256 rfl rfl j
  have el : dot_S4096x256_S256x512_S4096x512_1_0_0_1_n_n.lhsIdx (ix2 r q)
      ((contrEquiv1 dot_S4096x256_S256x512_S4096x512_1_0_0_1_n_n 256 rfl rfl).symm j) = ix2 r j :=
    funext fun ax => Fin.ext (by
      match ax with
      | ⟨0, _⟩ => exact lhsA_0 _ _
      | ⟨1, _⟩ => exact (lhsA_1 _ _).trans hj)
  have er : dot_S4096x256_S256x512_S4096x512_1_0_0_1_n_n.rhsIdx (ix2 r q)
      ((contrEquiv1 dot_S4096x256_S256x512_S4096x512_1_0_0_1_n_n 256 rfl rfl).symm j) = ix2 j q :=
    funext fun ax => Fin.ext (by
      match ax with
      | ⟨0, _⟩ => exact (rhsA_0 _ _).trans hj
      | ⟨1, _⟩ => exact rhsA_1 _ _)
  rw [el, er]

theorem pay5_apply (v3 : Vec Ideal S1x256x512 .f32) (v6 : Vec Ideal S512x512 .f32) (v10 : Vec Ideal S1x512 .f32)
    (v22 : Vec Ideal S4096x512 .f32) (v23 : Vec Ideal S1x4096x256 .bf16) (r : Fin 4096) (q : Fin 512) :
    k0_pay5 (F := Ideal) v3 v6 v10 v22 v23 (ix2 r q)
      = v22 (ix2 r q) + ∑ j : Fin 256, v23 (ix3 0 r j) * k0_pay3 (F := Ideal) v3 v6 v10 (ix2 j q) := by
  unfold k0_pay5
  simp only [shapeCast_self, addf_apply]
  rw [matmulA_apply]
  congr 1
  refine Finset.sum_congr rfl fun j _ => ?_
  rw [truncf_apply, shapeCast_1ab_ab_apply]

section Layout
variable {α : Type}

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem rowSum_apply (v : FVec Ideal S4096x512 .f32) (hφ : FKind.Formats .f32)
    (hacc : (0x00000000#32 : BitVec 32) = 0x00000000#32) (r : Fin 4096) :
    multiReduction (F := Ideal) .add [1] S4096 v 0x00000000#32 reduces_S4096x512_S4096 hφ hacc (ix1 r)
      = ∑ c : Fin 512, v (ix2 r c) := by
  refine (Ideal.multiReduction_add_single v 0x00000000#32 reduces_S4096x512_S4096 hφ hacc (ix1 r)).trans ?_
  show ∑ c : Fin 512, v (reduces_S4096x512_S4096.lift (ix1 r) c) = _
  refine Finset.sum_congr rfl fun c _ => congrArg v (funext fun ax => Fin.ext ?_)
  match ax with
  | ⟨0, _⟩ => rfl
  | ⟨1, _⟩ => rfl

theorem sqrt_apply {s : Shape} {φ : FTy} (a : FVec Ideal s φ) (i : s.Idx) : sqrt a i = Ideal.sqrt (a i) := rfl

theorem pay1_apply (h acc : Vec Ideal S4096x512 .f32) (r : Fin 4096) (q : Fin 512) :
    k0_pay1 (F := Ideal) h acc (ix3 0 r q)
      = Ideal.div (h (ix2 r q) + acc (ix2 r q))
          (max (Ideal.sqrt (∑ c : Fin 512, (h (ix2 r c) + acc (ix2 r c)) * (h (ix2 r c) + acc (ix2 r c)))) Cert.Spec.eps) := by
  unfold k0_pay1
  rw [shapeCast_ab_1ab_apply]
  simp only [divf_apply, addf_apply]
  rw [broadcastTo_a1_ab_apply]
  simp only [maximumf_apply, broadcast_apply, sqrt_apply]
  rw [shapeCast_a_a1_apply, rowSum_apply]
  rfl

end Cert.KernelIdeal.PayIdeal

end
-- ==== Proof.KI.Val0.lean ====
import proofs.«426140_j3899830305296_1_alg».proof.Proof.KI.Data0
import proofs.«426140_j3899830305296_1_alg».proof.Proof.KI.Blocks0
import proofs.«426140_j3899830305296_1_alg».proof.Proof.PayIdeal
import proofs.«426140_j3899830305296_1_alg».proof.Proof.BlockSum
import proofs.«426140_j3899830305296_1_alg».proof.Proof.Spec

set_option maxRecDepth 16384

noncomputable section

namespace Cert.KernelIdeal.Gen

open Idealize.ShloMosaic Idealize.ShloMosaic.TcCoe Idealize.SL.Sem
open Idealize.ShloMosaic.Pipeline (Dat Cfg Window BodyObligation cellOf)
open ValueIdx
open Cert.KernelIdeal

variable (V : (c : Dev nD) → (b : Ref sig .tc) → Buf (Elt Ideal) ((c : Thread nD τ).loc b))

abbrev matX0 (c : Dev nD) (b : Fin 2) : Cert.Spec.Mat 4096 512 := fun r k => V c (Pipeline.arrRef spec0 0) (ix3 b r k)
abbrev matA0 (c : Dev nD) (b : Fin 2) : Cert.Spec.Mat 4096 4096 := fun r j => V c (Pipeline.arrRef spec0 1) (ix3 b r j)
abbrev matW0 (c : Dev nD) : Cert.Spec.Mat 512 512 := fun k q => V c (Pipeline.arrRef spec0 2) (ix2 k q)
abbrev vecB0 (c : Dev nD) : Fin 512 → EReal := fun q => V c (Pipeline.arrRef spec0 3) (ix2 0 q)

abbrev hidM0 (c : Dev nD) (b : Fin 2) : Cert.Spec.Mat 4096 512 := Cert.Spec.hid (matX0 V c b) (matW0 V c) (vecB0 V c)

abbrev term0 (c : Dev nD) (b : Fin 2) (r : Fin 4096) (q : Fin 512) (j : Fin 4096) : EReal :=
  matA0 V c b r j * hidM0 V c b j q

structure BlockReads0 (c : Dev nD) (b : Fin 2) : Prop where
  x : ∀ (t : Fin cfg0.N) (k : ℕ) (hk : k < 16), t.val = 16 * b.val + k → ∀ (p : Fin 256) (kk : Fin 512),
    xblk0 V c t (ix3 (0 : Fin 1) p kk) = matX0 V c b ⟨256 * k + p.val, by omega⟩ kk
  a : ∀ (t : Fin cfg0.N) (k : ℕ) (hk : k < 16), t.val = 16 * b.val + k → ∀ (r : Fin 4096) (j : Fin 256),
    ablk0 V c t (ix3 (0 : Fin 1) r j) = matA0 V c b r ⟨256 * k + j.val, by omega⟩
  w : ∀ (t : Fin cfg0.N) (a : Fin 512) (q : Fin 512), wblk0 V c t (ix2 a q) = matW0 V c a q
  bias : ∀ (t : Fin cfg0.N) (q : Fin 512), bblk0 V c t (ix2 (0 : Fin 1) q) = vecB0 V c q

theorem pt_lt0 (b : Fin 2) (n : ℕ) (hn : n < 16) : 16 * b.val + n < cfg0.N := by
  have hN : cfg0.N = 32 := N_0
  omega

theorem hfull0_idx (c : Dev nD) {m m' : ℕ} (h : m = m') (hm : m < 2) (hm' : m' < 2) :
    hfull0 V c m hm = hfull0 V c m' hm' := by
  subst h; rfl

section Steps
variable (c : Dev nD) (b : Fin 2) (R : BlockReads0 V c b)
include R

theorem hid_block0 (t : Fin cfg0.N) (k : ℕ) (hk : k < 16) (ht : t.val = 16 * b.val + k) (p : Fin 256) (q : Fin 512) :
    k0_pay3 (F := Ideal) (xblk0 V c t) (wblk0 V c t) (bblk0 V c t) (ix2 p q)
      = hidM0 V c b ⟨256 * k + p.val, by omega⟩ q := by
  refine (PayIdeal.pay3_apply _ _ _ p q).trans ?_
  show _ = max ((∑ kk : Fin 512, matX0 V c b ⟨256 * k + p.val, _⟩ kk * matW0 V c kk q) + vecB0 V c q) 0
  rw [R.bias t q]
  refine congrArg (fun s => max (s + vecB0 V c q) 0) (Finset.sum_congr rfl fun kk _ => ?_)
  rw [R.x t k hk ht p kk, R.w t kk q]

theorem hfull0_apply (r : Fin 4096) (q : Fin 512) :
    hfull0 V c b.val b.isLt (ix2 r q) = hidM0 V c b r q := by
  show Steps.row hN0 (hblk0 V c) b.val b.isLt r q = _
  unfold Steps.row
  refine (congrFun (PayIdeal.pay4_eq _ _ _) _).trans ?_
  refine (hid_block0 V c b R ⟨16 * b.val + r.val / 256, Steps.step_lt hN0 b.val b.isLt r⟩ (r.val / 256)
    (by have := r.isLt; omega) rfl ⟨r.val % 256, Nat.mod_lt _ (by decide)⟩ q).trans ?_
  exact congrArg (fun r' => hidM0 V c b r' q) (Fin.ext (by show 256 * (r.val / 256) + r.val % 256 = r.val; omega))

theorem acc_point0 (t : Fin cfg0.N) (k : ℕ) (hk : k < 16) (ht : t.val = 16 * b.val + k)
    (prev : Vec Ideal S4096x512 .f32) (r : Fin 4096) (q : Fin 512) :
    k0_pay5 (F := Ideal) (xblk0 V c t) (wblk0 V c t) (bblk0 V c t) prev (ablk0 V c t) (ix2 r q)
      = prev (ix2 r q) + ∑ j : Fin 256, term0 V c b r q ⟨256 * k + j.val, by omega⟩ := by
  refine (PayIdeal.pay5_apply _ _ _ _ _ r q).trans ?_
  refine congrArg (fun s => prev (ix2 r q) + s) (Finset.sum_congr rfl fun j _ => ?_)
  rw [R.a t k hk ht r j]
  exact congrArg (fun s => matA0 V c b r ⟨256 * k + j.val, _⟩ * s) (hid_block0 V c b R t k hk ht j q)

/-- Sixteen slab sums regroup into the full sum over the 4096 columns of A. -/
theorem acc_last0 (r : Fin 4096) (q : Fin 512) :
    accAt0 V c (16 * b.val + 15) (pt_lt0 b 15 (by decide)) (ix2 r q) = ∑ j : Fin 4096, term0 V c b r q j :=
  Steps.accAt_last hN0 (step0 V c) _ (ix2 r q) (term0 V c b r q) b.val b.isLt (PayIdeal.pay2_apply _)
    fun t k hk ht prev => acc_point0 V c b R t k hk ht prev r q

theorem out_last0 (t : Fin cfg0.N) (ht : t.val = 16 * b.val + 15) (r : Fin 4096) (q : Fin 512) :
    outAt0 V c t (ix3 (0 : Fin 1) r q)
      = Cert.Spec.layer (matX0 V c b) (matA0 V c b) (matW0 V c) (vecB0 V c) r q := by
  have hh : ∀ q' : Fin 512, hfull0 V c (t.val / 16) (Steps.stream_lt hN0 t.val t.isLt) (ix2 r q') = hidM0 V c b r q' := fun q' =>
    (congrFun (hfull0_idx V c (by omega : t.val / 16 = b.val) _ b.isLt) _).trans (hfull0_apply V c b R r q')
  have hacc : ∀ q' : Fin 512, accAt0 V c t.val t.isLt (ix2 r q') = ∑ j : Fin 4096, term0 V c b r q' j := fun q' =>
    (congrFun (Steps.accAt_idx _ _ ht _ _) _).trans (acc_last0 V c b R r q')
  unfold outAt0
  refine (PayIdeal.pay1_apply _ _ r q).trans ?_
  simp only [hh, hacc]
  rfl

end Steps

theorem blockReads0 (c : Dev nD) (b : Fin 2) : BlockReads0 V c b where
  x := fun t k hk ht p kk => xblk0_apply V c t b.val k ht hk p kk
  a := fun t k hk ht r j => ablk0_apply V c t b.val k ht hk r j
  w := fun t a q => wblk0_apply V c t a q
  bias := fun t q => bblk0_apply V c t q

/-- The array the call leaves is one layer of the index formula, applied to the four arrays it found. -/
theorem region0_value (c : Dev nD) (b : Fin 2) (r : Fin 4096) (q : Fin 512) :
    (dat0 (F := Ideal) V c).arrAt 4 cfg0.N (ix3 b r q)
      = Cert.Spec.layer (fun r k => V c (Pipeline.arrRef spec0 0) (ix3 b r k))
          (fun r j => V c (Pipeline.arrRef spec0 1) (ix3 b r j))
          (fun k q => V c (Pipeline.arrRef spec0 2) (ix2 k q))
          (fun q => V c (Pipeline.arrRef spec0 3) (ix2 0 q)) r q :=
  (arrAt0_out V c b r q).trans (out_last0 V c b (blockReads0 V c b) _ rfl r q)

end Cert.KernelIdeal.Gen

end
-- ==== Proof.KI.Blocks1.lean ====
import proofs.«426140_j3899830305296_1_alg».proof.Proof.KI.Data1
import Idealize.ShloMosaic.Lib.ValueIdx
import Idealize.ShloMosaic.Lib.Pipeline.FrameBody
import Idealize.ShloMosaic.Lib.Pipeline.Value
import Idealize.ShloMosaic.Lib.Pipeline.Cells
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem blkIdx1 : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = 0 ∧ win1_1.index t (2 : Fin 3) = t.val % 16
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 16 ∧ win1_4.index t (1 : Fin 3) = 0 ∧ win1_4.index t (2 : Fin 3) = 0 :=
  (by decide +kernel : ∀ t : Fin grid1.N, _)

theorem stream1_lt (t : Fin cfg1.N) (b k : ℕ) (ht : t.val = 16 * b + k) : b < 2 := by
  have hN : cfg1.N = 32 := N_1
  have := t.isLt
  omega

theorem slab1_lt (k : ℕ) (hk : k < 16) (p : Fin 256) : 256 * k + p.val < 4096 := by
  have := p.isLt
  omega

theorem xblk1_apply (c : Dev nD) (t : Fin cfg1.N) (b k : ℕ) (ht : t.val = 16 * b + k) (hk : k < 16)
    (p : Fin 256) (kk : Fin 512) :
    xblk1 V c t (ix3 0 p kk)
      = (V c (Pipeline.arrRef spec1 0) : S2x4096x512.Idx → Elt F .f32)
          (ix3 ⟨b, stream1_lt t b k ht⟩ ⟨256 * k + p.val, slab1_lt k hk p⟩ kk) := by
  obtain ⟨e0, e1, e2, -⟩ := blkIdx1 t
  show (V c (Pipeline.arrRef spec1 0) : S2x4096x512.Idx → Elt F .f32) (((cfg1.win 0).blk t).view.emb (ix3 0 p kk)) = _
  refine congrArg _ (funext fun a => Fin.ext ?_)
  match a with
  | ⟨0, _⟩ => show win1_0.index t (0 : Fin 3) * 1 + 1 * 0 = b; omega
  | ⟨1, _⟩ => show win1_0.index t (1 : Fin 3) * 256 + 1 * p.val = 256 * k + p.val; omega
  | ⟨2, _⟩ => show win1_0.index t (2 : Fin 3) * 512 + 1 * kk.val = kk.val; omega

theorem ablk1_apply (c : Dev nD) (t : Fin cfg1.N) (b k : ℕ) (ht : t.val = 16 * b + k) (hk : k < 16)
    (r : Fin 4096) (j : Fin 256) :
    ablk1 V c t (ix3 0 r j)
      = (V c (Pipeline.arrRef spec1 1) : S2x4096x4096.Idx → Elt F .bf16)
          (ix3 ⟨b, stream1_lt t b k ht⟩ r ⟨256 * k + j.val, slab1_lt k hk j⟩) := by
  obtain ⟨-, -, -, e0, e1, e2, -⟩ := blkIdx1 t
  show (V c (Pipeline.arrRef spec1 1) : S2x4096x4096.Idx → Elt F .bf16) (((cfg1.win 1).blk t).view.emb (ix3 0 r j)) = _
  refine congrArg _ (funext fun a => Fin.ext ?_)
  match a with
  | ⟨0, _⟩ => show win1_1.index t (0 : Fin 3) * 1 + 1 * 0 = b; omega
  | ⟨1, _⟩ => show win1_1.index t (1 : Fin 3) * 4096 + 1 * r.val = r.val; omega
  | ⟨2, _⟩ => show win1_1.index t (2 : Fin 3) * 256 + 1 * j.val = 256 * k + j.val; omega

theorem wblk1_apply (c : Dev nD) (t : Fin cfg1.N) (a : Fin 512) (q : Fin 512) :
    wblk1 V c t (ix2 a q) = (V c (Pipeline.arrRef spec1 2) : S512x512.Idx → Elt F .f32) (ix2 a q) := by
  obtain ⟨-, -, -, -, -, -, e0, e1, -⟩ := blkIdx1 t
  show (V c (Pipeline.arrRef spec1 2) : S512x512.Idx → Elt F .f32) (((cfg1.win 2).blk t).view.emb (ix2 a q)) = _
  refine congrArg _ (funext fun d => Fin.ext ?_)
  match d with
  | ⟨0, _⟩ => show win1_2.index t (0 : Fin 2) * 512 + 1 * a.val = a.val; omega
  | ⟨1, _⟩ => show win1_2.index t (1 : Fin 2) * 512 + 1 * q.val = q.val; omega

theorem bblk1_apply (c : Dev nD) (t : Fin cfg1.N) (q : Fin 512) :
    bblk1 V c t (ix2 0 q) = (V c (Pipeline.arrRef spec1 3) : S1x512.Idx → Elt F .f32) (ix2 0 q) := by
  obtain ⟨-, -, -, -, -, -, -, -, e0, e1, -⟩ := blkIdx1 t
  show (V c (Pipeline.arrRef spec1 3) : S1x512.Idx → Elt F .f32) (((cfg1.win 3).blk t).view.emb (ix2 0 q)) = _
  refine congrArg _ (funext fun d => Fin.ext ?_)
  match d with
  | ⟨0, _⟩ => show win1_3.index t (0 : Fin 2) * 1 + 1 * 0 = 0; omega
  | ⟨1, _⟩ => show win1_3.index t (1 : Fin 2) * 512 + 1 * q.val = q.val; omega

theorem last1_lt (b : ℕ) (hb : b < 2) : 16 * b + 15 < cfg1.N := by
  have hN : cfg1.N = 32 := N_1
  omega

def outArr1 (c : Dev nD) : S2x4096x512.Idx → Elt F .f32 :=
  fun i => outAt1 V c ⟨16 * (i 0).val + 15, last1_lt (i 0).val (i 0).isLt⟩ (ix3 0 (i 1) (i 2))

theorem outAt1_congr (c : Dev nD) (t t' : Fin cfg1.N) (j j' : S1x4096x512.Idx) (ht : t.val = t'.val)
    (hj : ∀ a, (j a).val = (j' a).val) : outAt1 V c t j = outAt1 V c t' j' := by
  obtain rfl : t = t' := Fin.ext ht
  obtain rfl : j = j' := funext fun a => Fin.ext (hj a)
  rfl

theorem flushed1_4_eq (c : Dev nD) (t : Fin cfg1.N) (hf : (cfg1.win 4).flush t = true) :
    (dat1 V c).flushed 4 t = ((cfg1.win 4).blk t).view.read (Elt F) (outArr1 V c) := by
  have h15 : t.val % 16 = 15 := (flush1_4 t).mp hf
  obtain ⟨-, -, -, -, -, -, -, -, -, -, e0, e1, e2⟩ := blkIdx1 t
  show (cfg1.win 4).cut (grid1.coords t) ((dat1 V c).after 4 t) = _
  rw [after1_4]
  funext j
  show outAt1 V c t ((cfg1.win 4).xinj (grid1.coords t) j) = outArr1 V c (((cfg1.win 4).blk t).view.emb j)
  have hj0 : (j 0).val < 1 := (j 0).isLt
  have hj1 : (j 1).val < 4096 := (j 1).isLt
  have hj2 : (j 2).val < 512 := (j 2).isLt
  have q0 : ((((cfg1.win 4).blk t).view.emb j) 0).val = t.val / 16 := by
    show win1_4.index t (0 : Fin 3) * 1 + 1 * (j 0).val = t.val / 16; omega
  have q1 : ((((cfg1.win 4).blk t).view.emb j) 1).val = (j 1).val := by
    show win1_4.index t (1 : Fin 3) * 4096 + 1 * (j 1).val = (j 1).val; omega
  have q2 : ((((cfg1.win 4).blk t).view.emb j) 2).val = (j 2).val := by
    show win1_4.index t (2 : Fin 3) * 512 + 1 * (j 2).val = (j 2).val; omega
  unfold outArr1
  refine outAt1_congr V c _ _ _ _ ?_ ?_
  · show t.val = 16 * ((((cfg1.win 4).blk t).view.emb j) 0).val + 15
    omega
  · intro a
    match a with
    | ⟨0, _⟩ => show (j 0).val = 0; omega
    | ⟨1, _⟩ => show (j 1).val = ((((cfg1.win 4).blk t).view.emb j) 1).val; omega
    | ⟨2, _⟩ => show (j 2).val = ((((cfg1.win 4).blk t).view.emb j) 2).val; omega

theorem mem_blk1_4 (t : Fin cfg1.N) (i : S2x4096x512.Idx) :
    i ∈ ((cfg1.win 4).blk t).view.set
      ↔ ∀ a : Fin 3, win1_4.index t a * S1x4096x512.size a ≤ (i a).val
          ∧ (i a).val < win1_4.index t a * S1x4096x512.size a + S1x4096x512.size a := by
  show i ∈ ((View.whole (Pipeline.arrRef spec1 4)).slice (win1_4.rect t)).set ↔ _
  rw [View.set_slice_whole, Rect.mem_set_unit]
  exact Iff.rfl

theorem cover1_4 (i : S2x4096x512.Idx) :
    ∃ t : Fin cfg1.N, (cfg1.win 4).flush t = true ∧ i ∈ ((cfg1.win 4).blk t).view.set := by
  have hi0 : (i 0).val < 2 := (i 0).isLt
  have hi1 : (i 1).val < 4096 := (i 1).isLt
  have hi2 : (i 2).val < 512 := (i 2).isLt
  refine ⟨⟨16 * (i 0).val + 15, last1_lt (i 0).val hi0⟩, (flush1_4 _).mpr (by show (16 * (i 0).val + 15) % 16 = 15; omega), ?_⟩
  obtain ⟨-, -, -, -, -, -, -, -, -, -, e0, e1, e2⟩ := blkIdx1 ⟨16 * (i 0).val + 15, last1_lt (i 0).val hi0⟩
  have e0' : win1_4.index ⟨16 * (i 0).val + 15, last1_lt (i 0).val hi0⟩ (0 : Fin 3) = (i 0).val := by
    rw [e0]; show (16 * (i 0).val + 15) / 16 = (i 0).val; omega
  rw [mem_blk1_4]
  intro a
  match a with
  | ⟨0, _⟩ =>
    show win1_4.index ⟨16 * (i 0).val + 15, last1_lt (i 0).val hi0⟩ (0 : Fin 3) * 1 ≤ (i 0).val
      ∧ (i 0).val < win1_4.index ⟨16 * (i 0).val + 15, last1_lt (i 0).val hi0⟩ (0 : Fin 3) * 1 + 1
    omega
  | ⟨1, _⟩ =>
    show win1_4.index ⟨16 * (i 0).val + 15, last1_lt (i 0).val hi0⟩ (1 : Fin 3) * 4096 ≤ (i 1).val
      ∧ (i 1).val < win1_4.index ⟨16 * (i 0).val + 15, last1_lt (i 0).val hi0⟩ (1 : Fin 3) * 4096 + 4096
    omega
  | ⟨2, _⟩ =>
    show win1_4.index ⟨16 * (i 0).val + 15, last1_lt (i 0).val hi0⟩ (2 : Fin 3) * 512 ≤ (i 2).val
      ∧ (i 2).val < win1_4.index ⟨16 * (i 0).val + 15, last1_lt (i 0).val hi0⟩ (2 : Fin 3) * 512 + 512
    omega

/-- The blocks written at the two streams' last steps tile the output array. -/
theorem arrAt1_4 (c : Dev nD) : (dat1 V c).arrAt 4 cfg1.N = outArr1 V c :=
  (dat1 V c).arrAt_eq_of_cover 4 (outArr1 V c) (fun t hf => flushed1_4_eq V c t hf) cover1_4

theorem arrAt1_out (c : Dev nD) (b : Fin 2) (r : Fin 4096) (q : Fin 512) :
    ((dat1 V c).arrAt 4 cfg1.N : S2x4096x512.Idx → Elt F .f32) (ix3 b r q)
      = outAt1 V c ⟨16 * b.val + 15, last1_lt b.val b.isLt⟩ (ix3 0 r q) := by
  rw [arrAt1_4]
  rfl

theorem arrAt1_in (c : Dev nD) (w : Fin 5) (hw : w ≠ 4) :
    (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  rw [Dat.arrAt_in (dat1 V c) w hin cfg1.N]
  exact A_eq1 V c w

end Cert.KernelIdeal.Gen

end
-- ==== Proof.KI.Val1.lean ====
import proofs.«426140_j3899830305296_1_alg».proof.Proof.KI.Data1
import proofs.«426140_j3899830305296_1_alg».proof.Proof.KI.Blocks1
import proofs.«426140_j3899830305296_1_alg».proof.Proof.PayIdeal
import proofs.«426140_j3899830305296_1_alg».proof.Proof.BlockSum
import proofs.«426140_j3899830305296_1_alg».proof.Proof.Spec

set_option maxRecDepth 16384

noncomputable section

namespace Cert.KernelIdeal.Gen

open Idealize.ShloMosaic Idealize.ShloMosaic.TcCoe Idealize.SL.Sem
open Idealize.ShloMosaic.Pipeline (Dat Cfg Window BodyObligation cellOf)
open ValueIdx
open Cert.KernelIdeal

variable (V : (c : Dev nD) → (b : Ref sig .tc) → Buf (Elt Ideal) ((c : Thread nD τ).loc b))

abbrev matX1 (c : Dev nD) (b : Fin 2) : Cert.Spec.Mat 4096 512 := fun r k => V c (Pipeline.arrRef spec1 0) (ix3 b r k)
abbrev matA1 (c : Dev nD) (b : Fin 2) : Cert.Spec.Mat 4096 4096 := fun r j => V c (Pipeline.arrRef spec1 1) (ix3 b r j)
abbrev matW1 (c : Dev nD) : Cert.Spec.Mat 512 512 := fun k q => V c (Pipeline.arrRef spec1 2) (ix2 k q)
abbrev vecB1 (c : Dev nD) : Fin 512 → EReal := fun q => V c (Pipeline.arrRef spec1 3) (ix2 0 q)

abbrev hidM1 (c : Dev nD) (b : Fin 2) : Cert.Spec.Mat 4096 512 := Cert.Spec.hid (matX1 V c b) (matW1 V c) (vecB1 V c)

abbrev term1 (c : Dev nD) (b : Fin 2) (r : Fin 4096) (q : Fin 512) (j : Fin 4096) : EReal :=
  matA1 V c b r j * hidM1 V c b j q

structure BlockReads1 (c : Dev nD) (b : Fin 2) : Prop where
  x : ∀ (t : Fin cfg1.N) (k : ℕ) (hk : k < 16), t.val = 16 * b.val + k → ∀ (p : Fin 256) (kk : Fin 512),
    xblk1 V c t (ix3 (0 : Fin 1) p kk) = matX1 V c b ⟨256 * k + p.val, by omega⟩ kk
  a : ∀ (t : Fin cfg1.N) (k : ℕ) (hk : k < 16), t.val = 16 * b.val + k → ∀ (r : Fin 4096) (j : Fin 256),
    ablk1 V c t (ix3 (0 : Fin 1) r j) = matA1 V c b r ⟨256 * k + j.val, by omega⟩
  w : ∀ (t : Fin cfg1.N) (a : Fin 512) (q : Fin 512), wblk1 V c t (ix2 a q) = matW1 V c a q
  bias : ∀ (t : Fin cfg1.N) (q : Fin 512), bblk1 V c t (ix2 (0 : Fin 1) q) = vecB1 V c q

theorem pt_lt1 (b : Fin 2) (n : ℕ) (hn : n < 16) : 16 * b.val + n < cfg1.N := by
  have hN : cfg1.N = 32 := N_1
  omega

theorem hfull1_idx (c : Dev nD) {m m' : ℕ} (h : m = m') (hm : m < 2) (hm' : m' < 2) :
    hfull1 V c m hm = hfull1 V c m' hm' := by
  subst h; rfl

section Steps
variable (c : Dev nD) (b : Fin 2) (R : BlockReads1 V c b)
include R

theorem hid_block1 (t : Fin cfg1.N) (k : ℕ) (hk : k < 16) (ht : t.val = 16 * b.val + k) (p : Fin 256) (q : Fin 512) :
    k0_pay3 (F := Ideal) (xblk1 V c t) (wblk1 V c t) (bblk1 V c t) (ix2 p q)
      = hidM1 V c b ⟨256 * k + p.val, by omega⟩ q := by
  refine (PayIdeal.pay3_apply _ _ _ p q).trans ?_
  show _ = max ((∑ kk : Fin 512, matX1 V c b ⟨256 * k + p.val, _⟩ kk * matW1 V c kk q) + vecB1 V c q) 0
  rw [R.bias t q]
  refine congrArg (fun s => max (s + vecB1 V c q) 0) (Finset.sum_congr rfl fun kk _ => ?_)
  rw [R.x t k hk ht p kk, R.w t kk q]

theorem hfull1_apply (r : Fin 4096) (q : Fin 512) :
    hfull1 V c b.val b.isLt (ix2 r q) = hidM1 V c b r q := by
  show Steps.row hN1 (hblk1 V c) b.val b.isLt r q = _
  unfold Steps.row
  refine (congrFun (PayIdeal.pay4_eq _ _ _) _).trans ?_
  refine (hid_block1 V c b R ⟨16 * b.val + r.val / 256, Steps.step_lt hN1 b.val b.isLt r⟩ (r.val / 256)
    (by have := r.isLt; omega) rfl ⟨r.val % 256, Nat.mod_lt _ (by decide)⟩ q).trans ?_
  exact congrArg (fun r' => hidM1 V c b r' q) (Fin.ext (by show 256 * (r.val / 256) + r.val % 256 = r.val; omega))

theorem acc_point1 (t : Fin cfg1.N) (k : ℕ) (hk : k < 16) (ht : t.val = 16 * b.val + k)
    (prev : Vec Ideal S4096x512 .f32) (r : Fin 4096) (q : Fin 512) :
    k0_pay5 (F := Ideal) (xblk1 V c t) (wblk1 V c t) (bblk1 V c t) prev (ablk1 V c t) (ix2 r q)
      = prev (ix2 r q) + ∑ j : Fin 256, term1 V c b r q ⟨256 * k + j.val, by omega⟩ := by
  refine (PayIdeal.pay5_apply _ _ _ _ _ r q).trans ?_
  refine congrArg (fun s => prev (ix2 r q) + s) (Finset.sum_congr rfl fun j _ => ?_)
  rw [R.a t k hk ht r j]
  exact congrArg (fun s => matA1 V c b r ⟨256 * k + j.val, _⟩ * s) (hid_block1 V c b R t k hk ht j q)

/-- Sixteen slab sums regroup into the full sum over the 4096 columns of A. -/
theorem acc_last1 (r : Fin 4096) (q : Fin 512) :
    accAt1 V c (16 * b.val + 15) (pt_lt1 b 15 (by decide)) (ix2 r q) = ∑ j : Fin 4096, term1 V c b r q j :=
  Steps.accAt_last hN1 (step1 V c) _ (ix2 r q) (term1 V c b r q) b.val b.isLt (PayIdeal.pay2_apply _)
    fun t k hk ht prev => acc_point1 V c b R t k hk ht prev r q

theorem out_last1 (t : Fin cfg1.N) (ht : t.val = 16 * b.val + 15) (r : Fin 4096) (q : Fin 512) :
    outAt1 V c t (ix3 (0 : Fin 1) r q)
      = Cert.Spec.layer (matX1 V c b) (matA1 V c b) (matW1 V c) (vecB1 V c) r q := by
  have hh : ∀ q' : Fin 512, hfull1 V c (t.val / 16) (Steps.stream_lt hN1 t.val t.isLt) (ix2 r q') = hidM1 V c b r q' := fun q' =>
    (congrFun (hfull1_idx V c (by omega : t.val / 16 = b.val) _ b.isLt) _).trans (hfull1_apply V c b R r q')
  have hacc : ∀ q' : Fin 512, accAt1 V c t.val t.isLt (ix2 r q') = ∑ j : Fin 4096, term1 V c b r q' j := fun q' =>
    (congrFun (Steps.accAt_idx _ _ ht _ _) _).trans (acc_last1 V c b R r q')
  unfold outAt1
  refine (PayIdeal.pay1_apply _ _ r q).trans ?_
  simp only [hh, hacc]
  rfl

end Steps

theorem blockReads1 (c : Dev nD) (b : Fin 2) : BlockReads1 V c b where
  x := fun t k hk ht p kk => xblk1_apply V c t b.val k ht hk p kk
  a := fun t k hk ht r j => ablk1_apply V c t b.val k ht hk r j
  w := fun t a q => wblk1_apply V c t a q
  bias := fun t q => bblk1_apply V c t q

/-- The array the call leaves is one layer of the index formula, applied to the four arrays it found. -/
theorem region1_value (c : Dev nD) (b : Fin 2) (r : Fin 4096) (q : Fin 512) :
    (dat1 (F := Ideal) V c).arrAt 4 cfg1.N (ix3 b r q)
      = Cert.Spec.layer (fun r k => V c (Pipeline.arrRef spec1 0) (ix3 b r k))
          (fun r j => V c (Pipeline.arrRef spec1 1) (ix3 b r j))
          (fun k q => V c (Pipeline.arrRef spec1 2) (ix2 k q))
          (fun q => V c (Pipeline.arrRef spec1 3) (ix2 0 q)) r q :=
  (arrAt1_out V c b r q).trans (out_last1 V c b (blockReads1 V c b) _ rfl r q)

end Cert.KernelIdeal.Gen

end
-- ==== Proof.KI.Blocks2.lean ====
import proofs.«426140_j3899830305296_1_alg».proof.Proof.KI.Data2
import Idealize.ShloMosaic.Lib.ValueIdx
import Idealize.ShloMosaic.Lib.Pipeline.FrameBody
import Idealize.ShloMosaic.Lib.Pipeline.Value
import Idealize.ShloMosaic.Lib.Pipeline.Cells
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem blkIdx2 : ∀ t : Fin cfg2.N,
    win2_0.index t (0 : Fin 3) = t.val / 16 ∧ win2_0.index t (1 : Fin 3) = t.val % 16 ∧ win2_0.index t (2 : Fin 3) = 0
    ∧ win2_1.index t (0 : Fin 3) = t.val / 16 ∧ win2_1.index t (1 : Fin 3) = 0 ∧ win2_1.index t (2 : Fin 3) = t.val % 16
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val / 16 ∧ win2_4.index t (1 : Fin 3) = 0 ∧ win2_4.index t (2 : Fin 3) = 0 :=
  (by decide +kernel : ∀ t : Fin grid2.N, _)

theorem stream2_lt (t : Fin cfg2.N) (b k : ℕ) (ht : t.val = 16 * b + k) : b < 2 := by
  have hN : cfg2.N = 32 := N_2
  have := t.isLt
  omega

theorem slab2_lt (k : ℕ) (hk : k < 16) (p : Fin 256) : 256 * k + p.val < 4096 := by
  have := p.isLt
  omega

theorem xblk2_apply (c : Dev nD) (t : Fin cfg2.N) (b k : ℕ) (ht : t.val = 16 * b + k) (hk : k < 16)
    (p : Fin 256) (kk : Fin 512) :
    xblk2 V c t (ix3 0 p kk)
      = (V c (Pipeline.arrRef spec2 0) : S2x4096x512.Idx → Elt F .f32)
          (ix3 ⟨b, stream2_lt t b k ht⟩ ⟨256 * k + p.val, slab2_lt k hk p⟩ kk) := by
  obtain ⟨e0, e1, e2, -⟩ := blkIdx2 t
  show (V c (Pipeline.arrRef spec2 0) : S2x4096x512.Idx → Elt F .f32) (((cfg2.win 0).blk t).view.emb (ix3 0 p kk)) = _
  refine congrArg _ (funext fun a => Fin.ext ?_)
  match a with
  | ⟨0, _⟩ => show win2_0.index t (0 : Fin 3) * 1 + 1 * 0 = b; omega
  | ⟨1, _⟩ => show win2_0.index t (1 : Fin 3) * 256 + 1 * p.val = 256 * k + p.val; omega
  | ⟨2, _⟩ => show win2_0.index t (2 : Fin 3) * 512 + 1 * kk.val = kk.val; omega

theorem ablk2_apply (c : Dev nD) (t : Fin cfg2.N) (b k : ℕ) (ht : t.val = 16 * b + k) (hk : k < 16)
    (r : Fin 4096) (j : Fin 256) :
    ablk2 V c t (ix3 0 r j)
      = (V c (Pipeline.arrRef spec2 1) : S2x4096x4096.Idx → Elt F .bf16)
          (ix3 ⟨b, stream2_lt t b k ht⟩ r ⟨256 * k + j.val, slab2_lt k hk j⟩) := by
  obtain ⟨-, -, -, e0, e1, e2, -⟩ := blkIdx2 t
  show (V c (Pipeline.arrRef spec2 1) : S2x4096x4096.Idx → Elt F .bf16) (((cfg2.win 1).blk t).view.emb (ix3 0 r j)) = _
  refine congrArg _ (funext fun a => Fin.ext ?_)
  match a with
  | ⟨0, _⟩ => show win2_1.index t (0 : Fin 3) * 1 + 1 * 0 = b; omega
  | ⟨1, _⟩ => show win2_1.index t (1 : Fin 3) * 4096 + 1 * r.val = r.val; omega
  | ⟨2, _⟩ => show win2_1.index t (2 : Fin 3) * 256 + 1 * j.val = 256 * k + j.val; omega

theorem wblk2_apply (c : Dev nD) (t : Fin cfg2.N) (a : Fin 512) (q : Fin 512) :
    wblk2 V c t (ix2 a q) = (V c (Pipeline.arrRef spec2 2) : S512x512.Idx → Elt F .f32) (ix2 a q) := by
  obtain ⟨-, -, -, -, -, -, e0, e1, -⟩ := blkIdx2 t
  show (V c (Pipeline.arrRef spec2 2) : S512x512.Idx → Elt F .f32) (((cfg2.win 2).blk t).view.emb (ix2 a q)) = _
  refine congrArg _ (funext fun d => Fin.ext ?_)
  match d with
  | ⟨0, _⟩ => show win2_2.index t (0 : Fin 2) * 512 + 1 * a.val = a.val; omega
  | ⟨1, _⟩ => show win2_2.index t (1 : Fin 2) * 512 + 1 * q.val = q.val; omega

theorem bblk2_apply (c : Dev nD) (t : Fin cfg2.N) (q : Fin 512) :
    bblk2 V c t (ix2 0 q) = (V c (Pipeline.arrRef spec2 3) : S1x512.Idx → Elt F .f32) (ix2 0 q) := by
  obtain ⟨-, -, -, -, -, -, -, -, e0, e1, -⟩ := blkIdx2 t
  show (V c (Pipeline.arrRef spec2 3) : S1x512.Idx → Elt F .f32) (((cfg2.win 3).blk t).view.emb (ix2 0 q)) = _
  refine congrArg _ (funext fun d => Fin.ext ?_)
  match d with
  | ⟨0, _⟩ => show win2_3.index t (0 : Fin 2) * 1 + 1 * 0 = 0; omega
  | ⟨1, _⟩ => show win2_3.index t (1 : Fin 2) * 512 + 1 * q.val = q.val; omega

theorem last2_lt (b : ℕ) (hb : b < 2) : 16 * b + 15 < cfg2.N := by
  have hN : cfg2.N = 32 := N_2
  omega

def outArr2 (c : Dev nD) : S2x4096x512.Idx → Elt F .f32 :=
  fun i => outAt2 V c ⟨16 * (i 0).val + 15, last2_lt (i 0).val (i 0).isLt⟩ (ix3 0 (i 1) (i 2))

theorem outAt2_congr (c : Dev nD) (t t' : Fin cfg2.N) (j j' : S1x4096x512.Idx) (ht : t.val = t'.val)
    (hj : ∀ a, (j a).val = (j' a).val) : outAt2 V c t j = outAt2 V c t' j' := by
  obtain rfl : t = t' := Fin.ext ht
  obtain rfl : j = j' := funext fun a => Fin.ext (hj a)
  rfl

theorem flushed2_4_eq (c : Dev nD) (t : Fin cfg2.N) (hf : (cfg2.win 4).flush t = true) :
    (dat2 V c).flushed 4 t = ((cfg2.win 4).blk t).view.read (Elt F) (outArr2 V c) := by
  have h15 : t.val % 16 = 15 := (flush2_4 t).mp hf
  obtain ⟨-, -, -, -, -, -, -, -, -, -, e0, e1, e2⟩ := blkIdx2 t
  show (cfg2.win 4).cut (grid2.coords t) ((dat2 V c).after 4 t) = _
  rw [after2_4]
  funext j
  show outAt2 V c t ((cfg2.win 4).xinj (grid2.coords t) j) = outArr2 V c (((cfg2.win 4).blk t).view.emb j)
  have hj0 : (j 0).val < 1 := (j 0).isLt
  have hj1 : (j 1).val < 4096 := (j 1).isLt
  have hj2 : (j 2).val < 512 := (j 2).isLt
  have q0 : ((((cfg2.win 4).blk t).view.emb j) 0).val = t.val / 16 := by
    show win2_4.index t (0 : Fin 3) * 1 + 1 * (j 0).val = t.val / 16; omega
  have q1 : ((((cfg2.win 4).blk t).view.emb j) 1).val = (j 1).val := by
    show win2_4.index t (1 : Fin 3) * 4096 + 1 * (j 1).val = (j 1).val; omega
  have q2 : ((((cfg2.win 4).blk t).view.emb j) 2).val = (j 2).val := by
    show win2_4.index t (2 : Fin 3) * 512 + 1 * (j 2).val = (j 2).val; omega
  unfold outArr2
  refine outAt2_congr V c _ _ _ _ ?_ ?_
  · show t.val = 16 * ((((cfg2.win 4).blk t).view.emb j) 0).val + 15
    omega
  · intro a
    match a with
    | ⟨0, _⟩ => show (j 0).val = 0; omega
    | ⟨1, _⟩ => show (j 1).val = ((((cfg2.win 4).blk t).view.emb j) 1).val; omega
    | ⟨2, _⟩ => show (j 2).val = ((((cfg2.win 4).blk t).view.emb j) 2).val; omega

theorem mem_blk2_4 (t : Fin cfg2.N) (i : S2x4096x512.Idx) :
    i ∈ ((cfg2.win 4).blk t).view.set
      ↔ ∀ a : Fin 3, win2_4.index t a * S1x4096x512.size a ≤ (i a).val
          ∧ (i a).val < win2_4.index t a * S1x4096x512.size a + S1x4096x512.size a := by
  show i ∈ ((View.whole (Pipeline.arrRef spec2 4)).slice (win2_4.rect t)).set ↔ _
  rw [View.set_slice_whole, Rect.mem_set_unit]
  exact Iff.rfl

theorem cover2_4 (i : S2x4096x512.Idx) :
    ∃ t : Fin cfg2.N, (cfg2.win 4).flush t = true ∧ i ∈ ((cfg2.win 4).blk t).view.set := by
  have hi0 : (i 0).val < 2 := (i 0).isLt
  have hi1 : (i 1).val < 4096 := (i 1).isLt
  have hi2 : (i 2).val < 512 := (i 2).isLt
  refine ⟨⟨16 * (i 0).val + 15, last2_lt (i 0).val hi0⟩, (flush2_4 _).mpr (by show (16 * (i 0).val + 15) % 16 = 15; omega), ?_⟩
  obtain ⟨-, -, -, -, -, -, -, -, -, -, e0, e1, e2⟩ := blkIdx2 ⟨16 * (i 0).val + 15, last2_lt (i 0).val hi0⟩
  have e0' : win2_4.index ⟨16 * (i 0).val + 15, last2_lt (i 0).val hi0⟩ (0 : Fin 3) = (i 0).val := by
    rw [e0]; show (16 * (i 0).val + 15) / 16 = (i 0).val; omega
  rw [mem_blk2_4]
  intro a
  match a with
  | ⟨0, _⟩ =>
    show win2_4.index ⟨16 * (i 0).val + 15, last2_lt (i 0).val hi0⟩ (0 : Fin 3) * 1 ≤ (i 0).val
      ∧ (i 0).val < win2_4.index ⟨16 * (i 0).val + 15, last2_lt (i 0).val hi0⟩ (0 : Fin 3) * 1 + 1
    omega
  | ⟨1, _⟩ =>
    show win2_4.index ⟨16 * (i 0).val + 15, last2_lt (i 0).val hi0⟩ (1 : Fin 3) * 4096 ≤ (i 1).val
      ∧ (i 1).val < win2_4.index ⟨16 * (i 0).val + 15, last2_lt (i 0).val hi0⟩ (1 : Fin 3) * 4096 + 4096
    omega
  | ⟨2, _⟩ =>
    show win2_4.index ⟨16 * (i 0).val + 15, last2_lt (i 0).val hi0⟩ (2 : Fin 3) * 512 ≤ (i 2).val
      ∧ (i 2).val < win2_4.index ⟨16 * (i 0).val + 15, last2_lt (i 0).val hi0⟩ (2 : Fin 3) * 512 + 512
    omega

/-- The blocks written at the two streams' last steps tile the output array. -/
theorem arrAt2_4 (c : Dev nD) : (dat2 V c).arrAt 4 cfg2.N = outArr2 V c :=
  (dat2 V c).arrAt_eq_of_cover 4 (outArr2 V c) (fun t hf => flushed2_4_eq V c t hf) cover2_4

theorem arrAt2_out (c : Dev nD) (b : Fin 2) (r : Fin 4096) (q : Fin 512) :
    ((dat2 V c).arrAt 4 cfg2.N : S2x4096x512.Idx → Elt F .f32) (ix3 b r q)
      = outAt2 V c ⟨16 * b.val + 15, last2_lt b.val b.isLt⟩ (ix3 0 r q) := by
  rw [arrAt2_4]
  rfl

theorem arrAt2_in (c : Dev nD) (w : Fin 5) (hw : w ≠ 4) :
    (dat2 V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  rw [Dat.arrAt_in (dat2 V c) w hin cfg2.N]
  exact A_eq2 V c w

end Cert.KernelIdeal.Gen

end
-- ==== Proof.KI.Val2.lean ====
import proofs.«426140_j3899830305296_1_alg».proof.Proof.KI.Data2
import proofs.«426140_j3899830305296_1_alg».proof.Proof.KI.Blocks2
import proofs.«426140_j3899830305296_1_alg».proof.Proof.PayIdeal
import proofs.«426140_j3899830305296_1_alg».proof.Proof.BlockSum
import proofs.«426140_j3899830305296_1_alg».proof.Proof.Spec

set_option maxRecDepth 16384

noncomputable section

namespace Cert.KernelIdeal.Gen

open Idealize.ShloMosaic Idealize.ShloMosaic.TcCoe Idealize.SL.Sem
open Idealize.ShloMosaic.Pipeline (Dat Cfg Window BodyObligation cellOf)
open ValueIdx
open Cert.KernelIdeal

variable (V : (c : Dev nD) → (b : Ref sig .tc) → Buf (Elt Ideal) ((c : Thread nD τ).loc b))

abbrev matX2 (c : Dev nD) (b : Fin 2) : Cert.Spec.Mat 4096 512 := fun r k => V c (Pipeline.arrRef spec2 0) (ix3 b r k)
abbrev matA2 (c : Dev nD) (b : Fin 2) : Cert.Spec.Mat 4096 4096 := fun r j => V c (Pipeline.arrRef spec2 1) (ix3 b r j)
abbrev matW2 (c : Dev nD) : Cert.Spec.Mat 512 512 := fun k q => V c (Pipeline.arrRef spec2 2) (ix2 k q)
abbrev vecB2 (c : Dev nD) : Fin 512 → EReal := fun q => V c (Pipeline.arrRef spec2 3) (ix2 0 q)

abbrev hidM2 (c : Dev nD) (b : Fin 2) : Cert.Spec.Mat 4096 512 := Cert.Spec.hid (matX2 V c b) (matW2 V c) (vecB2 V c)

abbrev term2 (c : Dev nD) (b : Fin 2) (r : Fin 4096) (q : Fin 512) (j : Fin 4096) : EReal :=
  matA2 V c b r j * hidM2 V c b j q

structure BlockReads2 (c : Dev nD) (b : Fin 2) : Prop where
  x : ∀ (t : Fin cfg2.N) (k : ℕ) (hk : k < 16), t.val = 16 * b.val + k → ∀ (p : Fin 256) (kk : Fin 512),
    xblk2 V c t (ix3 (0 : Fin 1) p kk) = matX2 V c b ⟨256 * k + p.val, by omega⟩ kk
  a : ∀ (t : Fin cfg2.N) (k : ℕ) (hk : k < 16), t.val = 16 * b.val + k → ∀ (r : Fin 4096) (j : Fin 256),
    ablk2 V c t (ix3 (0 : Fin 1) r j) = matA2 V c b r ⟨256 * k + j.val, by omega⟩
  w : ∀ (t : Fin cfg2.N) (a : Fin 512) (q : Fin 512), wblk2 V c t (ix2 a q) = matW2 V c a q
  bias : ∀ (t : Fin cfg2.N) (q : Fin 512), bblk2 V c t (ix2 (0 : Fin 1) q) = vecB2 V c q

theorem pt_lt2 (b : Fin 2) (n : ℕ) (hn : n < 16) : 16 * b.val + n < cfg2.N := by
  have hN : cfg2.N = 32 := N_2
  omega

theorem hfull2_idx (c : Dev nD) {m m' : ℕ} (h : m = m') (hm : m < 2) (hm' : m' < 2) :
    hfull2 V c m hm = hfull2 V c m' hm' := by
  subst h; rfl

section Steps
variable (c : Dev nD) (b : Fin 2) (R : BlockReads2 V c b)
include R

theorem hid_block2 (t : Fin cfg2.N) (k : ℕ) (hk : k < 16) (ht : t.val = 16 * b.val + k) (p : Fin 256) (q : Fin 512) :
    k0_pay3 (F := Ideal) (xblk2 V c t) (wblk2 V c t) (bblk2 V c t) (ix2 p q)
      = hidM2 V c b ⟨256 * k + p.val, by omega⟩ q := by
  refine (PayIdeal.pay3_apply _ _ _ p q).trans ?_
  show _ = max ((∑ kk : Fin 512, matX2 V c b ⟨256 * k + p.val, _⟩ kk * matW2 V c kk q) + vecB2 V c q) 0
  rw [R.bias t q]
  refine congrArg (fun s => max (s + vecB2 V c q) 0) (Finset.sum_congr rfl fun kk _ => ?_)
  rw [R.x t k hk ht p kk, R.w t kk q]

theorem hfull2_apply (r : Fin 4096) (q : Fin 512) :
    hfull2 V c b.val b.isLt (ix2 r q) = hidM2 V c b r q := by
  show Steps.row hN2 (hblk2 V c) b.val b.isLt r q = _
  unfold Steps.row
  refine (congrFun (PayIdeal.pay4_eq _ _ _) _).trans ?_
  refine (hid_block2 V c b R ⟨16 * b.val + r.val / 256, Steps.step_lt hN2 b.val b.isLt r⟩ (r.val / 256)
    (by have := r.isLt; omega) rfl ⟨r.val % 256, Nat.mod_lt _ (by decide)⟩ q).trans ?_
  exact congrArg (fun r' => hidM2 V c b r' q) (Fin.ext (by show 256 * (r.val / 256) + r.val % 256 = r.val; omega))

theorem acc_point2 (t : Fin cfg2.N) (k : ℕ) (hk : k < 16) (ht : t.val = 16 * b.val + k)
    (prev : Vec Ideal S4096x512 .f32) (r : Fin 4096) (q : Fin 512) :
    k0_pay5 (F := Ideal) (xblk2 V c t) (wblk2 V c t) (bblk2 V c t) prev (ablk2 V c t) (ix2 r q)
      = prev (ix2 r q) + ∑ j : Fin 256, term2 V c b r q ⟨256 * k + j.val, by omega⟩ := by
  refine (PayIdeal.pay5_apply _ _ _ _ _ r q).trans ?_
  refine congrArg (fun s => prev (ix2 r q) + s) (Finset.sum_congr rfl fun j _ => ?_)
  rw [R.a t k hk ht r j]
  exact congrArg (fun s => matA2 V c b r ⟨256 * k + j.val, _⟩ * s) (hid_block2 V c b R t k hk ht j q)

/-- Sixteen slab sums regroup into the full sum over the 4096 columns of A. -/
theorem acc_last2 (r : Fin 4096) (q : Fin 512) :
    accAt2 V c (16 * b.val + 15) (pt_lt2 b 15 (by decide)) (ix2 r q) = ∑ j : Fin 4096, term2 V c b r q j :=
  Steps.accAt_last hN2 (step2 V c) _ (ix2 r q) (term2 V c b r q) b.val b.isLt (PayIdeal.pay2_apply _)
    fun t k hk ht prev => acc_point2 V c b R t k hk ht prev r q

theorem out_last2 (t : Fin cfg2.N) (ht : t.val = 16 * b.val + 15) (r : Fin 4096) (q : Fin 512) :
    outAt2 V c t (ix3 (0 : Fin 1) r q)
      = Cert.Spec.layer (matX2 V c b) (matA2 V c b) (matW2 V c) (vecB2 V c) r q := by
  have hh : ∀ q' : Fin 512, hfull2 V c (t.val / 16) (Steps.stream_lt hN2 t.val t.isLt) (ix2 r q') = hidM2 V c b r q' := fun q' =>
    (congrFun (hfull2_idx V c (by omega : t.val / 16 = b.val) _ b.isLt) _).trans (hfull2_apply V c b R r q')
  have hacc : ∀ q' : Fin 512, accAt2 V c t.val t.isLt (ix2 r q') = ∑ j : Fin 4096, term2 V c b r q' j := fun q' =>
    (congrFun (Steps.accAt_idx _ _ ht _ _) _).trans (acc_last2 V c b R r q')
  unfold outAt2
  refine (PayIdeal.pay1_apply _ _ r q).trans ?_
  simp only [hh, hacc]
  rfl

end Steps

theorem blockReads2 (c : Dev nD) (b : Fin 2) : BlockReads2 V c b where
  x := fun t k hk ht p kk => xblk2_apply V c t b.val k ht hk p kk
  a := fun t k hk ht r j => ablk2_apply V c t b.val k ht hk r j
  w := fun t a q => wblk2_apply V c t a q
  bias := fun t q => bblk2_apply V c t q

/-- The array the call leaves is one layer of the index formula, applied to the four arrays it found. -/
theorem region2_value (c : Dev nD) (b : Fin 2) (r : Fin 4096) (q : Fin 512) :
    (dat2 (F := Ideal) V c).arrAt 4 cfg2.N (ix3 b r q)
      = Cert.Spec.layer (fun r k => V c (Pipeline.arrRef spec2 0) (ix3 b r k))
          (fun r j => V c (Pipeline.arrRef spec2 1) (ix3 b r j))
          (fun k q => V c (Pipeline.arrRef spec2 2) (ix2 k q))
          (fun q => V c (Pipeline.arrRef spec2 3) (ix2 0 q)) r q :=
  (arrAt2_out V c b r q).trans (out_last2 V c b (blockReads2 V c b) _ rfl r q)

end Cert.KernelIdeal.Gen

end
-- ==== Proof.KI.Blocks3.lean ====
import proofs.«426140_j3899830305296_1_alg».proof.Proof.KI.Data3
import Idealize.ShloMosaic.Lib.ValueIdx
import Idealize.ShloMosaic.Lib.Pipeline.FrameBody
import Idealize.ShloMosaic.Lib.Pipeline.Value
import Idealize.ShloMosaic.Lib.Pipeline.Cells
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem blkIdx3 : ∀ t : Fin cfg3.N,
    win3_0.index t (0 : Fin 3) = t.val / 16 ∧ win3_0.index t (1 : Fin 3) = t.val % 16 ∧ win3_0.index t (2 : Fin 3) = 0
    ∧ win3_1.index t (0 : Fin 3) = t.val / 16 ∧ win3_1.index t (1 : Fin 3) = 0 ∧ win3_1.index t (2 : Fin 3) = t.val % 16
    ∧ win3_2.index t (0 : Fin 2) = 0 ∧ win3_2.index t (1 : Fin 2) = 0
    ∧ win3_3.index t (0 : Fin 2) = 0 ∧ win3_3.index t (1 : Fin 2) = 0
    ∧ win3_4.index t (0 : Fin 3) = t.val / 16 ∧ win3_4.index t (1 : Fin 3) = 0 ∧ win3_4.index t (2 : Fin 3) = 0 :=
  (by decide +kernel : ∀ t : Fin grid3.N, _)

theorem stream3_lt (t : Fin cfg3.N) (b k : ℕ) (ht : t.val = 16 * b + k) : b < 2 := by
  have hN : cfg3.N = 32 := N_3
  have := t.isLt
  omega

theorem slab3_lt (k : ℕ) (hk : k < 16) (p : Fin 256) : 256 * k + p.val < 4096 := by
  have := p.isLt
  omega

theorem xblk3_apply (c : Dev nD) (t : Fin cfg3.N) (b k : ℕ) (ht : t.val = 16 * b + k) (hk : k < 16)
    (p : Fin 256) (kk : Fin 512) :
    xblk3 V c t (ix3 0 p kk)
      = (V c (Pipeline.arrRef spec3 0) : S2x4096x512.Idx → Elt F .f32)
          (ix3 ⟨b, stream3_lt t b k ht⟩ ⟨256 * k + p.val, slab3_lt k hk p⟩ kk) := by
  obtain ⟨e0, e1, e2, -⟩ := blkIdx3 t
  show (V c (Pipeline.arrRef spec3 0) : S2x4096x512.Idx → Elt F .f32) (((cfg3.win 0).blk t).view.emb (ix3 0 p kk)) = _
  refine congrArg _ (funext fun a => Fin.ext ?_)
  match a with
  | ⟨0, _⟩ => show win3_0.index t (0 : Fin 3) * 1 + 1 * 0 = b; omega
  | ⟨1, _⟩ => show win3_0.index t (1 : Fin 3) * 256 + 1 * p.val = 256 * k + p.val; omega
  | ⟨2, _⟩ => show win3_0.index t (2 : Fin 3) * 512 + 1 * kk.val = kk.val; omega

theorem ablk3_apply (c : Dev nD) (t : Fin cfg3.N) (b k : ℕ) (ht : t.val = 16 * b + k) (hk : k < 16)
    (r : Fin 4096) (j : Fin 256) :
    ablk3 V c t (ix3 0 r j)
      = (V c (Pipeline.arrRef spec3 1) : S2x4096x4096.Idx → Elt F .bf16)
          (ix3 ⟨b, stream3_lt t b k ht⟩ r ⟨256 * k + j.val, slab3_lt k hk j⟩) := by
  obtain ⟨-, -, -, e0, e1, e2, -⟩ := blkIdx3 t
  show (V c (Pipeline.arrRef spec3 1) : S2x4096x4096.Idx → Elt F .bf16) (((cfg3.win 1).blk t).view.emb (ix3 0 r j)) = _
  refine congrArg _ (funext fun a => Fin.ext ?_)
  match a with
  | ⟨0, _⟩ => show win3_1.index t (0 : Fin 3) * 1 + 1 * 0 = b; omega
  | ⟨1, _⟩ => show win3_1.index t (1 : Fin 3) * 4096 + 1 * r.val = r.val; omega
  | ⟨2, _⟩ => show win3_1.index t (2 : Fin 3) * 256 + 1 * j.val = 256 * k + j.val; omega

theorem wblk3_apply (c : Dev nD) (t : Fin cfg3.N) (a : Fin 512) (q : Fin 512) :
    wblk3 V c t (ix2 a q) = (V c (Pipeline.arrRef spec3 2) : S512x512.Idx → Elt F .f32) (ix2 a q) := by
  obtain ⟨-, -, -, -, -, -, e0, e1, -⟩ := blkIdx3 t
  show (V c (Pipeline.arrRef spec3 2) : S512x512.Idx → Elt F .f32) (((cfg3.win 2).blk t).view.emb (ix2 a q)) = _
  refine congrArg _ (funext fun d => Fin.ext ?_)
  match d with
  | ⟨0, _⟩ => show win3_2.index t (0 : Fin 2) * 512 + 1 * a.val = a.val; omega
  | ⟨1, _⟩ => show win3_2.index t (1 : Fin 2) * 512 + 1 * q.val = q.val; omega

theorem bblk3_apply (c : Dev nD) (t : Fin cfg3.N) (q : Fin 512) :
    bblk3 V c t (ix2 0 q) = (V c (Pipeline.arrRef spec3 3) : S1x512.Idx → Elt F .f32) (ix2 0 q) := by
  obtain ⟨-, -, -, -, -, -, -, -, e0, e1, -⟩ := blkIdx3 t
  show (V c (Pipeline.arrRef spec3 3) : S1x512.Idx → Elt F .f32) (((cfg3.win 3).blk t).view.emb (ix2 0 q)) = _
  refine congrArg _ (funext fun d => Fin.ext ?_)
  match d with
  | ⟨0, _⟩ => show win3_3.index t (0 : Fin 2) * 1 + 1 * 0 = 0; omega
  | ⟨1, _⟩ => show win3_3.index t (1 : Fin 2) * 512 + 1 * q.val = q.val; omega

theorem last3_lt (b : ℕ) (hb : b < 2) : 16 * b + 15 < cfg3.N := by
  have hN : cfg3.N = 32 := N_3
  omega

def outArr3 (c : Dev nD) : S2x4096x512.Idx → Elt F .f32 :=
  fun i => outAt3 V c ⟨16 * (i 0).val + 15, last3_lt (i 0).val (i 0).isLt⟩ (ix3 0 (i 1) (i 2))

theorem outAt3_congr (c : Dev nD) (t t' : Fin cfg3.N) (j j' : S1x4096x512.Idx) (ht : t.val = t'.val)
    (hj : ∀ a, (j a).val = (j' a).val) : outAt3 V c t j = outAt3 V c t' j' := by
  obtain rfl : t = t' := Fin.ext ht
  obtain rfl : j = j' := funext fun a => Fin.ext (hj a)
  rfl

theorem flushed3_4_eq (c : Dev nD) (t : Fin cfg3.N) (hf : (cfg3.win 4).flush t = true) :
    (dat3 V c).flushed 4 t = ((cfg3.win 4).blk t).view.read (Elt F) (outArr3 V c) := by
  have h15 : t.val % 16 = 15 := (flush3_4 t).mp hf
  obtain ⟨-, -, -, -, -, -, -, -, -, -, e0, e1, e2⟩ := blkIdx3 t
  show (cfg3.win 4).cut (grid3.coords t) ((dat3 V c).after 4 t) = _
  rw [after3_4]
  funext j
  show outAt3 V c t ((cfg3.win 4).xinj (grid3.coords t) j) = outArr3 V c (((cfg3.win 4).blk t).view.emb j)
  have hj0 : (j 0).val < 1 := (j 0).isLt
  have hj1 : (j 1).val < 4096 := (j 1).isLt
  have hj2 : (j 2).val < 512 := (j 2).isLt
  have q0 : ((((cfg3.win 4).blk t).view.emb j) 0).val = t.val / 16 := by
    show win3_4.index t (0 : Fin 3) * 1 + 1 * (j 0).val = t.val / 16; omega
  have q1 : ((((cfg3.win 4).blk t).view.emb j) 1).val = (j 1).val := by
    show win3_4.index t (1 : Fin 3) * 4096 + 1 * (j 1).val = (j 1).val; omega
  have q2 : ((((cfg3.win 4).blk t).view.emb j) 2).val = (j 2).val := by
    show win3_4.index t (2 : Fin 3) * 512 + 1 * (j 2).val = (j 2).val; omega
  unfold outArr3
  refine outAt3_congr V c _ _ _ _ ?_ ?_
  · show t.val = 16 * ((((cfg3.win 4).blk t).view.emb j) 0).val + 15
    omega
  · intro a
    match a with
    | ⟨0, _⟩ => show (j 0).val = 0; omega
    | ⟨1, _⟩ => show (j 1).val = ((((cfg3.win 4).blk t).view.emb j) 1).val; omega
    | ⟨2, _⟩ => show (j 2).val = ((((cfg3.win 4).blk t).view.emb j) 2).val; omega

theorem mem_blk3_4 (t : Fin cfg3.N) (i : S2x4096x512.Idx) :
    i ∈ ((cfg3.win 4).blk t).view.set
      ↔ ∀ a : Fin 3, win3_4.index t a * S1x4096x512.size a ≤ (i a).val
          ∧ (i a).val < win3_4.index t a * S1x4096x512.size a + S1x4096x512.size a := by
  show i ∈ ((View.whole (Pipeline.arrRef spec3 4)).slice (win3_4.rect t)).set ↔ _
  rw [View.set_slice_whole, Rect.mem_set_unit]
  exact Iff.rfl

theorem cover3_4 (i : S2x4096x512.Idx) :
    ∃ t : Fin cfg3.N, (cfg3.win 4).flush t = true ∧ i ∈ ((cfg3.win 4).blk t).view.set := by
  have hi0 : (i 0).val < 2 := (i 0).isLt
  have hi1 : (i 1).val < 4096 := (i 1).isLt
  have hi2 : (i 2).val < 512 := (i 2).isLt
  refine ⟨⟨16 * (i 0).val + 15, last3_lt (i 0).val hi0⟩, (flush3_4 _).mpr (by show (16 * (i 0).val + 15) % 16 = 15; omega), ?_⟩
  obtain ⟨-, -, -, -, -, -, -, -, -, -, e0, e1, e2⟩ := blkIdx3 ⟨16 * (i 0).val + 15, last3_lt (i 0).val hi0⟩
  have e0' : win3_4.index ⟨16 * (i 0).val + 15, last3_lt (i 0).val hi0⟩ (0 : Fin 3) = (i 0).val := by
    rw [e0]; show (16 * (i 0).val + 15) / 16 = (i 0).val; omega
  rw [mem_blk3_4]
  intro a
  match a with
  | ⟨0, _⟩ =>
    show win3_4.index ⟨16 * (i 0).val + 15, last3_lt (i 0).val hi0⟩ (0 : Fin 3) * 1 ≤ (i 0).val
      ∧ (i 0).val < win3_4.index ⟨16 * (i 0).val + 15, last3_lt (i 0).val hi0⟩ (0 : Fin 3) * 1 + 1
    omega
  | ⟨1, _⟩ =>
    show win3_4.index ⟨16 * (i 0).val + 15, last3_lt (i 0).val hi0⟩ (1 : Fin 3) * 4096 ≤ (i 1).val
      ∧ (i 1).val < win3_4.index ⟨16 * (i 0).val + 15, last3_lt (i 0).val hi0⟩ (1 : Fin 3) * 4096 + 4096
    omega
  | ⟨2, _⟩ =>
    show win3_4.index ⟨16 * (i 0).val + 15, last3_lt (i 0).val hi0⟩ (2 : Fin 3) * 512 ≤ (i 2).val
      ∧ (i 2).val < win3_4.index ⟨16 * (i 0).val + 15, last3_lt (i 0).val hi0⟩ (2 : Fin 3) * 512 + 512
    omega

/-- The blocks written at the two streams' last steps tile the output array. -/
theorem arrAt3_4 (c : Dev nD) : (dat3 V c).arrAt 4 cfg3.N = outArr3 V c :=
  (dat3 V c).arrAt_eq_of_cover 4 (outArr3 V c) (fun t hf => flushed3_4_eq V c t hf) cover3_4

theorem arrAt3_out (c : Dev nD) (b : Fin 2) (r : Fin 4096) (q : Fin 512) :
    ((dat3 V c).arrAt 4 cfg3.N : S2x4096x512.Idx → Elt F .f32) (ix3 b r q)
      = outAt3 V c ⟨16 * b.val + 15, last3_lt b.val b.isLt⟩ (ix3 0 r q) := by
  rw [arrAt3_4]
  rfl

theorem arrAt3_in (c : Dev nD) (w : Fin 5) (hw : w ≠ 4) :
    (dat3 V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  rw [Dat.arrAt_in (dat3 V c) w hin cfg3.N]
  exact A_eq3 V c w

end Cert.KernelIdeal.Gen

end
-- ==== Proof.KI.Val3.lean ====
import proofs.«426140_j3899830305296_1_alg».proof.Proof.KI.Data3
import proofs.«426140_j3899830305296_1_alg».proof.Proof.KI.Blocks3
import proofs.«426140_j3899830305296_1_alg».proof.Proof.PayIdeal
import proofs.«426140_j3899830305296_1_alg».proof.Proof.BlockSum
import proofs.«426140_j3899830305296_1_alg».proof.Proof.Spec

set_option maxRecDepth 16384

noncomputable section

namespace Cert.KernelIdeal.Gen

open Idealize.ShloMosaic Idealize.ShloMosaic.TcCoe Idealize.SL.Sem
open Idealize.ShloMosaic.Pipeline (Dat Cfg Window BodyObligation cellOf)
open ValueIdx
open Cert.KernelIdeal

variable (V : (c : Dev nD) → (b : Ref sig .tc) → Buf (Elt Ideal) ((c : Thread nD τ).loc b))

abbrev matX3 (c : Dev nD) (b : Fin 2) : Cert.Spec.Mat 4096 512 := fun r k => V c (Pipeline.arrRef spec3 0) (ix3 b r k)
abbrev matA3 (c : Dev nD) (b : Fin 2) : Cert.Spec.Mat 4096 4096 := fun r j => V c (Pipeline.arrRef spec3 1) (ix3 b r j)
abbrev matW3 (c : Dev nD) : Cert.Spec.Mat 512 512 := fun k q => V c (Pipeline.arrRef spec3 2) (ix2 k q)
abbrev vecB3 (c : Dev nD) : Fin 512 → EReal := fun q => V c (Pipeline.arrRef spec3 3) (ix2 0 q)

abbrev hidM3 (c : Dev nD) (b : Fin 2) : Cert.Spec.Mat 4096 512 := Cert.Spec.hid (matX3 V c b) (matW3 V c) (vecB3 V c)

abbrev term3 (c : Dev nD) (b : Fin 2) (r : Fin 4096) (q : Fin 512) (j : Fin 4096) : EReal :=
  matA3 V c b r j * hidM3 V c b j q

structure BlockReads3 (c : Dev nD) (b : Fin 2) : Prop where
  x : ∀ (t : Fin cfg3.N) (k : ℕ) (hk : k < 16), t.val = 16 * b.val + k → ∀ (p : Fin 256) (kk : Fin 512),
    xblk3 V c t (ix3 (0 : Fin 1) p kk) = matX3 V c b ⟨256 * k + p.val, by omega⟩ kk
  a : ∀ (t : Fin cfg3.N) (k : ℕ) (hk : k < 16), t.val = 16 * b.val + k → ∀ (r : Fin 4096) (j : Fin 256),
    ablk3 V c t (ix3 (0 : Fin 1) r j) = matA3 V c b r ⟨256 * k + j.val, by omega⟩
  w : ∀ (t : Fin cfg3.N) (a : Fin 512) (q : Fin 512), wblk3 V c t (ix2 a q) = matW3 V c a q
  bias : ∀ (t : Fin cfg3.N) (q : Fin 512), bblk3 V c t (ix2 (0 : Fin 1) q) = vecB3 V c q

theorem pt_lt3 (b : Fin 2) (n : ℕ) (hn : n < 16) : 16 * b.val + n < cfg3.N := by
  have hN : cfg3.N = 32 := N_3
  omega

theorem hfull3_idx (c : Dev nD) {m m' : ℕ} (h : m = m') (hm : m < 2) (hm' : m' < 2) :
    hfull3 V c m hm = hfull3 V c m' hm' := by
  subst h; rfl

section Steps
variable (c : Dev nD) (b : Fin 2) (R : BlockReads3 V c b)
include R

theorem hid_block3 (t : Fin cfg3.N) (k : ℕ) (hk : k < 16) (ht : t.val = 16 * b.val + k) (p : Fin 256) (q : Fin 512) :
    k0_pay3 (F := Ideal) (xblk3 V c t) (wblk3 V c t) (bblk3 V c t) (ix2 p q)
      = hidM3 V c b ⟨256 * k + p.val, by omega⟩ q := by
  refine (PayIdeal.pay3_apply _ _ _ p q).trans ?_
  show _ = max ((∑ kk : Fin 512, matX3 V c b ⟨256 * k + p.val, _⟩ kk * matW3 V c kk q) + vecB3 V c q) 0
  rw [R.bias t q]
  refine congrArg (fun s => max (s + vecB3 V c q) 0) (Finset.sum_congr rfl fun kk _ => ?_)
  rw [R.x t k hk ht p kk, R.w t kk q]

theorem hfull3_apply (r : Fin 4096) (q : Fin 512) :
    hfull3 V c b.val b.isLt (ix2 r q) = hidM3 V c b r q := by
  show Steps.row hN3 (hblk3 V c) b.val b.isLt r q = _
  unfold Steps.row
  refine (congrFun (PayIdeal.pay4_eq _ _ _) _).trans ?_
  refine (hid_block3 V c b R ⟨16 * b.val + r.val / 256, Steps.step_lt hN3 b.val b.isLt r⟩ (r.val / 256)
    (by have := r.isLt; omega) rfl ⟨r.val % 256, Nat.mod_lt _ (by decide)⟩ q).trans ?_
  exact congrArg (fun r' => hidM3 V c b r' q) (Fin.ext (by show 256 * (r.val / 256) + r.val % 256 = r.val; omega))

theorem acc_point3 (t : Fin cfg3.N) (k : ℕ) (hk : k < 16) (ht : t.val = 16 * b.val + k)
    (prev : Vec Ideal S4096x512 .f32) (r : Fin 4096) (q : Fin 512) :
    k0_pay5 (F := Ideal) (xblk3 V c t) (wblk3 V c t) (bblk3 V c t) prev (ablk3 V c t) (ix2 r q)
      = prev (ix2 r q) + ∑ j : Fin 256, term3 V c b r q ⟨256 * k + j.val, by omega⟩ := by
  refine (PayIdeal.pay5_apply _ _ _ _ _ r q).trans ?_
  refine congrArg (fun s => prev (ix2 r q) + s) (Finset.sum_congr rfl fun j _ => ?_)
  rw [R.a t k hk ht r j]
  exact congrArg (fun s => matA3 V c b r ⟨256 * k + j.val, _⟩ * s) (hid_block3 V c b R t k hk ht j q)

/-- Sixteen slab sums regroup into the full sum over the 4096 columns of A. -/
theorem acc_last3 (r : Fin 4096) (q : Fin 512) :
    accAt3 V c (16 * b.val + 15) (pt_lt3 b 15 (by decide)) (ix2 r q) = ∑ j : Fin 4096, term3 V c b r q j :=
  Steps.accAt_last hN3 (step3 V c) _ (ix2 r q) (term3 V c b r q) b.val b.isLt (PayIdeal.pay2_apply _)
    fun t k hk ht prev => acc_point3 V c b R t k hk ht prev r q

theorem out_last3 (t : Fin cfg3.N) (ht : t.val = 16 * b.val + 15) (r : Fin 4096) (q : Fin 512) :
    outAt3 V c t (ix3 (0 : Fin 1) r q)
      = Cert.Spec.layer (matX3 V c b) (matA3 V c b) (matW3 V c) (vecB3 V c) r q := by
  have hh : ∀ q' : Fin 512, hfull3 V c (t.val / 16) (Steps.stream_lt hN3 t.val t.isLt) (ix2 r q') = hidM3 V c b r q' := fun q' =>
    (congrFun (hfull3_idx V c (by omega : t.val / 16 = b.val) _ b.isLt) _).trans (hfull3_apply V c b R r q')
  have hacc : ∀ q' : Fin 512, accAt3 V c t.val t.isLt (ix2 r q') = ∑ j : Fin 4096, term3 V c b r q' j := fun q' =>
    (congrFun (Steps.accAt_idx _ _ ht _ _) _).trans (acc_last3 V c b R r q')
  unfold outAt3
  refine (PayIdeal.pay1_apply _ _ r q).trans ?_
  simp only [hh, hacc]
  rfl

end Steps

theorem blockReads3 (c : Dev nD) (b : Fin 2) : BlockReads3 V c b where
  x := fun t k hk ht p kk => xblk3_apply V c t b.val k ht hk p kk
  a := fun t k hk ht r j => ablk3_apply V c t b.val k ht hk r j
  w := fun t a q => wblk3_apply V c t a q
  bias := fun t q => bblk3_apply V c t q

/-- The array the call leaves is one layer of the index formula, applied to the four arrays it found. -/
theorem region3_value (c : Dev nD) (b : Fin 2) (r : Fin 4096) (q : Fin 512) :
    (dat3 (F := Ideal) V c).arrAt 4 cfg3.N (ix3 b r q)
      = Cert.Spec.layer (fun r k => V c (Pipeline.arrRef spec3 0) (ix3 b r k))
          (fun r j => V c (Pipeline.arrRef spec3 1) (ix3 b r j))
          (fun k q => V c (Pipeline.arrRef spec3 2) (ix2 k q))
          (fun q => V c (Pipeline.arrRef spec3 3) (ix2 0 q)) r q :=
  (arrAt3_out V c b r q).trans (out_last3 V c b (blockReads3 V c b) _ rfl r q)

end Cert.KernelIdeal.Gen

end
-- ==== Proof.KI.Blocks4.lean ====
import proofs.«426140_j3899830305296_1_alg».proof.Proof.KI.Data4
import Idealize.ShloMosaic.Lib.ValueIdx
import Idealize.ShloMosaic.Lib.Pipeline.FrameBody
import Idealize.ShloMosaic.Lib.Pipeline.Value
import Idealize.ShloMosaic.Lib.Pipeline.Cells
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem blkIdx4 : ∀ t : Fin cfg4.N,
    win4_0.index t (0 : Fin 3) = t.val / 16 ∧ win4_0.index t (1 : Fin 3) = t.val % 16 ∧ win4_0.index t (2 : Fin 3) = 0
    ∧ win4_1.index t (0 : Fin 3) = t.val / 16 ∧ win4_1.index t (1 : Fin 3) = 0 ∧ win4_1.index t (2 : Fin 3) = t.val % 16
    ∧ win4_2.index t (0 : Fin 2) = 0 ∧ win4_2.index t (1 : Fin 2) = 0
    ∧ win4_3.index t (0 : Fin 2) = 0 ∧ win4_3.index t (1 : Fin 2) = 0
    ∧ win4_4.index t (0 : Fin 3) = t.val / 16 ∧ win4_4.index t (1 : Fin 3) = 0 ∧ win4_4.index t (2 : Fin 3) = 0 :=
  (by decide +kernel : ∀ t : Fin grid4.N, _)

theorem stream4_lt (t : Fin cfg4.N) (b k : ℕ) (ht : t.val = 16 * b + k) : b < 2 := by
  have hN : cfg4.N = 32 := N_4
  have := t.isLt
  omega

theorem slab4_lt (k : ℕ) (hk : k < 16) (p : Fin 256) : 256 * k + p.val < 4096 := by
  have := p.isLt
  omega

theorem xblk4_apply (c : Dev nD) (t : Fin cfg4.N) (b k : ℕ) (ht : t.val = 16 * b + k) (hk : k < 16)
    (p : Fin 256) (kk : Fin 512) :
    xblk4 V c t (ix3 0 p kk)
      = (V c (Pipeline.arrRef spec4 0) : S2x4096x512.Idx → Elt F .f32)
          (ix3 ⟨b, stream4_lt t b k ht⟩ ⟨256 * k + p.val, slab4_lt k hk p⟩ kk) := by
  obtain ⟨e0, e1, e2, -⟩ := blkIdx4 t
  show (V c (Pipeline.arrRef spec4 0) : S2x4096x512.Idx → Elt F .f32) (((cfg4.win 0).blk t).view.emb (ix3 0 p kk)) = _
  refine congrArg _ (funext fun a => Fin.ext ?_)
  match a with
  | ⟨0, _⟩ => show win4_0.index t (0 : Fin 3) * 1 + 1 * 0 = b; omega
  | ⟨1, _⟩ => show win4_0.index t (1 : Fin 3) * 256 + 1 * p.val = 256 * k + p.val; omega
  | ⟨2, _⟩ => show win4_0.index t (2 : Fin 3) * 512 + 1 * kk.val = kk.val; omega

theorem ablk4_apply (c : Dev nD) (t : Fin cfg4.N) (b k : ℕ) (ht : t.val = 16 * b + k) (hk : k < 16)
    (r : Fin 4096) (j : Fin 256) :
    ablk4 V c t (ix3 0 r j)
      = (V c (Pipeline.arrRef spec4 1) : S2x4096x4096.Idx → Elt F .bf16)
          (ix3 ⟨b, stream4_lt t b k ht⟩ r ⟨256 * k + j.val, slab4_lt k hk j⟩) := by
  obtain ⟨-, -, -, e0, e1, e2, -⟩ := blkIdx4 t
  show (V c (Pipeline.arrRef spec4 1) : S2x4096x4096.Idx → Elt F .bf16) (((cfg4.win 1).blk t).view.emb (ix3 0 r j)) = _
  refine congrArg _ (funext fun a => Fin.ext ?_)
  match a with
  | ⟨0, _⟩ => show win4_1.index t (0 : Fin 3) * 1 + 1 * 0 = b; omega
  | ⟨1, _⟩ => show win4_1.index t (1 : Fin 3) * 4096 + 1 * r.val = r.val; omega
  | ⟨2, _⟩ => show win4_1.index t (2 : Fin 3) * 256 + 1 * j.val = 256 * k + j.val; omega

theorem wblk4_apply (c : Dev nD) (t : Fin cfg4.N) (a : Fin 512) (q : Fin 512) :
    wblk4 V c t (ix2 a q) = (V c (Pipeline.arrRef spec4 2) : S512x512.Idx → Elt F .f32) (ix2 a q) := by
  obtain ⟨-, -, -, -, -, -, e0, e1, -⟩ := blkIdx4 t
  show (V c (Pipeline.arrRef spec4 2) : S512x512.Idx → Elt F .f32) (((cfg4.win 2).blk t).view.emb (ix2 a q)) = _
  refine congrArg _ (funext fun d => Fin.ext ?_)
  match d with
  | ⟨0, _⟩ => show win4_2.index t (0 : Fin 2) * 512 + 1 * a.val = a.val; omega
  | ⟨1, _⟩ => show win4_2.index t (1 : Fin 2) * 512 + 1 * q.val = q.val; omega

theorem bblk4_apply (c : Dev nD) (t : Fin cfg4.N) (q : Fin 512) :
    bblk4 V c t (ix2 0 q) = (V c (Pipeline.arrRef spec4 3) : S1x512.Idx → Elt F .f32) (ix2 0 q) := by
  obtain ⟨-, -, -, -, -, -, -, -, e0, e1, -⟩ := blkIdx4 t
  show (V c (Pipeline.arrRef spec4 3) : S1x512.Idx → Elt F .f32) (((cfg4.win 3).blk t).view.emb (ix2 0 q)) = _
  refine congrArg _ (funext fun d => Fin.ext ?_)
  match d with
  | ⟨0, _⟩ => show win4_3.index t (0 : Fin 2) * 1 + 1 * 0 = 0; omega
  | ⟨1, _⟩ => show win4_3.index t (1 : Fin 2) * 512 + 1 * q.val = q.val; omega

theorem last4_lt (b : ℕ) (hb : b < 2) : 16 * b + 15 < cfg4.N := by
  have hN : cfg4.N = 32 := N_4
  omega

def outArr4 (c : Dev nD) : S2x4096x512.Idx → Elt F .f32 :=
  fun i => outAt4 V c ⟨16 * (i 0).val + 15, last4_lt (i 0).val (i 0).isLt⟩ (ix3 0 (i 1) (i 2))

theorem outAt4_congr (c : Dev nD) (t t' : Fin cfg4.N) (j j' : S1x4096x512.Idx) (ht : t.val = t'.val)
    (hj : ∀ a, (j a).val = (j' a).val) : outAt4 V c t j = outAt4 V c t' j' := by
  obtain rfl : t = t' := Fin.ext ht
  obtain rfl : j = j' := funext fun a => Fin.ext (hj a)
  rfl

theorem flushed4_4_eq (c : Dev nD) (t : Fin cfg4.N) (hf : (cfg4.win 4).flush t = true) :
    (dat4 V c).flushed 4 t = ((cfg4.win 4).blk t).view.read (Elt F) (outArr4 V c) := by
  have h15 : t.val % 16 = 15 := (flush4_4 t).mp hf
  obtain ⟨-, -, -, -, -, -, -, -, -, -, e0, e1, e2⟩ := blkIdx4 t
  show (cfg4.win 4).cut (grid4.coords t) ((dat4 V c).after 4 t) = _
  rw [after4_4]
  funext j
  show outAt4 V c t ((cfg4.win 4).xinj (grid4.coords t) j) = outArr4 V c (((cfg4.win 4).blk t).view.emb j)
  have hj0 : (j 0).val < 1 := (j 0).isLt
  have hj1 : (j 1).val < 4096 := (j 1).isLt
  have hj2 : (j 2).val < 512 := (j 2).isLt
  have q0 : ((((cfg4.win 4).blk t).view.emb j) 0).val = t.val / 16 := by
    show win4_4.index t (0 : Fin 3) * 1 + 1 * (j 0).val = t.val / 16; omega
  have q1 : ((((cfg4.win 4).blk t).view.emb j) 1).val = (j 1).val := by
    show win4_4.index t (1 : Fin 3) * 4096 + 1 * (j 1).val = (j 1).val; omega
  have q2 : ((((cfg4.win 4).blk t).view.emb j) 2).val = (j 2).val := by
    show win4_4.index t (2 : Fin 3) * 512 + 1 * (j 2).val = (j 2).val; omega
  unfold outArr4
  refine outAt4_congr V c _ _ _ _ ?_ ?_
  · show t.val = 16 * ((((cfg4.win 4).blk t).view.emb j) 0).val + 15
    omega
  · intro a
    match a with
    | ⟨0, _⟩ => show (j 0).val = 0; omega
    | ⟨1, _⟩ => show (j 1).val = ((((cfg4.win 4).blk t).view.emb j) 1).val; omega
    | ⟨2, _⟩ => show (j 2).val = ((((cfg4.win 4).blk t).view.emb j) 2).val; omega

theorem mem_blk4_4 (t : Fin cfg4.N) (i : S2x4096x512.Idx) :
    i ∈ ((cfg4.win 4).blk t).view.set
      ↔ ∀ a : Fin 3, win4_4.index t a * S1x4096x512.size a ≤ (i a).val
          ∧ (i a).val < win4_4.index t a * S1x4096x512.size a + S1x4096x512.size a := by
  show i ∈ ((View.whole (Pipeline.arrRef spec4 4)).slice (win4_4.rect t)).set ↔ _
  rw [View.set_slice_whole, Rect.mem_set_unit]
  exact Iff.rfl

theorem cover4_4 (i : S2x4096x512.Idx) :
    ∃ t : Fin cfg4.N, (cfg4.win 4).flush t = true ∧ i ∈ ((cfg4.win 4).blk t).view.set := by
  have hi0 : (i 0).val < 2 := (i 0).isLt
  have hi1 : (i 1).val < 4096 := (i 1).isLt
  have hi2 : (i 2).val < 512 := (i 2).isLt
  refine ⟨⟨16 * (i 0).val + 15, last4_lt (i 0).val hi0⟩, (flush4_4 _).mpr (by show (16 * (i 0).val + 15) % 16 = 15; omega), ?_⟩
  obtain ⟨-, -, -, -, -, -, -, -, -, -, e0, e1, e2⟩ := blkIdx4 ⟨16 * (i 0).val + 15, last4_lt (i 0).val hi0⟩
  have e0' : win4_4.index ⟨16 * (i 0).val + 15, last4_lt (i 0).val hi0⟩ (0 : Fin 3) = (i 0).val := by
    rw [e0]; show (16 * (i 0).val + 15) / 16 = (i 0).val; omega
  rw [mem_blk4_4]
  intro a
  match a with
  | ⟨0, _⟩ =>
    show win4_4.index ⟨16 * (i 0).val + 15, last4_lt (i 0).val hi0⟩ (0 : Fin 3) * 1 ≤ (i 0).val
      ∧ (i 0).val < win4_4.index ⟨16 * (i 0).val + 15, last4_lt (i 0).val hi0⟩ (0 : Fin 3) * 1 + 1
    omega
  | ⟨1, _⟩ =>
    show win4_4.index ⟨16 * (i 0).val + 15, last4_lt (i 0).val hi0⟩ (1 : Fin 3) * 4096 ≤ (i 1).val
      ∧ (i 1).val < win4_4.index ⟨16 * (i 0).val + 15, last4_lt (i 0).val hi0⟩ (1 : Fin 3) * 4096 + 4096
    omega
  | ⟨2, _⟩ =>
    show win4_4.index ⟨16 * (i 0).val + 15, last4_lt (i 0).val hi0⟩ (2 : Fin 3) * 512 ≤ (i 2).val
      ∧ (i 2).val < win4_4.index ⟨16 * (i 0).val + 15, last4_lt (i 0).val hi0⟩ (2 : Fin 3) * 512 + 512
    omega

/-- The blocks written at the two streams' last steps tile the output array. -/
theorem arrAt4_4 (c : Dev nD) : (dat4 V c).arrAt 4 cfg4.N = outArr4 V c :=
  (dat4 V c).arrAt_eq_of_cover 4 (outArr4 V c) (fun t hf => flushed4_4_eq V c t hf) cover4_4

theorem arrAt4_out (c : Dev nD) (b : Fin 2) (r : Fin 4096) (q : Fin 512) :
    ((dat4 V c).arrAt 4 cfg4.N : S2x4096x512.Idx → Elt F .f32) (ix3 b r q)
      = outAt4 V c ⟨16 * b.val + 15, last4_lt b.val b.isLt⟩ (ix3 0 r q) := by
  rw [arrAt4_4]
  rfl

theorem arrAt4_in (c : Dev nD) (w : Fin 5) (hw : w ≠ 4) :
    (dat4 V c).arrAt w cfg4.N = V c (Pipeline.arrRef spec4 w) := by
  have hin : (cfg4.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  rw [Dat.arrAt_in (dat4 V c) w hin cfg4.N]
  exact A_eq4 V c w

end Cert.KernelIdeal.Gen

end
-- ==== Proof.KI.Val4.lean ====
import proofs.«426140_j3899830305296_1_alg».proof.Proof.KI.Data4
import proofs.«426140_j3899830305296_1_alg».proof.Proof.KI.Blocks4
import proofs.«426140_j3899830305296_1_alg».proof.Proof.PayIdeal
import proofs.«426140_j3899830305296_1_alg».proof.Proof.BlockSum
import proofs.«426140_j3899830305296_1_alg».proof.Proof.Spec

set_option maxRecDepth 16384

noncomputable section

namespace Cert.KernelIdeal.Gen

open Idealize.ShloMosaic Idealize.ShloMosaic.TcCoe Idealize.SL.Sem
open Idealize.ShloMosaic.Pipeline (Dat Cfg Window BodyObligation cellOf)
open ValueIdx
open Cert.KernelIdeal

variable (V : (c : Dev nD) → (b : Ref sig .tc) → Buf (Elt Ideal) ((c : Thread nD τ).loc b))

abbrev matX4 (c : Dev nD) (b : Fin 2) : Cert.Spec.Mat 4096 512 := fun r k => V c (Pipeline.arrRef spec4 0) (ix3 b r k)
abbrev matA4 (c : Dev nD) (b : Fin 2) : Cert.Spec.Mat 4096 4096 := fun r j => V c (Pipeline.arrRef spec4 1) (ix3 b r j)
abbrev matW4 (c : Dev nD) : Cert.Spec.Mat 512 512 := fun k q => V c (Pipeline.arrRef spec4 2) (ix2 k q)
abbrev vecB4 (c : Dev nD) : Fin 512 → EReal := fun q => V c (Pipeline.arrRef spec4 3) (ix2 0 q)

abbrev hidM4 (c : Dev nD) (b : Fin 2) : Cert.Spec.Mat 4096 512 := Cert.Spec.hid (matX4 V c b) (matW4 V c) (vecB4 V c)

abbrev term4 (c : Dev nD) (b : Fin 2) (r : Fin 4096) (q : Fin 512) (j : Fin 4096) : EReal :=
  matA4 V c b r j * hidM4 V c b j q

structure BlockReads4 (c : Dev nD) (b : Fin 2) : Prop where
  x : ∀ (t : Fin cfg4.N) (k : ℕ) (hk : k < 16), t.val = 16 * b.val + k → ∀ (p : Fin 256) (kk : Fin 512),
    xblk4 V c t (ix3 (0 : Fin 1) p kk) = matX4 V c b ⟨256 * k + p.val, by omega⟩ kk
  a : ∀ (t : Fin cfg4.N) (k : ℕ) (hk : k < 16), t.val = 16 * b.val + k → ∀ (r : Fin 4096) (j : Fin 256),
    ablk4 V c t (ix3 (0 : Fin 1) r j) = matA4 V c b r ⟨256 * k + j.val, by omega⟩
  w : ∀ (t : Fin cfg4.N) (a : Fin 512) (q : Fin 512), wblk4 V c t (ix2 a q) = matW4 V c a q
  bias : ∀ (t : Fin cfg4.N) (q : Fin 512), bblk4 V c t (ix2 (0 : Fin 1) q) = vecB4 V c q

theorem pt_lt4 (b : Fin 2) (n : ℕ) (hn : n < 16) : 16 * b.val + n < cfg4.N := by
  have hN : cfg4.N = 32 := N_4
  omega

theorem hfull4_idx (c : Dev nD) {m m' : ℕ} (h : m = m') (hm : m < 2) (hm' : m' < 2) :
    hfull4 V c m hm = hfull4 V c m' hm' := by
  subst h; rfl

section Steps
variable (c : Dev nD) (b : Fin 2) (R : BlockReads4 V c b)
include R

theorem hid_block4 (t : Fin cfg4.N) (k : ℕ) (hk : k < 16) (ht : t.val = 16 * b.val + k) (p : Fin 256) (q : Fin 512) :
    k0_pay3 (F := Ideal) (xblk4 V c t) (wblk4 V c t) (bblk4 V c t) (ix2 p q)
      = hidM4 V c b ⟨256 * k + p.val, by omega⟩ q := by
  refine (PayIdeal.pay3_apply _ _ _ p q).trans ?_
  show _ = max ((∑ kk : Fin 512, matX4 V c b ⟨256 * k + p.val, _⟩ kk * matW4 V c kk q) + vecB4 V c q) 0
  rw [R.bias t q]
  refine congrArg (fun s => max (s + vecB4 V c q) 0) (Finset.sum_congr rfl fun kk _ => ?_)
  rw [R.x t k hk ht p kk, R.w t kk q]

theorem hfull4_apply (r : Fin 4096) (q : Fin 512) :
    hfull4 V c b.val b.isLt (ix2 r q) = hidM4 V c b r q := by
  show Steps.row hN4 (hblk4 V c) b.val b.isLt r q = _
  unfold Steps.row
  refine (congrFun (PayIdeal.pay4_eq _ _ _) _).trans ?_
  refine (hid_block4 V c b R ⟨16 * b.val + r.val / 256, Steps.step_lt hN4 b.val b.isLt r⟩ (r.val / 256)
    (by have := r.isLt; omega) rfl ⟨r.val % 256, Nat.mod_lt _ (by decide)⟩ q).trans ?_
  exact congrArg (fun r' => hidM4 V c b r' q) (Fin.ext (by show 256 * (r.val / 256) + r.val % 256 = r.val; omega))

theorem acc_point4 (t : Fin cfg4.N) (k : ℕ) (hk : k < 16) (ht : t.val = 16 * b.val + k)
    (prev : Vec Ideal S4096x512 .f32) (r : Fin 4096) (q : Fin 512) :
    k0_pay5 (F := Ideal) (xblk4 V c t) (wblk4 V c t) (bblk4 V c t) prev (ablk4 V c t) (ix2 r q)
      = prev (ix2 r q) + ∑ j : Fin 256, term4 V c b r q ⟨256 * k + j.val, by omega⟩ := by
  refine (PayIdeal.pay5_apply _ _ _ _ _ r q).trans ?_
  refine congrArg (fun s => prev (ix2 r q) + s) (Finset.sum_congr rfl fun j _ => ?_)
  rw [R.a t k hk ht r j]
  exact congrArg (fun s => matA4 V c b r ⟨256 * k + j.val, _⟩ * s) (hid_block4 V c b R t k hk ht j q)

/-- Sixteen slab sums regroup into the full sum over the 4096 columns of A. -/
theorem acc_last4 (r : Fin 4096) (q : Fin 512) :
    accAt4 V c (16 * b.val + 15) (pt_lt4 b 15 (by decide)) (ix2 r q) = ∑ j : Fin 4096, term4 V c b r q j :=
  Steps.accAt_last hN4 (step4 V c) _ (ix2 r q) (term4 V c b r q) b.val b.isLt (PayIdeal.pay2_apply _)
    fun t k hk ht prev => acc_point4 V c b R t k hk ht prev r q

theorem out_last4 (t : Fin cfg4.N) (ht : t.val = 16 * b.val + 15) (r : Fin 4096) (q : Fin 512) :
    outAt4 V c t (ix3 (0 : Fin 1) r q)
      = Cert.Spec.layer (matX4 V c b) (matA4 V c b) (matW4 V c) (vecB4 V c) r q := by
  have hh : ∀ q' : Fin 512, hfull4 V c (t.val / 16) (Steps.stream_lt hN4 t.val t.isLt) (ix2 r q') = hidM4 V c b r q' := fun q' =>
    (congrFun (hfull4_idx V c (by omega : t.val / 16 = b.val) _ b.isLt) _).trans (hfull4_apply V c b R r q')
  have hacc : ∀ q' : Fin 512, accAt4 V c t.val t.isLt (ix2 r q') = ∑ j : Fin 4096, term4 V c b r q' j := fun q' =>
    (congrFun (Steps.accAt_idx _ _ ht _ _) _).trans (acc_last4 V c b R r q')
  unfold outAt4
  refine (PayIdeal.pay1_apply _ _ r q).trans ?_
  simp only [hh, hacc]
  rfl

end Steps

theorem blockReads4 (c : Dev nD) (b : Fin 2) : BlockReads4 V c b where
  x := fun t k hk ht p kk => xblk4_apply V c t b.val k ht hk p kk
  a := fun t k hk ht r j => ablk4_apply V c t b.val k ht hk r j
  w := fun t a q => wblk4_apply V c t a q
  bias := fun t q => bblk4_apply V c t q

/-- The array the call leaves is one layer of the index formula, applied to the four arrays it found. -/
theorem region4_value (c : Dev nD) (b : Fin 2) (r : Fin 4096) (q : Fin 512) :
    (dat4 (F := Ideal) V c).arrAt 4 cfg4.N (ix3 b r q)
      = Cert.Spec.layer (fun r k => V c (Pipeline.arrRef spec4 0) (ix3 b r k))
          (fun r j => V c (Pipeline.arrRef spec4 1) (ix3 b r j))
          (fun k q => V c (Pipeline.arrRef spec4 2) (ix2 k q))
          (fun q => V c (Pipeline.arrRef spec4 3) (ix2 0 q)) r q :=
  (arrAt4_out V c b r q).trans (out_last4 V c b (blockReads4 V c b) _ rfl r q)

end Cert.KernelIdeal.Gen

end
-- ==== Proof.KI.Blocks5.lean ====
import proofs.«426140_j3899830305296_1_alg».proof.Proof.KI.Data5
import Idealize.ShloMosaic.Lib.ValueIdx
import Idealize.ShloMosaic.Lib.Pipeline.FrameBody
import Idealize.ShloMosaic.Lib.Pipeline.Value
import Idealize.ShloMosaic.Lib.Pipeline.Cells
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

theorem blkIdx5 : ∀ t : Fin cfg5.N,
    win5_0.index t (0 : Fin 3) = t.val / 16 ∧ win5_0.index t (1 : Fin 3) = t.val % 16 ∧ win5_0.index t (2 : Fin 3) = 0
    ∧ win5_1.index t (0 : Fin 3) = t.val / 16 ∧ win5_1.index t (1 : Fin 3) = 0 ∧ win5_1.index t (2 : Fin 3) = t.val % 16
    ∧ win5_2.index t (0 : Fin 2) = 0 ∧ win5_2.index t (1 : Fin 2) = 0
    ∧ win5_3.index t (0 : Fin 2) = 0 ∧ win5_3.index t (1 : Fin 2) = 0
    ∧ win5_4.index t (0 : Fin 3) = t.val / 16 ∧ win5_4.index t (1 : Fin 3) = 0 ∧ win5_4.index t (2 : Fin 3) = 0 :=
  (by decide +kernel : ∀ t : Fin grid5.N, _)

theorem stream5_lt (t : Fin cfg5.N) (b k : ℕ) (ht : t.val = 16 * b + k) : b < 2 := by
  have hN : cfg5.N = 32 := N_5
  have := t.isLt
  omega

theorem slab5_lt (k : ℕ) (hk : k < 16) (p : Fin 256) : 256 * k + p.val < 4096 := by
  have := p.isLt
  omega

theorem xblk5_apply (c : Dev nD) (t : Fin cfg5.N) (b k : ℕ) (ht : t.val = 16 * b + k) (hk : k < 16)
    (p : Fin 256) (kk : Fin 512) :
    xblk5 V c t (ix3 0 p kk)
      = (V c (Pipeline.arrRef spec5 0) : S2x4096x512.Idx → Elt F .f32)
          (ix3 ⟨b, stream5_lt t b k ht⟩ ⟨256 * k + p.val, slab5_lt k hk p⟩ kk) := by
  obtain ⟨e0, e1, e2, -⟩ := blkIdx5 t
  show (V c (Pipeline.arrRef spec5 0) : S2x4096x512.Idx → Elt F .f32) (((cfg5.win 0).blk t).view.emb (ix3 0 p kk)) = _
  refine congrArg _ (funext fun a => Fin.ext ?_)
  match a with
  | ⟨0, _⟩ => show win5_0.index t (0 : Fin 3) * 1 + 1 * 0 = b; omega
  | ⟨1, _⟩ => show win5_0.index t (1 : Fin 3) * 256 + 1 * p.val = 256 * k + p.val; omega
  | ⟨2, _⟩ => show win5_0.index t (2 : Fin 3) * 512 + 1 * kk.val = kk.val; omega

theorem ablk5_apply (c : Dev nD) (t : Fin cfg5.N) (b k : ℕ) (ht : t.val = 16 * b + k) (hk : k < 16)
    (r : Fin 4096) (j : Fin 256) :
    ablk5 V c t (ix3 0 r j)
      = (V c (Pipeline.arrRef spec5 1) : S2x4096x4096.Idx → Elt F .bf16)
          (ix3 ⟨b, stream5_lt t b k ht⟩ r ⟨256 * k + j.val, slab5_lt k hk j⟩) := by
  obtain ⟨-, -, -, e0, e1, e2, -⟩ := blkIdx5 t
  show (V c (Pipeline.arrRef spec5 1) : S2x4096x4096.Idx → Elt F .bf16) (((cfg5.win 1).blk t).view.emb (ix3 0 r j)) = _
  refine congrArg _ (funext fun a => Fin.ext ?_)
  match a with
  | ⟨0, _⟩ => show win5_1.index t (0 : Fin 3) * 1 + 1 * 0 = b; omega
  | ⟨1, _⟩ => show win5_1.index t (1 : Fin 3) * 4096 + 1 * r.val = r.val; omega
  | ⟨2, _⟩ => show win5_1.index t (2 : Fin 3) * 256 + 1 * j.val = 256 * k + j.val; omega

theorem wblk5_apply (c : Dev nD) (t : Fin cfg5.N) (a : Fin 512) (q : Fin 512) :
    wblk5 V c t (ix2 a q) = (V c (Pipeline.arrRef spec5 2) : S512x512.Idx → Elt F .f32) (ix2 a q) := by
  obtain ⟨-, -, -, -, -, -, e0, e1, -⟩ := blkIdx5 t
  show (V c (Pipeline.arrRef spec5 2) : S512x512.Idx → Elt F .f32) (((cfg5.win 2).blk t).view.emb (ix2 a q)) = _
  refine congrArg _ (funext fun d => Fin.ext ?_)
  match d with
  | ⟨0, _⟩ => show win5_2.index t (0 : Fin 2) * 512 + 1 * a.val = a.val; omega
  | ⟨1, _⟩ => show win5_2.index t (1 : Fin 2) * 512 + 1 * q.val = q.val; omega

theorem bblk5_apply (c : Dev nD) (t : Fin cfg5.N) (q : Fin 512) :
    bblk5 V c t (ix2 0 q) = (V c (Pipeline.arrRef spec5 3) : S1x512.Idx → Elt F .f32) (ix2 0 q) := by
  obtain ⟨-, -, -, -, -, -, -, -, e0, e1, -⟩ := blkIdx5 t
  show (V c (Pipeline.arrRef spec5 3) : S1x512.Idx → Elt F .f32) (((cfg5.win 3).blk t).view.emb (ix2 0 q)) = _
  refine congrArg _ (funext fun d => Fin.ext ?_)
  match d with
  | ⟨0, _⟩ => show win5_3.index t (0 : Fin 2) * 1 + 1 * 0 = 0; omega
  | ⟨1, _⟩ => show win5_3.index t (1 : Fin 2) * 512 + 1 * q.val = q.val; omega

theorem last5_lt (b : ℕ) (hb : b < 2) : 16 * b + 15 < cfg5.N := by
  have hN : cfg5.N = 32 := N_5
  omega

def outArr5 (c : Dev nD) : S2x4096x512.Idx → Elt F .f32 :=
  fun i => outAt5 V c ⟨16 * (i 0).val + 15, last5_lt (i 0).val (i 0).isLt⟩ (ix3 0 (i 1) (i 2))

theorem outAt5_congr (c : Dev nD) (t t' : Fin cfg5.N) (j j' : S1x4096x512.Idx) (ht : t.val = t'.val)
    (hj : ∀ a, (j a).val = (j' a).val) : outAt5 V c t j = outAt5 V c t' j' := by
  obtain rfl : t = t' := Fin.ext ht
  obtain rfl : j = j' := funext fun a => Fin.ext (hj a)
  rfl

theorem flushed5_4_eq (c : Dev nD) (t : Fin cfg5.N) (hf : (cfg5.win 4).flush t = true) :
    (dat5 V c).flushed 4 t = ((cfg5.win 4).blk t).view.read (Elt F) (outArr5 V c) := by
  have h15 : t.val % 16 = 15 := (flush5_4 t).mp hf
  obtain ⟨-, -, -, -, -, -, -, -, -, -, e0, e1, e2⟩ := blkIdx5 t
  show (cfg5.win 4).cut (grid5.coords t) ((dat5 V c).after 4 t) = _
  rw [after5_4]
  funext j
  show outAt5 V c t ((cfg5.win 4).xinj (grid5.coords t) j) = outArr5 V c (((cfg5.win 4).blk t).view.emb j)
  have hj0 : (j 0).val < 1 := (j 0).isLt
  have hj1 : (j 1).val < 4096 := (j 1).isLt
  have hj2 : (j 2).val < 512 := (j 2).isLt
  have q0 : ((((cfg5.win 4).blk t).view.emb j) 0).val = t.val / 16 := by
    show win5_4.index t (0 : Fin 3) * 1 + 1 * (j 0).val = t.val / 16; omega
  have q1 : ((((cfg5.win 4).blk t).view.emb j) 1).val = (j 1).val := by
    show win5_4.index t (1 : Fin 3) * 4096 + 1 * (j 1).val = (j 1).val; omega
  have q2 : ((((cfg5.win 4).blk t).view.emb j) 2).val = (j 2).val := by
    show win5_4.index t (2 : Fin 3) * 512 + 1 * (j 2).val = (j 2).val; omega
  unfold outArr5
  refine outAt5_congr V c _ _ _ _ ?_ ?_
  · show t.val = 16 * ((((cfg5.win 4).blk t).view.emb j) 0).val + 15
    omega
  · intro a
    match a with
    | ⟨0, _⟩ => show (j 0).val = 0; omega
    | ⟨1, _⟩ => show (j 1).val = ((((cfg5.win 4).blk t).view.emb j) 1).val; omega
    | ⟨2, _⟩ => show (j 2).val = ((((cfg5.win 4).blk t).view.emb j) 2).val; omega

theorem mem_blk5_4 (t : Fin cfg5.N) (i : S2x4096x512.Idx) :
    i ∈ ((cfg5.win 4).blk t).view.set
      ↔ ∀ a : Fin 3, win5_4.index t a * S1x4096x512.size a ≤ (i a).val
          ∧ (i a).val < win5_4.index t a * S1x4096x512.size a + S1x4096x512.size a := by
  show i ∈ ((View.whole (Pipeline.arrRef spec5 4)).slice (win5_4.rect t)).set ↔ _
  rw [View.set_slice_whole, Rect.mem_set_unit]
  exact Iff.rfl

theorem cover5_4 (i : S2x4096x512.Idx) :
    ∃ t : Fin cfg5.N, (cfg5.win 4).flush t = true ∧ i ∈ ((cfg5.win 4).blk t).view.set := by
  have hi0 : (i 0).val < 2 := (i 0).isLt
  have hi1 : (i 1).val < 4096 := (i 1).isLt
  have hi2 : (i 2).val < 512 := (i 2).isLt
  refine ⟨⟨16 * (i 0).val + 15, last5_lt (i 0).val hi0⟩, (flush5_4 _).mpr (by show (16 * (i 0).val + 15) % 16 = 15; omega), ?_⟩
  obtain ⟨-, -, -, -, -, -, -, -, -, -, e0, e1, e2⟩ := blkIdx5 ⟨16 * (i 0).val + 15, last5_lt (i 0).val hi0⟩
  have e0' : win5_4.index ⟨16 * (i 0).val + 15, last5_lt (i 0).val hi0⟩ (0 : Fin 3) = (i 0).val := by
    rw [e0]; show (16 * (i 0).val + 15) / 16 = (i 0).val; omega
  rw [mem_blk5_4]
  intro a
  match a with
  | ⟨0, _⟩ =>
    show win5_4.index ⟨16 * (i 0).val + 15, last5_lt (i 0).val hi0⟩ (0 : Fin 3) * 1 ≤ (i 0).val
      ∧ (i 0).val < win5_4.index ⟨16 * (i 0).val + 15, last5_lt (i 0).val hi0⟩ (0 : Fin 3) * 1 + 1
    omega
  | ⟨1, _⟩ =>
    show win5_4.index ⟨16 * (i 0).val + 15, last5_lt (i 0).val hi0⟩ (1 : Fin 3) * 4096 ≤ (i 1).val
      ∧ (i 1).val < win5_4.index ⟨16 * (i 0).val + 15, last5_lt (i 0).val hi0⟩ (1 : Fin 3) * 4096 + 4096
    omega
  | ⟨2, _⟩ =>
    show win5_4.index ⟨16 * (i 0).val + 15, last5_lt (i 0).val hi0⟩ (2 : Fin 3) * 512 ≤ (i 2).val
      ∧ (i 2).val < win5_4.index ⟨16 * (i 0).val + 15, last5_lt (i 0).val hi0⟩ (2 : Fin 3) * 512 + 512
    omega

/-- The blocks written at the two streams' last steps tile the output array. -/
theorem arrAt5_4 (c : Dev nD) : (dat5 V c).arrAt 4 cfg5.N = outArr5 V c :=
  (dat5 V c).arrAt_eq_of_cover 4 (outArr5 V c) (fun t hf => flushed5_4_eq V c t hf) cover5_4

theorem arrAt5_out (c : Dev nD) (b : Fin 2) (r : Fin 4096) (q : Fin 512) :
    ((dat5 V c).arrAt 4 cfg5.N : S2x4096x512.Idx → Elt F .f32) (ix3 b r q)
      = outAt5 V c ⟨16 * b.val + 15, last5_lt b.val b.isLt⟩ (ix3 0 r q) := by
  rw [arrAt5_4]
  rfl

theorem arrAt5_in (c : Dev nD) (w : Fin 5) (hw : w ≠ 4) :
    (dat5 V c).arrAt w cfg5.N = V c (Pipeline.arrRef spec5 w) := by
  have hin : (cfg5.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  rw [Dat.arrAt_in (dat5 V c) w hin cfg5.N]
  exact A_eq5 V c w

end Cert.KernelIdeal.Gen

end
-- ==== Proof.KI.Val5.lean ====
import proofs.«426140_j3899830305296_1_alg».proof.Proof.KI.Data5
import proofs.«426140_j3899830305296_1_alg».proof.Proof.KI.Blocks5
import proofs.«426140_j3899830305296_1_alg».proof.Proof.PayIdeal
import proofs.«426140_j3899830305296_1_alg».proof.Proof.BlockSum
import proofs.«426140_j3899830305296_1_alg».proof.Proof.Spec

set_option maxRecDepth 16384

noncomputable section

namespace Cert.KernelIdeal.Gen

open Idealize.ShloMosaic Idealize.ShloMosaic.TcCoe Idealize.SL.Sem
open Idealize.ShloMosaic.Pipeline (Dat Cfg Window BodyObligation cellOf)
open ValueIdx
open Cert.KernelIdeal

variable (V : (c : Dev nD) → (b : Ref sig .tc) → Buf (Elt Ideal) ((c : Thread nD τ).loc b))

abbrev matX5 (c : Dev nD) (b : Fin 2) : Cert.Spec.Mat 4096 512 := fun r k => V c (Pipeline.arrRef spec5 0) (ix3 b r k)
abbrev matA5 (c : Dev nD) (b : Fin 2) : Cert.Spec.Mat 4096 4096 := fun r j => V c (Pipeline.arrRef spec5 1) (ix3 b r j)
abbrev matW5 (c : Dev nD) : Cert.Spec.Mat 512 512 := fun k q => V c (Pipeline.arrRef spec5 2) (ix2 k q)
abbrev vecB5 (c : Dev nD) : Fin 512 → EReal := fun q => V c (Pipeline.arrRef spec5 3) (ix2 0 q)

abbrev hidM5 (c : Dev nD) (b : Fin 2) : Cert.Spec.Mat 4096 512 := Cert.Spec.hid (matX5 V c b) (matW5 V c) (vecB5 V c)

abbrev term5 (c : Dev nD) (b : Fin 2) (r : Fin 4096) (q : Fin 512) (j : Fin 4096) : EReal :=
  matA5 V c b r j * hidM5 V c b j q

structure BlockReads5 (c : Dev nD) (b : Fin 2) : Prop where
  x : ∀ (t : Fin cfg5.N) (k : ℕ) (hk : k < 16), t.val = 16 * b.val + k → ∀ (p : Fin 256) (kk : Fin 512),
    xblk5 V c t (ix3 (0 : Fin 1) p kk) = matX5 V c b ⟨256 * k + p.val, by omega⟩ kk
  a : ∀ (t : Fin cfg5.N) (k : ℕ) (hk : k < 16), t.val = 16 * b.val + k → ∀ (r : Fin 4096) (j : Fin 256),
    ablk5 V c t (ix3 (0 : Fin 1) r j) = matA5 V c b r ⟨256 * k + j.val, by omega⟩
  w : ∀ (t : Fin cfg5.N) (a : Fin 512) (q : Fin 512), wblk5 V c t (ix2 a q) = matW5 V c a q
  bias : ∀ (t : Fin cfg5.N) (q : Fin 512), bblk5 V c t (ix2 (0 : Fin 1) q) = vecB5 V c q

theorem pt_lt5 (b : Fin 2) (n : ℕ) (hn : n < 16) : 16 * b.val + n < cfg5.N := by
  have hN : cfg5.N = 32 := N_5
  omega

theorem hfull5_idx (c : Dev nD) {m m' : ℕ} (h : m = m') (hm : m < 2) (hm' : m' < 2) :
    hfull5 V c m hm = hfull5 V c m' hm' := by
  subst h; rfl

section Steps
variable (c : Dev nD) (b : Fin 2) (R : BlockReads5 V c b)
include R

theorem hid_block5 (t : Fin cfg5.N) (k : ℕ) (hk : k < 16) (ht : t.val = 16 * b.val + k) (p : Fin 256) (q : Fin 512) :
    k0_pay3 (F := Ideal) (xblk5 V c t) (wblk5 V c t) (bblk5 V c t) (ix2 p q)
      = hidM5 V c b ⟨256 * k + p.val, by omega⟩ q := by
  refine (PayIdeal.pay3_apply _ _ _ p q).trans ?_
  show _ = max ((∑ kk : Fin 512, matX5 V c b ⟨256 * k + p.val, _⟩ kk * matW5 V c kk q) + vecB5 V c q) 0
  rw [R.bias t q]
  refine congrArg (fun s => max (s + vecB5 V c q) 0) (Finset.sum_congr rfl fun kk _ => ?_)
  rw [R.x t k hk ht p kk, R.w t kk q]

theorem hfull5_apply (r : Fin 4096) (q : Fin 512) :
    hfull5 V c b.val b.isLt (ix2 r q) = hidM5 V c b r q := by
  show Steps.row hN5 (hblk5 V c) b.val b.isLt r q = _
  unfold Steps.row
  refine (congrFun (PayIdeal.pay4_eq _ _ _) _).trans ?_
  refine (hid_block5 V c b R ⟨16 * b.val + r.val / 256, Steps.step_lt hN5 b.val b.isLt r⟩ (r.val / 256)
    (by have := r.isLt; omega) rfl ⟨r.val % 256, Nat.mod_lt _ (by decide)⟩ q).trans ?_
  exact congrArg (fun r' => hidM5 V c b r' q) (Fin.ext (by show 256 * (r.val / 256) + r.val % 256 = r.val; omega))

theorem acc_point5 (t : Fin cfg5.N) (k : ℕ) (hk : k < 16) (ht : t.val = 16 * b.val + k)
    (prev : Vec Ideal S4096x512 .f32) (r : Fin 4096) (q : Fin 512) :
    k0_pay5 (F := Ideal) (xblk5 V c t) (wblk5 V c t) (bblk5 V c t) prev (ablk5 V c t) (ix2 r q)
      = prev (ix2 r q) + ∑ j : Fin 256, term5 V c b r q ⟨256 * k + j.val, by omega⟩ := by
  refine (PayIdeal.pay5_apply _ _ _ _ _ r q).trans ?_
  refine congrArg (fun s => prev (ix2 r q) + s) (Finset.sum_congr rfl fun j _ => ?_)
  rw [R.a t k hk ht r j]
  exact congrArg (fun s => matA5 V c b r ⟨256 * k + j.val, _⟩ * s) (hid_block5 V c b R t k hk ht j q)

/-- Sixteen slab sums regroup into the full sum over the 4096 columns of A. -/
theorem acc_last5 (r : Fin 4096) (q : Fin 512) :
    accAt5 V c (16 * b.val + 15) (pt_lt5 b 15 (by decide)) (ix2 r q) = ∑ j : Fin 4096, term5 V c b r q j :=
  Steps.accAt_last hN5 (step5 V c) _ (ix2 r q) (term5 V c b r q) b.val b.isLt (PayIdeal.pay2_apply _)
    fun t k hk ht prev => acc_point5 V c b R t k hk ht prev r q

theorem out_last5 (t : Fin cfg5.N) (ht : t.val = 16 * b.val + 15) (r : Fin 4096) (q : Fin 512) :
    outAt5 V c t (ix3 (0 : Fin 1) r q)
      = Cert.Spec.layer (matX5 V c b) (matA5 V c b) (matW5 V c) (vecB5 V c) r q := by
  have hh : ∀ q' : Fin 512, hfull5 V c (t.val / 16) (Steps.stream_lt hN5 t.val t.isLt) (ix2 r q') = hidM5 V c b r q' := fun q' =>
    (congrFun (hfull5_idx V c (by omega : t.val / 16 = b.val) _ b.isLt) _).trans (hfull5_apply V c b R r q')
  have hacc : ∀ q' : Fin 512, accAt5 V c t.val t.isLt (ix2 r q') = ∑ j : Fin 4096, term5 V c b r q' j := fun q' =>
    (congrFun (Steps.accAt_idx _ _ ht _ _) _).trans (acc_last5 V c b R r q')
  unfold outAt5
  refine (PayIdeal.pay1_apply _ _ r q).trans ?_
  simp only [hh, hacc]
  rfl

end Steps

theorem blockReads5 (c : Dev nD) (b : Fin 2) : BlockReads5 V c b where
  x := fun t k hk ht p kk => xblk5_apply V c t b.val k ht hk p kk
  a := fun t k hk ht r j => ablk5_apply V c t b.val k ht hk r j
  w := fun t a q => wblk5_apply V c t a q
  bias := fun t q => bblk5_apply V c t q

/-- The array the call leaves is one layer of the index formula, applied to the four arrays it found. -/
theorem region5_value (c : Dev nD) (b : Fin 2) (r : Fin 4096) (q : Fin 512) :
    (dat5 (F := Ideal) V c).arrAt 4 cfg5.N (ix3 b r q)
      = Cert.Spec.layer (fun r k => V c (Pipeline.arrRef spec5 0) (ix3 b r k))
          (fun r j => V c (Pipeline.arrRef spec5 1) (ix3 b r j))
          (fun k q => V c (Pipeline.arrRef spec5 2) (ix2 k q))
          (fun q => V c (Pipeline.arrRef spec5 3) (ix2 0 q)) r q :=
  (arrAt5_out V c b r q).trans (out_last5 V c b (blockReads5 V c b) _ rfl r q)

end Cert.KernelIdeal.Gen

end
-- ==== Proof.TakeEq.lean ====
import proofs.«426140_j3899830305296_1_alg».proof.KernelIdeal
import Idealize.ShloMosaic.Lib.Affine
import Idealize.ShloMosaic.PureOps.Reduce
import Idealize.ShloMosaic.PureOps.Ideal

noncomputable section

namespace Cert.TakeEq

open Idealize.ShloMosaic Cert.KernelIdeal
open Cert.KernelIdeal.Facts₀

variable [Cert.KernelIdeal.Facts]

theorem wrap_in_range (a : BitVec 32) (hlo : (-10000 : Int) ≤ a.toInt) (hhi : a.toInt < 10000) :
    IntOp.andi (IntOp.cmpi .sge (Scalar.select (IntOp.cmpi .slt a 0#32) (IntOp.addi a 10000#32) a) 0#32)
      (IntOp.cmpi .sle (Scalar.select (IntOp.cmpi .slt a 0#32) (IntOp.addi a 10000#32) a) 9999#32) = 1#1 := by
  have h0 : (0#32 : BitVec 32).toInt = 0 := by decide
  have h9 : (9999#32 : BitVec 32).toInt = 9999 := by decide
  have hk : (10000#32 : BitVec 32).toInt = 10000 := by decide
  rw [IntOp.andi_eq_one, IntOp.cmpi_sge, IntOp.cmpi_sle, h0, h9]
  unfold Scalar.select
  by_cases hneg : IntOp.cmpi .slt a 0#32 = 1
  · rw [if_pos hneg]
    have hlt : a.toInt < 0 := by
      have := IntOp.cmpi_slt.1 hneg
      rwa [h0] at this
    have hadd : (IntOp.addi a 10000#32).toInt = a.toInt + 10000 := by
      show (a + 10000#32).toInt = _
      rw [BitVec.toInt_add, hk]
      exact Int.bmod_eq_of_le (by omega) (by omega)
    rw [hadd]; omega
  · rw [if_neg hneg]
    have hge : ¬ a.toInt < 0 := by
      intro hc
      exact hneg (IntOp.cmpi_slt.2 (by rw [h0]; exact hc))
    omega

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

abbrev wrapK (fp : IVec S4096 32) : IVec S4096x1 32 :=
  broadcastInDim S4096x1 ![0] bcast_S4096_S4096x1_0
    (select (cmpi .slt fp (broadcastInDim S4096 ![] bcast_S_S4096 (constantI S_ 32 0#32)))
      (addi fp (broadcastInDim S4096 ![] bcast_S_S4096 (constantI S_ 32 10000#32))) fp)

def takeK (emb : FVec Ideal S10000x512 .f32) (fp : IVec S4096 32) : FVec Ideal S4096x512 .f32 :=
  let c : IVec S_ 32 := constantI S_ 32 0#32
  let v0 : IVec S4096 32 := broadcastInDim S4096 ![] bcast_S_S4096 c
  let v1 : IVec S4096 1 := cmpi .slt fp v0
  let c_0 : IVec S_ 32 := constantI S_ 32 10000#32
  let v2 : IVec S4096 32 := broadcastInDim S4096 ![] bcast_S_S4096 c_0
  let v3 : IVec S4096 32 := addi fp v2
  let v4 : IVec S4096 32 := select v1 v3 fp
  let v5 : IVec S4096x1 32 := broadcastInDim S4096x1 ![0] bcast_S4096_S4096x1_0 v4
  let c_1 : IVec S1 32 := constantI S1 32 9999#32
  let c_2 : IVec S_ 32 := constantI S_ 32 0#32
  let v6 : IVec S4096x1 32 := broadcastInDim S4096x1 ![] bcast_S_S4096x1 c_2
  let v7 : IVec S4096x1 1 := cmpi .sge v5 v6
  let v8 : IVec S1x1 32 := broadcastInDim S1x1 ![1] bcast_S1_S1x1_1 c_1
  let v9 : IVec S4096x1 32 := broadcastInDim S4096x1 ![0, 1] bcast_S1x1_S4096x1_0_1 v8
  let v10 : IVec S4096x1 1 := cmpi .sle v5 v9
  let v11 : IVec S4096x1 1 := andi v7 v10
  let c_3 : IVec S_ 1 := constantI S_ 1 1#1
  let v12 : IVec S4096 1 := Host.reduce IntOp.andi v11 c_3 reducesTo_S4096x1_S4096_d1 h_S_
  let v13 : FVec Ideal S4096x512 .f32 := Host.gather gather_S10000x512_S4096x1_S4096x512_1_0_n_n_0_1_1512 emb v5
  let v14 : IVec S4096x512 1 := broadcastInDim S4096x512 ![0] bcast_S4096_S4096x512_0 v12
  let cst : FVec Ideal S_ .f32 := constant (F := Ideal) S_ .f32 0x7FC00000#32
  let v15 : FVec Ideal S4096x512 .f32 := broadcastInDim S4096x512 ![] bcast_S_S4096x512 cst
  select v14 v13 v15

theorem guard_one (fp : IVec S4096 32)
    (hr : ∀ i : S4096.Idx, (-10000 : Int) ≤ (fp i).toInt ∧ (fp i).toInt < 10000) (i : S4096x1.Idx) :
    andi (cmpi .sge (wrapK fp) (broadcastInDim S4096x1 ![] bcast_S_S4096x1 (constantI S_ 32 0#32)))
      (cmpi .sle (wrapK fp) (broadcastInDim S4096x1 ![0, 1] bcast_S1x1_S4096x1_0_1
        (broadcastInDim S1x1 ![1] bcast_S1_S1x1_1 (constantI S1 32 9999#32)))) i = 1#1 := by
  dsimp only [andi, cmpi, select, addi, wrapK, broadcastInDim, constantI]
  exact wrap_in_range _ (hr _).1 (hr _).2

theorem takeK_eq (emb : FVec Ideal S10000x512 .f32) (fp : IVec S4096 32)
    (hr : ∀ i : S4096.Idx, (-10000 : Int) ≤ (fp i).toInt ∧ (fp i).toInt < 10000) :
    takeK emb fp = Host.gather gather_S10000x512_S4096x1_S4096x512_1_0_n_n_0_1_1512 emb (wrapK fp) := by
  funext j
  have hred : ∀ r : S4096.Idx,
      Host.reduce IntOp.andi
        (andi (cmpi .sge (wrapK fp) (broadcastInDim S4096x1 ![] bcast_S_S4096x1 (constantI S_ 32 0#32)))
          (cmpi .sle (wrapK fp) (broadcastInDim S4096x1 ![0, 1] bcast_S1x1_S4096x1_0_1
            (broadcastInDim S1x1 ![1] bcast_S1_S1x1_1 (constantI S1 32 9999#32)))))
        (constantI S_ 1 1#1) reducesTo_S4096x1_S4096_d1 h_S_ r = 1#1 := by
    intro r
    rw [Host.reduce_eq_foldl]
    exact foldl_andi_ones _ (guard_one fp hr) _
  show Scalar.select _ _ _ = _
  unfold Scalar.select
  exact if_pos (hred _)

end Cert.TakeEq

end
-- ==== Proof.KI.HostPre.lean ====
import proofs.«426140_j3899830305296_1_alg».proof.Proof.Gen.KernelIdeal.Launch
import proofs.«426140_j3899830305296_1_alg».proof.Proof.TakeEq
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.SL.Sem Idealize.ShloMosaic.StableHlo
open Idealize.ShloMosaic.ValueIdx

variable {F : FTy → Type} [FloatOps F]

theorem planeCut_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

theorem liftPlane_apply {α : Type} {a b : Nat} (ha : a ≠ 1) (hb : b ≠ 1) (X : (⟨2, ![a, b]⟩ : Shape).Idx → α)
    (h : (⟨2, ![a, b]⟩ : Shape).BroadcastsInDim ⟨3, ![1, a, b]⟩ ![1, 2]) (u : Fin 1) (r : Fin a) (c : Fin b) :
    broadcastInDim ⟨3, ![1, a, b]⟩ ![1, 2] h X (ix3 u r c) = X (ix2 r c) :=
  broadcastInDim_apply _ _ _ _ (ix2 r c) (fun ax => by
    match ax with
    | ⟨0, _⟩ => exact (if_neg ha).symm
    | ⟨1, _⟩ => exact (if_neg hb).symm)

theorem stack2_apply_zero {α : Type} {a b : Nat} (X Y : (⟨3, ![1, a, b]⟩ : Shape).Idx → α)
    (h : Shape.Concatenates [⟨3, ![1, a, b]⟩, ⟨3, ![1, a, b]⟩] ⟨3, ![2, a, b]⟩ (0 : Fin 3)) (r : Fin a) (c : Fin b) :
    concatenate ⟨3, ![2, a, b]⟩ (0 : Fin 3) [⟨⟨3, ![1, a, b]⟩, X⟩, ⟨⟨3, ![1, a, b]⟩, Y⟩] h (ix3 (0 : Fin 2) r c)
      = X (ix3 (0 : Fin 1) r c) :=
  concatenate_pair_apply_left (0 : Fin 3) X Y h (ix3 (0 : Fin 2) r c) rfl (ix3 (0 : Fin 1) r c) (fun ax => by
    match ax with
    | ⟨0, _⟩ => rfl
    | ⟨1, _⟩ => rfl
    | ⟨2, _⟩ => rfl)

theorem stack2_apply_one {α : Type} {a b : Nat} (X Y : (⟨3, ![1, a, b]⟩ : Shape).Idx → α)
    (h : Shape.Concatenates [⟨3, ![1, a, b]⟩, ⟨3, ![1, a, b]⟩] ⟨3, ![2, a, b]⟩ (0 : Fin 3)) (r : Fin a) (c : Fin b) :
    concatenate ⟨3, ![2, a, b]⟩ (0 : Fin 3) [⟨⟨3, ![1, a, b]⟩, X⟩, ⟨⟨3, ![1, a, b]⟩, Y⟩] h (ix3 (1 : Fin 2) r c)
      = Y (ix3 (0 : Fin 1) r c) :=
  concatenate_pair_apply_right (0 : Fin 3) X Y h (ix3 (1 : Fin 2) r c) rfl rfl (ix3 (0 : Fin 1) r c) (fun ax hax => by
    match ax with
    | ⟨0, _⟩ => exact absurd rfl hax
    | ⟨1, _⟩ => rfl
    | ⟨2, _⟩ => rfl) rfl

theorem take0 (W : Valuation τ sig (Elt Ideal)) :
    (StableHlo.after (hostOps0 (F := Ideal)) W (Proc.devRef .tc main_v0) : FVec Ideal S4096x512 .f32)
      = Cert.TakeEq.takeK (W (Proc.devRef .tc main_arg5)) (W (Proc.devRef .tc main_arg0)) := by
  after_results_simp
  simp only [TRef.ofBuf, TRef.toBuf, cast_eq]
  rfl

theorem take1 (W : Valuation τ sig (Elt Ideal)) :
    (StableHlo.after (hostOps0_1 (F := Ideal)) W (Proc.devRef .tc main_v1) : FVec Ideal S4096x512 .f32)
      = Cert.TakeEq.takeK (W (Proc.devRef .tc main_arg5)) (W (Proc.devRef .tc main_arg1)) := by
  after_results_simp
  simp only [TRef.ofBuf, TRef.toBuf, cast_eq]
  rfl

theorem v4_eq (W : Valuation τ sig (Elt F)) :
    (StableHlo.after (hostOps0_2 (F := F)) W (Proc.devRef .tc main_v4) : FVec F S2x4096x512 .f32)
      = concatenate S2x4096x512 0
          [⟨S1x4096x512, broadcastInDim S1x4096x512 ![1, 2] bcast_S4096x512_S1x4096x512_1_2
              (W (Proc.devRef .tc main_v0) : FVec F S4096x512 .f32)⟩,
           ⟨S1x4096x512, broadcastInDim S1x4096x512 ![1, 2] bcast_S4096x512_S1x4096x512_1_2
              (W (Proc.devRef .tc main_v1) : FVec F S4096x512 .f32)⟩]
          concatenates_S1x4096x512_S1x4096x512_S2x4096x512_d0 := by
  after_results <;> rfl

theorem pre_x0 (W : Valuation τ sig (Elt F)) (r : Fin 4096) (k : Fin 512) :
    (StableHlo.after (hostOps0_2 (F := F)) W (Proc.devRef .tc main_v4) : FVec F S2x4096x512 .f32) (ix3 (0 : Fin 2) r k)
      = (W (Proc.devRef .tc main_v0) : FVec F S4096x512 .f32) (ix2 r k) := by
  rw [v4_eq]
  exact (stack2_apply_zero _ _ concatenates_S1x4096x512_S1x4096x512_S2x4096x512_d0 r k).trans
    (liftPlane_apply (by decide) (by decide) _ bcast_S4096x512_S1x4096x512_1_2 (0 : Fin 1) r k)

theorem pre_x1 (W : Valuation τ sig (Elt F)) (r : Fin 4096) (k : Fin 512) :
    (StableHlo.after (hostOps0_2 (F := F)) W (Proc.devRef .tc main_v4) : FVec F S2x4096x512 .f32) (ix3 (1 : Fin 2) r k)
      = (W (Proc.devRef .tc main_v1) : FVec F S4096x512 .f32) (ix2 r k) := by
  rw [v4_eq]
  exact (stack2_apply_one _ _ concatenates_S1x4096x512_S1x4096x512_S2x4096x512_d0 r k).trans
    (liftPlane_apply (by decide) (by decide) _ bcast_S4096x512_S1x4096x512_1_2 (0 : Fin 1) r k)

theorem v9_eq (W : Valuation τ sig (Elt F)) :
    (StableHlo.after (hostOps0_2 (F := F)) W (Proc.devRef .tc main_v9) : FVec F S2x4096x4096 .bf16)
      = concatenate S2x4096x4096 0
          [⟨S1x4096x4096, broadcastInDim S1x4096x4096 ![1, 2] bcast_S4096x4096_S1x4096x4096_1_2
              (truncf .bf16 (W (Proc.devRef .tc main_arg2) : FVec F S4096x4096 .f32) bitsLt_bf16_f32)⟩,
           ⟨S1x4096x4096, broadcastInDim S1x4096x4096 ![1, 2] bcast_S4096x4096_S1x4096x4096_1_2
              (truncf .bf16 (W (Proc.devRef .tc main_arg3) : FVec F S4096x4096 .f32) bitsLt_bf16_f32)⟩]
          concatenates_S1x4096x4096_S1x4096x4096_S2x4096x4096_d0 := by
  after_results <;> rfl

theorem pre_A0 (W : Valuation τ sig (Elt Ideal)) (r j : Fin 4096) :
    ((StableHlo.after (hostOps0_2 (F := Ideal)) W (Proc.devRef .tc main_v9) : FVec Ideal S2x4096x4096 .bf16)
        (ix3 (0 : Fin 2) r j) : EReal)
      = (W (Proc.devRef .tc main_arg2) : FVec Ideal S4096x4096 .f32) (ix2 r j) := by
  rw [v9_eq]
  exact (stack2_apply_zero _ _ concatenates_S1x4096x4096_S1x4096x4096_S2x4096x4096_d0 r j).trans
    (liftPlane_apply (by decide) (by decide) _ bcast_S4096x4096_S1x4096x4096_1_2 (0 : Fin 1) r j)

theorem pre_A1 (W : Valuation τ sig (Elt Ideal)) (r j : Fin 4096) :
    ((StableHlo.after (hostOps0_2 (F := Ideal)) W (Proc.devRef .tc main_v9) : FVec Ideal S2x4096x4096 .bf16)
        (ix3 (1 : Fin 2) r j) : EReal)
      = (W (Proc.devRef .tc main_arg3) : FVec Ideal S4096x4096 .f32) (ix2 r j) := by
  rw [v9_eq]
  exact (stack2_apply_one _ _ concatenates_S1x4096x4096_S1x4096x4096_S2x4096x4096_d0 r j).trans
    (liftPlane_apply (by decide) (by decide) _ bcast_S4096x4096_S1x4096x4096_1_2 (0 : Fin 1) r j)

theorem pre_W0 (W : Valuation τ sig (Elt F)) (k q : Fin 512) :
    (StableHlo.after (hostOps0_2 (F := F)) W (Proc.devRef .tc main_v11) : FVec F S512x512 .f32) (ix2 k q)
      = (W (Proc.devRef .tc main_arg6) : FVec F S6x512x512 .f32) (ix3 (0 : Fin 6) k q) := by
  have e : (StableHlo.after (hostOps0_2 (F := F)) W (Proc.devRef .tc main_v11) : FVec F S512x512 .f32)
      = shapeCast S512x512 (extractStridedSlice S1x512x512 ![0, 0, 0]
          (W (Proc.devRef .tc main_arg6) : FVec F S6x512x512 .f32) slices_S6x512x512_S1x512x512_0_0_0)
          shapeCasts_S1x512x512_S512x512 := by
    after_results; rfl
  rw [e]
  exact (shapeCast_1ab_ab_apply _ shapeCasts_S1x512x512_S512x512 k q).trans
    (planeCut_apply 0 _ slices_S6x512x512_S1x512x512_0_0_0 (0 : Fin 1) k q (0 : Fin 6) rfl)

theorem pre_b0 (W : Valuation τ sig (Elt F)) (q : Fin 512) :
    (StableHlo.after (hostOps0_2 (F := F)) W (Proc.devRef .tc main_v14) : FVec F S1x512 .f32) (ix2 (0 : Fin 1) q)
      = (W (Proc.devRef .tc main_arg7) : FVec F S6x512 .f32) (ix2 (0 : Fin 6) q) := by
  have e : (StableHlo.after (hostOps0_2 (F := F)) W (Proc.devRef .tc main_v14) : FVec F S1x512 .f32)
      = shapeCast S1x512 (shapeCast S512 (extractStridedSlice S1x512 ![0, 0]
          (W (Proc.devRef .tc main_arg7) : FVec F S6x512 .f32) slices_S6x512_S1x512_0_0) shapeCasts_S1x512_S512)
          shapeCasts_S512_S1x512 := by
    after_results; rfl
  rw [e]
  exact ((shapeCast_a_1a_apply _ shapeCasts_S512_S1x512 (0 : Fin 1) q).trans
    (shapeCast_1a_a_apply _ shapeCasts_S1x512_S512 q)).trans
    (slice2_axis0_apply 0 _ slices_S6x512_S1x512_0_0 (0 : Fin 1) q (0 : Fin 6) rfl)

theorem lay_W1 (W : Valuation τ sig (Elt F)) (k q : Fin 512) :
    (StableHlo.after (hostOps1 (F := F)) W (Proc.devRef .tc main_v17) : FVec F S512x512 .f32) (ix2 k q)
      = (W (Proc.devRef .tc main_arg6) : FVec F S6x512x512 .f32) (ix3 (1 : Fin 6) k q) := by
  have e : (StableHlo.after (hostOps1 (F := F)) W (Proc.devRef .tc main_v17) : FVec F S512x512 .f32)
      = shapeCast S512x512 (extractStridedSlice S1x512x512 ![1, 0, 0]
          (W (Proc.devRef .tc main_arg6) : FVec F S6x512x512 .f32) slices_S6x512x512_S1x512x512_1_0_0)
          shapeCasts_S1x512x512_S512x512 := by
    after_results; rfl
  rw [e]
  exact (shapeCast_1ab_ab_apply _ shapeCasts_S1x512x512_S512x512 k q).trans
    (planeCut_apply 1 _ slices_S6x512x512_S1x512x512_1_0_0 (0 : Fin 1) k q (1 : Fin 6) rfl)

theorem lay_b1 (W : Valuation τ sig (Elt F)) (q : Fin 512) :
    (StableHlo.after (hostOps1 (F := F)) W (Proc.devRef .tc main_v20) : FVec F S1x512 .f32) (ix2 (0 : Fin 1) q)
      = (W (Proc.devRef .tc main_arg7) : FVec F S6x512 .f32) (ix2 (1 : Fin 6) q) := by
  have e : (StableHlo.after (hostOps1 (F := F)) W (Proc.devRef .tc main_v20) : FVec F S1x512 .f32)
      = shapeCast S1x512 (shapeCast S512 (extractStridedSlice S1x512 ![1, 0]
          (W (Proc.devRef .tc main_arg7) : FVec F S6x512 .f32) slices_S6x512_S1x512_1_0) shapeCasts_S1x512_S512)
          shapeCasts_S512_S1x512 := by
    after_results; rfl
  rw [e]
  exact ((shapeCast_a_1a_apply _ shapeCasts_S512_S1x512 (0 : Fin 1) q).trans
    (shapeCast_1a_a_apply _ shapeCasts_S1x512_S512 q)).trans
    (slice2_axis0_apply 1 _ slices_S6x512_S1x512_1_0 (0 : Fin 1) q (1 : Fin 6) rfl)

theorem lay_W2 (W : Valuation τ sig (Elt F)) (k q : Fin 512) :
    (StableHlo.after (hostOps2 (F := F)) W (Proc.devRef .tc main_v23) : FVec F S512x512 .f32) (ix2 k q)
      = (W (Proc.devRef .tc main_arg6) : FVec F S6x512x512 .f32) (ix3 (2 : Fin 6) k q) := by
  have e : (StableHlo.after (hostOps2 (F := F)) W (Proc.devRef .tc main_v23) : FVec F S512x512 .f32)
      = shapeCast S512x512 (extractStridedSlice S1x512x512 ![2, 0, 0]
          (W (Proc.devRef .tc main_arg6) : FVec F S6x512x512 .f32) slices_S6x512x512_S1x512x512_2_0_0)
          shapeCasts_S1x512x512_S512x512 := by
    after_results; rfl
  rw [e]
  exact (shapeCast_1ab_ab_apply _ shapeCasts_S1x512x512_S512x512 k q).trans
    (planeCut_apply 2 _ slices_S6x512x512_S1x512x512_2_0_0 (0 : Fin 1) k q (2 : Fin 6) rfl)

theorem lay_b2 (W : Valuation τ sig (Elt F)) (q : Fin 512) :
    (StableHlo.after (hostOps2 (F := F)) W (Proc.devRef .tc main_v26) : FVec F S1x512 .f32) (ix2 (0 : Fin 1) q)
      = (W (Proc.devRef .tc main_arg7) : FVec F S6x512 .f32) (ix2 (2 : Fin 6) q) := by
  have e : (StableHlo.after (hostOps2 (F := F)) W (Proc.devRef .tc main_v26) : FVec F S1x512 .f32)
      = shapeCast S1x512 (shapeCast S512 (extractStridedSlice S1x512 ![2, 0]
          (W (Proc.devRef .tc main_arg7) : FVec F S6x512 .f32) slices_S6x512_S1x512_2_0) shapeCasts_S1x512_S512)
          shapeCasts_S512_S1x512 := by
    after_results; rfl
  rw [e]
  exact ((shapeCast_a_1a_apply _ shapeCasts_S512_S1x512 (0 : Fin 1) q).trans
    (shapeCast_1a_a_apply _ shapeCasts_S1x512_S512 q)).trans
    (slice2_axis0_apply 2 _ slices_S6x512_S1x512_2_0 (0 : Fin 1) q (2 : Fin 6) rfl)

theorem lay_W3 (W : Valuation τ sig (Elt F)) (k q : Fin 512) :
    (StableHlo.after (hostOps3 (F := F)) W (Proc.devRef .tc main_v29) : FVec F S512x512 .f32) (ix2 k q)
      = (W (Proc.devRef .tc main_arg6) : FVec F S6x512x512 .f32) (ix3 (3 : Fin 6) k q) := by
  have e : (StableHlo.after (hostOps3 (F := F)) W (Proc.devRef .tc main_v29) : FVec F S512x512 .f32)
      = shapeCast S512x512 (extractStridedSlice S1x512x512 ![3, 0, 0]
          (W (Proc.devRef .tc main_arg6) : FVec F S6x512x512 .f32) slices_S6x512x512_S1x512x512_3_0_0)
          shapeCasts_S1x512x512_S512x512 := by
    after_results; rfl
  rw [e]
  exact (shapeCast_1ab_ab_apply _ shapeCasts_S1x512x512_S512x512 k q).trans
    (planeCut_apply 3 _ slices_S6x512x512_S1x512x512_3_0_0 (0 : Fin 1) k q (3 : Fin 6) rfl)

theorem lay_b3 (W : Valuation τ sig (Elt F)) (q : Fin 512) :
    (StableHlo.after (hostOps3 (F := F)) W (Proc.devRef .tc main_v32) : FVec F S1x512 .f32) (ix2 (0 : Fin 1) q)
      = (W (Proc.devRef .tc main_arg7) : FVec F S6x512 .f32) (ix2 (3 : Fin 6) q) := by
  have e : (StableHlo.after (hostOps3 (F := F)) W (Proc.devRef .tc main_v32) : FVec F S1x512 .f32)
      = shapeCast S1x512 (shapeCast S512 (extractStridedSlice S1x512 ![3, 0]
          (W (Proc.devRef .tc main_arg7) : FVec F S6x512 .f32) slices_S6x512_S1x512_3_0) shapeCasts_S1x512_S512)
          shapeCasts_S512_S1x512 := by
    after_results; rfl
  rw [e]
  exact ((shapeCast_a_1a_apply _ shapeCasts_S512_S1x512 (0 : Fin 1) q).trans
    (shapeCast_1a_a_apply _ shapeCasts_S1x512_S512 q)).trans
    (slice2_axis0_apply 3 _ slices_S6x512_S1x512_3_0 (0 : Fin 1) q (3 : Fin 6) rfl)

theorem lay_W4 (W : Valuation τ sig (Elt F)) (k q : Fin 512) :
    (StableHlo.after (hostOps4 (F := F)) W (Proc.devRef .tc main_v35) : FVec F S512x512 .f32) (ix2 k q)
      = (W (Proc.devRef .tc main_arg6) : FVec F S6x512x512 .f32) (ix3 (4 : Fin 6) k q) := by
  have e : (StableHlo.after (hostOps4 (F := F)) W (Proc.devRef .tc main_v35) : FVec F S512x512 .f32)
      = shapeCast S512x512 (extractStridedSlice S1x512x512 ![4, 0, 0]
          (W (Proc.devRef .tc main_arg6) : FVec F S6x512x512 .f32) slices_S6x512x512_S1x512x512_4_0_0)
          shapeCasts_S1x512x512_S512x512 := by
    after_results; rfl
  rw [e]
  exact (shapeCast_1ab_ab_apply _ shapeCasts_S1x512x512_S512x512 k q).trans
    (planeCut_apply 4 _ slices_S6x512x512_S1x512x512_4_0_0 (0 : Fin 1) k q (4 : Fin 6) rfl)

theorem lay_b4 (W : Valuation τ sig (Elt F)) (q : Fin 512) :
    (StableHlo.after (hostOps4 (F := F)) W (Proc.devRef .tc main_v38) : FVec F S1x512 .f32) (ix2 (0 : Fin 1) q)
      = (W (Proc.devRef .tc main_arg7) : FVec F S6x512 .f32) (ix2 (4 : Fin 6) q) := by
  have e : (StableHlo.after (hostOps4 (F := F)) W (Proc.devRef .tc main_v38) : FVec F S1x512 .f32)
      = shapeCast S1x512 (shapeCast S512 (extractStridedSlice S1x512 ![4, 0]
          (W (Proc.devRef .tc main_arg7) : FVec F S6x512 .f32) slices_S6x512_S1x512_4_0) shapeCasts_S1x512_S512)
          shapeCasts_S512_S1x512 := by
    after_results; rfl
  rw [e]
  exact ((shapeCast_a_1a_apply _ shapeCasts_S512_S1x512 (0 : Fin 1) q).trans
    (shapeCast_1a_a_apply _ shapeCasts_S1x512_S512 q)).trans
    (slice2_axis0_apply 4 _ slices_S6x512_S1x512_4_0 (0 : Fin 1) q (4 : Fin 6) rfl)

theorem lay_W5 (W : Valuation τ sig (Elt F)) (k q : Fin 512) :
    (StableHlo.after (hostOps5 (F := F)) W (Proc.devRef .tc main_v41) : FVec F S512x512 .f32) (ix2 k q)
      = (W (Proc.devRef .tc main_arg6) : FVec F S6x512x512 .f32) (ix3 (5 : Fin 6) k q) := by
  have e : (StableHlo.after (hostOps5 (F := F)) W (Proc.devRef .tc main_v41) : FVec F S512x512 .f32)
      = shapeCast S512x512 (extractStridedSlice S1x512x512 ![5, 0, 0]
          (W (Proc.devRef .tc main_arg6) : FVec F S6x512x512 .f32) slices_S6x512x512_S1x512x512_5_0_0)
          shapeCasts_S1x512x512_S512x512 := by
    after_results; rfl
  rw [e]
  exact (shapeCast_1ab_ab_apply _ shapeCasts_S1x512x512_S512x512 k q).trans
    (planeCut_apply 5 _ slices_S6x512x512_S1x512x512_5_0_0 (0 : Fin 1) k q (5 : Fin 6) rfl)

theorem lay_b5 (W : Valuation τ sig (Elt F)) (q : Fin 512) :
    (StableHlo.after (hostOps5 (F := F)) W (Proc.devRef .tc main_v44) : FVec F S1x512 .f32) (ix2 (0 : Fin 1) q)
      = (W (Proc.devRef .tc main_arg7) : FVec F S6x512 .f32) (ix2 (5 : Fin 6) q) := by
  have e : (StableHlo.after (hostOps5 (F := F)) W (Proc.devRef .tc main_v44) : FVec F S1x512 .f32)
      = shapeCast S1x512 (shapeCast S512 (extractStridedSlice S1x512 ![5, 0]
          (W (Proc.devRef .tc main_arg7) : FVec F S6x512 .f32) slices_S6x512_S1x512_5_0) shapeCasts_S1x512_S512)
          shapeCasts_S512_S1x512 := by
    after_results; rfl
  rw [e]
  exact ((shapeCast_a_1a_apply _ shapeCasts_S512_S1x512 (0 : Fin 1) q).trans
    (shapeCast_1a_a_apply _ shapeCasts_S1x512_S512 q)).trans
    (slice2_axis0_apply 5 _ slices_S6x512_S1x512_5_0 (0 : Fin 1) q (5 : Fin 6) rfl)

end Cert.KernelIdeal.Gen

end
-- ==== Proof.RefLayer.lean ====
import proofs.«426140_j3899830305296_1_alg».proof.Proof.Gen.ReferenceIdeal
import proofs.«426140_j3899830305296_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

abbrev ArrF (F : FTy → Type) (s : Shape) : Type := (⟨s, .f32⟩ : BufTy).Contents (Elt F)

abbrev ArrIF (F : FTy → Type) (s : Shape) : Type := (⟨s, .i32⟩ : BufTy).Contents (Elt F)

abbrev Arr (s : Shape) : Type := ArrF Ideal s

section Ops
variable {F : FTy → Type} [FloatOps F]

def hidOps (x : ArrF F S4096x512) (W : ArrF F S512x512) (b : ArrF F S512) : ArrF F S4096x512 :=
  maximumf
    (addf
      (Host.dotGeneral dot_S4096x512_S512x512_S4096x512_1_0_0_1_n_n none x W)
      (broadcastInDim S4096x512 ![0, 1] bcast_S1x512_S4096x512_0_1
        (broadcastInDim S1x512 ![1] bcast_S512_S1x512_1 b)))
    (broadcastInDim S4096x512 ![] bcast_S_S4096x512 (constant S_ .f32 0x00000000#32 : ArrF F S_))

def msgOps (A : ArrF F S4096x4096) (h : ArrF F S4096x512) : ArrF F S4096x512 :=
  addf h (Host.dotGeneral dot_S4096x4096_S4096x512_S4096x512_1_0_0_1_n_n none A h)

def nrmOps (u : ArrF F S4096x512) : ArrF F S4096x512 :=
  Host.divf u
    (broadcastInDim S4096x512 ![0, 1] bcast_S4096x1_S4096x512_0_1
      (maximumf
        (Host.sqrt
          (broadcastInDim S4096x1 ![0] bcast_S4096_S4096x1_0
            (Host.reduceAdd (mulf u u) (constant S_ .f32 0x00000000#32 : ArrF F S_) reducesTo_S4096x512_S4096_d1 h_S_)))
        (broadcastInDim S4096x1 ![] bcast_S_S4096x1 (constant S_ .f32 0x2B8CBCCC#32 : ArrF F S_))))

def layerOps (x : ArrF F S4096x512) (A : ArrF F S4096x4096) (W : ArrF F S512x512) (b : ArrF F S512) : ArrF F S4096x512 :=
  nrmOps (msgOps A (hidOps x W b))

def gatherR (emb : ArrF F S10000x512) (fp : ArrIF F S4096) : ArrF F S4096x512 :=
  Host.gather gather_S10000x512_S4096x1_S4096x512_1_0_n_n_0_1_1512 emb
    (broadcastInDim S4096x1 ![0] bcast_S4096_S4096x1_0
      (select
        (cmpi .slt fp (broadcastInDim S4096 ![] bcast_S_S4096 (constantI S_ 32 0#32 : ArrIF F S_)))
        (addi fp (broadcastInDim S4096 ![] bcast_S_S4096 (constantI S_ 32 10000#32 : ArrIF F S_)))
        fp))

def segR (u : ArrF F S4096x512) (seg : ArrIF F S4096) : ArrF F S128x512 :=
  Host.scatterAdd scatter_S128x512_S4096x1_S4096x512_1_0_0_1
    (broadcastInDim S128x512 ![] bcast_S_S128x512 (constant S_ .f32 0x00000000#32 : ArrF F S_))
    (broadcastInDim S4096x1 ![0] bcast_S4096_S4096x1_0 seg) u

def denseR (v : ArrF F S128x512) (W : ArrF F S512x512) (b : ArrF F S512) : ArrF F S128x512 :=
  maximumf
    (addf
      (Host.dotGeneral dot_S128x512_S512x512_S128x512_1_0_0_1_n_n none v W)
      (broadcastInDim S128x512 ![0, 1] bcast_S1x512_S128x512_0_1 (broadcastInDim S1x512 ![1] bcast_S512_S1x512_1 b)))
    (broadcastInDim S128x512 ![] bcast_S_S128x512 (constant S_ .f32 0x00000000#32 : ArrF F S_))

def tailR (p1 p2 : ArrF F S128x512) (Wmlp : ArrF F S1024x512) (bmlp : ArrF F S512) (Wout : ArrF F S3x512x512)
    (bout : ArrF F S3x512) (Wprop : ArrF F S512x1) (bprop : ArrF F S1) : ArrF F S128x1 :=
  addf
    (Host.dotGeneral dot_S128x512_S512x1_S128x1_1_0_0_1_n_n none
      (denseR (denseR (denseR
        (maximumf
          (addf
            (Host.dotGeneral dot_S128x1024_S1024x512_S128x512_1_0_0_1_n_n none
              (concatenate S128x1024 1 [⟨S128x512, p1⟩, ⟨S128x512, p2⟩] concatenates_S128x512_S128x512_S128x1024_d1 : ArrF F S128x1024)
              Wmlp)
            (broadcastInDim S128x512 ![0, 1] bcast_S1x512_S128x512_0_1 (broadcastInDim S1x512 ![1] bcast_S512_S1x512_1 bmlp)))
          (broadcastInDim S128x512 ![] bcast_S_S128x512 (constant S_ .f32 0x00000000#32 : ArrF F S_)))
        (shapeCast _ (extractStridedSlice S1x512x512 ![0, 0, 0] Wout slices_S3x512x512_S1x512x512_0_0_0 : ArrF F S1x512x512) shapeCasts_S1x512x512_S512x512)
        (shapeCast _ (extractStridedSlice S1x512 ![0, 0] bout slices_S3x512_S1x512_0_0 : ArrF F S1x512) shapeCasts_S1x512_S512))
        (shapeCast _ (extractStridedSlice S1x512x512 ![1, 0, 0] Wout slices_S3x512x512_S1x512x512_1_0_0 : ArrF F S1x512x512) shapeCasts_S1x512x512_S512x512)
        (shapeCast _ (extractStridedSlice S1x512 ![1, 0] bout slices_S3x512_S1x512_1_0 : ArrF F S1x512) shapeCasts_S1x512_S512))
        (shapeCast _ (extractStridedSlice S1x512x512 ![2, 0, 0] Wout slices_S3x512x512_S1x512x512_2_0_0 : ArrF F S1x512x512) shapeCasts_S1x512x512_S512x512)
        (shapeCast _ (extractStridedSlice S1x512 ![2, 0] bout slices_S3x512_S1x512_2_0 : ArrF F S1x512) shapeCasts_S1x512_S512))
      Wprop)
    (broadcastInDim S128x1 ![0, 1] bcast_S1x1_S128x1_0_1 (broadcastInDim S1x1 ![1] bcast_S1_S1x1_1 bprop))

end Ops

theorem lhsXW_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhsXW_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhsXW_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhsXW_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

theorem dotXW_apply (x : Arr S4096x512) (W : Arr S512x512) (r : Fin 4096) (c : Fin 512) :
    Host.dotGeneral (F := Ideal) (φ₁ := .f32) (φ₂ := .f32) dot_S4096x512_S512x512_S4096x512_1_0_0_1_n_n none x W (ix2 r c)
      = ∑ k : Fin 512, x (ix2 r k) * W (ix2 k c) := by
  simp only [Host.dotGeneral]
  rw [Ideal.dotGeneral_apply, ← Equiv.sum_comp (ValueIdx.contrEquiv1 dot_S4096x512_S512x512_S4096x512_1_0_0_1_n_n 512 rfl rfl).symm]
  refine Finset.sum_congr rfl fun k _ => ?_
  have hk := ValueIdx.contrEquiv1_symm_val dot_S4096x512_S512x512_S4096x512_1_0_0_1_n_n 512 rfl rfl k
  have el : dot_S4096x512_S512x512_S4096x512_1_0_0_1_n_n.lhsIdx (ix2 r c) ((ValueIdx.contrEquiv1 dot_S4096x512_S512x512_S4096x512_1_0_0_1_n_n 512 rfl rfl).symm k) = ix2 r k := funext fun a => Fin.ext (by
    match a with
    | ⟨0, _⟩ => exact lhsXW_0 _ _
    | ⟨1, _⟩ => exact (lhsXW_1 _ _).trans hk)
  have er : dot_S4096x512_S512x512_S4096x512_1_0_0_1_n_n.rhsIdx (ix2 r c) ((ValueIdx.contrEquiv1 dot_S4096x512_S512x512_S4096x512_1_0_0_1_n_n 512 rfl rfl).symm k) = ix2 k c := funext fun a => Fin.ext (by
    match a with
    | ⟨0, _⟩ => exact (rhsXW_0 _ _).trans hk
    | ⟨1, _⟩ => exact rhsXW_1 _ _)
  rw [el, er]

theorem lhsAH_0 (i : S4096x512.Idx) (q : dot_S4096x4096_S4096x512_S4096x512_1_0_0_1_n_n.contr.Idx) :
    (dot_S4096x4096_S4096x512_S4096x512_1_0_0_1_n_n.lhsIdx i q 0).val = (i 0).val := by
  unfold DotDims.lhsIdx
  rw [dif_neg (show ¬(0 : Fin S4096x4096.rank) ∈ dot_S4096x4096_S4096x512_S4096x512_1_0_0_1_n_n.lhsBatch by decide), dif_pos (show (0 : Fin S4096x4096.rank) ∈ dot_S4096x4096_S4096x512_S4096x512_1_0_0_1_n_n.lhsNonContracting by decide)]
  rfl
theorem lhsAH_1 (i : S4096x512.Idx) (q : dot_S4096x4096_S4096x512_S4096x512_1_0_0_1_n_n.contr.Idx) :
    (dot_S4096x4096_S4096x512_S4096x512_1_0_0_1_n_n.lhsIdx i q 1).val = (q ⟨0, by decide⟩).val :=
  dot_S4096x4096_S4096x512_S4096x512_1_0_0_1_n_n.lhsIdx_val_of_single rfl i q
theorem rhsAH_0 (i : S4096x512.Idx) (q : dot_S4096x4096_S4096x512_S4096x512_1_0_0_1_n_n.contr.Idx) :
    (dot_S4096x4096_S4096x512_S4096x512_1_0_0_1_n_n.rhsIdx i q 0).val = (q ⟨0, by decide⟩).val :=
  dot_S4096x4096_S4096x512_S4096x512_1_0_0_1_n_n.rhsIdx_val_of_single rfl i q
theorem rhsAH_1 (i : S4096x512.Idx) (q : dot_S4096x4096_S4096x512_S4096x512_1_0_0_1_n_n.contr.Idx) :
    (dot_S4096x4096_S4096x512_S4096x512_1_0_0_1_n_n.rhsIdx i q 1).val = (i 1).val := by
  unfold DotDims.rhsIdx
  rw [dif_neg (show ¬(1 : Fin S4096x512.rank) ∈ dot_S4096x4096_S4096x512_S4096x512_1_0_0_1_n_n.rhsBatch by decide), dif_pos (show (1 : Fin S4096x512.rank) ∈ dot_S4096x4096_S4096x512_S4096x512_1_0_0_1_n_n.rhsNonContracting by decide)]
  rfl

theorem dotAH_apply (A : Arr S4096x4096) (h : Arr S4096x512) (r : Fin 4096) (c : Fin 512) :
    Host.dotGeneral (F := Ideal) (φ₁ := .f32) (φ₂ := .f32) dot_S4096x4096_S4096x512_S4096x512_1_0_0_1_n_n none A h (ix2 r c)
      = ∑ j : Fin 4096, A (ix2 r j) * h (ix2 j c) := by
  simp only [Host.dotGeneral]
  rw [Ideal.dotGeneral_apply, ← Equiv.sum_comp (ValueIdx.contrEquiv1 dot_S4096x4096_S4096x512_S4096x512_1_0_0_1_n_n 4096 rfl rfl).symm]
  refine Finset.sum_congr rfl fun k _ => ?_
  have hk := ValueIdx.contrEquiv1_symm_val dot_S4096x4096_S4096x512_S4096x512_1_0_0_1_n_n 4096 rfl rfl k
  have el : dot_S4096x4096_S4096x512_S4096x512_1_0_0_1_n_n.lhsIdx (ix2 r c) ((ValueIdx.contrEquiv1 dot_S4096x4096_S4096x512_S4096x512_1_0_0_1_n_n 4096 rfl rfl).symm k) = ix2 r k := funext fun a => Fin.ext (by
    match a with
    | ⟨0, _⟩ => exact lhsAH_0 _ _
    | ⟨1, _⟩ => exact (lhsAH_1 _ _).trans hk)
  have er : dot_S4096x4096_S4096x512_S4096x512_1_0_0_1_n_n.rhsIdx (ix2 r c) ((ValueIdx.contrEquiv1 dot_S4096x4096_S4096x512_S4096x512_1_0_0_1_n_n 4096 rfl rfl).symm k) = ix2 k c := funext fun a => Fin.ext (by
    match a with
    | ⟨0, _⟩ => exact (rhsAH_0 _ _).trans hk
    | ⟨1, _⟩ => exact rhsAH_1 _ _)
  rw [el, er]

theorem biasRows_apply (b : Arr S512) (r : Fin 4096) (c : Fin 512) :
    broadcastInDim S4096x512 ![0, 1] bcast_S1x512_S4096x512_0_1 (broadcastInDim S1x512 ![1] bcast_S512_S1x512_1 b) (ix2 r c)
      = b (ix1 c) := by
  rw [broadcastInDim_apply ![0, 1] bcast_S1x512_S4096x512_0_1 _ (ix2 r c) (ix2 (0 : Fin 1) c) (fun a => match a with
    | ⟨0, _⟩ => by show 0 = if (1 : Nat) = 1 then 0 else r.val; rw [if_pos rfl]
    | ⟨1, _⟩ => by show c.val = if (512 : Nat) = 1 then 0 else c.val; rw [if_neg (by decide)])]
  exact broadcastInDim_apply ![1] bcast_S512_S1x512_1 b (ix2 (0 : Fin 1) c) (ix1 c) (fun a => match a with
    | ⟨0, _⟩ => by show c.val = if (512 : Nat) = 1 then 0 else c.val; rw [if_neg (by decide)])

theorem zeroSplat_apply (i : S4096x512.Idx) :
    broadcastInDim S4096x512 ![] bcast_S_S4096x512 (constant (F := Ideal) S_ .f32 0x00000000#32) i = (0 : EReal) := by
  rw [broadcastInDim_scalar_apply, constant_apply, Ideal.ofBits_zero_f32]

theorem rowSum_apply (v : Arr S4096x512) (r : Fin 4096) :
    Host.reduceAdd (F := Ideal) v (constant (F := Ideal) S_ .f32 0x00000000#32) reducesTo_S4096x512_S4096_d1 h_S_ (ix1 r)
      = ∑ k : Fin 512, v (ix2 r k) := by
  rw [hostReduceAdd_apply, Ideal.hostReduceAdd_single reducesTo_S4096x512_S4096_d1 (by decide), constant_apply,
    Ideal.ofBits_zero_f32, zero_add]
  refine Finset.sum_congr rfl fun k _ => ?_
  exact congrArg v (funext fun a => Fin.ext (by match a with | ⟨0, _⟩ => rfl | ⟨1, _⟩ => rfl))

theorem column_apply (s : Arr S4096) (r : Fin 4096) (z : Fin 1) :
    broadcastInDim S4096x1 ![0] bcast_S4096_S4096x1_0 s (ix2 r z) = s (ix1 r) :=
  broadcastInDim_apply ![0] bcast_S4096_S4096x1_0 s (ix2 r z) (ix1 r) (fun a => match a with
    | ⟨0, _⟩ => by show r.val = if (4096 : Nat) = 1 then 0 else r.val; rw [if_neg (by decide)])

theorem columnCols_apply (s : Arr S4096x1) (r : Fin 4096) (c : Fin 512) :
    broadcastInDim S4096x512 ![0, 1] bcast_S4096x1_S4096x512_0_1 s (ix2 r c) = s (ix2 r (0 : Fin 1)) :=
  broadcastInDim_apply ![0, 1] bcast_S4096x1_S4096x512_0_1 s (ix2 r c) (ix2 r (0 : Fin 1)) (fun a => match a with
    | ⟨0, _⟩ => by show r.val = if (4096 : Nat) = 1 then 0 else r.val; rw [if_neg (by decide)]
    | ⟨1, _⟩ => by show 0 = if (1 : Nat) = 1 then 0 else c.val; rw [if_pos rfl])

theorem hostSqrt_apply {s : Shape} (v : FVec Ideal s .f32) (i : s.Idx) : Host.sqrt (F := Ideal) v i = Ideal.sqrt (v i) := rfl

theorem epsSplat_apply (i : S4096x1.Idx) :
    broadcastInDim S4096x1 ![] bcast_S_S4096x1 (constant (F := Ideal) S_ .f32 0x2B8CBCCC#32) i = Cert.Spec.eps := by
  rw [broadcastInDim_scalar_apply, constant_apply]

theorem hidOps_apply (x : Arr S4096x512) (W : Arr S512x512) (b : Arr S512) (r : Fin 4096) (c : Fin 512) :
    hidOps x W b (ix2 r c)
      = Cert.Spec.hid (fun r k => x (ix2 r k)) (fun k c => W (ix2 k c)) (fun c => b (ix1 c)) r c := by
  unfold hidOps Cert.Spec.hid
  rw [maximumf_apply, addf_apply, dotXW_apply, biasRows_apply, zeroSplat_apply]

theorem msgOps_apply (A : Arr S4096x4096) (h : Arr S4096x512) (r : Fin 4096) (c : Fin 512) :
    msgOps A h (ix2 r c) = Cert.Spec.msg (fun r j => A (ix2 r j)) (fun r c => h (ix2 r c)) r c := by
  unfold msgOps Cert.Spec.msg
  rw [addf_apply, dotAH_apply]

theorem nrmOps_apply (u : Arr S4096x512) (r : Fin 4096) (c : Fin 512) :
    nrmOps u (ix2 r c) = Cert.Spec.nrm (fun r c => u (ix2 r c)) r c := by
  unfold nrmOps Cert.Spec.nrm
  rw [hostDivf_apply, columnCols_apply, maximumf_apply, epsSplat_apply, hostSqrt_apply, column_apply, rowSum_apply]
  rfl

theorem layerOps_apply (x : Arr S4096x512) (A : Arr S4096x4096) (W : Arr S512x512) (b : Arr S512) (r : Fin 4096) (c : Fin 512) :
    layerOps x A W b (ix2 r c)
      = Cert.Spec.layer (fun r k => x (ix2 r k)) (fun r j => A (ix2 r j)) (fun k c => W (ix2 k c)) (fun c => b (ix1 c)) r c := by
  have eh : (fun r c => hidOps x W b (ix2 r c))
      = Cert.Spec.hid (fun r k => x (ix2 r k)) (fun k c => W (ix2 k c)) (fun c => b (ix1 c)) :=
    funext fun r => funext fun c => hidOps_apply x W b r c
  have em : (fun r c => msgOps A (hidOps x W b) (ix2 r c))
      = Cert.Spec.msg (fun r j => A (ix2 r j)) (Cert.Spec.hid (fun r k => x (ix2 r k)) (fun k c => W (ix2 k c)) (fun c => b (ix1 c))) :=
    funext fun r => funext fun c => by rw [msgOps_apply, eh]
  unfold layerOps Cert.Spec.layer
  rw [nrmOps_apply, em]

end Cert.ReferenceIdeal.RefValue

end
-- ==== Proof.KI.HostTail.lean ====
import proofs.«426140_j3899830305296_1_alg».proof.Proof.Gen.KernelIdeal.Launch
import proofs.«426140_j3899830305296_1_alg».proof.Proof.Gen.KernelIdeal.Regions
import proofs.«426140_j3899830305296_1_alg».proof.Proof.RefLayer
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.SL.Sem Idealize.ShloMosaic.StableHlo
open Idealize.ShloMosaic.ValueIdx
open Cert.ReferenceIdeal.RefValue (segR denseR tailR)

variable {F : FTy → Type} [FloatOps F]

def sliceS : Fin 2 → (⟨S2x4096x512, .f32⟩ : BufTy).Contents (Elt F) → (⟨S4096x512, .f32⟩ : BufTy).Contents (Elt F)
  | 0, x => shapeCast S4096x512 (extractStridedSlice S1x4096x512 ![0, 0, 0] x slices_S2x4096x512_S1x4096x512_0_0_0) shapeCasts_S1x4096x512_S4096x512
  | 1, x => shapeCast S4096x512 (extractStridedSlice S1x4096x512 ![1, 0, 0] x slices_S2x4096x512_S1x4096x512_1_0_0) shapeCasts_S1x4096x512_S4096x512

theorem sliceS_apply (b : Fin 2) (x : (⟨S2x4096x512, .f32⟩ : BufTy).Contents (Elt F)) (r : Fin 4096) (q : Fin 512) :
    sliceS b x (ix2 r q) = x (ix3 b r q) := by
  match b with
  | 0 =>
    exact (shapeCast_1ab_ab_apply _ shapeCasts_S1x4096x512_S4096x512 r q).trans
      (extractStridedSlice_apply _ x slices_S2x4096x512_S1x4096x512_0_0_0 _ (ix3 (0 : Fin 2) r q) (fun ax => by
        match ax with
        | ⟨0, _⟩ => rfl
        | ⟨1, _⟩ => exact (Nat.zero_add _).symm
        | ⟨2, _⟩ => exact (Nat.zero_add _).symm))
  | 1 =>
    exact (shapeCast_1ab_ab_apply _ shapeCasts_S1x4096x512_S4096x512 r q).trans
      (extractStridedSlice_apply _ x slices_S2x4096x512_S1x4096x512_1_0_0 _ (ix3 (1 : Fin 2) r q) (fun ax => by
        match ax with
        | ⟨0, _⟩ => rfl
        | ⟨1, _⟩ => exact (Nat.zero_add _).symm
        | ⟨2, _⟩ => exact (Nat.zero_add _).symm))

section Stretches
variable (V : Valuation τ sig (Elt F))

abbrev zeros128 : (⟨S128x512, .f32⟩ : BufTy).Contents (Elt F) :=
  broadcastInDim S128x512 ![] bcast_S_S128x512 (constant S_ .f32 0x00000000#32 : (⟨S_, .f32⟩ : BufTy).Contents (Elt F))

theorem stretch0 :
    after hostOps6 V (Proc.devRef .tc main_v60)
      = addf
          (Host.dotGeneral dot_S128x1024_S1024x512_S128x512_1_0_0_1_n_n none
            (concatenate S128x1024 1
              [⟨S128x512, segR (sliceS 0 (V (Proc.devRef .tc main_v45))) (V (Proc.devRef .tc main_arg4))⟩,
               ⟨S128x512, segR (sliceS 1 (V (Proc.devRef .tc main_v45))) (V (Proc.devRef .tc main_arg4))⟩]
              concatenates_S128x512_S128x512_S128x1024_d1 : (⟨S128x1024, .f32⟩ : BufTy).Contents (Elt F))
            (V (Proc.devRef .tc main_arg8)))
          (broadcastInDim S128x512 ![0, 1] bcast_S1x512_S128x512_0_1
            (broadcastInDim S1x512 ![1] bcast_S512_S1x512_1 (V (Proc.devRef .tc main_arg9)))) := by
  after_results_simp
  rfl

theorem stretch1 :
    after hostOps6_1 V (Proc.devRef .tc main_v61) = maximumf (V (Proc.devRef .tc main_v60)) zeros128 := by
  after_results_simp
  rfl

theorem stretch2 :
    after hostOps6_2 V (Proc.devRef .tc main_v69)
      = addf
          (Host.dotGeneral dot_S128x512_S512x512_S128x512_1_0_0_1_n_n none (V (Proc.devRef .tc main_v61))
            (shapeCast S512x512
              (extractStridedSlice S1x512x512 ![0, 0, 0] (V (Proc.devRef .tc main_arg10)) slices_S3x512x512_S1x512x512_0_0_0 : (⟨S1x512x512, .f32⟩ : BufTy).Contents (Elt F))
              shapeCasts_S1x512x512_S512x512))
          (broadcastInDim S128x512 ![0, 1] bcast_S1x512_S128x512_0_1
            (broadcastInDim S1x512 ![1] bcast_S512_S1x512_1
              (shapeCast S512
                (extractStridedSlice S1x512 ![0, 0] (V (Proc.devRef .tc main_arg11)) slices_S3x512_S1x512_0_0 : (⟨S1x512, .f32⟩ : BufTy).Contents (Elt F))
                shapeCasts_S1x512_S512))) := by
  after_results_simp
  rfl

theorem stretch3 :
    after hostOps6_3 V (Proc.devRef .tc main_v70) = maximumf (V (Proc.devRef .tc main_v69)) zeros128 := by
  after_results_simp
  rfl

theorem stretch4 :
    after hostOps6_4 V (Proc.devRef .tc main_v78)
      = addf
          (Host.dotGeneral dot_S128x512_S512x512_S128x512_1_0_0_1_n_n none (V (Proc.devRef .tc main_v70))
            (shapeCast S512x512
              (extractStridedSlice S1x512x512 ![1, 0, 0] (V (Proc.devRef .tc main_arg10)) slices_S3x512x512_S1x512x512_1_0_0 : (⟨S1x512x512, .f32⟩ : BufTy).Contents (Elt F))
              shapeCasts_S1x512x512_S512x512))
          (broadcastInDim S128x512 ![0, 1] bcast_S1x512_S128x512_0_1
            (broadcastInDim S1x512 ![1] bcast_S512_S1x512_1
              (shapeCast S512
                (extractStridedSlice S1x512 ![1, 0] (V (Proc.devRef .tc main_arg11)) slices_S3x512_S1x512_1_0 : (⟨S1x512, .f32⟩ : BufTy).Contents (Elt F))
                shapeCasts_S1x512_S512))) := by
  after_results_simp
  rfl

theorem stretch5 :
    after hostOps6_5 V (Proc.devRef .tc main_v79) = maximumf (V (Proc.devRef .tc main_v78)) zeros128 := by
  after_results_simp
  rfl

theorem stretch6 :
    after hostOps6_6 V (Proc.devRef .tc main_v87)
      = addf
          (Host.dotGeneral dot_S128x512_S512x512_S128x512_1_0_0_1_n_n none (V (Proc.devRef .tc main_v79))
            (shapeCast S512x512
              (extractStridedSlice S1x512x512 ![2, 0, 0] (V (Proc.devRef .tc main_arg10)) slices_S3x512x512_S1x512x512_2_0_0 : (⟨S1x512x512, .f32⟩ : BufTy).Contents (Elt F))
              shapeCasts_S1x512x512_S512x512))
          (broadcastInDim S128x512 ![0, 1] bcast_S1x512_S128x512_0_1
            (broadcastInDim S1x512 ![1] bcast_S512_S1x512_1
              (shapeCast S512
                (extractStridedSlice S1x512 ![2, 0] (V (Proc.devRef .tc main_arg11)) slices_S3x512_S1x512_2_0 : (⟨S1x512, .f32⟩ : BufTy).Contents (Elt F))
                shapeCasts_S1x512_S512))) := by
  after_results_simp
  rfl

theorem stretch7 :
    after hostOps6_7 V (Proc.devRef .tc main_v88) = maximumf (V (Proc.devRef .tc main_v87)) zeros128 := by
  after_results_simp
  rfl

theorem stretch8 :
    after hostOps6_8 V (Proc.devRef .tc main_v92)
      = addf
          (Host.dotGeneral dot_S128x512_S512x1_S128x1_1_0_0_1_n_n none (V (Proc.devRef .tc main_v88)) (V (Proc.devRef .tc main_arg12)))
          (broadcastInDim S128x1 ![0, 1] bcast_S1x1_S128x1_0_1
            (broadcastInDim S1x1 ![1] bcast_S1_S1x1_1 (V (Proc.devRef .tc main_arg13)))) := by
  after_results_simp

theorem tailKeep0 {r : Ref sig .tc} (hr : r ∉ hostOps6_W) : after hostOps6 V (Proc.devRef .tc r) = V (Proc.devRef .tc r) :=
  after_of_writes_sub hostOps6 V hostOps6_writes hr

theorem tailKeep1 {r : Ref sig .tc} (hr : r ∉ hostOps6_1_W) : after hostOps6_1 V (Proc.devRef .tc r) = V (Proc.devRef .tc r) :=
  after_of_writes_sub hostOps6_1 V hostOps6_1_writes hr

theorem tailKeep2 {r : Ref sig .tc} (hr : r ∉ hostOps6_2_W) : after hostOps6_2 V (Proc.devRef .tc r) = V (Proc.devRef .tc r) :=
  after_of_writes_sub hostOps6_2 V hostOps6_2_writes hr

theorem tailKeep3 {r : Ref sig .tc} (hr : r ∉ hostOps6_3_W) : after hostOps6_3 V (Proc.devRef .tc r) = V (Proc.devRef .tc r) :=
  after_of_writes_sub hostOps6_3 V hostOps6_3_writes hr

theorem tailKeep4 {r : Ref sig .tc} (hr : r ∉ hostOps6_4_W) : after hostOps6_4 V (Proc.devRef .tc r) = V (Proc.devRef .tc r) :=
  after_of_writes_sub hostOps6_4 V hostOps6_4_writes hr

theorem tailKeep5 {r : Ref sig .tc} (hr : r ∉ hostOps6_5_W) : after hostOps6_5 V (Proc.devRef .tc r) = V (Proc.devRef .tc r) :=
  after_of_writes_sub hostOps6_5 V hostOps6_5_writes hr

theorem tailKeep6 {r : Ref sig .tc} (hr : r ∉ hostOps6_6_W) : after hostOps6_6 V (Proc.devRef .tc r) = V (Proc.devRef .tc r) :=
  after_of_writes_sub hostOps6_6 V hostOps6_6_writes hr

theorem tailKeep7 {r : Ref sig .tc} (hr : r ∉ hostOps6_7_W) : after hostOps6_7 V (Proc.devRef .tc r) = V (Proc.devRef .tc r) :=
  after_of_writes_sub hostOps6_7 V hostOps6_7_writes hr

end Stretches

theorem tail_result (W : Valuation τ sig (Elt F)) :
    after hostOps6_8 (after hostOps6_7 (after hostOps6_6 (after hostOps6_5 (after hostOps6_4 (after hostOps6_3
      (after hostOps6_2 (after hostOps6_1 (after hostOps6 W)))))))) (Proc.devRef .tc main_v92)
      = tailR
          (segR (sliceS 0 (W (Proc.devRef .tc main_v45))) (W (Proc.devRef .tc main_arg4)))
          (segR (sliceS 1 (W (Proc.devRef .tc main_v45))) (W (Proc.devRef .tc main_arg4)))
          (W (Proc.devRef .tc main_arg8)) (W (Proc.devRef .tc main_arg9)) (W (Proc.devRef .tc main_arg10)) (W (Proc.devRef .tc main_arg11))
          (W (Proc.devRef .tc main_arg12)) (W (Proc.devRef .tc main_arg13)) := by
  rw [stretch8]
  rw [stretch7, tailKeep7 _ (r := main_arg12) (by decide), tailKeep7 _ (r := main_arg13) (by decide)]
  rw [stretch6, tailKeep6 _ (r := main_arg12) (by decide), tailKeep6 _ (r := main_arg13) (by decide)]
  rw [stretch5, tailKeep5 _ (r := main_arg10) (by decide), tailKeep5 _ (r := main_arg11) (by decide), tailKeep5 _ (r := main_arg12) (by decide), tailKeep5 _ (r := main_arg13) (by decide)]
  rw [stretch4, tailKeep4 _ (r := main_arg10) (by decide), tailKeep4 _ (r := main_arg11) (by decide), tailKeep4 _ (r := main_arg12) (by decide), tailKeep4 _ (r := main_arg13) (by decide)]
  rw [stretch3, tailKeep3 _ (r := main_arg10) (by decide), tailKeep3 _ (r := main_arg11) (by decide), tailKeep3 _ (r := main_arg12) (by decide), tailKeep3 _ (r := main_arg13) (by decide)]
  rw [stretch2, tailKeep2 _ (r := main_arg10) (by decide), tailKeep2 _ (r := main_arg11) (by decide), tailKeep2 _ (r := main_arg12) (by decide), tailKeep2 _ (r := main_arg13) (by decide)]
  rw [stretch1, tailKeep1 _ (r := main_arg10) (by decide), tailKeep1 _ (r := main_arg11) (by decide), tailKeep1 _ (r := main_arg12) (by decide), tailKeep1 _ (r := main_arg13) (by decide)]
  rw [stretch0, tailKeep0 _ (r := main_arg10) (by decide), tailKeep0 _ (r := main_arg11) (by decide), tailKeep0 _ (r := main_arg12) (by decide), tailKeep0 _ (r := main_arg13) (by decide)]
  rfl

end Cert.KernelIdeal.Gen

end
-- ==== Proof.RefCuts.lean ====
import proofs.«426140_j3899830305296_1_alg».proof.Proof.RefLayer
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

variable {F : FTy → Type} [FloatOps F]

theorem cutW0_apply (Wf : ArrF F S6x512x512) (k c : Fin 512) :
    shapeCast S512x512 (extractStridedSlice S1x512x512 ![0, 0, 0] Wf slices_S6x512x512_S1x512x512_0_0_0 : ArrF F S1x512x512)
      shapeCasts_S1x512x512_S512x512 (ix2 k c) = Wf (ix3 (0 : Fin 6) k c) :=
  (shapeCast_1ab_ab_apply _ shapeCasts_S1x512x512_S512x512 k c).trans
    (slice3_axis0_apply 0 Wf slices_S6x512x512_S1x512x512_0_0_0 (0 : Fin 1) k c (0 : Fin 6) rfl)

theorem cutb0_apply (bf : ArrF F S6x512) (c : Fin 512) :
    shapeCast S512 (extractStridedSlice S1x512 ![0, 0] bf slices_S6x512_S1x512_0_0 : ArrF F S1x512)
      shapeCasts_S1x512_S512 (ix1 c) = bf (ix2 (0 : Fin 6) c) :=
  (shapeCast_1a_a_apply _ shapeCasts_S1x512_S512 c).trans
    (slice2_axis0_apply 0 bf slices_S6x512_S1x512_0_0 (0 : Fin 1) c (0 : Fin 6) rfl)

theorem cutW1_apply (Wf : ArrF F S6x512x512) (k c : Fin 512) :
    shapeCast S512x512 (extractStridedSlice S1x512x512 ![1, 0, 0] Wf slices_S6x512x512_S1x512x512_1_0_0 : ArrF F S1x512x512)
      shapeCasts_S1x512x512_S512x512 (ix2 k c) = Wf (ix3 (1 : Fin 6) k c) :=
  (shapeCast_1ab_ab_apply _ shapeCasts_S1x512x512_S512x512 k c).trans
    (slice3_axis0_apply 1 Wf slices_S6x512x512_S1x512x512_1_0_0 (0 : Fin 1) k c (1 : Fin 6) rfl)

theorem cutb1_apply (bf : ArrF F S6x512) (c : Fin 512) :
    shapeCast S512 (extractStridedSlice S1x512 ![1, 0] bf slices_S6x512_S1x512_1_0 : ArrF F S1x512)
      shapeCasts_S1x512_S512 (ix1 c) = bf (ix2 (1 : Fin 6) c) :=
  (shapeCast_1a_a_apply _ shapeCasts_S1x512_S512 c).trans
    (slice2_axis0_apply 1 bf slices_S6x512_S1x512_1_0 (0 : Fin 1) c (1 : Fin 6) rfl)

theorem cutW2_apply (Wf : ArrF F S6x512x512) (k c : Fin 512) :
    shapeCast S512x512 (extractStridedSlice S1x512x512 ![2, 0, 0] Wf slices_S6x512x512_S1x512x512_2_0_0 : ArrF F S1x512x512)
      shapeCasts_S1x512x512_S512x512 (ix2 k c) = Wf (ix3 (2 : Fin 6) k c) :=
  (shapeCast_1ab_ab_apply _ shapeCasts_S1x512x512_S512x512 k c).trans
    (slice3_axis0_apply 2 Wf slices_S6x512x512_S1x512x512_2_0_0 (0 : Fin 1) k c (2 : Fin 6) rfl)

theorem cutb2_apply (bf : ArrF F S6x512) (c : Fin 512) :
    shapeCast S512 (extractStridedSlice S1x512 ![2, 0] bf slices_S6x512_S1x512_2_0 : ArrF F S1x512)
      shapeCasts_S1x512_S512 (ix1 c) = bf (ix2 (2 : Fin 6) c) :=
  (shapeCast_1a_a_apply _ shapeCasts_S1x512_S512 c).trans
    (slice2_axis0_apply 2 bf slices_S6x512_S1x512_2_0 (0 : Fin 1) c (2 : Fin 6) rfl)

theorem cutW3_apply (Wf : ArrF F S6x512x512) (k c : Fin 512) :
    shapeCast S512x512 (extractStridedSlice S1x512x512 ![3, 0, 0] Wf slices_S6x512x512_S1x512x512_3_0_0 : ArrF F S1x512x512)
      shapeCasts_S1x512x512_S512x512 (ix2 k c) = Wf (ix3 (3 : Fin 6) k c) :=
  (shapeCast_1ab_ab_apply _ shapeCasts_S1x512x512_S512x512 k c).trans
    (slice3_axis0_apply 3 Wf slices_S6x512x512_S1x512x512_3_0_0 (0 : Fin 1) k c (3 : Fin 6) rfl)

theorem cutb3_apply (bf : ArrF F S6x512) (c : Fin 512) :
    shapeCast S512 (extractStridedSlice S1x512 ![3, 0] bf slices_S6x512_S1x512_3_0 : ArrF F S1x512)
      shapeCasts_S1x512_S512 (ix1 c) = bf (ix2 (3 : Fin 6) c) :=
  (shapeCast_1a_a_apply _ shapeCasts_S1x512_S512 c).trans
    (slice2_axis0_apply 3 bf slices_S6x512_S1x512_3_0 (0 : Fin 1) c (3 : Fin 6) rfl)

theorem cutW4_apply (Wf : ArrF F S6x512x512) (k c : Fin 512) :
    shapeCast S512x512 (extractStridedSlice S1x512x512 ![4, 0, 0] Wf slices_S6x512x512_S1x512x512_4_0_0 : ArrF F S1x512x512)
      shapeCasts_S1x512x512_S512x512 (ix2 k c) = Wf (ix3 (4 : Fin 6) k c) :=
  (shapeCast_1ab_ab_apply _ shapeCasts_S1x512x512_S512x512 k c).trans
    (slice3_axis0_apply 4 Wf slices_S6x512x512_S1x512x512_4_0_0 (0 : Fin 1) k c (4 : Fin 6) rfl)

theorem cutb4_apply (bf : ArrF F S6x512) (c : Fin 512) :
    shapeCast S512 (extractStridedSlice S1x512 ![4, 0] bf slices_S6x512_S1x512_4_0 : ArrF F S1x512)
      shapeCasts_S1x512_S512 (ix1 c) = bf (ix2 (4 : Fin 6) c) :=
  (shapeCast_1a_a_apply _ shapeCasts_S1x512_S512 c).trans
    (slice2_axis0_apply 4 bf slices_S6x512_S1x512_4_0 (0 : Fin 1) c (4 : Fin 6) rfl)

theorem cutW5_apply (Wf : ArrF F S6x512x512) (k c : Fin 512) :
    shapeCast S512x512 (extractStridedSlice S1x512x512 ![5, 0, 0] Wf slices_S6x512x512_S1x512x512_5_0_0 : ArrF F S1x512x512)
      shapeCasts_S1x512x512_S512x512 (ix2 k c) = Wf (ix3 (5 : Fin 6) k c) :=
  (shapeCast_1ab_ab_apply _ shapeCasts_S1x512x512_S512x512 k c).trans
    (slice3_axis0_apply 5 Wf slices_S6x512x512_S1x512x512_5_0_0 (0 : Fin 1) k c (5 : Fin 6) rfl)

theorem cutb5_apply (bf : ArrF F S6x512) (c : Fin 512) :
    shapeCast S512 (extractStridedSlice S1x512 ![5, 0] bf slices_S6x512_S1x512_5_0 : ArrF F S1x512)
      shapeCasts_S1x512_S512 (ix1 c) = bf (ix2 (5 : Fin 6) c) :=
  (shapeCast_1a_a_apply _ shapeCasts_S1x512_S512 c).trans
    (slice2_axis0_apply 5 bf slices_S6x512_S1x512_5_0 (0 : Fin 1) c (5 : Fin 6) rfl)

end Cert.ReferenceIdeal.RefValue

end
-- ==== Proof.RefGnn.lean ====
import proofs.«426140_j3899830305296_1_alg».proof.Proof.RefLayer
import proofs.«426140_j3899830305296_1_alg».proof.Proof.RefCuts

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section Ops
variable {F : FTy → Type} [FloatOps F]

def gnnR (v : ArrF F S4096x512) (A : ArrF F S4096x4096) (Wf : ArrF F S6x512x512) (bf : ArrF F S6x512) : ArrF F S4096x512 :=
  layerOps (layerOps (layerOps (layerOps (layerOps (layerOps v
    A (shapeCast _ (extractStridedSlice S1x512x512 ![0, 0, 0] Wf slices_S6x512x512_S1x512x512_0_0_0 : ArrF F S1x512x512) shapeCasts_S1x512x512_S512x512)
      (shapeCast _ (extractStridedSlice S1x512 ![0, 0] bf slices_S6x512_S1x512_0_0 : ArrF F S1x512) shapeCasts_S1x512_S512))
    A (shapeCast _ (extractStridedSlice S1x512x512 ![1, 0, 0] Wf slices_S6x512x512_S1x512x512_1_0_0 : ArrF F S1x512x512) shapeCasts_S1x512x512_S512x512)
      (shapeCast _ (extractStridedSlice S1x512 ![1, 0] bf slices_S6x512_S1x512_1_0 : ArrF F S1x512) shapeCasts_S1x512_S512))
    A (shapeCast _ (extractStridedSlice S1x512x512 ![2, 0, 0] Wf slices_S6x512x512_S1x512x512_2_0_0 : ArrF F S1x512x512) shapeCasts_S1x512x512_S512x512)
      (shapeCast _ (extractStridedSlice S1x512 ![2, 0] bf slices_S6x512_S1x512_2_0 : ArrF F S1x512) shapeCasts_S1x512_S512))
    A (shapeCast _ (extractStridedSlice S1x512x512 ![3, 0, 0] Wf slices_S6x512x512_S1x512x512_3_0_0 : ArrF F S1x512x512) shapeCasts_S1x512x512_S512x512)
      (shapeCast _ (extractStridedSlice S1x512 ![3, 0] bf slices_S6x512_S1x512_3_0 : ArrF F S1x512) shapeCasts_S1x512_S512))
    A (shapeCast _ (extractStridedSlice S1x512x512 ![4, 0, 0] Wf slices_S6x512x512_S1x512x512_4_0_0 : ArrF F S1x512x512) shapeCasts_S1x512x512_S512x512)
      (shapeCast _ (extractStridedSlice S1x512 ![4, 0] bf slices_S6x512_S1x512_4_0 : ArrF F S1x512) shapeCasts_S1x512_S512))
    A (shapeCast _ (extractStridedSlice S1x512x512 ![5, 0, 0] Wf slices_S6x512x512_S1x512x512_5_0_0 : ArrF F S1x512x512) shapeCasts_S1x512x512_S512x512)
      (shapeCast _ (extractStridedSlice S1x512 ![5, 0] bf slices_S6x512_S1x512_5_0 : ArrF F S1x512) shapeCasts_S1x512_S512)

def refResult (fp1 fp2 : ArrIF F S4096) (adj1 adj2 : ArrF F S4096x4096) (seg : ArrIF F S4096) (emb : ArrF F S10000x512)
    (Wf : ArrF F S6x512x512) (bf : ArrF F S6x512) (Wmlp : ArrF F S1024x512) (bmlp : ArrF F S512) (Wout : ArrF F S3x512x512)
    (bout : ArrF F S3x512) (Wprop : ArrF F S512x1) (bprop : ArrF F S1) : ArrF F S128x1 :=
  tailR (segR (gnnR (gatherR emb fp1) adj1 Wf bf) seg) (segR (gnnR (gatherR emb fp2) adj2 Wf bf) seg)
    Wmlp bmlp Wout bout Wprop bprop

end Ops

theorem layerOps_fun (x : Arr S4096x512) (A : Arr S4096x4096) (W : Arr S512x512) (b : Arr S512)
    (X : Cert.Spec.Mat 4096 512) (Wm : Cert.Spec.Mat 512 512) (bm : Fin 512 → EReal)
    (hx : (fun r k => x (ix2 r k)) = X) (hW : (fun k c => W (ix2 k c)) = Wm) (hb : (fun c => b (ix1 c)) = bm) :
    (fun r c => layerOps x A W b (ix2 r c)) = Cert.Spec.layer X (fun r j => A (ix2 r j)) Wm bm := by
  subst hx hW hb
  exact funext fun r => funext fun c => layerOps_apply x A W b r c

theorem gnnR_apply (v : Arr S4096x512) (A : Arr S4096x4096) (Wf : Arr S6x512x512) (bf : Arr S6x512) (r : Fin 4096) (c : Fin 512) :
    gnnR (F := Ideal) v A Wf bf (ix2 r c)
      = Cert.Spec.gnn (fun r k => v (ix2 r k)) (fun r j => A (ix2 r j)) (fun l k c => Wf (ix3 l k c)) (fun l c => bf (ix2 l c)) r c := by
  have h0 := layerOps_fun v A _ _ _ _ _ rfl
    (funext fun k => funext fun c => cutW0_apply Wf k c) (funext fun c => cutb0_apply bf c)
  have h1 := layerOps_fun _ A _ _ _ _ _ h0
    (funext fun k => funext fun c => cutW1_apply Wf k c) (funext fun c => cutb1_apply bf c)
  have h2 := layerOps_fun _ A _ _ _ _ _ h1
    (funext fun k => funext fun c => cutW2_apply Wf k c) (funext fun c => cutb2_apply bf c)
  have h3 := layerOps_fun _ A _ _ _ _ _ h2
    (funext fun k => funext fun c => cutW3_apply Wf k c) (funext fun c => cutb3_apply bf c)
  have h4 := layerOps_fun _ A _ _ _ _ _ h3
    (funext fun k => funext fun c => cutW4_apply Wf k c) (funext fun c => cutb4_apply bf c)
  have h5 := layerOps_fun _ A _ _ _ _ _ h4
    (funext fun k => funext fun c => cutW5_apply Wf k c) (funext fun c => cutb5_apply bf c)
  unfold gnnR Cert.Spec.gnn
  exact congrFun (congrFun h5 r) c

end Cert.ReferenceIdeal.RefValue

end
-- ==== Proof.Bridge.lean ====
import proofs.«426140_j3899830305296_1_alg».proof.Proof.RefGnn
import proofs.«426140_j3899830305296_1_alg».proof.Proof.TakeEq

noncomputable section

namespace Cert.Bridge

open Cert.ReferenceIdeal Cert.ReferenceIdeal.Gen Cert.ReferenceIdeal.RefValue Idealize.ShloMosaic Idealize.ShloMosaic.TcCoe Idealize.SL.Sem Idealize.ShloMosaic.StableHlo
open Idealize.ShloMosaic.ValueIdx

theorem takeK_gatherR [Cert.KernelIdeal.Facts] (emb : FVec Ideal S10000x512 .f32) (fp : IVec S4096 32)
    (hr : ∀ i : S4096.Idx, (-10000 : Int) ≤ (fp i).toInt ∧ (fp i).toInt < 10000) :
    Cert.TakeEq.takeK emb fp = gatherR (F := Ideal) emb fp := by
  rw [Cert.TakeEq.takeK_eq emb fp hr]
  rfl

theorem plane_eq (out5 : ArrF Ideal Cert.KernelIdeal.S2x4096x512)
    (sliceS : Fin 2 → ArrF Ideal Cert.KernelIdeal.S2x4096x512 → ArrF Ideal S4096x512)
    (hslice : ∀ (b : Fin 2) (x : ArrF Ideal Cert.KernelIdeal.S2x4096x512) (r : Fin 4096) (q : Fin 512),
      sliceS b x (ix2 r q) = x (ix3 b r q))
    (s : Fin 2) (v : Arr S4096x512) (adj : Arr S4096x4096) (Wf : Arr S6x512x512) (bf : Arr S6x512)
    (h : ∀ (r : Fin 4096) (q : Fin 512), out5 (ix3 s r q)
      = Cert.Spec.gnn (fun r k => v (ix2 r k)) (fun r j => adj (ix2 r j))
          (fun l k c => Wf (ix3 l k c)) (fun l c => bf (ix2 l c)) r q) :
    sliceS s out5 = gnnR (F := Ideal) v adj Wf bf := by
  funext idx
  obtain ⟨r, q, rfl⟩ : ∃ (r : Fin 4096) (q : Fin 512), idx = ix2 r q := ⟨idx 0, idx 1, eq_ix2 idx⟩
  rw [hslice, h r q, gnnR_apply]

theorem bridge (out5 : ArrF Ideal Cert.KernelIdeal.S2x4096x512)
    (sliceS : Fin 2 → ArrF Ideal Cert.KernelIdeal.S2x4096x512 → ArrF Ideal S4096x512)
    (hslice : ∀ (b : Fin 2) (x : ArrF Ideal Cert.KernelIdeal.S2x4096x512) (r : Fin 4096) (q : Fin 512),
      sliceS b x (ix2 r q) = x (ix3 b r q))
    (fp1 fp2 : ArrIF Ideal S4096) (adj1 adj2 : Arr S4096x4096) (seg : ArrIF Ideal S4096) (emb : Arr S10000x512)
    (Wf : Arr S6x512x512) (bf : Arr S6x512) (Wmlp : Arr S1024x512) (bmlp : Arr S512) (Wout : Arr S3x512x512)
    (bout : Arr S3x512) (Wprop : Arr S512x1) (bprop : Arr S1)
    (h0 : ∀ (r : Fin 4096) (q : Fin 512), out5 (ix3 (0 : Fin 2) r q)
      = Cert.Spec.gnn (fun r k => gatherR emb fp1 (ix2 r k)) (fun r j => adj1 (ix2 r j))
          (fun l k c => Wf (ix3 l k c)) (fun l c => bf (ix2 l c)) r q)
    (h1 : ∀ (r : Fin 4096) (q : Fin 512), out5 (ix3 (1 : Fin 2) r q)
      = Cert.Spec.gnn (fun r k => gatherR emb fp2 (ix2 r k)) (fun r j => adj2 (ix2 r j))
          (fun l k c => Wf (ix3 l k c)) (fun l c => bf (ix2 l c)) r q) :
    tailR (segR (sliceS 0 out5) seg) (segR (sliceS 1 out5) seg) Wmlp bmlp Wout bout Wprop bprop
      = refResult fp1 fp2 adj1 adj2 seg emb Wf bf Wmlp bmlp Wout bout Wprop bprop := by
  unfold refResult
  rw [plane_eq out5 sliceS hslice 0 (gatherR emb fp1) adj1 Wf bf h0,
    plane_eq out5 sliceS hslice 1 (gatherR emb fp2) adj2 Wf bf h1]

end Cert.Bridge

end
-- ==== Proof.ChainPure.lean ====
import proofs.«426140_j3899830305296_1_alg».proof.Proof.Spec
import proofs.«426140_j3899830305296_1_alg».proof.KernelIdeal
import Idealize.ShloMosaic.Lib.ValueIdx

noncomputable section

namespace Cert.ChainPure

open Idealize.ShloMosaic Idealize.ShloMosaic.ValueIdx

abbrev ArrK (s : Shape) (e : EltTy) : Type := (⟨s, e⟩ : BufTy).Contents (Elt Ideal)

def selW (W0 W1 W2 W3 W4 W5 : ArrK Cert.KernelIdeal.S512x512 .f32) : Fin 6 → ArrK Cert.KernelIdeal.S512x512 .f32
  | ⟨0, _⟩ => W0 | ⟨1, _⟩ => W1 | ⟨2, _⟩ => W2 | ⟨3, _⟩ => W3 | ⟨4, _⟩ => W4 | ⟨5, _⟩ => W5

def selC (c0 c1 c2 c3 c4 c5 : ArrK Cert.KernelIdeal.S1x512 .f32) : Fin 6 → ArrK Cert.KernelIdeal.S1x512 .f32
  | ⟨0, _⟩ => c0 | ⟨1, _⟩ => c1 | ⟨2, _⟩ => c2 | ⟨3, _⟩ => c3 | ⟨4, _⟩ => c4 | ⟨5, _⟩ => c5

theorem chain6 (X0 X1 X2 X3 X4 X5 X6 : ArrK Cert.KernelIdeal.S2x4096x512 .f32) (A : ArrK Cert.KernelIdeal.S2x4096x4096 .bf16)
    (W0 W1 W2 W3 W4 W5 : ArrK Cert.KernelIdeal.S512x512 .f32) (c0 c1 c2 c3 c4 c5 : ArrK Cert.KernelIdeal.S1x512 .f32)
    (h0 : ∀ (b : Fin 2) (r : Fin 4096) (q : Fin 512), X1 (ix3 b r q)
      = Cert.Spec.layer (fun r k => X0 (ix3 b r k)) (fun r j => A (ix3 b r j)) (fun k q => W0 (ix2 k q))
          (fun q => c0 (ix2 (0 : Fin 1) q)) r q)
    (h1 : ∀ (b : Fin 2) (r : Fin 4096) (q : Fin 512), X2 (ix3 b r q)
      = Cert.Spec.layer (fun r k => X1 (ix3 b r k)) (fun r j => A (ix3 b r j)) (fun k q => W1 (ix2 k q))
          (fun q => c1 (ix2 (0 : Fin 1) q)) r q)
    (h2 : ∀ (b : Fin 2) (r : Fin 4096) (q : Fin 512), X3 (ix3 b r q)
      = Cert.Spec.layer (fun r k => X2 (ix3 b r k)) (fun r j => A (ix3 b r j)) (fun k q => W2 (ix2 k q))
          (fun q => c2 (ix2 (0 : Fin 1) q)) r q)
    (h3 : ∀ (b : Fin 2) (r : Fin 4096) (q : Fin 512), X4 (ix3 b r q)
      = Cert.Spec.layer (fun r k => X3 (ix3 b r k)) (fun r j => A (ix3 b r j)) (fun k q => W3 (ix2 k q))
          (fun q => c3 (ix2 (0 : Fin 1) q)) r q)
    (h4 : ∀ (b : Fin 2) (r : Fin 4096) (q : Fin 512), X5 (ix3 b r q)
      = Cert.Spec.layer (fun r k => X4 (ix3 b r k)) (fun r j => A (ix3 b r j)) (fun k q => W4 (ix2 k q))
          (fun q => c4 (ix2 (0 : Fin 1) q)) r q)
    (h5 : ∀ (b : Fin 2) (r : Fin 4096) (q : Fin 512), X6 (ix3 b r q)
      = Cert.Spec.layer (fun r k => X5 (ix3 b r k)) (fun r j => A (ix3 b r j)) (fun k q => W5 (ix2 k q))
          (fun q => c5 (ix2 (0 : Fin 1) q)) r q)
    (b : Fin 2) (r : Fin 4096) (q : Fin 512) :
    X6 (ix3 b r q) = Cert.Spec.gnn (fun r k => X0 (ix3 b r k)) (fun r j => A (ix3 b r j))
      (fun l k q => selW W0 W1 W2 W3 W4 W5 l (ix2 k q)) (fun l q => selC c0 c1 c2 c3 c4 c5 l (ix2 (0 : Fin 1) q)) r q := by
  have e1 : (fun r q => X1 (ix3 b r q)) = (Cert.Spec.layer (fun r k => X0 (ix3 b r k)) (fun r j => A (ix3 b r j)) (fun k q => W0 (ix2 k q)) (fun q => c0 (ix2 (0 : Fin 1) q))) :=
    funext fun r => funext fun q => h0 b r q
  have e2 : (fun r q => X2 (ix3 b r q)) = (Cert.Spec.layer (Cert.Spec.layer (fun r k => X0 (ix3 b r k)) (fun r j => A (ix3 b r j)) (fun k q => W0 (ix2 k q)) (fun q => c0 (ix2 (0 : Fin 1) q))) (fun r j => A (ix3 b r j)) (fun k q => W1 (ix2 k q)) (fun q => c1 (ix2 (0 : Fin 1) q))) :=
    funext fun r => funext fun q => by rw [h1 b r q, e1]
  have e3 : (fun r q => X3 (ix3 b r q)) = (Cert.Spec.layer (Cert.Spec.layer (Cert.Spec.layer (fun r k => X0 (ix3 b r k)) (fun r j => A (ix3 b r j)) (fun k q => W0 (ix2 k q)) (fun q => c0 (ix2 (0 : Fin 1) q))) (fun r j => A (ix3 b r j)) (fun k q => W1 (ix2 k q)) (fun q => c1 (ix2 (0 : Fin 1) q))) (fun r j => A (ix3 b r j)) (fun k q => W2 (ix2 k q)) (fun q => c2 (ix2 (0 : Fin 1) q))) :=
    funext fun r => funext fun q => by rw [h2 b r q, e2]
  have e4 : (fun r q => X4 (ix3 b r q)) = (Cert.Spec.layer (Cert.Spec.layer (Cert.Spec.layer (Cert.Spec.layer (fun r k => X0 (ix3 b r k)) (fun r j => A (ix3 b r j)) (fun k q => W0 (ix2 k q)) (fun q => c0 (ix2 (0 : Fin 1) q))) (fun r j => A (ix3 b r j)) (fun k q => W1 (ix2 k q)) (fun q => c1 (ix2 (0 : Fin 1) q))) (fun r j => A (ix3 b r j)) (fun k q => W2 (ix2 k q)) (fun q => c2 (ix2 (0 : Fin 1) q))) (fun r j => A (ix3 b r j)) (fun k q => W3 (ix2 k q)) (fun q => c3 (ix2 (0 : Fin 1) q))) :=
    funext fun r => funext fun q => by rw [h3 b r q, e3]
  have e5 : (fun r q => X5 (ix3 b r q)) = (Cert.Spec.layer (Cert.Spec.layer (Cert.Spec.layer (Cert.Spec.layer (Cert.Spec.layer (fun r k => X0 (ix3 b r k)) (fun r j => A (ix3 b r j)) (fun k q => W0 (ix2 k q)) (fun q => c0 (ix2 (0 : Fin 1) q))) (fun r j => A (ix3 b r j)) (fun k q => W1 (ix2 k q)) (fun q => c1 (ix2 (0 : Fin 1) q))) (fun r j => A (ix3 b r j)) (fun k q => W2 (ix2 k q)) (fun q => c2 (ix2 (0 : Fin 1) q))) (fun r j => A (ix3 b r j)) (fun k q => W3 (ix2 k q)) (fun q => c3 (ix2 (0 : Fin 1) q))) (fun r j => A (ix3 b r j)) (fun k q => W4 (ix2 k q)) (fun q => c4 (ix2 (0 : Fin 1) q))) :=
    funext fun r => funext fun q => by rw [h4 b r q, e4]
  have e6 : (fun r q => X6 (ix3 b r q)) = (Cert.Spec.layer (Cert.Spec.layer (Cert.Spec.layer (Cert.Spec.layer (Cert.Spec.layer (Cert.Spec.layer (fun r k => X0 (ix3 b r k)) (fun r j => A (ix3 b r j)) (fun k q => W0 (ix2 k q)) (fun q => c0 (ix2 (0 : Fin 1) q))) (fun r j => A (ix3 b r j)) (fun k q => W1 (ix2 k q)) (fun q => c1 (ix2 (0 : Fin 1) q))) (fun r j => A (ix3 b r j)) (fun k q => W2 (ix2 k q)) (fun q => c2 (ix2 (0 : Fin 1) q))) (fun r j => A (ix3 b r j)) (fun k q => W3 (ix2 k q)) (fun q => c3 (ix2 (0 : Fin 1) q))) (fun r j => A (ix3 b r j)) (fun k q => W4 (ix2 k q)) (fun q => c4 (ix2 (0 : Fin 1) q))) (fun r j => A (ix3 b r j)) (fun k q => W5 (ix2 k q)) (fun q => c5 (ix2 (0 : Fin 1) q))) :=
    funext fun r => funext fun q => by rw [h5 b r q, e5]
  exact congrFun (congrFun e6 r) q

theorem chain6_cut (X0 X1 X2 X3 X4 X5 X6 : ArrK Cert.KernelIdeal.S2x4096x512 .f32) (A : ArrK Cert.KernelIdeal.S2x4096x4096 .bf16)
    (W0 W1 W2 W3 W4 W5 : ArrK Cert.KernelIdeal.S512x512 .f32) (c0 c1 c2 c3 c4 c5 : ArrK Cert.KernelIdeal.S1x512 .f32)
    (h0 : ∀ (b : Fin 2) (r : Fin 4096) (q : Fin 512), X1 (ix3 b r q)
      = Cert.Spec.layer (fun r k => X0 (ix3 b r k)) (fun r j => A (ix3 b r j)) (fun k q => W0 (ix2 k q))
          (fun q => c0 (ix2 (0 : Fin 1) q)) r q)
    (h1 : ∀ (b : Fin 2) (r : Fin 4096) (q : Fin 512), X2 (ix3 b r q)
      = Cert.Spec.layer (fun r k => X1 (ix3 b r k)) (fun r j => A (ix3 b r j)) (fun k q => W1 (ix2 k q))
          (fun q => c1 (ix2 (0 : Fin 1) q)) r q)
    (h2 : ∀ (b : Fin 2) (r : Fin 4096) (q : Fin 512), X3 (ix3 b r q)
      = Cert.Spec.layer (fun r k => X2 (ix3 b r k)) (fun r j => A (ix3 b r j)) (fun k q => W2 (ix2 k q))
          (fun q => c2 (ix2 (0 : Fin 1) q)) r q)
    (h3 : ∀ (b : Fin 2) (r : Fin 4096) (q : Fin 512), X4 (ix3 b r q)
      = Cert.Spec.layer (fun r k => X3 (ix3 b r k)) (fun r j => A (ix3 b r j)) (fun k q => W3 (ix2 k q))
          (fun q => c3 (ix2 (0 : Fin 1) q)) r q)
    (h4 : ∀ (b : Fin 2) (r : Fin 4096) (q : Fin 512), X5 (ix3 b r q)
      = Cert.Spec.layer (fun r k => X4 (ix3 b r k)) (fun r j => A (ix3 b r j)) (fun k q => W4 (ix2 k q))
          (fun q => c4 (ix2 (0 : Fin 1) q)) r q)
    (h5 : ∀ (b : Fin 2) (r : Fin 4096) (q : Fin 512), X6 (ix3 b r q)
      = Cert.Spec.layer (fun r k => X5 (ix3 b r k)) (fun r j => A (ix3 b r j)) (fun k q => W5 (ix2 k q))
          (fun q => c5 (ix2 (0 : Fin 1) q)) r q)
    (Wf : ArrK Cert.KernelIdeal.S6x512x512 .f32) (bf : ArrK Cert.KernelIdeal.S6x512 .f32)
    (hW : ∀ (l : Fin 6) (k q : Fin 512), selW W0 W1 W2 W3 W4 W5 l (ix2 k q) = Wf (ix3 l k q))
    (hc : ∀ (l : Fin 6) (q : Fin 512), selC c0 c1 c2 c3 c4 c5 l (ix2 (0 : Fin 1) q) = bf (ix2 l q))
    (b : Fin 2) (r : Fin 4096) (q : Fin 512) :
    X6 (ix3 b r q) = Cert.Spec.gnn (fun r k => X0 (ix3 b r k)) (fun r j => A (ix3 b r j))
      (fun l k q => Wf (ix3 l k q)) (fun l q => bf (ix2 l q)) r q := by
  have eW : (fun (l : Fin 6) (k q : Fin 512) => selW W0 W1 W2 W3 W4 W5 l (ix2 k q)) = fun l k q => Wf (ix3 l k q) :=
    funext fun l => funext fun k => funext fun q => hW l k q
  have ec : (fun (l : Fin 6) (q : Fin 512) => selC c0 c1 c2 c3 c4 c5 l (ix2 (0 : Fin 1) q)) = fun l q => bf (ix2 l q) :=
    funext fun l => funext fun q => hc l q
  rw [← eW, ← ec]
  exact chain6 X0 X1 X2 X3 X4 X5 X6 A W0 W1 W2 W3 W4 W5 c0 c1 c2 c3 c4 c5 h0 h1 h2 h3 h4 h5 b r q

end Cert.ChainPure

end
-- ==== Proof.KI.Chain.lean ====
import proofs.«426140_j3899830305296_1_alg».proof.Proof.KI.Run6
import proofs.«426140_j3899830305296_1_alg».proof.Proof.KI.Val0
import proofs.«426140_j3899830305296_1_alg».proof.Proof.KI.Val1
import proofs.«426140_j3899830305296_1_alg».proof.Proof.KI.Val2
import proofs.«426140_j3899830305296_1_alg».proof.Proof.KI.Val3
import proofs.«426140_j3899830305296_1_alg».proof.Proof.KI.Val4
import proofs.«426140_j3899830305296_1_alg».proof.Proof.KI.Val5
import proofs.«426140_j3899830305296_1_alg».proof.Proof.KI.HostPre
import proofs.«426140_j3899830305296_1_alg».proof.Proof.KI.HostTail
import proofs.«426140_j3899830305296_1_alg».proof.Proof.RefGnn
import proofs.«426140_j3899830305296_1_alg».proof.Proof.Bridge
import proofs.«426140_j3899830305296_1_alg».proof.Proof.ChainPure

set_option maxRecDepth 16384

noncomputable section

namespace Cert.KernelIdeal.Gen

open Idealize.ShloMosaic Idealize.ShloMosaic.TcCoe Idealize.SL.Sem Idealize.ShloMosaic.StableHlo

open Idealize.ShloMosaic.ValueIdx
open Cert.ChainPure (ArrK selW selC)

variable (m : (ℓ : Loc nD τ sig) → Buf (Elt Ideal) ℓ) (ρ : Dev nD → PrngReg)

structure Quiet (r : Ref sig .tc) : Prop where
  q0 : r ∉ hostOps0_W
  q1 : r ∉ hostOps0_1_W
  q2 : r ∉ hostOps0_2_W
  q3 : ∀ w, Pipeline.arrRef spec0 w ≠ r
  q4 : r ∉ hostOps1_W
  q5 : ∀ w, Pipeline.arrRef spec1 w ≠ r
  q6 : r ∉ hostOps2_W
  q7 : ∀ w, Pipeline.arrRef spec2 w ≠ r
  q8 : r ∉ hostOps3_W
  q9 : ∀ w, Pipeline.arrRef spec3 w ≠ r
  q10 : r ∉ hostOps4_W
  q11 : ∀ w, Pipeline.arrRef spec4 w ≠ r
  q12 : r ∉ hostOps5_W
  q13 : ∀ w, Pipeline.arrRef spec5 w ≠ r

theorem keep2 (c : Dev nD) {r : Ref sig .tc} (h : Quiet r) :
    W2 m ρ c (Proc.devRef .tc r) = m ((c : Thread nD τ).loc r) :=
  (W2_of m ρ c r h.q1).trans ((W1_of m ρ c r h.q0).trans rfl)

theorem keep4 (c : Dev nD) {r : Ref sig .tc} (h : Quiet r) :
    W4 m ρ c (Proc.devRef .tc r) = m ((c : Thread nD τ).loc r) :=
  (W4_of_ne m ρ c r h.q3).trans ((W3_of m ρ c r h.q2).trans (keep2 m ρ c h))

theorem keep6 (c : Dev nD) {r : Ref sig .tc} (h : Quiet r) :
    W6 m ρ c (Proc.devRef .tc r) = m ((c : Thread nD τ).loc r) :=
  (W6_of_ne m ρ c r h.q5).trans ((W5_of m ρ c r h.q4).trans (keep4 m ρ c h))

theorem keep8 (c : Dev nD) {r : Ref sig .tc} (h : Quiet r) :
    W8 m ρ c (Proc.devRef .tc r) = m ((c : Thread nD τ).loc r) :=
  (W8_of_ne m ρ c r h.q7).trans ((W7_of m ρ c r h.q6).trans (keep6 m ρ c h))

theorem keep10 (c : Dev nD) {r : Ref sig .tc} (h : Quiet r) :
    W10 m ρ c (Proc.devRef .tc r) = m ((c : Thread nD τ).loc r) :=
  (W10_of_ne m ρ c r h.q9).trans ((W9_of m ρ c r h.q8).trans (keep8 m ρ c h))

theorem keep12 (c : Dev nD) {r : Ref sig .tc} (h : Quiet r) :
    W12 m ρ c (Proc.devRef .tc r) = m ((c : Thread nD τ).loc r) :=
  (W12_of_ne m ρ c r h.q11).trans ((W11_of m ρ c r h.q10).trans (keep10 m ρ c h))

theorem keep14 (c : Dev nD) {r : Ref sig .tc} (h : Quiet r) :
    W14 m ρ c (Proc.devRef .tc r) = m ((c : Thread nD τ).loc r) :=
  (W14_of_ne m ρ c r h.q13).trans ((W13_of m ρ c r h.q12).trans (keep12 m ρ c h))

theorem quiet_arg4 : Quiet main_arg4 :=
  by constructor <;> decide
theorem quiet_arg6 : Quiet main_arg6 :=
  by constructor <;> decide
theorem quiet_arg7 : Quiet main_arg7 :=
  by constructor <;> decide
theorem quiet_arg8 : Quiet main_arg8 :=
  by constructor <;> decide
theorem quiet_arg9 : Quiet main_arg9 :=
  by constructor <;> decide
theorem quiet_arg10 : Quiet main_arg10 :=
  by constructor <;> decide
theorem quiet_arg11 : Quiet main_arg11 :=
  by constructor <;> decide
theorem quiet_arg12 : Quiet main_arg12 :=
  by constructor <;> decide
theorem quiet_arg13 : Quiet main_arg13 :=
  by constructor <;> decide

theorem adj1 (c : Dev nD) : W5 m ρ c (Proc.devRef .tc main_v9) = W3 m ρ c (Proc.devRef .tc main_v9) :=
  (W5_of m ρ c main_v9 (by decide)).trans
    (((W4_arr m ρ c 1).trans (arrAt0_in (Vin0 m ρ) c 1 (by decide))))

theorem adj2 (c : Dev nD) : W7 m ρ c (Proc.devRef .tc main_v9) = W3 m ρ c (Proc.devRef .tc main_v9) :=
  (W7_of m ρ c main_v9 (by decide)).trans
    (((W6_arr m ρ c 1).trans (arrAt1_in (Vin1 m ρ) c 1 (by decide))).trans (adj1 m ρ c))

theorem adj3 (c : Dev nD) : W9 m ρ c (Proc.devRef .tc main_v9) = W3 m ρ c (Proc.devRef .tc main_v9) :=
  (W9_of m ρ c main_v9 (by decide)).trans
    (((W8_arr m ρ c 1).trans (arrAt2_in (Vin2 m ρ) c 1 (by decide))).trans (adj2 m ρ c))

theorem adj4 (c : Dev nD) : W11 m ρ c (Proc.devRef .tc main_v9) = W3 m ρ c (Proc.devRef .tc main_v9) :=
  (W11_of m ρ c main_v9 (by decide)).trans
    (((W10_arr m ρ c 1).trans (arrAt3_in (Vin3 m ρ) c 1 (by decide))).trans (adj3 m ρ c))

theorem adj5 (c : Dev nD) : W13 m ρ c (Proc.devRef .tc main_v9) = W3 m ρ c (Proc.devRef .tc main_v9) :=
  (W13_of m ρ c main_v9 (by decide)).trans
    (((W12_arr m ρ c 1).trans (arrAt4_in (Vin4 m ρ) c 1 (by decide))).trans (adj4 m ρ c))

theorem layer0_eq (c : Dev nD) (b : Fin 2) (r : Fin 4096) (q : Fin 512) :
    (W4 m ρ c (Proc.devRef .tc main_v15) : ArrK S2x4096x512 .f32) (ix3 b r q)
      = Cert.Spec.layer (fun r k => (W3 m ρ c (Proc.devRef .tc main_v4) : ArrK S2x4096x512 .f32) (ix3 b r k))
          (fun r j => (W3 m ρ c (Proc.devRef .tc main_v9) : ArrK S2x4096x4096 .bf16) (ix3 b r j))
          (fun k q => (W3 m ρ c (Proc.devRef .tc main_v11) : ArrK S512x512 .f32) (ix2 k q))
          (fun q => (W3 m ρ c (Proc.devRef .tc main_v14) : ArrK S1x512 .f32) (ix2 (0 : Fin 1) q)) r q := by
  have e4 : W4 m ρ c (Proc.devRef .tc main_v15) = (dat0 (Vin0 m ρ) c).arrAt 4 cfg0.N := W4_arr m ρ c 4
  have ex : Vin0 m ρ c (Pipeline.arrRef spec0 0) = W3 m ρ c (Proc.devRef .tc main_v4) := rfl
  have ea : Vin0 m ρ c (Pipeline.arrRef spec0 1) = W3 m ρ c (Proc.devRef .tc main_v9) := rfl
  refine (congrFun e4 (ix3 b r q)).trans ?_
  refine (region0_value (Vin0 m ρ) c b r q).trans ?_
  rw [ex, ea]

theorem layer1_eq (c : Dev nD) (b : Fin 2) (r : Fin 4096) (q : Fin 512) :
    (W6 m ρ c (Proc.devRef .tc main_v21) : ArrK S2x4096x512 .f32) (ix3 b r q)
      = Cert.Spec.layer (fun r k => (W4 m ρ c (Proc.devRef .tc main_v15) : ArrK S2x4096x512 .f32) (ix3 b r k))
          (fun r j => (W3 m ρ c (Proc.devRef .tc main_v9) : ArrK S2x4096x4096 .bf16) (ix3 b r j))
          (fun k q => (W5 m ρ c (Proc.devRef .tc main_v17) : ArrK S512x512 .f32) (ix2 k q))
          (fun q => (W5 m ρ c (Proc.devRef .tc main_v20) : ArrK S1x512 .f32) (ix2 (0 : Fin 1) q)) r q := by
  have e4 : W6 m ρ c (Proc.devRef .tc main_v21) = (dat1 (Vin1 m ρ) c).arrAt 4 cfg1.N := W6_arr m ρ c 4
  have ex : Vin1 m ρ c (Pipeline.arrRef spec1 0) = W4 m ρ c (Proc.devRef .tc main_v15) := W5_of m ρ c main_v15 (by decide)
  have ea : Vin1 m ρ c (Pipeline.arrRef spec1 1) = W3 m ρ c (Proc.devRef .tc main_v9) := adj1 m ρ c
  refine (congrFun e4 (ix3 b r q)).trans ?_
  refine (region1_value (Vin1 m ρ) c b r q).trans ?_
  rw [ex, ea]

theorem layer2_eq (c : Dev nD) (b : Fin 2) (r : Fin 4096) (q : Fin 512) :
    (W8 m ρ c (Proc.devRef .tc main_v27) : ArrK S2x4096x512 .f32) (ix3 b r q)
      = Cert.Spec.layer (fun r k => (W6 m ρ c (Proc.devRef .tc main_v21) : ArrK S2x4096x512 .f32) (ix3 b r k))
          (fun r j => (W3 m ρ c (Proc.devRef .tc main_v9) : ArrK S2x4096x4096 .bf16) (ix3 b r j))
          (fun k q => (W7 m ρ c (Proc.devRef .tc main_v23) : ArrK S512x512 .f32) (ix2 k q))
          (fun q => (W7 m ρ c (Proc.devRef .tc main_v26) : ArrK S1x512 .f32) (ix2 (0 : Fin 1) q)) r q := by
  have e4 : W8 m ρ c (Proc.devRef .tc main_v27) = (dat2 (Vin2 m ρ) c).arrAt 4 cfg2.N := W8_arr m ρ c 4
  have ex : Vin2 m ρ c (Pipeline.arrRef spec2 0) = W6 m ρ c (Proc.devRef .tc main_v21) := W7_of m ρ c main_v21 (by decide)
  have ea : Vin2 m ρ c (Pipeline.arrRef spec2 1) = W3 m ρ c (Proc.devRef .tc main_v9) := adj2 m ρ c
  refine (congrFun e4 (ix3 b r q)).trans ?_
  refine (region2_value (Vin2 m ρ) c b r q).trans ?_
  rw [ex, ea]

theorem layer3_eq (c : Dev nD) (b : Fin 2) (r : Fin 4096) (q : Fin 512) :
    (W10 m ρ c (Proc.devRef .tc main_v33) : ArrK S2x4096x512 .f32) (ix3 b r q)
      = Cert.Spec.layer (fun r k => (W8 m ρ c (Proc.devRef .tc main_v27) : ArrK S2x4096x512 .f32) (ix3 b r k))
          (fun r j => (W3 m ρ c (Proc.devRef .tc main_v9) : ArrK S2x4096x4096 .bf16) (ix3 b r j))
          (fun k q => (W9 m ρ c (Proc.devRef .tc main_v29) : ArrK S512x512 .f32) (ix2 k q))
          (fun q => (W9 m ρ c (Proc.devRef .tc main_v32) : ArrK S1x512 .f32) (ix2 (0 : Fin 1) q)) r q := by
  have e4 : W10 m ρ c (Proc.devRef .tc main_v33) = (dat3 (Vin3 m ρ) c).arrAt 4 cfg3.N := W10_arr m ρ c 4
  have ex : Vin3 m ρ c (Pipeline.arrRef spec3 0) = W8 m ρ c (Proc.devRef .tc main_v27) := W9_of m ρ c main_v27 (by decide)
  have ea : Vin3 m ρ c (Pipeline.arrRef spec3 1) = W3 m ρ c (Proc.devRef .tc main_v9) := adj3 m ρ c
  refine (congrFun e4 (ix3 b r q)).trans ?_
  refine (region3_value (Vin3 m ρ) c b r q).trans ?_
  rw [ex, ea]

theorem layer4_eq (c : Dev nD) (b : Fin 2) (r : Fin 4096) (q : Fin 512) :
    (W12 m ρ c (Proc.devRef .tc main_v39) : ArrK S2x4096x512 .f32) (ix3 b r q)
      = Cert.Spec.layer (fun r k => (W10 m ρ c (Proc.devRef .tc main_v33) : ArrK S2x4096x512 .f32) (ix3 b r k))
          (fun r j => (W3 m ρ c (Proc.devRef .tc main_v9) : ArrK S2x4096x4096 .bf16) (ix3 b r j))
          (fun k q => (W11 m ρ c (Proc.devRef .tc main_v35) : ArrK S512x512 .f32) (ix2 k q))
          (fun q => (W11 m ρ c (Proc.devRef .tc main_v38) : ArrK S1x512 .f32) (ix2 (0 : Fin 1) q)) r q := by
  have e4 : W12 m ρ c (Proc.devRef .tc main_v39) = (dat4 (Vin4 m ρ) c).arrAt 4 cfg4.N := W12_arr m ρ c 4
  have ex : Vin4 m ρ c (Pipeline.arrRef spec4 0) = W10 m ρ c (Proc.devRef .tc main_v33) := W11_of m ρ c main_v33 (by decide)
  have ea : Vin4 m ρ c (Pipeline.arrRef spec4 1) = W3 m ρ c (Proc.devRef .tc main_v9) := adj4 m ρ c
  refine (congrFun e4 (ix3 b r q)).trans ?_
  refine (region4_value (Vin4 m ρ) c b r q).trans ?_
  rw [ex, ea]

theorem layer5_eq (c : Dev nD) (b : Fin 2) (r : Fin 4096) (q : Fin 512) :
    (W14 m ρ c (Proc.devRef .tc main_v45) : ArrK S2x4096x512 .f32) (ix3 b r q)
      = Cert.Spec.layer (fun r k => (W12 m ρ c (Proc.devRef .tc main_v39) : ArrK S2x4096x512 .f32) (ix3 b r k))
          (fun r j => (W3 m ρ c (Proc.devRef .tc main_v9) : ArrK S2x4096x4096 .bf16) (ix3 b r j))
          (fun k q => (W13 m ρ c (Proc.devRef .tc main_v41) : ArrK S512x512 .f32) (ix2 k q))
          (fun q => (W13 m ρ c (Proc.devRef .tc main_v44) : ArrK S1x512 .f32) (ix2 (0 : Fin 1) q)) r q := by
  have e4 : W14 m ρ c (Proc.devRef .tc main_v45) = (dat5 (Vin5 m ρ) c).arrAt 4 cfg5.N := W14_arr m ρ c 4
  have ex : Vin5 m ρ c (Pipeline.arrRef spec5 0) = W12 m ρ c (Proc.devRef .tc main_v39) := W13_of m ρ c main_v39 (by decide)
  have ea : Vin5 m ρ c (Pipeline.arrRef spec5 1) = W3 m ρ c (Proc.devRef .tc main_v9) := adj5 m ρ c
  refine (congrFun e4 (ix3 b r q)).trans ?_
  refine (region5_value (Vin5 m ρ) c b r q).trans ?_
  rw [ex, ea]

theorem six_layers (c : Dev nD) (b : Fin 2) (r : Fin 4096) (q : Fin 512) :
    (W14 m ρ c (Proc.devRef .tc main_v45) : ArrK S2x4096x512 .f32) (ix3 b r q)
      = Cert.Spec.gnn (fun r k => (W3 m ρ c (Proc.devRef .tc main_v4) : ArrK S2x4096x512 .f32) (ix3 b r k))
          (fun r j => (W3 m ρ c (Proc.devRef .tc main_v9) : ArrK S2x4096x4096 .bf16) (ix3 b r j))
          (fun l k q => (m ((c : Thread nD τ).loc main_arg6) : ArrK S6x512x512 .f32) (ix3 l k q))
          (fun l q => (m ((c : Thread nD τ).loc main_arg7) : ArrK S6x512 .f32) (ix2 l q)) r q := by
  refine Cert.ChainPure.chain6_cut
      (W3 m ρ c (Proc.devRef .tc main_v4))
      (W4 m ρ c (Proc.devRef .tc main_v15))
      (W6 m ρ c (Proc.devRef .tc main_v21))
      (W8 m ρ c (Proc.devRef .tc main_v27))
      (W10 m ρ c (Proc.devRef .tc main_v33))
      (W12 m ρ c (Proc.devRef .tc main_v39))
      (W14 m ρ c (Proc.devRef .tc main_v45))
      (W3 m ρ c (Proc.devRef .tc main_v9))
      (W3 m ρ c (Proc.devRef .tc main_v11))
      (W5 m ρ c (Proc.devRef .tc main_v17))
      (W7 m ρ c (Proc.devRef .tc main_v23))
      (W9 m ρ c (Proc.devRef .tc main_v29))
      (W11 m ρ c (Proc.devRef .tc main_v35))
      (W13 m ρ c (Proc.devRef .tc main_v41))
      (W3 m ρ c (Proc.devRef .tc main_v14))
      (W5 m ρ c (Proc.devRef .tc main_v20))
      (W7 m ρ c (Proc.devRef .tc main_v26))
      (W9 m ρ c (Proc.devRef .tc main_v32))
      (W11 m ρ c (Proc.devRef .tc main_v38))
      (W13 m ρ c (Proc.devRef .tc main_v44))
      (layer0_eq m ρ c) (layer1_eq m ρ c) (layer2_eq m ρ c) (layer3_eq m ρ c) (layer4_eq m ρ c) (layer5_eq m ρ c)
      (m ((c : Thread nD τ).loc main_arg6)) (m ((c : Thread nD τ).loc main_arg7)) ?_ ?_ b r q
  · intro l k q
    match l with
    | ⟨0, _⟩ => exact (pre_W0 (W2 m ρ c) k q).trans (congrFun (keep2 m ρ c quiet_arg6) _)
    | ⟨1, _⟩ => exact (lay_W1 (W4 m ρ c) k q).trans (congrFun (keep4 m ρ c quiet_arg6) _)
    | ⟨2, _⟩ => exact (lay_W2 (W6 m ρ c) k q).trans (congrFun (keep6 m ρ c quiet_arg6) _)
    | ⟨3, _⟩ => exact (lay_W3 (W8 m ρ c) k q).trans (congrFun (keep8 m ρ c quiet_arg6) _)
    | ⟨4, _⟩ => exact (lay_W4 (W10 m ρ c) k q).trans (congrFun (keep10 m ρ c quiet_arg6) _)
    | ⟨5, _⟩ => exact (lay_W5 (W12 m ρ c) k q).trans (congrFun (keep12 m ρ c quiet_arg6) _)
  · intro l q
    match l with
    | ⟨0, _⟩ => exact (pre_b0 (W2 m ρ c) q).trans (congrFun (keep2 m ρ c quiet_arg7) _)
    | ⟨1, _⟩ => exact (lay_b1 (W4 m ρ c) q).trans (congrFun (keep4 m ρ c quiet_arg7) _)
    | ⟨2, _⟩ => exact (lay_b2 (W6 m ρ c) q).trans (congrFun (keep6 m ρ c quiet_arg7) _)
    | ⟨3, _⟩ => exact (lay_b3 (W8 m ρ c) q).trans (congrFun (keep8 m ρ c quiet_arg7) _)
    | ⟨4, _⟩ => exact (lay_b4 (W10 m ρ c) q).trans (congrFun (keep10 m ρ c quiet_arg7) _)
    | ⟨5, _⟩ => exact (lay_b5 (W12 m ρ c) q).trans (congrFun (keep12 m ρ c quiet_arg7) _)

theorem rows0 (c : Dev nD)
    (hr : ∀ i : S4096.Idx, (-10000 : Int) ≤ ((m ((c : Thread nD τ).loc main_arg0) : IVec S4096 32) i).toInt
      ∧ ((m ((c : Thread nD τ).loc main_arg0) : IVec S4096 32) i).toInt < 10000) :
    (W2 m ρ c (Proc.devRef .tc main_v0) : FVec Ideal S4096x512 .f32)
      = Cert.ReferenceIdeal.RefValue.gatherR (F := Ideal) (m ((c : Thread nD τ).loc main_arg5)) (m ((c : Thread nD τ).loc main_arg0)) :=
  (W2_of m ρ c main_v0 (by decide)).trans
    ((take0 (W0 m ρ c)).trans (Cert.Bridge.takeK_gatherR _ _ hr))

theorem rows1 (c : Dev nD)
    (hr : ∀ i : S4096.Idx, (-10000 : Int) ≤ ((m ((c : Thread nD τ).loc main_arg1) : IVec S4096 32) i).toInt
      ∧ ((m ((c : Thread nD τ).loc main_arg1) : IVec S4096 32) i).toInt < 10000) :
    (W2 m ρ c (Proc.devRef .tc main_v1) : FVec Ideal S4096x512 .f32)
      = Cert.ReferenceIdeal.RefValue.gatherR (F := Ideal) (m ((c : Thread nD τ).loc main_arg5)) (m ((c : Thread nD τ).loc main_arg1)) := by
  have e5 : W1 m ρ c (Proc.devRef .tc main_arg5) = m ((c : Thread nD τ).loc main_arg5) := W1_of m ρ c main_arg5 (by decide)
  have e1 : W1 m ρ c (Proc.devRef .tc main_arg1) = m ((c : Thread nD τ).loc main_arg1) := W1_of m ρ c main_arg1 (by decide)
  refine (take1 (W1 m ρ c)).trans ?_
  rw [e5, e1]
  exact Cert.Bridge.takeK_gatherR _ _ hr

theorem adjArg2 (c : Dev nD) : W2 m ρ c (Proc.devRef .tc main_arg2) = m ((c : Thread nD τ).loc main_arg2) :=
  (W2_of m ρ c main_arg2 (by decide)).trans (W1_of m ρ c main_arg2 (by decide))

theorem adjArg3 (c : Dev nD) : W2 m ρ c (Proc.devRef .tc main_arg3) = m ((c : Thread nD τ).loc main_arg3) :=
  (W2_of m ρ c main_arg3 (by decide)).trans (W1_of m ρ c main_arg3 (by decide))

theorem result_eq (c : Dev nD)
    (hr1 : ∀ i : S4096.Idx, (-10000 : Int) ≤ ((m ((c : Thread nD τ).loc main_arg0) : IVec S4096 32) i).toInt
      ∧ ((m ((c : Thread nD τ).loc main_arg0) : IVec S4096 32) i).toInt < 10000)
    (hr2 : ∀ i : S4096.Idx, (-10000 : Int) ≤ ((m ((c : Thread nD τ).loc main_arg1) : IVec S4096 32) i).toInt
      ∧ ((m ((c : Thread nD τ).loc main_arg1) : IVec S4096 32) i).toInt < 10000) :
    W23 m ρ c (Proc.devRef .tc main_v92)
      = Cert.ReferenceIdeal.RefValue.refResult (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) := by
  refine (tail_result (W14 m ρ c)).trans ?_
  rw [keep14 m ρ c quiet_arg4, keep14 m ρ c quiet_arg8, keep14 m ρ c quiet_arg9, keep14 m ρ c quiet_arg10,
    keep14 m ρ c quiet_arg11, keep14 m ρ c quiet_arg12, keep14 m ρ c quiet_arg13]
  have x0 : (fun (r : Fin 4096) (k : Fin 512) => (W3 m ρ c (Proc.devRef .tc main_v4) : ArrK S2x4096x512 .f32) (ix3 (0 : Fin 2) r k))
      = fun r k => Cert.ReferenceIdeal.RefValue.gatherR (F := Ideal) (m ((c : Thread nD τ).loc main_arg5)) (m ((c : Thread nD τ).loc main_arg0)) (ix2 r k) :=
    funext fun r => funext fun k => (pre_x0 (W2 m ρ c) r k).trans (congrFun (rows0 m ρ c hr1) _)
  have x1 : (fun (r : Fin 4096) (k : Fin 512) => (W3 m ρ c (Proc.devRef .tc main_v4) : ArrK S2x4096x512 .f32) (ix3 (1 : Fin 2) r k))
      = fun r k => Cert.ReferenceIdeal.RefValue.gatherR (F := Ideal) (m ((c : Thread nD τ).loc main_arg5)) (m ((c : Thread nD τ).loc main_arg1)) (ix2 r k) :=
    funext fun r => funext fun k => (pre_x1 (W2 m ρ c) r k).trans (congrFun (rows1 m ρ c hr2) _)
  have a0 : (fun (r j : Fin 4096) => ((W3 m ρ c (Proc.devRef .tc main_v9) : ArrK S2x4096x4096 .bf16) (ix3 (0 : Fin 2) r j) : EReal))
      = fun r j => (m ((c : Thread nD τ).loc main_arg2) : ArrK S4096x4096 .f32) (ix2 r j) :=
    funext fun r => funext fun j => (pre_A0 (W2 m ρ c) r j).trans (congrFun (adjArg2 m ρ c) _)
  have a1 : (fun (r j : Fin 4096) => ((W3 m ρ c (Proc.devRef .tc main_v9) : ArrK S2x4096x4096 .bf16) (ix3 (1 : Fin 2) r j) : EReal))
      = fun r j => (m ((c : Thread nD τ).loc main_arg3) : ArrK S4096x4096 .f32) (ix2 r j) :=
    funext fun r => funext fun j => (pre_A1 (W2 m ρ c) r j).trans (congrFun (adjArg3 m ρ c) _)
  refine Cert.Bridge.bridge (W14 m ρ c (Proc.devRef .tc main_v45)) sliceS (fun b x r q => sliceS_apply b x r q)
    _ _ _ _ _ _ _ _ _ _ _ _ _ _ ?_ ?_
  · intro r q
    refine (six_layers m ρ c 0 r q).trans ?_
    rw [x0, a0]
  · intro r q
    refine (six_layers m ρ c 1 r q).trans ?_
    rw [x1, a1]

end Cert.KernelIdeal.Gen

end
-- ==== Proof.Ref.Base.lean ====
import proofs.«426140_j3899830305296_1_alg».proof.Proof.Gen.ReferenceIdeal
import proofs.«426140_j3899830305296_1_alg».proof.Proof.RefLayer
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

macro "writes_in_list" : term => `(writes_sub_of_mem rfl (by decide))

abbrev argsL : List (Ref sig .tc) :=
  [main_arg0, main_arg1, main_arg2, main_arg3, main_arg4, main_arg5, main_arg6, main_arg7, main_arg8, main_arg9, main_arg10,
    main_arg11, main_arg12, main_arg13]

end Cert.ReferenceIdeal.RefRun

end
-- ==== Proof.Ref.StreamA.lean ====
import proofs.«426140_j3899830305296_1_alg».proof.Proof.Ref.Base
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

abbrev take1 : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg0 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 10000#32),
    unary main_c_0 main_v2 (broadcastInDim S4096 ![] bcast_S_S4096 : (⟨S_, .i32⟩ : BufTy).Contents (Elt F) → (⟨S4096, .i32⟩ : BufTy).Contents (Elt F)),
    binary main_arg0 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg0 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg5 main_v5 main_v6 ((fun x i => Host.gather gather_S10000x512_S4096x1_S4096x512_1_0_n_n_0_1_1512 x i) : (⟨S10000x512, .f32⟩ : BufTy).Contents (Elt F) → (⟨S4096x1, .i32⟩ : BufTy).Contents (Elt F) → (⟨S4096x512, .f32⟩ : BufTy).Contents (Elt F)) ]

abbrev take1W : List (Ref sig .tc) :=
  [main_c, main_v0, main_v1, main_c_0, main_v2, main_v3, main_v4, main_v5, main_v6]

theorem take1_writes : (take1 (F := F)).Forall fun op => op.writes ⊆ (take1W.map (Proc.devRef (τ := τ) .tc)).toFinset :=
  ⟨writes_in_list, writes_in_list, writes_in_list, writes_in_list, writes_in_list, writes_in_list, writes_in_list, writes_in_list, writes_in_list⟩

theorem take1_sub : (take1 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem take1_fresh : (take1 (F := F)).Forall fun op => op.fresh = ∅ :=
  ⟨rfl, rfl, rfl, rfl, rfl, rfl, rfl, rfl, rfl⟩

theorem take1_val (V : Valuation τ sig (Elt F)) :
    after take1 V (Proc.devRef .tc main_v6) =
      gatherR (V (Proc.devRef .tc main_arg5)) (V (Proc.devRef .tc main_arg0)) := by
  after_results_simp <;> (try simp only [TRef.ofBuf, TRef.toBuf, cast_eq]) <;> (try unfold gatherR) <;> rfl

theorem take1_keep (V : Valuation τ sig (Elt F)) {r : Ref sig .tc} (hr : r ∉ take1W) :
    after take1 V (Proc.devRef .tc r) = V (Proc.devRef .tc r) :=
  after_of_writes_sub take1 V take1_writes hr

theorem take1_keepArgs (V : Valuation τ sig (Elt F)) :
    ∀ r ∈ argsL, after take1 V (Proc.devRef .tc r) = V (Proc.devRef .tc r) :=
  fun r hr => take1_keep V ((by decide : ∀ r ∈ argsL, r ∉ take1W) r hr)

abbrev layA0 : List (HloOp τ sig (Elt F)) :=
  [ unary main_arg6 main_v7 ((extractStridedSlice S1x512x512 ![0, 0, 0] · slices_S6x512x512_S1x512x512_0_0_0) : (⟨S6x512x512, .f32⟩ : BufTy).Contents (Elt F) → (⟨S1x512x512, .f32⟩ : BufTy).Contents (Elt F)),
    reshape main_v7 main_v8 rfl shapeCasts_S1x512x512_S512x512,
    binary main_v6 main_v8 main_v9 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v10 ((extractStridedSlice S1x512 ![0, 0] · slices_S6x512_S1x512_0_0) : (⟨S6x512, .f32⟩ : BufTy).Contents (Elt F) → (⟨S1x512, .f32⟩ : BufTy).Contents (Elt F)),
    reshape main_v10 main_v11 rfl shapeCasts_S1x512_S512,
    unary main_v11 main_v12 (broadcastInDim S1x512 ![1] bcast_S512_S1x512_1 : (⟨S512, .f32⟩ : BufTy).Contents (Elt F) → (⟨S1x512, .f32⟩ : BufTy).Contents (Elt F)),
    unary main_v12 main_v13 (broadcastInDim S4096x512 ![0, 1] bcast_S1x512_S4096x512_0_1 : (⟨S1x512, .f32⟩ : BufTy).Contents (Elt F) → (⟨S4096x512, .f32⟩ : BufTy).Contents (Elt F)),
    binary main_v9 main_v13 main_v14 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x512, .f32⟩) main_call0_v0) (broadcastInDim S4096x512 ![] bcast_S_S4096x512),
    TRef.binary (TRef.of (T := ⟨S4096x512, .f32⟩) main_v14) (TRef.of (T := ⟨S4096x512, .f32⟩) main_call0_v0) (TRef.of (T := ⟨S4096x512, .f32⟩) main_v15) maximumf,
    binary main_arg2 main_v15 main_v16 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v15 main_v16 main_v17 (addf : (⟨S4096x512, .f32⟩ : BufTy).Contents (Elt F) → (⟨S4096x512, .f32⟩ : BufTy).Contents (Elt F) → (⟨S4096x512, .f32⟩ : BufTy).Contents (Elt F)),
    binary main_v17 main_v17 main_v18 (mulf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    binary main_v18 main_cst main_v19 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (Host.sqrt : (⟨S4096x1, .f32⟩ : BufTy).Contents (Elt F) → (⟨S4096x1, .f32⟩ : BufTy).Contents (Elt F)),
    nullary main_cst_1 (constant S_ .f32 0x2B8CBCCC#32),
    unary main_cst_1 main_v22 (broadcastInDim S4096x1 ![] bcast_S_S4096x1 : (⟨S_, .f32⟩ : BufTy).Contents (Elt F) → (⟨S4096x1, .f32⟩ : BufTy).Contents (Elt F)),
    binary main_v21 main_v22 main_v23 (maximumf : (⟨S4096x1, .f32⟩ : BufTy).Contents (Elt F) → (⟨S4096x1, .f32⟩ : BufTy).Contents (Elt F) → (⟨S4096x1, .f32⟩ : BufTy).Contents (Elt F)),
    unary main_v23 main_v24 (broadcastInDim S4096x512 ![0, 1] bcast_S4096x1_S4096x512_0_1 : (⟨S4096x1, .f32⟩ : BufTy).Contents (Elt F) → (⟨S4096x512, .f32⟩ : BufTy).Contents (Elt F)),
    binary main_v17 main_v24 main_v25 (Host.divf : (⟨S4096x512, .f32⟩ : BufTy).Contents (Elt F) → (⟨S4096x512, .f32⟩ : BufTy).Contents (Elt F) → (⟨S4096x512, .f32⟩ : BufTy).Contents (Elt F)) ]

abbrev layA0W : List (Ref sig .tc) :=
  [main_v7, main_v8, main_v9, main_v10, main_v11, main_v12, main_v13, main_v14, main_call0_cst, main_call0_v0, main_v15, main_v16, main_v17, main_v18, main_cst, main_v19, main_v20, main_v21, main_cst_1, main_v22, main_v23, main_v24, main_v25]

theorem layA0_writes : (layA0 (F := F)).Forall fun op => op.writes ⊆ (layA0W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layA0_sub : (layA0 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layA0_fresh : (layA0 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layA0_val (V : Valuation τ sig (Elt F)) :
    after layA0 V (Proc.devRef .tc main_v25) =
      layerOps (V (Proc.devRef .tc main_v6)) (V (Proc.devRef .tc main_arg2))
        (shapeCast S512x512 (extractStridedSlice S1x512x512 ![0, 0, 0] (V (Proc.devRef .tc main_arg6)) slices_S6x512x512_S1x512x512_0_0_0 : ArrF F S1x512x512) shapeCasts_S1x512x512_S512x512)
        (shapeCast S512 (extractStridedSlice S1x512 ![0, 0] (V (Proc.devRef .tc main_arg7)) slices_S6x512_S1x512_0_0 : ArrF F S1x512) shapeCasts_S1x512_S512) := by
  after_results_simp <;> (try simp only [TRef.ofBuf, TRef.toBuf, cast_eq]) <;> (try unfold layerOps nrmOps msgOps hidOps) <;> rfl

theorem layA0_keep (V : Valuation τ sig (Elt F)) {r : Ref sig .tc} (hr : r ∉ layA0W) :
    after layA0 V (Proc.devRef .tc r) = V (Proc.devRef .tc r) :=
  after_of_writes_sub layA0 V layA0_writes hr

theorem layA0_keepArgs (V : Valuation τ sig (Elt F)) :
    ∀ r ∈ argsL, after layA0 V (Proc.devRef .tc r) = V (Proc.devRef .tc r) :=
  fun r hr => layA0_keep V ((by decide : ∀ r ∈ argsL, r ∉ layA0W) r hr)

abbrev layA1 : List (HloOp τ sig (Elt F)) :=
  [ unary main_arg6 main_v26 ((extractStridedSlice S1x512x512 ![1, 0, 0] · slices_S6x512x512_S1x512x512_1_0_0) : (⟨S6x512x512, .f32⟩ : BufTy).Contents (Elt F) → (⟨S1x512x512, .f32⟩ : BufTy).Contents (Elt F)),
    reshape main_v26 main_v27 rfl shapeCasts_S1x512x512_S512x512,
    binary main_v25 main_v27 main_v28 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v29 ((extractStridedSlice S1x512 ![1, 0] · slices_S6x512_S1x512_1_0) : (⟨S6x512, .f32⟩ : BufTy).Contents (Elt F) → (⟨S1x512, .f32⟩ : BufTy).Contents (Elt F)),
    reshape main_v29 main_v30 rfl shapeCasts_S1x512_S512,
    unary main_v30 main_v31 (broadcastInDim S1x512 ![1] bcast_S512_S1x512_1 : (⟨S512, .f32⟩ : BufTy).Contents (Elt F) → (⟨S1x512, .f32⟩ : BufTy).Contents (Elt F)),
    unary main_v31 main_v32 (broadcastInDim S4096x512 ![0, 1] bcast_S1x512_S4096x512_0_1 : (⟨S1x512, .f32⟩ : BufTy).Contents (Elt F) → (⟨S4096x512, .f32⟩ : BufTy).Contents (Elt F)),
    binary main_v28 main_v32 main_v33 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x512, .f32⟩) main_call1_v0) (broadcastInDim S4096x512 ![] bcast_S_S4096x512),
    TRef.binary (TRef.of (T := ⟨S4096x512, .f32⟩) main_v33) (TRef.of (T := ⟨S4096x512, .f32⟩) main_call1_v0) (TRef.of (T := ⟨S4096x512, .f32⟩) main_v34) maximumf,
    binary main_arg2 main_v34 main_v35 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v34 main_v35 main_v36 (addf : (⟨S4096x512, .f32⟩ : BufTy).Contents (Elt F) → (⟨S4096x512, .f32⟩ : BufTy).Contents (Elt F) → (⟨S4096x512, .f32⟩ : BufTy).Contents (Elt F)),
    binary main_v36 main_v36 main_v37 (mulf : (⟨S4096x512, .f32⟩ : BufTy).Contents (Elt F) → (⟨S4096x512, .f32⟩ : BufTy).Contents (Elt F) → (⟨S4096x512, .f32⟩ : BufTy).Contents (Elt F)),
    nullary main_cst_2 (constant S_ .f32 0x00000000#32),
    binary main_v37 main_cst_2 main_v38 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v38 main_v39 (broadcastInDim S4096x1 ![0] bcast_S4096_S4096x1_0 : (⟨S4096, .f32⟩ : BufTy).Contents (Elt F) → (⟨S4096x1, .f32⟩ : BufTy).Contents (Elt F)),
    unary main_v39 main_v40 (Host.sqrt : (⟨S4096x1, .f32⟩ : BufTy).Contents (Elt F) → (⟨S4096x1, .f32⟩ : BufTy).Contents (Elt F)),
    nullary main_cst_3 (constant S_ .f32 0x2B8CBCCC#32),
    unary main_cst_3 main_v41 (broadcastInDim S4096x1 ![] bcast_S_S4096x1 : (⟨S_, .f32⟩ : BufTy).Contents (Elt F) → (⟨S4096x1, .f32⟩ : BufTy).Contents (Elt F)),
    binary main_v40 main_v41 main_v42 (maximumf : (⟨S4096x1, .f32⟩ : BufTy).Contents (Elt F) → (⟨S4096x1, .f32⟩ : BufTy).Contents (Elt F) → (⟨S4096x1, .f32⟩ : BufTy).Contents (Elt F)),
    unary main_v42 main_v43 (broadcastInDim S4096x512 ![0, 1] bcast_S4096x1_S4096x512_0_1 : (⟨S4096x1, .f32⟩ : BufTy).Contents (Elt F) → (⟨S4096x512, .f32⟩ : BufTy).Contents (Elt F)),
    binary main_v36 main_v43 main_v44 (Host.divf : (⟨S4096x512, .f32⟩ : BufTy).Contents (Elt F) → (⟨S4096x512, .f32⟩ : BufTy).Contents (Elt F) → (⟨S4096x512, .f32⟩ : BufTy).Contents (Elt F)) ]

abbrev layA1W : List (Ref sig .tc) :=
  [main_v26, main_v27, main_v28, main_v29, main_v30, main_v31, main_v32, main_v33, main_call1_cst, main_call1_v0, main_v34, main_v35, main_v36, main_v37, main_cst_2, main_v38, main_v39, main_v40, main_cst_3, main_v41, main_v42, main_v43, main_v44]

theorem layA1_writes : (layA1 (F := F)).Forall fun op => op.writes ⊆ (layA1W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layA1_sub : (layA1 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layA1_fresh : (layA1 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layA1_val (V : Valuation τ sig (Elt F)) :
    after layA1 V (Proc.devRef .tc main_v44) =
      layerOps (V (Proc.devRef .tc main_v25)) (V (Proc.devRef .tc main_arg2))
        (shapeCast S512x512 (extractStridedSlice S1x512x512 ![1, 0, 0] (V (Proc.devRef .tc main_arg6)) slices_S6x512x512_S1x512x512_1_0_0 : ArrF F S1x512x512) shapeCasts_S1x512x512_S512x512)
        (shapeCast S512 (extractStridedSlice S1x512 ![1, 0] (V (Proc.devRef .tc main_arg7)) slices_S6x512_S1x512_1_0 : ArrF F S1x512) shapeCasts_S1x512_S512) := by
  after_results_simp <;> (try simp only [TRef.ofBuf, TRef.toBuf, cast_eq]) <;> (try unfold layerOps nrmOps msgOps hidOps) <;> rfl

theorem layA1_keep (V : Valuation τ sig (Elt F)) {r : Ref sig .tc} (hr : r ∉ layA1W) :
    after layA1 V (Proc.devRef .tc r) = V (Proc.devRef .tc r) :=
  after_of_writes_sub layA1 V layA1_writes hr

theorem layA1_keepArgs (V : Valuation τ sig (Elt F)) :
    ∀ r ∈ argsL, after layA1 V (Proc.devRef .tc r) = V (Proc.devRef .tc r) :=
  fun r hr => layA1_keep V ((by decide : ∀ r ∈ argsL, r ∉ layA1W) r hr)

abbrev layA2 : List (HloOp τ sig (Elt F)) :=
  [ unary main_arg6 main_v45 ((extractStridedSlice S1x512x512 ![2, 0, 0] · slices_S6x512x512_S1x512x512_2_0_0) : (⟨S6x512x512, .f32⟩ : BufTy).Contents (Elt F) → (⟨S1x512x512, .f32⟩ : BufTy).Contents (Elt F)),
    reshape main_v45 main_v46 rfl shapeCasts_S1x512x512_S512x512,
    binary main_v44 main_v46 main_v47 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v48 ((extractStridedSlice S1x512 ![2, 0] · slices_S6x512_S1x512_2_0) : (⟨S6x512, .f32⟩ : BufTy).Contents (Elt F) → (⟨S1x512, .f32⟩ : BufTy).Contents (Elt F)),
    reshape main_v48 main_v49 rfl shapeCasts_S1x512_S512,
    unary main_v49 main_v50 (broadcastInDim S1x512 ![1] bcast_S512_S1x512_1 : (⟨S512, .f32⟩ : BufTy).Contents (Elt F) → (⟨S1x512, .f32⟩ : BufTy).Contents (Elt F)),
    unary main_v50 main_v51 (broadcastInDim S4096x512 ![0, 1] bcast_S1x512_S4096x512_0_1 : (⟨S1x512, .f32⟩ : BufTy).Contents (Elt F) → (⟨S4096x512, .f32⟩ : BufTy).Contents (Elt F)),
    binary main_v47 main_v51 main_v52 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x512, .f32⟩) main_call2_v0) (broadcastInDim S4096x512 ![] bcast_S_S4096x512),
    TRef.binary (TRef.of (T := ⟨S4096x512, .f32⟩) main_v52) (TRef.of (T := ⟨S4096x512, .f32⟩) main_call2_v0) (TRef.of (T := ⟨S4096x512, .f32⟩) main_v53) maximumf,
    binary main_arg2 main_v53 main_v54 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v53 main_v54 main_v55 (addf : (⟨S4096x512, .f32⟩ : BufTy).Contents (Elt F) → (⟨S4096x512, .f32⟩ : BufTy).Contents (Elt F) → (⟨S4096x512, .f32⟩ : BufTy).Contents (Elt F)),
    binary main_v55 main_v55 main_v56 (mulf : (⟨S4096x512, .f32⟩ : BufTy).Contents (Elt F) → (⟨S4096x512, .f32⟩ : BufTy).Contents (Elt F) → (⟨S4096x512, .f32⟩ : BufTy).Contents (Elt F)),
    nullary main_cst_4 (constant S_ .f32 0x00000000#32),
    binary main_v56 main_cst_4 main_v57 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v57 main_v58 (broadcastInDim S4096x1 ![0] bcast_S4096_S4096x1_0 : (⟨S4096, .f32⟩ : BufTy).Contents (Elt F) → (⟨S4096x1, .f32⟩ : BufTy).Contents (Elt F)),
    unary main_v58 main_v59 (Host.sqrt : (⟨S4096x1, .f32⟩ : BufTy).Contents (Elt F) → (⟨S4096x1, .f32⟩ : BufTy).Contents (Elt F)),
    nullary main_cst_5 (constant S_ .f32 0x2B8CBCCC#32),
    unary main_cst_5 main_v60 (broadcastInDim S4096x1 ![] bcast_S_S4096x1 : (⟨S_, .f32⟩ : BufTy).Contents (Elt F) → (⟨S4096x1, .f32⟩ : BufTy).Contents (Elt F)),
    binary main_v59 main_v60 main_v61 (maximumf : (⟨S4096x1, .f32⟩ : BufTy).Contents (Elt F) → (⟨S4096x1, .f32⟩ : BufTy).Contents (Elt F) → (⟨S4096x1, .f32⟩ : BufTy).Contents (Elt F)),
    unary main_v61 main_v62 (broadcastInDim S4096x512 ![0, 1] bcast_S4096x1_S4096x512_0_1 : (⟨S4096x1, .f32⟩ : BufTy).Contents (Elt F) → (⟨S4096x512, .f32⟩ : BufTy).Contents (Elt F)),
    binary main_v55 main_v62 main_v63 (Host.divf : (⟨S4096x512, .f32⟩ : BufTy).Contents (Elt F) → (⟨S4096x512, .f32⟩ : BufTy).Contents (Elt F) → (⟨S4096x512, .f32⟩ : BufTy).Contents (Elt F)) ]

abbrev layA2W : List (Ref sig .tc) :=
  [main_v45, main_v46, main_v47, main_v48, main_v49, main_v50, main_v51, main_v52, main_call2_cst, main_call2_v0, main_v53, main_v54, main_v55, main_v56, main_cst_4, main_v57, main_v58, main_v59, main_cst_5, main_v60, main_v61, main_v62, main_v63]

theorem layA2_writes : (layA2 (F := F)).Forall fun op => op.writes ⊆ (layA2W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layA2_sub : (layA2 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layA2_fresh : (layA2 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layA2_val (V : Valuation τ sig (Elt F)) :
    after layA2 V (Proc.devRef .tc main_v63) =
      layerOps (V (Proc.devRef .tc main_v44)) (V (Proc.devRef .tc main_arg2))
        (shapeCast S512x512 (extractStridedSlice S1x512x512 ![2, 0, 0] (V (Proc.devRef .tc main_arg6)) slices_S6x512x512_S1x512x512_2_0_0 : ArrF F S1x512x512) shapeCasts_S1x512x512_S512x512)
        (shapeCast S512 (extractStridedSlice S1x512 ![2, 0] (V (Proc.devRef .tc main_arg7)) slices_S6x512_S1x512_2_0 : ArrF F S1x512) shapeCasts_S1x512_S512) := by
  after_results_simp <;> (try simp only [TRef.ofBuf, TRef.toBuf, cast_eq]) <;> (try unfold layerOps nrmOps msgOps hidOps) <;> rfl

theorem layA2_keep (V : Valuation τ sig (Elt F)) {r : Ref sig .tc} (hr : r ∉ layA2W) :
    after layA2 V (Proc.devRef .tc r) = V (Proc.devRef .tc r) :=
  after_of_writes_sub layA2 V layA2_writes hr

theorem layA2_keepArgs (V : Valuation τ sig (Elt F)) :
    ∀ r ∈ argsL, after layA2 V (Proc.devRef .tc r) = V (Proc.devRef .tc r) :=
  fun r hr => layA2_keep V ((by decide : ∀ r ∈ argsL, r ∉ layA2W) r hr)

abbrev layA3 : List (HloOp τ sig (Elt F)) :=
  [ unary main_arg6 main_v64 ((extractStridedSlice S1x512x512 ![3, 0, 0] · slices_S6x512x512_S1x512x512_3_0_0) : (⟨S6x512x512, .f32⟩ : BufTy).Contents (Elt F) → (⟨S1x512x512, .f32⟩ : BufTy).Contents (Elt F)),
    reshape main_v64 main_v65 rfl shapeCasts_S1x512x512_S512x512,
    binary main_v63 main_v65 main_v66 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v67 ((extractStridedSlice S1x512 ![3, 0] · slices_S6x512_S1x512_3_0) : (⟨S6x512, .f32⟩ : BufTy).Contents (Elt F) → (⟨S1x512, .f32⟩ : BufTy).Contents (Elt F)),
    reshape main_v67 main_v68 rfl shapeCasts_S1x512_S512,
    unary main_v68 main_v69 (broadcastInDim S1x512 ![1] bcast_S512_S1x512_1 : (⟨S512, .f32⟩ : BufTy).Contents (Elt F) → (⟨S1x512, .f32⟩ : BufTy).Contents (Elt F)),
    unary main_v69 main_v70 (broadcastInDim S4096x512 ![0, 1] bcast_S1x512_S4096x512_0_1 : (⟨S1x512, .f32⟩ : BufTy).Contents (Elt F) → (⟨S4096x512, .f32⟩ : BufTy).Contents (Elt F)),
    binary main_v66 main_v70 main_v71 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x512, .f32⟩) main_call3_v0) (broadcastInDim S4096x512 ![] bcast_S_S4096x512),
    TRef.binary (TRef.of (T := ⟨S4096x512, .f32⟩) main_v71) (TRef.of (T := ⟨S4096x512, .f32⟩) main_call3_v0) (TRef.of (T := ⟨S4096x512, .f32⟩) main_v72) maximumf,
    binary main_arg2 main_v72 main_v73 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v72 main_v73 main_v74 (addf : (⟨S4096x512, .f32⟩ : BufTy).Contents (Elt F) → (⟨S4096x512, .f32⟩ : BufTy).Contents (Elt F) → (⟨S4096x512, .f32⟩ : BufTy).Contents (Elt F)),
    binary main_v74 main_v74 main_v75 (mulf : (⟨S4096x512, .f32⟩ : BufTy).Contents (Elt F) → (⟨S4096x512, .f32⟩ : BufTy).Contents (Elt F) → (⟨S4096x512, .f32⟩ : BufTy).Contents (Elt F)),
    nullary main_cst_6 (constant S_ .f32 0x00000000#32),
    binary main_v75 main_cst_6 main_v76 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v76 main_v77 (broadcastInDim S4096x1 ![0] bcast_S4096_S4096x1_0 : (⟨S4096, .f32⟩ : BufTy).Contents (Elt F) → (⟨S4096x1, .f32⟩ : BufTy).Contents (Elt F)),
    unary main_v77 main_v78 (Host.sqrt : (⟨S4096x1, .f32⟩ : BufTy).Contents (Elt F) → (⟨S4096x1, .f32⟩ : BufTy).Contents (Elt F)),
    nullary main_cst_7 (constant S_ .f32 0x2B8CBCCC#32),
    unary main_cst_7 main_v79 (broadcastInDim S4096x1 ![] bcast_S_S4096x1 : (⟨S_, .f32⟩ : BufTy).Contents (Elt F) → (⟨S4096x1, .f32⟩ : BufTy).Contents (Elt F)),
    binary main_v78 main_v79 main_v80 (maximumf : (⟨S4096x1, .f32⟩ : BufTy).Contents (Elt F) → (⟨S4096x1, .f32⟩ : BufTy).Contents (Elt F) → (⟨S4096x1, .f32⟩ : BufTy).Contents (Elt F)),
    unary main_v80 main_v81 (broadcastInDim S4096x512 ![0, 1] bcast_S4096x1_S4096x512_0_1 : (⟨S4096x1, .f32⟩ : BufTy).Contents (Elt F) → (⟨S4096x512, .f32⟩ : BufTy).Contents (Elt F)),
    binary main_v74 main_v81 main_v82 (Host.divf : (⟨S4096x512, .f32⟩ : BufTy).Contents (Elt F) → (⟨S4096x512, .f32⟩ : BufTy).Contents (Elt F) → (⟨S4096x512, .f32⟩ : BufTy).Contents (Elt F)) ]

abbrev layA3W : List (Ref sig .tc) :=
  [main_v64, main_v65, main_v66, main_v67, main_v68, main_v69, main_v70, main_v71, main_call3_cst, main_call3_v0, main_v72, main_v73, main_v74, main_v75, main_cst_6, main_v76, main_v77, main_v78, main_cst_7, main_v79, main_v80, main_v81, main_v82]

theorem layA3_writes : (layA3 (F := F)).Forall fun op => op.writes ⊆ (layA3W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layA3_sub : (layA3 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layA3_fresh : (layA3 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layA3_val (V : Valuation τ sig (Elt F)) :
    after layA3 V (Proc.devRef .tc main_v82) =
      layerOps (V (Proc.devRef .tc main_v63)) (V (Proc.devRef .tc main_arg2))
        (shapeCast S512x512 (extractStridedSlice S1x512x512 ![3, 0, 0] (V (Proc.devRef .tc main_arg6)) slices_S6x512x512_S1x512x512_3_0_0 : ArrF F S1x512x512) shapeCasts_S1x512x512_S512x512)
        (shapeCast S512 (extractStridedSlice S1x512 ![3, 0] (V (Proc.devRef .tc main_arg7)) slices_S6x512_S1x512_3_0 : ArrF F S1x512) shapeCasts_S1x512_S512) := by
  after_results_simp <;> (try simp only [TRef.ofBuf, TRef.toBuf, cast_eq]) <;> (try unfold layerOps nrmOps msgOps hidOps) <;> rfl

theorem layA3_keep (V : Valuation τ sig (Elt F)) {r : Ref sig .tc} (hr : r ∉ layA3W) :
    after layA3 V (Proc.devRef .tc r) = V (Proc.devRef .tc r) :=
  after_of_writes_sub layA3 V layA3_writes hr

theorem layA3_keepArgs (V : Valuation τ sig (Elt F)) :
    ∀ r ∈ argsL, after layA3 V (Proc.devRef .tc r) = V (Proc.devRef .tc r) :=
  fun r hr => layA3_keep V ((by decide : ∀ r ∈ argsL, r ∉ layA3W) r hr)

abbrev layA4 : List (HloOp τ sig (Elt F)) :=
  [ unary main_arg6 main_v83 ((extractStridedSlice S1x512x512 ![4, 0, 0] · slices_S6x512x512_S1x512x512_4_0_0) : (⟨S6x512x512, .f32⟩ : BufTy).Contents (Elt F) → (⟨S1x512x512, .f32⟩ : BufTy).Contents (Elt F)),
    reshape main_v83 main_v84 rfl shapeCasts_S1x512x512_S512x512,
    binary main_v82 main_v84 main_v85 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v86 ((extractStridedSlice S1x512 ![4, 0] · slices_S6x512_S1x512_4_0) : (⟨S6x512, .f32⟩ : BufTy).Contents (Elt F) → (⟨S1x512, .f32⟩ : BufTy).Contents (Elt F)),
    reshape main_v86 main_v87 rfl shapeCasts_S1x512_S512,
    unary main_v87 main_v88 (broadcastInDim S1x512 ![1] bcast_S512_S1x512_1 : (⟨S512, .f32⟩ : BufTy).Contents (Elt F) → (⟨S1x512, .f32⟩ : BufTy).Contents (Elt F)),
    unary main_v88 main_v89 (broadcastInDim S4096x512 ![0, 1] bcast_S1x512_S4096x512_0_1 : (⟨S1x512, .f32⟩ : BufTy).Contents (Elt F) → (⟨S4096x512, .f32⟩ : BufTy).Contents (Elt F)),
    binary main_v85 main_v89 main_v90 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x512, .f32⟩) main_call4_v0) (broadcastInDim S4096x512 ![] bcast_S_S4096x512),
    TRef.binary (TRef.of (T := ⟨S4096x512, .f32⟩) main_v90) (TRef.of (T := ⟨S4096x512, .f32⟩) main_call4_v0) (TRef.of (T := ⟨S4096x512, .f32⟩) main_v91) maximumf,
    binary main_arg2 main_v91 main_v92 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v91 main_v92 main_v93 (addf : (⟨S4096x512, .f32⟩ : BufTy).Contents (Elt F) → (⟨S4096x512, .f32⟩ : BufTy).Contents (Elt F) → (⟨S4096x512, .f32⟩ : BufTy).Contents (Elt F)),
    binary main_v93 main_v93 main_v94 (mulf : (⟨S4096x512, .f32⟩ : BufTy).Contents (Elt F) → (⟨S4096x512, .f32⟩ : BufTy).Contents (Elt F) → (⟨S4096x512, .f32⟩ : BufTy).Contents (Elt F)),
    nullary main_cst_8 (constant S_ .f32 0x00000000#32),
    binary main_v94 main_cst_8 main_v95 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v95 main_v96 (broadcastInDim S4096x1 ![0] bcast_S4096_S4096x1_0 : (⟨S4096, .f32⟩ : BufTy).Contents (Elt F) → (⟨S4096x1, .f32⟩ : BufTy).Contents (Elt F)),
    unary main_v96 main_v97 (Host.sqrt : (⟨S4096x1, .f32⟩ : BufTy).Contents (Elt F) → (⟨S4096x1, .f32⟩ : BufTy).Contents (Elt F)),
    nullary main_cst_9 (constant S_ .f32 0x2B8CBCCC#32),
    unary main_cst_9 main_v98 (broadcastInDim S4096x1 ![] bcast_S_S4096x1 : (⟨S_, .f32⟩ : BufTy).Contents (Elt F) → (⟨S4096x1, .f32⟩ : BufTy).Contents (Elt F)),
    binary main_v97 main_v98 main_v99 (maximumf : (⟨S4096x1, .f32⟩ : BufTy).Contents (Elt F) → (⟨S4096x1, .f32⟩ : BufTy).Contents (Elt F) → (⟨S4096x1, .f32⟩ : BufTy).Contents (Elt F)),
    unary main_v99 main_v100 (broadcastInDim S4096x512 ![0, 1] bcast_S4096x1_S4096x512_0_1 : (⟨S4096x1, .f32⟩ : BufTy).Contents (Elt F) → (⟨S4096x512, .f32⟩ : BufTy).Contents (Elt F)),
    binary main_v93 main_v100 main_v101 (Host.divf : (⟨S4096x512, .f32⟩ : BufTy).Contents (Elt F) → (⟨S4096x512, .f32⟩ : BufTy).Contents (Elt F) → (⟨S4096x512, .f32⟩ : BufTy).Contents (Elt F)) ]

abbrev layA4W : List (Ref sig .tc) :=
  [main_v83, main_v84, main_v85, main_v86, main_v87, main_v88, main_v89, main_v90, main_call4_cst, main_call4_v0, main_v91, main_v92, main_v93, main_v94, main_cst_8, main_v95, main_v96, main_v97, main_cst_9, main_v98, main_v99, main_v100, main_v101]

theorem layA4_writes : (layA4 (F := F)).Forall fun op => op.writes ⊆ (layA4W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layA4_sub : (layA4 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layA4_fresh : (layA4 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layA4_val (V : Valuation τ sig (Elt F)) :
    after layA4 V (Proc.devRef .tc main_v101) =
      layerOps (V (Proc.devRef .tc main_v82)) (V (Proc.devRef .tc main_arg2))
        (shapeCast S512x512 (extractStridedSlice S1x512x512 ![4, 0, 0] (V (Proc.devRef .tc main_arg6)) slices_S6x512x512_S1x512x512_4_0_0 : ArrF F S1x512x512) shapeCasts_S1x512x512_S512x512)
        (shapeCast S512 (extractStridedSlice S1x512 ![4, 0] (V (Proc.devRef .tc main_arg7)) slices_S6x512_S1x512_4_0 : ArrF F S1x512) shapeCasts_S1x512_S512) := by
  after_results_simp <;> (try simp only [TRef.ofBuf, TRef.toBuf, cast_eq]) <;> (try unfold layerOps nrmOps msgOps hidOps) <;> rfl

theorem layA4_keep (V : Valuation τ sig (Elt F)) {r : Ref sig .tc} (hr : r ∉ layA4W) :
    after layA4 V (Proc.devRef .tc r) = V (Proc.devRef .tc r) :=
  after_of_writes_sub layA4 V layA4_writes hr

theorem layA4_keepArgs (V : Valuation τ sig (Elt F)) :
    ∀ r ∈ argsL, after layA4 V (Proc.devRef .tc r) = V (Proc.devRef .tc r) :=
  fun r hr => layA4_keep V ((by decide : ∀ r ∈ argsL, r ∉ layA4W) r hr)

abbrev layA5 : List (HloOp τ sig (Elt F)) :=
  [ unary main_arg6 main_v102 ((extractStridedSlice S1x512x512 ![5, 0, 0] · slices_S6x512x512_S1x512x512_5_0_0) : (⟨S6x512x512, .f32⟩ : BufTy).Contents (Elt F) → (⟨S1x512x512, .f32⟩ : BufTy).Contents (Elt F)),
    reshape main_v102 main_v103 rfl shapeCasts_S1x512x512_S512x512,
    binary main_v101 main_v103 main_v104 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v105 ((extractStridedSlice S1x512 ![5, 0] · slices_S6x512_S1x512_5_0) : (⟨S6x512, .f32⟩ : BufTy).Contents (Elt F) → (⟨S1x512, .f32⟩ : BufTy).Contents (Elt F)),
    reshape main_v105 main_v106 rfl shapeCasts_S1x512_S512,
    unary main_v106 main_v107 (broadcastInDim S1x512 ![1] bcast_S512_S1x512_1 : (⟨S512, .f32⟩ : BufTy).Contents (Elt F) → (⟨S1x512, .f32⟩ : BufTy).Contents (Elt F)),
    unary main_v107 main_v108 (broadcastInDim S4096x512 ![0, 1] bcast_S1x512_S4096x512_0_1 : (⟨S1x512, .f32⟩ : BufTy).Contents (Elt F) → (⟨S4096x512, .f32⟩ : BufTy).Contents (Elt F)),
    binary main_v104 main_v108 main_v109 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4096x512, .f32⟩) main_call5_v0) (broadcastInDim S4096x512 ![] bcast_S_S4096x512),
    TRef.binary (TRef.of (T := ⟨S4096x512, .f32⟩) main_v109) (TRef.of (T := ⟨S4096x512, .f32⟩) main_call5_v0) (TRef.of (T := ⟨S4096x512, .f32⟩) main_v110) maximumf,
    binary main_arg2 main_v110 main_v111 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v110 main_v111 main_v112 (addf : (⟨S4096x512, .f32⟩ : BufTy).Contents (Elt F) → (⟨S4096x512, .f32⟩ : BufTy).Contents (Elt F) → (⟨S4096x512, .f32⟩ : BufTy).Contents (Elt F)),
    binary main_v112 main_v112 main_v113 (mulf : (⟨S4096x512, .f32⟩ : BufTy).Contents (Elt F) → (⟨S4096x512, .f32⟩ : BufTy).Contents (Elt F) → (⟨S4096x512, .f32⟩ : BufTy).Contents (Elt F)),
    nullary main_cst_10 (constant S_ .f32 0x00000000#32),
    binary main_v113 main_cst_10 main_v114 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v114 main_v115 (broadcastInDim S4096x1 ![0] bcast_S4096_S4096x1_0 : (⟨S4096, .f32⟩ : BufTy).Contents (Elt F) → (⟨S4096x1, .f32⟩ : BufTy).Contents (Elt F)),
    unary main_v115 main_v116 (Host.sqrt : (⟨S4096x1, .f32⟩ : BufTy).Contents (Elt F) → (⟨S4096x1, .f32⟩ : BufTy).Contents (Elt F)),
    nullary main_cst_11 (constant S_ .f32 0x2B8CBCCC#32),
    unary main_cst_11 main_v117 (broadcastInDim S4096x1 ![] bcast_S_S4096x1 : (⟨S_, .f32⟩ : BufTy).Contents (Elt F) → (⟨S4096x1, .f32⟩ : BufTy).Contents (Elt F)),
    binary main_v116 main_v117 main_v118 (maximumf : (⟨S4096x1, .f32⟩ : BufTy).Contents (Elt F) → (⟨S4096x1, .f32⟩ : BufTy).Contents (Elt F) → (⟨S4096x1, .f32⟩ : BufTy).Contents (Elt F)),
    unary main_v118 main_v119 (broadcastInDim S4096x512 ![0, 1] bcast_S4096x1_S4096x512_0_1 : (⟨S4096x1, .f32⟩ : BufTy).Contents (Elt F) → (⟨S4096x512, .f32⟩ : BufTy).Contents (Elt F)),
    binary main_v112 main_v119 main_v120 (Host.divf : (⟨S4096x512, .f32⟩ : BufTy).Contents (Elt F) → (⟨S4096x512, .f32⟩ : BufTy).Contents (Elt F) → (⟨S4096x512, .f32⟩ : BufTy).Contents (Elt F)) ]

abbrev layA5W : List (Ref sig .tc) :=
  [main_v102, main_v103, main_v104, main_v105, main_v106, main_v107, main_v108, main_v109, main_call5_cst, main_call5_v0, main_v110, main_v111, main_v112, main_v113, main_cst_10, main_v114, main_v115, main_v116, main_cst_11, main_v117, main_v118, main_v119, main_v120]

theorem layA5_writes : (layA5 (F := F)).Forall fun op => op.writes ⊆ (layA5W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layA5_sub : (layA5 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layA5_fresh : (layA5 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layA5_val (V : Valuation τ sig (Elt F)) :
    after layA5 V (Proc.devRef .tc main_v120) =
      layerOps (V (Proc.devRef .tc main_v101)) (V (Proc.devRef .tc main_arg2))
        (shapeCast S512x512 (extractStridedSlice S1x512x512 ![5, 0, 0] (V (Proc.devRef .tc main_arg6)) slices_S6x512x512_S1x512x512_5_0_0 : ArrF F S1x512x512) shapeCasts_S1x512x512_S512x512)
        (shapeCast S512 (extractStridedSlice S1x512 ![5, 0] (V (Proc.devRef .tc main_arg7)) slices_S6x512_S1x512_5_0 : ArrF F S1x512) shapeCasts_S1x512_S512) := by
  after_results_simp <;> (try simp only [TRef.ofBuf, TRef.toBuf, cast_eq]) <;> (try unfold layerOps nrmOps msgOps hidOps) <;> rfl

theorem layA5_keep (V : Valuation τ sig (Elt F)) {r : Ref sig .tc} (hr : r ∉ layA5W) :
    after layA5 V (Proc.devRef .tc r) = V (Proc.devRef .tc r) :=
  after_of_writes_sub layA5 V layA5_writes hr

theorem layA5_keepArgs (V : Valuation τ sig (Elt F)) :
    ∀ r ∈ argsL, after layA5 V (Proc.devRef .tc r) = V (Proc.devRef .tc r) :=
  fun r hr => layA5_keep V ((by decide : ∀ r ∈ argsL, r ∉ layA5W) r hr)

abbrev pool1 : List (HloOp τ sig (Elt F)) :=
  [ nullary main_cst_12 (constant S_ .f32 0x00000000#32),
    unary main_cst_12 main_v121 (broadcastInDim S128x512 ![] bcast_S_S128x512 : (⟨S_, .f32⟩ : BufTy).Contents (Elt F) → (⟨S128x512, .f32⟩ : BufTy).Contents (Elt F)),
    unary main_arg4 main_v122 (broadcastInDim S4096x1 ![0] bcast_S4096_S4096x1_0 : (⟨S4096, .i32⟩ : BufTy).Contents (Elt F) → (⟨S4096x1, .i32⟩ : BufTy).Contents (Elt F)),
    ternary main_v121 main_v122 main_v120 main_v123 ((fun x i u => Host.scatterAdd scatter_S128x512_S4096x1_S4096x512_1_0_0_1 x i u) : (⟨S128x512, .f32⟩ : BufTy).Contents (Elt F) → (⟨S4096x1, .i32⟩ : BufTy).Contents (Elt F) → (⟨S4096x512, .f32⟩ : BufTy).Contents (Elt F) → (⟨S128x512, .f32⟩ : BufTy).Contents (Elt F)) ]

abbrev pool1W : List (Ref sig .tc) :=
  [main_cst_12, main_v121, main_v122, main_v123]

theorem pool1_writes : (pool1 (F := F)).Forall fun op => op.writes ⊆ (pool1W.map (Proc.devRef (τ := τ) .tc)).toFinset :=
  ⟨writes_in_list, writes_in_list, writes_in_list, writes_in_list⟩

theorem pool1_sub : (pool1 (F := F)).Forall fun op => op.bufs ⊆ tcRefs τ sig :=
  ⟨nullary_bufs_sub .., unary_bufs_sub .., unary_bufs_sub .., ternary_bufs_sub ..⟩

theorem pool1_fresh : (pool1 (F := F)).Forall fun op => op.fresh = ∅ :=
  ⟨rfl, rfl, rfl, rfl⟩

theorem pool1_val (V : Valuation τ sig (Elt F)) :
    after pool1 V (Proc.devRef .tc main_v123) =
      segR (V (Proc.devRef .tc main_v120)) (V (Proc.devRef .tc main_arg4)) := by
  after_results_simp <;> (try simp only [TRef.ofBuf, TRef.toBuf, cast_eq]) <;> (try unfold segR) <;> rfl

theorem pool1_keep (V : Valuation τ sig (Elt F)) {r : Ref sig .tc} (hr : r ∉ pool1W) :
    after pool1 V (Proc.devRef .tc r) = V (Proc.devRef .tc r) :=
  after_of_writes_sub pool1 V pool1_writes hr

theorem pool1_keepArgs (V : Valuation τ sig (Elt F)) :
    ∀ r ∈ argsL, after pool1 V (Proc.devRef .tc r) = V (Proc.devRef .tc r) :=
  fun r hr => pool1_keep V ((by decide : ∀ r ∈ argsL, r ∉ pool1W) r hr)

end Cert.ReferenceIdeal.RefRun

end
-- ==== Proof.Ref.StreamB.lean ====
import proofs.«426140_j3899830305296_1_alg».proof.Proof.Ref.Base
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

abbrev take2 : List (HloOp τ sig (Elt F)) :=
  [ nullary main_c_13 (constantI S_ 32 0#32),
    unary main_c_13 main_v124 (broadcastInDim S4096 ![] bcast_S_S4096 : (⟨S_, .i32⟩ : BufTy).Contents (Elt F) → (⟨S4096, .i32⟩ : BufTy).Contents (Elt F)),
    binary main_arg1 main_v124 main_v125 (cmpi .slt : (⟨S4096, .i32⟩ : BufTy).Contents (Elt F) → (⟨S4096, .i32⟩ : BufTy).Contents (Elt F) → (⟨S4096, .i1⟩ : BufTy).Contents (Elt F)),
    nullary main_c_14 (constantI S_ 32 10000#32),
    unary main_c_14 main_v126 (broadcastInDim S4096 ![] bcast_S_S4096 : (⟨S_, .i32⟩ : BufTy).Contents (Elt F) → (⟨S4096, .i32⟩ : BufTy).Contents (Elt F)),
    binary main_arg1 main_v126 main_v127 (addi : (⟨S4096, .i32⟩ : BufTy).Contents (Elt F) → (⟨S4096, .i32⟩ : BufTy).Contents (Elt F) → (⟨S4096, .i32⟩ : BufTy).Contents (Elt F)),
    ternary main_v125 main_v127 main_arg1 main_v128 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v128 main_v129 (broadcastInDim S4096x1 ![0] bcast_S4096_S4096x1_0 : (⟨S4096, .i32⟩ : BufTy).Contents (Elt F) → (⟨S4096x1, .i32⟩ : BufTy).Contents (Elt F)),
    binary main_arg5 main_v129 main_v130 ((fun x i => Host.gather gather_S10000x512_S4096x1_S4096x512_1_0_n_n_0_1_1512 x i) : (⟨S10000x512, .f32⟩ : BufTy).Contents (Elt F) → (⟨S4096x1, .i32⟩ : BufTy).Contents (Elt F) → (⟨S4096x512, .f32⟩ : BufTy).Contents (Elt F)) ]

abbrev take2W : List (Ref sig .tc) :=
  [main_c_13, main_v124, main_v125, main_c_14, main_v126, main_v127, main_v128, main_v129, main_v130]

theorem take2_writes : (take2 (F := F)).Forall fun op => op.writes ⊆ (take2W.map (Proc.devRef (τ := τ) .tc)).toFinset :=
  ⟨writes_in_list, writes_in_list, writes_in_list, writes_in_list, writes_in_list, writes_in_list, writes_in_list, writes_in_list, writes_in_list⟩

theorem take2_sub : (take2 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem take2_fresh : (take2 (F := F)).Forall fun op => op.fresh = ∅ :=
  ⟨rfl, rfl, rfl, rfl, rfl, rfl, rfl, rfl, rfl⟩

theorem take2_val (V : Valuation τ sig (Elt F)) :
    after take2 V (Proc.devRef .tc main_v130) =
      gatherR (V (Proc.devRef .tc main_arg5)) (V (Proc.devRef .tc main_arg1)) := by
  after_results_simp <;> (try simp only [TRef.ofBuf, TRef.toBuf, cast_eq]) <;> (try unfold gatherR) <;> rfl

theorem take2_keep (V : Valuation τ sig (Elt F)) {r : Ref sig .tc} (hr : r ∉ take2W) :
    after take2 V (Proc.devRef .tc r) = V (Proc.devRef .tc r) :=
  after_of_writes_sub take2 V take2_writes hr

theorem take2_keepArgs (V : Valuation τ sig (Elt F)) :
    ∀ r ∈ argsL, after take2 V (Proc.devRef .tc r) = V (Proc.devRef .tc r) :=
  fun r hr => take2_keep V ((by decide : ∀ r ∈ argsL, r ∉ take2W) r hr)

abbrev layB0 : List (HloOp τ sig (Elt F)) :=
  [ unary main_arg6 main_v131 ((extractStridedSlice S1x512x512 ![0, 0, 0] · slices_S6x512x512_S1x512x512_0_0_0) : (⟨S6x512x512, .f32⟩ : BufTy).Contents (Elt F) → (⟨S1x512x512, .f32⟩ : BufTy).Contents (Elt F)),
    reshape main_v131 main_v132 rfl shapeCasts_S1x512x512_S512x512,
    binary main_v130 main_v132 main_v133 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v134 ((extractStridedSlice S1x512 ![0, 0] · slices_S6x512_S1x512_0_0) : (⟨S6x512, .f32⟩ : BufTy).Contents (Elt F) → (⟨S1x512, .f32⟩ : BufTy).Contents (Elt F)),
    reshape main_v134 main_v135 rfl shapeCasts_S1x512_S512,
    unary main_v135 main_v136 (broadcastInDim S1x512 ![1] bcast_S512_S1x512_1 : (⟨S512, .f32⟩ : BufTy).Contents (Elt F) → (⟨S1x512, .f32⟩ : BufTy).Contents (Elt F)),
    unary main_v136 main_v137 (broadcastInDim S4096x512 ![0, 1] bcast_S1x512_S4096x512_0_1 : (⟨S1x512, .f32⟩ : BufTy).Contents (Elt F) → (⟨S4096x512, .f32⟩ : BufTy).Contents (Elt F)),
    binary main_v133 main_v137 main_v138 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S4096x512, .f32⟩) main_call6_v0) (broadcastInDim S4096x512 ![] bcast_S_S4096x512),
    TRef.binary (TRef.of (T := ⟨S4096x512, .f32⟩) main_v138) (TRef.of (T := ⟨S4096x512, .f32⟩) main_call6_v0) (TRef.of (T := ⟨S4096x512, .f32⟩) main_v139) maximumf,
    binary main_arg3 main_v139 main_v140 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v139 main_v140 main_v141 (addf : (⟨S4096x512, .f32⟩ : BufTy).Contents (Elt F) → (⟨S4096x512, .f32⟩ : BufTy).Contents (Elt F) → (⟨S4096x512, .f32⟩ : BufTy).Contents (Elt F)),
    binary main_v141 main_v141 main_v142 (mulf : (⟨S4096x512, .f32⟩ : BufTy).Contents (Elt F) → (⟨S4096x512, .f32⟩ : BufTy).Contents (Elt F) → (⟨S4096x512, .f32⟩ : BufTy).Contents (Elt F)),
    nullary main_cst_15 (constant S_ .f32 0x00000000#32),
    binary main_v142 main_cst_15 main_v143 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v143 main_v144 (broadcastInDim S4096x1 ![0] bcast_S4096_S4096x1_0 : (⟨S4096, .f32⟩ : BufTy).Contents (Elt F) → (⟨S4096x1, .f32⟩ : BufTy).Contents (Elt F)),
    unary main_v144 main_v145 (Host.sqrt : (⟨S4096x1, .f32⟩ : BufTy).Contents (Elt F) → (⟨S4096x1, .f32⟩ : BufTy).Contents (Elt F)),
    nullary main_cst_16 (constant S_ .f32 0x2B8CBCCC#32),
    unary main_cst_16 main_v146 (broadcastInDim S4096x1 ![] bcast_S_S4096x1 : (⟨S_, .f32⟩ : BufTy).Contents (Elt F) → (⟨S4096x1, .f32⟩ : BufTy).Contents (Elt F)),
    binary main_v145 main_v146 main_v147 (maximumf : (⟨S4096x1, .f32⟩ : BufTy).Contents (Elt F) → (⟨S4096x1, .f32⟩ : BufTy).Contents (Elt F) → (⟨S4096x1, .f32⟩ : BufTy).Contents (Elt F)),
    unary main_v147 main_v148 (broadcastInDim S4096x512 ![0, 1] bcast_S4096x1_S4096x512_0_1 : (⟨S4096x1, .f32⟩ : BufTy).Contents (Elt F) → (⟨S4096x512, .f32⟩ : BufTy).Contents (Elt F)),
    binary main_v141 main_v148 main_v149 (Host.divf : (⟨S4096x512, .f32⟩ : BufTy).Contents (Elt F) → (⟨S4096x512, .f32⟩ : BufTy).Contents (Elt F) → (⟨S4096x512, .f32⟩ : BufTy).Contents (Elt F)) ]

abbrev layB0W : List (Ref sig .tc) :=
  [main_v131, main_v132, main_v133, main_v134, main_v135, main_v136, main_v137, main_v138, main_call6_cst, main_call6_v0, main_v139, main_v140, main_v141, main_v142, main_cst_15, main_v143, main_v144, main_v145, main_cst_16, main_v146, main_v147, main_v148, main_v149]

theorem layB0_writes : (layB0 (F := F)).Forall fun op => op.writes ⊆ (layB0W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layB0_sub : (layB0 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layB0_fresh : (layB0 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layB0_val (V : Valuation τ sig (Elt F)) :
    after layB0 V (Proc.devRef .tc main_v149) =
      layerOps (V (Proc.devRef .tc main_v130)) (V (Proc.devRef .tc main_arg3))
        (shapeCast S512x512 (extractStridedSlice S1x512x512 ![0, 0, 0] (V (Proc.devRef .tc main_arg6)) slices_S6x512x512_S1x512x512_0_0_0 : ArrF F S1x512x512) shapeCasts_S1x512x512_S512x512)
        (shapeCast S512 (extractStridedSlice S1x512 ![0, 0] (V (Proc.devRef .tc main_arg7)) slices_S6x512_S1x512_0_0 : ArrF F S1x512) shapeCasts_S1x512_S512) := by
  after_results_simp <;> (try simp only [TRef.ofBuf, TRef.toBuf, cast_eq]) <;> (try unfold layerOps nrmOps msgOps hidOps) <;> rfl

theorem layB0_keep (V : Valuation τ sig (Elt F)) {r : Ref sig .tc} (hr : r ∉ layB0W) :
    after layB0 V (Proc.devRef .tc r) = V (Proc.devRef .tc r) :=
  after_of_writes_sub layB0 V layB0_writes hr

theorem layB0_keepArgs (V : Valuation τ sig (Elt F)) :
    ∀ r ∈ argsL, after layB0 V (Proc.devRef .tc r) = V (Proc.devRef .tc r) :=
  fun r hr => layB0_keep V ((by decide : ∀ r ∈ argsL, r ∉ layB0W) r hr)

abbrev layB1 : List (HloOp τ sig (Elt F)) :=
  [ unary main_arg6 main_v150 ((extractStridedSlice S1x512x512 ![1, 0, 0] · slices_S6x512x512_S1x512x512_1_0_0) : (⟨S6x512x512, .f32⟩ : BufTy).Contents (Elt F) → (⟨S1x512x512, .f32⟩ : BufTy).Contents (Elt F)),
    reshape main_v150 main_v151 rfl shapeCasts_S1x512x512_S512x512,
    binary main_v149 main_v151 main_v152 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v153 ((extractStridedSlice S1x512 ![1, 0] · slices_S6x512_S1x512_1_0) : (⟨S6x512, .f32⟩ : BufTy).Contents (Elt F) → (⟨S1x512, .f32⟩ : BufTy).Contents (Elt F)),
    reshape main_v153 main_v154 rfl shapeCasts_S1x512_S512,
    unary main_v154 main_v155 (broadcastInDim S1x512 ![1] bcast_S512_S1x512_1 : (⟨S512, .f32⟩ : BufTy).Contents (Elt F) → (⟨S1x512, .f32⟩ : BufTy).Contents (Elt F)),
    unary main_v155 main_v156 (broadcastInDim S4096x512 ![0, 1] bcast_S1x512_S4096x512_0_1 : (⟨S1x512, .f32⟩ : BufTy).Contents (Elt F) → (⟨S4096x512, .f32⟩ : BufTy).Contents (Elt F)),
    binary main_v152 main_v156 main_v157 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4096x512, .f32⟩) main_call7_v0) (broadcastInDim S4096x512 ![] bcast_S_S4096x512),
    TRef.binary (TRef.of (T := ⟨S4096x512, .f32⟩) main_v157) (TRef.of (T := ⟨S4096x512, .f32⟩) main_call7_v0) (TRef.of (T := ⟨S4096x512, .f32⟩) main_v158) maximumf,
    binary main_arg3 main_v158 main_v159 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v158 main_v159 main_v160 (addf : (⟨S4096x512, .f32⟩ : BufTy).Contents (Elt F) → (⟨S4096x512, .f32⟩ : BufTy).Contents (Elt F) → (⟨S4096x512, .f32⟩ : BufTy).Contents (Elt F)),
    binary main_v160 main_v160 main_v161 (mulf : (⟨S4096x512, .f32⟩ : BufTy).Contents (Elt F) → (⟨S4096x512, .f32⟩ : BufTy).Contents (Elt F) → (⟨S4096x512, .f32⟩ : BufTy).Contents (Elt F)),
    nullary main_cst_17 (constant S_ .f32 0x00000000#32),
    binary main_v161 main_cst_17 main_v162 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v162 main_v163 (broadcastInDim S4096x1 ![0] bcast_S4096_S4096x1_0 : (⟨S4096, .f32⟩ : BufTy).Contents (Elt F) → (⟨S4096x1, .f32⟩ : BufTy).Contents (Elt F)),
    unary main_v163 main_v164 (Host.sqrt : (⟨S4096x1, .f32⟩ : BufTy).Contents (Elt F) → (⟨S4096x1, .f32⟩ : BufTy).Contents (Elt F)),
    nullary main_cst_18 (constant S_ .f32 0x2B8CBCCC#32),
    unary main_cst_18 main_v165 (broadcastInDim S4096x1 ![] bcast_S_S4096x1 : (⟨S_, .f32⟩ : BufTy).Contents (Elt F) → (⟨S4096x1, .f32⟩ : BufTy).Contents (Elt F)),
    binary main_v164 main_v165 main_v166 (maximumf : (⟨S4096x1, .f32⟩ : BufTy).Contents (Elt F) → (⟨S4096x1, .f32⟩ : BufTy).Contents (Elt F) → (⟨S4096x1, .f32⟩ : BufTy).Contents (Elt F)),
    unary main_v166 main_v167 (broadcastInDim S4096x512 ![0, 1] bcast_S4096x1_S4096x512_0_1 : (⟨S4096x1, .f32⟩ : BufTy).Contents (Elt F) → (⟨S4096x512, .f32⟩ : BufTy).Contents (Elt F)),
    binary main_v160 main_v167 main_v168 (Host.divf : (⟨S4096x512, .f32⟩ : BufTy).Contents (Elt F) → (⟨S4096x512, .f32⟩ : BufTy).Contents (Elt F) → (⟨S4096x512, .f32⟩ : BufTy).Contents (Elt F)) ]

abbrev layB1W : List (Ref sig .tc) :=
  [main_v150, main_v151, main_v152, main_v153, main_v154, main_v155, main_v156, main_v157, main_call7_cst, main_call7_v0, main_v158, main_v159, main_v160, main_v161, main_cst_17, main_v162, main_v163, main_v164, main_cst_18, main_v165, main_v166, main_v167, main_v168]

theorem layB1_writes : (layB1 (F := F)).Forall fun op => op.writes ⊆ (layB1W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layB1_sub : (layB1 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layB1_fresh : (layB1 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layB1_val (V : Valuation τ sig (Elt F)) :
    after layB1 V (Proc.devRef .tc main_v168) =
      layerOps (V (Proc.devRef .tc main_v149)) (V (Proc.devRef .tc main_arg3))
        (shapeCast S512x512 (extractStridedSlice S1x512x512 ![1, 0, 0] (V (Proc.devRef .tc main_arg6)) slices_S6x512x512_S1x512x512_1_0_0 : ArrF F S1x512x512) shapeCasts_S1x512x512_S512x512)
        (shapeCast S512 (extractStridedSlice S1x512 ![1, 0] (V (Proc.devRef .tc main_arg7)) slices_S6x512_S1x512_1_0 : ArrF F S1x512) shapeCasts_S1x512_S512) := by
  after_results_simp <;> (try simp only [TRef.ofBuf, TRef.toBuf, cast_eq]) <;> (try unfold layerOps nrmOps msgOps hidOps) <;> rfl

theorem layB1_keep (V : Valuation τ sig (Elt F)) {r : Ref sig .tc} (hr : r ∉ layB1W) :
    after layB1 V (Proc.devRef .tc r) = V (Proc.devRef .tc r) :=
  after_of_writes_sub layB1 V layB1_writes hr

theorem layB1_keepArgs (V : Valuation τ sig (Elt F)) :
    ∀ r ∈ argsL, after layB1 V (Proc.devRef .tc r) = V (Proc.devRef .tc r) :=
  fun r hr => layB1_keep V ((by decide : ∀ r ∈ argsL, r ∉ layB1W) r hr)

abbrev layB2 : List (HloOp τ sig (Elt F)) :=
  [ unary main_arg6 main_v169 ((extractStridedSlice S1x512x512 ![2, 0, 0] · slices_S6x512x512_S1x512x512_2_0_0) : (⟨S6x512x512, .f32⟩ : BufTy).Contents (Elt F) → (⟨S1x512x512, .f32⟩ : BufTy).Contents (Elt F)),
    reshape main_v169 main_v170 rfl shapeCasts_S1x512x512_S512x512,
    binary main_v168 main_v170 main_v171 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v172 ((extractStridedSlice S1x512 ![2, 0] · slices_S6x512_S1x512_2_0) : (⟨S6x512, .f32⟩ : BufTy).Contents (Elt F) → (⟨S1x512, .f32⟩ : BufTy).Contents (Elt F)),
    reshape main_v172 main_v173 rfl shapeCasts_S1x512_S512,
    unary main_v173 main_v174 (broadcastInDim S1x512 ![1] bcast_S512_S1x512_1 : (⟨S512, .f32⟩ : BufTy).Contents (Elt F) → (⟨S1x512, .f32⟩ : BufTy).Contents (Elt F)),
    unary main_v174 main_v175 (broadcastInDim S4096x512 ![0, 1] bcast_S1x512_S4096x512_0_1 : (⟨S1x512, .f32⟩ : BufTy).Contents (Elt F) → (⟨S4096x512, .f32⟩ : BufTy).Contents (Elt F)),
    binary main_v171 main_v175 main_v176 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S4096x512, .f32⟩) main_call8_v0) (broadcastInDim S4096x512 ![] bcast_S_S4096x512),
    TRef.binary (TRef.of (T := ⟨S4096x512, .f32⟩) main_v176) (TRef.of (T := ⟨S4096x512, .f32⟩) main_call8_v0) (TRef.of (T := ⟨S4096x512, .f32⟩) main_v177) maximumf,
    binary main_arg3 main_v177 main_v178 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v177 main_v178 main_v179 (addf : (⟨S4096x512, .f32⟩ : BufTy).Contents (Elt F) → (⟨S4096x512, .f32⟩ : BufTy).Contents (Elt F) → (⟨S4096x512, .f32⟩ : BufTy).Contents (Elt F)),
    binary main_v179 main_v179 main_v180 (mulf : (⟨S4096x512, .f32⟩ : BufTy).Contents (Elt F) → (⟨S4096x512, .f32⟩ : BufTy).Contents (Elt F) → (⟨S4096x512, .f32⟩ : BufTy).Contents (Elt F)),
    nullary main_cst_19 (constant S_ .f32 0x00000000#32),
    binary main_v180 main_cst_19 main_v181 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v181 main_v182 (broadcastInDim S4096x1 ![0] bcast_S4096_S4096x1_0 : (⟨S4096, .f32⟩ : BufTy).Contents (Elt F) → (⟨S4096x1, .f32⟩ : BufTy).Contents (Elt F)),
    unary main_v182 main_v183 (Host.sqrt : (⟨S4096x1, .f32⟩ : BufTy).Contents (Elt F) → (⟨S4096x1, .f32⟩ : BufTy).Contents (Elt F)),
    nullary main_cst_20 (constant S_ .f32 0x2B8CBCCC#32),
    unary main_cst_20 main_v184 (broadcastInDim S4096x1 ![] bcast_S_S4096x1 : (⟨S_, .f32⟩ : BufTy).Contents (Elt F) → (⟨S4096x1, .f32⟩ : BufTy).Contents (Elt F)),
    binary main_v183 main_v184 main_v185 (maximumf : (⟨S4096x1, .f32⟩ : BufTy).Contents (Elt F) → (⟨S4096x1, .f32⟩ : BufTy).Contents (Elt F) → (⟨S4096x1, .f32⟩ : BufTy).Contents (Elt F)),
    unary main_v185 main_v186 (broadcastInDim S4096x512 ![0, 1] bcast_S4096x1_S4096x512_0_1 : (⟨S4096x1, .f32⟩ : BufTy).Contents (Elt F) → (⟨S4096x512, .f32⟩ : BufTy).Contents (Elt F)),
    binary main_v179 main_v186 main_v187 (Host.divf : (⟨S4096x512, .f32⟩ : BufTy).Contents (Elt F) → (⟨S4096x512, .f32⟩ : BufTy).Contents (Elt F) → (⟨S4096x512, .f32⟩ : BufTy).Contents (Elt F)) ]

abbrev layB2W : List (Ref sig .tc) :=
  [main_v169, main_v170, main_v171, main_v172, main_v173, main_v174, main_v175, main_v176, main_call8_cst, main_call8_v0, main_v177, main_v178, main_v179, main_v180, main_cst_19, main_v181, main_v182, main_v183, main_cst_20, main_v184, main_v185, main_v186, main_v187]

theorem layB2_writes : (layB2 (F := F)).Forall fun op => op.writes ⊆ (layB2W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layB2_sub : (layB2 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layB2_fresh : (layB2 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layB2_val (V : Valuation τ sig (Elt F)) :
    after layB2 V (Proc.devRef .tc main_v187) =
      layerOps (V (Proc.devRef .tc main_v168)) (V (Proc.devRef .tc main_arg3))
        (shapeCast S512x512 (extractStridedSlice S1x512x512 ![2, 0, 0] (V (Proc.devRef .tc main_arg6)) slices_S6x512x512_S1x512x512_2_0_0 : ArrF F S1x512x512) shapeCasts_S1x512x512_S512x512)
        (shapeCast S512 (extractStridedSlice S1x512 ![2, 0] (V (Proc.devRef .tc main_arg7)) slices_S6x512_S1x512_2_0 : ArrF F S1x512) shapeCasts_S1x512_S512) := by
  after_results_simp <;> (try simp only [TRef.ofBuf, TRef.toBuf, cast_eq]) <;> (try unfold layerOps nrmOps msgOps hidOps) <;> rfl

theorem layB2_keep (V : Valuation τ sig (Elt F)) {r : Ref sig .tc} (hr : r ∉ layB2W) :
    after layB2 V (Proc.devRef .tc r) = V (Proc.devRef .tc r) :=
  after_of_writes_sub layB2 V layB2_writes hr

theorem layB2_keepArgs (V : Valuation τ sig (Elt F)) :
    ∀ r ∈ argsL, after layB2 V (Proc.devRef .tc r) = V (Proc.devRef .tc r) :=
  fun r hr => layB2_keep V ((by decide : ∀ r ∈ argsL, r ∉ layB2W) r hr)

abbrev layB3 : List (HloOp τ sig (Elt F)) :=
  [ unary main_arg6 main_v188 ((extractStridedSlice S1x512x512 ![3, 0, 0] · slices_S6x512x512_S1x512x512_3_0_0) : (⟨S6x512x512, .f32⟩ : BufTy).Contents (Elt F) → (⟨S1x512x512, .f32⟩ : BufTy).Contents (Elt F)),
    reshape main_v188 main_v189 rfl shapeCasts_S1x512x512_S512x512,
    binary main_v187 main_v189 main_v190 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v191 ((extractStridedSlice S1x512 ![3, 0] · slices_S6x512_S1x512_3_0) : (⟨S6x512, .f32⟩ : BufTy).Contents (Elt F) → (⟨S1x512, .f32⟩ : BufTy).Contents (Elt F)),
    reshape main_v191 main_v192 rfl shapeCasts_S1x512_S512,
    unary main_v192 main_v193 (broadcastInDim S1x512 ![1] bcast_S512_S1x512_1 : (⟨S512, .f32⟩ : BufTy).Contents (Elt F) → (⟨S1x512, .f32⟩ : BufTy).Contents (Elt F)),
    unary main_v193 main_v194 (broadcastInDim S4096x512 ![0, 1] bcast_S1x512_S4096x512_0_1 : (⟨S1x512, .f32⟩ : BufTy).Contents (Elt F) → (⟨S4096x512, .f32⟩ : BufTy).Contents (Elt F)),
    binary main_v190 main_v194 main_v195 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S4096x512, .f32⟩) main_call9_v0) (broadcastInDim S4096x512 ![] bcast_S_S4096x512),
    TRef.binary (TRef.of (T := ⟨S4096x512, .f32⟩) main_v195) (TRef.of (T := ⟨S4096x512, .f32⟩) main_call9_v0) (TRef.of (T := ⟨S4096x512, .f32⟩) main_v196) maximumf,
    binary main_arg3 main_v196 main_v197 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v196 main_v197 main_v198 (addf : (⟨S4096x512, .f32⟩ : BufTy).Contents (Elt F) → (⟨S4096x512, .f32⟩ : BufTy).Contents (Elt F) → (⟨S4096x512, .f32⟩ : BufTy).Contents (Elt F)),
    binary main_v198 main_v198 main_v199 (mulf : (⟨S4096x512, .f32⟩ : BufTy).Contents (Elt F) → (⟨S4096x512, .f32⟩ : BufTy).Contents (Elt F) → (⟨S4096x512, .f32⟩ : BufTy).Contents (Elt F)),
    nullary main_cst_21 (constant S_ .f32 0x00000000#32),
    binary main_v199 main_cst_21 main_v200 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v200 main_v201 (broadcastInDim S4096x1 ![0] bcast_S4096_S4096x1_0 : (⟨S4096, .f32⟩ : BufTy).Contents (Elt F) → (⟨S4096x1, .f32⟩ : BufTy).Contents (Elt F)),
    unary main_v201 main_v202 (Host.sqrt : (⟨S4096x1, .f32⟩ : BufTy).Contents (Elt F) → (⟨S4096x1, .f32⟩ : BufTy).Contents (Elt F)),
    nullary main_cst_22 (constant S_ .f32 0x2B8CBCCC#32),
    unary main_cst_22 main_v203 (broadcastInDim S4096x1 ![] bcast_S_S4096x1 : (⟨S_, .f32⟩ : BufTy).Contents (Elt F) → (⟨S4096x1, .f32⟩ : BufTy).Contents (Elt F)),
    binary main_v202 main_v203 main_v204 (maximumf : (⟨S4096x1, .f32⟩ : BufTy).Contents (Elt F) → (⟨S4096x1, .f32⟩ : BufTy).Contents (Elt F) → (⟨S4096x1, .f32⟩ : BufTy).Contents (Elt F)),
    unary main_v204 main_v205 (broadcastInDim S4096x512 ![0, 1] bcast_S4096x1_S4096x512_0_1 : (⟨S4096x1, .f32⟩ : BufTy).Contents (Elt F) → (⟨S4096x512, .f32⟩ : BufTy).Contents (Elt F)),
    binary main_v198 main_v205 main_v206 (Host.divf : (⟨S4096x512, .f32⟩ : BufTy).Contents (Elt F) → (⟨S4096x512, .f32⟩ : BufTy).Contents (Elt F) → (⟨S4096x512, .f32⟩ : BufTy).Contents (Elt F)) ]

abbrev layB3W : List (Ref sig .tc) :=
  [main_v188, main_v189, main_v190, main_v191, main_v192, main_v193, main_v194, main_v195, main_call9_cst, main_call9_v0, main_v196, main_v197, main_v198, main_v199, main_cst_21, main_v200, main_v201, main_v202, main_cst_22, main_v203, main_v204, main_v205, main_v206]

theorem layB3_writes : (layB3 (F := F)).Forall fun op => op.writes ⊆ (layB3W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layB3_sub : (layB3 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layB3_fresh : (layB3 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layB3_val (V : Valuation τ sig (Elt F)) :
    after layB3 V (Proc.devRef .tc main_v206) =
      layerOps (V (Proc.devRef .tc main_v187)) (V (Proc.devRef .tc main_arg3))
        (shapeCast S512x512 (extractStridedSlice S1x512x512 ![3, 0, 0] (V (Proc.devRef .tc main_arg6)) slices_S6x512x512_S1x512x512_3_0_0 : ArrF F S1x512x512) shapeCasts_S1x512x512_S512x512)
        (shapeCast S512 (extractStridedSlice S1x512 ![3, 0] (V (Proc.devRef .tc main_arg7)) slices_S6x512_S1x512_3_0 : ArrF F S1x512) shapeCasts_S1x512_S512) := by
  after_results_simp <;> (try simp only [TRef.ofBuf, TRef.toBuf, cast_eq]) <;> (try unfold layerOps nrmOps msgOps hidOps) <;> rfl

theorem layB3_keep (V : Valuation τ sig (Elt F)) {r : Ref sig .tc} (hr : r ∉ layB3W) :
    after layB3 V (Proc.devRef .tc r) = V (Proc.devRef .tc r) :=
  after_of_writes_sub layB3 V layB3_writes hr

theorem layB3_keepArgs (V : Valuation τ sig (Elt F)) :
    ∀ r ∈ argsL, after layB3 V (Proc.devRef .tc r) = V (Proc.devRef .tc r) :=
  fun r hr => layB3_keep V ((by decide : ∀ r ∈ argsL, r ∉ layB3W) r hr)

abbrev layB4 : List (HloOp τ sig (Elt F)) :=
  [ unary main_arg6 main_v207 ((extractStridedSlice S1x512x512 ![4, 0, 0] · slices_S6x512x512_S1x512x512_4_0_0) : (⟨S6x512x512, .f32⟩ : BufTy).Contents (Elt F) → (⟨S1x512x512, .f32⟩ : BufTy).Contents (Elt F)),
    reshape main_v207 main_v208 rfl shapeCasts_S1x512x512_S512x512,
    binary main_v206 main_v208 main_v209 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v210 ((extractStridedSlice S1x512 ![4, 0] · slices_S6x512_S1x512_4_0) : (⟨S6x512, .f32⟩ : BufTy).Contents (Elt F) → (⟨S1x512, .f32⟩ : BufTy).Contents (Elt F)),
    reshape main_v210 main_v211 rfl shapeCasts_S1x512_S512,
    unary main_v211 main_v212 (broadcastInDim S1x512 ![1] bcast_S512_S1x512_1 : (⟨S512, .f32⟩ : BufTy).Contents (Elt F) → (⟨S1x512, .f32⟩ : BufTy).Contents (Elt F)),
    unary main_v212 main_v213 (broadcastInDim S4096x512 ![0, 1] bcast_S1x512_S4096x512_0_1 : (⟨S1x512, .f32⟩ : BufTy).Contents (Elt F) → (⟨S4096x512, .f32⟩ : BufTy).Contents (Elt F)),
    binary main_v209 main_v213 main_v214 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S4096x512, .f32⟩) main_call10_v0) (broadcastInDim S4096x512 ![] bcast_S_S4096x512),
    TRef.binary (TRef.of (T := ⟨S4096x512, .f32⟩) main_v214) (TRef.of (T := ⟨S4096x512, .f32⟩) main_call10_v0) (TRef.of (T := ⟨S4096x512, .f32⟩) main_v215) maximumf,
    binary main_arg3 main_v215 main_v216 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v215 main_v216 main_v217 (addf : (⟨S4096x512, .f32⟩ : BufTy).Contents (Elt F) → (⟨S4096x512, .f32⟩ : BufTy).Contents (Elt F) → (⟨S4096x512, .f32⟩ : BufTy).Contents (Elt F)),
    binary main_v217 main_v217 main_v218 (mulf : (⟨S4096x512, .f32⟩ : BufTy).Contents (Elt F) → (⟨S4096x512, .f32⟩ : BufTy).Contents (Elt F) → (⟨S4096x512, .f32⟩ : BufTy).Contents (Elt F)),
    nullary main_cst_23 (constant S_ .f32 0x00000000#32),
    binary main_v218 main_cst_23 main_v219 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v219 main_v220 (broadcastInDim S4096x1 ![0] bcast_S4096_S4096x1_0 : (⟨S4096, .f32⟩ : BufTy).Contents (Elt F) → (⟨S4096x1, .f32⟩ : BufTy).Contents (Elt F)),
    unary main_v220 main_v221 (Host.sqrt : (⟨S4096x1, .f32⟩ : BufTy).Contents (Elt F) → (⟨S4096x1, .f32⟩ : BufTy).Contents (Elt F)),
    nullary main_cst_24 (constant S_ .f32 0x2B8CBCCC#32),
    unary main_cst_24 main_v222 (broadcastInDim S4096x1 ![] bcast_S_S4096x1 : (⟨S_, .f32⟩ : BufTy).Contents (Elt F) → (⟨S4096x1, .f32⟩ : BufTy).Contents (Elt F)),
    binary main_v221 main_v222 main_v223 (maximumf : (⟨S4096x1, .f32⟩ : BufTy).Contents (Elt F) → (⟨S4096x1, .f32⟩ : BufTy).Contents (Elt F) → (⟨S4096x1, .f32⟩ : BufTy).Contents (Elt F)),
    unary main_v223 main_v224 (broadcastInDim S4096x512 ![0, 1] bcast_S4096x1_S4096x512_0_1 : (⟨S4096x1, .f32⟩ : BufTy).Contents (Elt F) → (⟨S4096x512, .f32⟩ : BufTy).Contents (Elt F)),
    binary main_v217 main_v224 main_v225 (Host.divf : (⟨S4096x512, .f32⟩ : BufTy).Contents (Elt F) → (⟨S4096x512, .f32⟩ : BufTy).Contents (Elt F) → (⟨S4096x512, .f32⟩ : BufTy).Contents (Elt F)) ]

abbrev layB4W : List (Ref sig .tc) :=
  [main_v207, main_v208, main_v209, main_v210, main_v211, main_v212, main_v213, main_v214, main_call10_cst, main_call10_v0, main_v215, main_v216, main_v217, main_v218, main_cst_23, main_v219, main_v220, main_v221, main_cst_24, main_v222, main_v223, main_v224, main_v225]

theorem layB4_writes : (layB4 (F := F)).Forall fun op => op.writes ⊆ (layB4W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layB4_sub : (layB4 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layB4_fresh : (layB4 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layB4_val (V : Valuation τ sig (Elt F)) :
    after layB4 V (Proc.devRef .tc main_v225) =
      layerOps (V (Proc.devRef .tc main_v206)) (V (Proc.devRef .tc main_arg3))
        (shapeCast S512x512 (extractStridedSlice S1x512x512 ![4, 0, 0] (V (Proc.devRef .tc main_arg6)) slices_S6x512x512_S1x512x512_4_0_0 : ArrF F S1x512x512) shapeCasts_S1x512x512_S512x512)
        (shapeCast S512 (extractStridedSlice S1x512 ![4, 0] (V (Proc.devRef .tc main_arg7)) slices_S6x512_S1x512_4_0 : ArrF F S1x512) shapeCasts_S1x512_S512) := by
  after_results_simp <;> (try simp only [TRef.ofBuf, TRef.toBuf, cast_eq]) <;> (try unfold layerOps nrmOps msgOps hidOps) <;> rfl

theorem layB4_keep (V : Valuation τ sig (Elt F)) {r : Ref sig .tc} (hr : r ∉ layB4W) :
    after layB4 V (Proc.devRef .tc r) = V (Proc.devRef .tc r) :=
  after_of_writes_sub layB4 V layB4_writes hr

theorem layB4_keepArgs (V : Valuation τ sig (Elt F)) :
    ∀ r ∈ argsL, after layB4 V (Proc.devRef .tc r) = V (Proc.devRef .tc r) :=
  fun r hr => layB4_keep V ((by decide : ∀ r ∈ argsL, r ∉ layB4W) r hr)

abbrev layB5 : List (HloOp τ sig (Elt F)) :=
  [ unary main_arg6 main_v226 ((extractStridedSlice S1x512x512 ![5, 0, 0] · slices_S6x512x512_S1x512x512_5_0_0) : (⟨S6x512x512, .f32⟩ : BufTy).Contents (Elt F) → (⟨S1x512x512, .f32⟩ : BufTy).Contents (Elt F)),
    reshape main_v226 main_v227 rfl shapeCasts_S1x512x512_S512x512,
    binary main_v225 main_v227 main_v228 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg7 main_v229 ((extractStridedSlice S1x512 ![5, 0] · slices_S6x512_S1x512_5_0) : (⟨S6x512, .f32⟩ : BufTy).Contents (Elt F) → (⟨S1x512, .f32⟩ : BufTy).Contents (Elt F)),
    reshape main_v229 main_v230 rfl shapeCasts_S1x512_S512,
    unary main_v230 main_v231 (broadcastInDim S1x512 ![1] bcast_S512_S1x512_1 : (⟨S512, .f32⟩ : BufTy).Contents (Elt F) → (⟨S1x512, .f32⟩ : BufTy).Contents (Elt F)),
    unary main_v231 main_v232 (broadcastInDim S4096x512 ![0, 1] bcast_S1x512_S4096x512_0_1 : (⟨S1x512, .f32⟩ : BufTy).Contents (Elt F) → (⟨S4096x512, .f32⟩ : BufTy).Contents (Elt F)),
    binary main_v228 main_v232 main_v233 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S4096x512, .f32⟩) main_call11_v0) (broadcastInDim S4096x512 ![] bcast_S_S4096x512),
    TRef.binary (TRef.of (T := ⟨S4096x512, .f32⟩) main_v233) (TRef.of (T := ⟨S4096x512, .f32⟩) main_call11_v0) (TRef.of (T := ⟨S4096x512, .f32⟩) main_v234) maximumf,
    binary main_arg3 main_v234 main_v235 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v234 main_v235 main_v236 (addf : (⟨S4096x512, .f32⟩ : BufTy).Contents (Elt F) → (⟨S4096x512, .f32⟩ : BufTy).Contents (Elt F) → (⟨S4096x512, .f32⟩ : BufTy).Contents (Elt F)),
    binary main_v236 main_v236 main_v237 (mulf : (⟨S4096x512, .f32⟩ : BufTy).Contents (Elt F) → (⟨S4096x512, .f32⟩ : BufTy).Contents (Elt F) → (⟨S4096x512, .f32⟩ : BufTy).Contents (Elt F)),
    nullary main_cst_25 (constant S_ .f32 0x00000000#32),
    binary main_v237 main_cst_25 main_v238 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v238 main_v239 (broadcastInDim S4096x1 ![0] bcast_S4096_S4096x1_0 : (⟨S4096, .f32⟩ : BufTy).Contents (Elt F) → (⟨S4096x1, .f32⟩ : BufTy).Contents (Elt F)),
    unary main_v239 main_v240 (Host.sqrt : (⟨S4096x1, .f32⟩ : BufTy).Contents (Elt F) → (⟨S4096x1, .f32⟩ : BufTy).Contents (Elt F)),
    nullary main_cst_26 (constant S_ .f32 0x2B8CBCCC#32),
    unary main_cst_26 main_v241 (broadcastInDim S4096x1 ![] bcast_S_S4096x1 : (⟨S_, .f32⟩ : BufTy).Contents (Elt F) → (⟨S4096x1, .f32⟩ : BufTy).Contents (Elt F)),
    binary main_v240 main_v241 main_v242 (maximumf : (⟨S4096x1, .f32⟩ : BufTy).Contents (Elt F) → (⟨S4096x1, .f32⟩ : BufTy).Contents (Elt F) → (⟨S4096x1, .f32⟩ : BufTy).Contents (Elt F)),
    unary main_v242 main_v243 (broadcastInDim S4096x512 ![0, 1] bcast_S4096x1_S4096x512_0_1 : (⟨S4096x1, .f32⟩ : BufTy).Contents (Elt F) → (⟨S4096x512, .f32⟩ : BufTy).Contents (Elt F)),
    binary main_v236 main_v243 main_v244 (Host.divf : (⟨S4096x512, .f32⟩ : BufTy).Contents (Elt F) → (⟨S4096x512, .f32⟩ : BufTy).Contents (Elt F) → (⟨S4096x512, .f32⟩ : BufTy).Contents (Elt F)) ]

abbrev layB5W : List (Ref sig .tc) :=
  [main_v226, main_v227, main_v228, main_v229, main_v230, main_v231, main_v232, main_v233, main_call11_cst, main_call11_v0, main_v234, main_v235, main_v236, main_v237, main_cst_25, main_v238, main_v239, main_v240, main_cst_26, main_v241, main_v242, main_v243, main_v244]

theorem layB5_writes : (layB5 (F := F)).Forall fun op => op.writes ⊆ (layB5W.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem layB5_sub : (layB5 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem layB5_fresh : (layB5 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem layB5_val (V : Valuation τ sig (Elt F)) :
    after layB5 V (Proc.devRef .tc main_v244) =
      layerOps (V (Proc.devRef .tc main_v225)) (V (Proc.devRef .tc main_arg3))
        (shapeCast S512x512 (extractStridedSlice S1x512x512 ![5, 0, 0] (V (Proc.devRef .tc main_arg6)) slices_S6x512x512_S1x512x512_5_0_0 : ArrF F S1x512x512) shapeCasts_S1x512x512_S512x512)
        (shapeCast S512 (extractStridedSlice S1x512 ![5, 0] (V (Proc.devRef .tc main_arg7)) slices_S6x512_S1x512_5_0 : ArrF F S1x512) shapeCasts_S1x512_S512) := by
  after_results_simp <;> (try simp only [TRef.ofBuf, TRef.toBuf, cast_eq]) <;> (try unfold layerOps nrmOps msgOps hidOps) <;> rfl

theorem layB5_keep (V : Valuation τ sig (Elt F)) {r : Ref sig .tc} (hr : r ∉ layB5W) :
    after layB5 V (Proc.devRef .tc r) = V (Proc.devRef .tc r) :=
  after_of_writes_sub layB5 V layB5_writes hr

theorem layB5_keepArgs (V : Valuation τ sig (Elt F)) :
    ∀ r ∈ argsL, after layB5 V (Proc.devRef .tc r) = V (Proc.devRef .tc r) :=
  fun r hr => layB5_keep V ((by decide : ∀ r ∈ argsL, r ∉ layB5W) r hr)

abbrev pool2 : List (HloOp τ sig (Elt F)) :=
  [ nullary main_cst_27 (constant S_ .f32 0x00000000#32),
    unary main_cst_27 main_v245 (broadcastInDim S128x512 ![] bcast_S_S128x512 : (⟨S_, .f32⟩ : BufTy).Contents (Elt F) → (⟨S128x512, .f32⟩ : BufTy).Contents (Elt F)),
    unary main_arg4 main_v246 (broadcastInDim S4096x1 ![0] bcast_S4096_S4096x1_0 : (⟨S4096, .i32⟩ : BufTy).Contents (Elt F) → (⟨S4096x1, .i32⟩ : BufTy).Contents (Elt F)),
    ternary main_v245 main_v246 main_v244 main_v247 ((fun x i u => Host.scatterAdd scatter_S128x512_S4096x1_S4096x512_1_0_0_1 x i u) : (⟨S128x512, .f32⟩ : BufTy).Contents (Elt F) → (⟨S4096x1, .i32⟩ : BufTy).Contents (Elt F) → (⟨S4096x512, .f32⟩ : BufTy).Contents (Elt F) → (⟨S128x512, .f32⟩ : BufTy).Contents (Elt F)) ]

abbrev pool2W : List (Ref sig .tc) :=
  [main_cst_27, main_v245, main_v246, main_v247]

theorem pool2_writes : (pool2 (F := F)).Forall fun op => op.writes ⊆ (pool2W.map (Proc.devRef (τ := τ) .tc)).toFinset :=
  ⟨writes_in_list, writes_in_list, writes_in_list, writes_in_list⟩

theorem pool2_sub : (pool2 (F := F)).Forall fun op => op.bufs ⊆ tcRefs τ sig :=
  ⟨nullary_bufs_sub .., unary_bufs_sub .., unary_bufs_sub .., ternary_bufs_sub ..⟩

theorem pool2_fresh : (pool2 (F := F)).Forall fun op => op.fresh = ∅ :=
  ⟨rfl, rfl, rfl, rfl⟩

theorem pool2_val (V : Valuation τ sig (Elt F)) :
    after pool2 V (Proc.devRef .tc main_v247) =
      segR (V (Proc.devRef .tc main_v244)) (V (Proc.devRef .tc main_arg4)) := by
  after_results_simp <;> (try simp only [TRef.ofBuf, TRef.toBuf, cast_eq]) <;> (try unfold segR) <;> rfl

theorem pool2_keep (V : Valuation τ sig (Elt F)) {r : Ref sig .tc} (hr : r ∉ pool2W) :
    after pool2 V (Proc.devRef .tc r) = V (Proc.devRef .tc r) :=
  after_of_writes_sub pool2 V pool2_writes hr

theorem pool2_keepArgs (V : Valuation τ sig (Elt F)) :
    ∀ r ∈ argsL, after pool2 V (Proc.devRef .tc r) = V (Proc.devRef .tc r) :=
  fun r hr => pool2_keep V ((by decide : ∀ r ∈ argsL, r ∉ pool2W) r hr)

end Cert.ReferenceIdeal.RefRun

end
-- ==== Proof.Ref.Tail.lean ====
import proofs.«426140_j3899830305296_1_alg».proof.Proof.Ref.Base
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

abbrev tail : List (HloOp τ sig (Elt F)) :=
  [ binary main_v123 main_v247 main_v248 ((fun a b => concatenate S128x1024 1 [⟨S128x512, a⟩, ⟨S128x512, b⟩] concatenates_S128x512_S128x512_S128x1024_d1) : (⟨S128x512, .f32⟩ : BufTy).Contents (Elt F) → (⟨S128x512, .f32⟩ : BufTy).Contents (Elt F) → (⟨S128x1024, .f32⟩ : BufTy).Contents (Elt F)),
    binary main_v248 main_arg8 main_v249 ((fun l r => Host.dotGeneral dot_S128x1024_S1024x512_S128x512_1_0_0_1_n_n none l r) : (⟨S128x1024, .f32⟩ : BufTy).Contents (Elt F) → (⟨S1024x512, .f32⟩ : BufTy).Contents (Elt F) → (⟨S128x512, .f32⟩ : BufTy).Contents (Elt F)),
    unary main_arg9 main_v250 (broadcastInDim S1x512 ![1] bcast_S512_S1x512_1 : (⟨S512, .f32⟩ : BufTy).Contents (Elt F) → (⟨S1x512, .f32⟩ : BufTy).Contents (Elt F)),
    unary main_v250 main_v251 (broadcastInDim S128x512 ![0, 1] bcast_S1x512_S128x512_0_1 : (⟨S1x512, .f32⟩ : BufTy).Contents (Elt F) → (⟨S128x512, .f32⟩ : BufTy).Contents (Elt F)),
    binary main_v249 main_v251 main_v252 (addf : (⟨S128x512, .f32⟩ : BufTy).Contents (Elt F) → (⟨S128x512, .f32⟩ : BufTy).Contents (Elt F) → (⟨S128x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S128x512, .f32⟩) main_call12_v0) (broadcastInDim S128x512 ![] bcast_S_S128x512),
    TRef.binary (TRef.of (T := ⟨S128x512, .f32⟩) main_v252) (TRef.of (T := ⟨S128x512, .f32⟩) main_call12_v0) (TRef.of (T := ⟨S128x512, .f32⟩) main_v253) maximumf,
    unary main_arg10 main_v254 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v254 main_v255 rfl shapeCasts_S1x512x512_S512x512,
    binary main_v253 main_v255 main_v256 ((fun l r => Host.dotGeneral dot_S128x512_S512x512_S128x512_1_0_0_1_n_n none l r) : (⟨S128x512, .f32⟩ : BufTy).Contents (Elt F) → (⟨S512x512, .f32⟩ : BufTy).Contents (Elt F) → (⟨S128x512, .f32⟩ : BufTy).Contents (Elt F)),
    unary main_arg11 main_v257 ((extractStridedSlice S1x512 ![0, 0] · slices_S3x512_S1x512_0_0) : (⟨S3x512, .f32⟩ : BufTy).Contents (Elt F) → (⟨S1x512, .f32⟩ : BufTy).Contents (Elt F)),
    reshape main_v257 main_v258 rfl shapeCasts_S1x512_S512,
    unary main_v258 main_v259 (broadcastInDim S1x512 ![1] bcast_S512_S1x512_1 : (⟨S512, .f32⟩ : BufTy).Contents (Elt F) → (⟨S1x512, .f32⟩ : BufTy).Contents (Elt F)),
    unary main_v259 main_v260 (broadcastInDim S128x512 ![0, 1] bcast_S1x512_S128x512_0_1 : (⟨S1x512, .f32⟩ : BufTy).Contents (Elt F) → (⟨S128x512, .f32⟩ : BufTy).Contents (Elt F)),
    binary main_v256 main_v260 main_v261 (addf : (⟨S128x512, .f32⟩ : BufTy).Contents (Elt F) → (⟨S128x512, .f32⟩ : BufTy).Contents (Elt F) → (⟨S128x512, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S128x512, .f32⟩) main_call13_v0) (broadcastInDim S128x512 ![] bcast_S_S128x512),
    TRef.binary (TRef.of (T := ⟨S128x512, .f32⟩) main_v261) (TRef.of (T := ⟨S128x512, .f32⟩) main_call13_v0) (TRef.of (T := ⟨S128x512, .f32⟩) main_v262) maximumf,
    unary main_arg10 main_v263 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v263 main_v264 rfl shapeCasts_S1x512x512_S512x512,
    binary main_v262 main_v264 main_v265 ((fun l r => Host.dotGeneral dot_S128x512_S512x512_S128x512_1_0_0_1_n_n none l r) : (⟨S128x512, .f32⟩ : BufTy).Contents (Elt F) → (⟨S512x512, .f32⟩ : BufTy).Contents (Elt F) → (⟨S128x512, .f32⟩ : BufTy).Contents (Elt F)),
    unary main_arg11 main_v266 ((extractStridedSlice S1x512 ![1, 0] · slices_S3x512_S1x512_1_0) : (⟨S3x512, .f32⟩ : BufTy).Contents (Elt F) → (⟨S1x512, .f32⟩ : BufTy).Contents (Elt F)),
    reshape main_v266 main_v267 rfl shapeCasts_S1x512_S512,
    unary main_v267 main_v268 (broadcastInDim S1x512 ![1] bcast_S512_S1x512_1 : (⟨S512, .f32⟩ : BufTy).Contents (Elt F) → (⟨S1x512, .f32⟩ : BufTy).Contents (Elt F)),
    unary main_v268 main_v269 (broadcastInDim S128x512 ![0, 1] bcast_S1x512_S128x512_0_1 : (⟨S1x512, .f32⟩ : BufTy).Contents (Elt F) → (⟨S128x512, .f32⟩ : BufTy).Contents (Elt F)),
    binary main_v265 main_v269 main_v270 (addf : (⟨S128x512, .f32⟩ : BufTy).Contents (Elt F) → (⟨S128x512, .f32⟩ : BufTy).Contents (Elt F) → (⟨S128x512, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S128x512, .f32⟩) main_call14_v0) (broadcastInDim S128x512 ![] bcast_S_S128x512),
    TRef.binary (TRef.of (T := ⟨S128x512, .f32⟩) main_v270) (TRef.of (T := ⟨S128x512, .f32⟩) main_call14_v0) (TRef.of (T := ⟨S128x512, .f32⟩) main_v271) maximumf,
    unary main_arg10 main_v272 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v272 main_v273 rfl shapeCasts_S1x512x512_S512x512,
    binary main_v271 main_v273 main_v274 ((fun l r => Host.dotGeneral dot_S128x512_S512x512_S128x512_1_0_0_1_n_n none l r) : (⟨S128x512, .f32⟩ : BufTy).Contents (Elt F) → (⟨S512x512, .f32⟩ : BufTy).Contents (Elt F) → (⟨S128x512, .f32⟩ : BufTy).Contents (Elt F)),
    unary main_arg11 main_v275 ((extractStridedSlice S1x512 ![2, 0] · slices_S3x512_S1x512_2_0) : (⟨S3x512, .f32⟩ : BufTy).Contents (Elt F) → (⟨S1x512, .f32⟩ : BufTy).Contents (Elt F)),
    reshape main_v275 main_v276 rfl shapeCasts_S1x512_S512,
    unary main_v276 main_v277 (broadcastInDim S1x512 ![1] bcast_S512_S1x512_1 : (⟨S512, .f32⟩ : BufTy).Contents (Elt F) → (⟨S1x512, .f32⟩ : BufTy).Contents (Elt F)),
    unary main_v277 main_v278 (broadcastInDim S128x512 ![0, 1] bcast_S1x512_S128x512_0_1 : (⟨S1x512, .f32⟩ : BufTy).Contents (Elt F) → (⟨S128x512, .f32⟩ : BufTy).Contents (Elt F)),
    binary main_v274 main_v278 main_v279 (addf : (⟨S128x512, .f32⟩ : BufTy).Contents (Elt F) → (⟨S128x512, .f32⟩ : BufTy).Contents (Elt F) → (⟨S128x512, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S128x512, .f32⟩) main_call15_v0) (broadcastInDim S128x512 ![] bcast_S_S128x512),
    TRef.binary (TRef.of (T := ⟨S128x512, .f32⟩) main_v279) (TRef.of (T := ⟨S128x512, .f32⟩) main_call15_v0) (TRef.of (T := ⟨S128x512, .f32⟩) main_v280) maximumf,
    binary main_v280 main_arg12 main_v281 ((fun l r => Host.dotGeneral dot_S128x512_S512x1_S128x1_1_0_0_1_n_n none l r) : (⟨S128x512, .f32⟩ : BufTy).Contents (Elt F) → (⟨S512x1, .f32⟩ : BufTy).Contents (Elt F) → (⟨S128x1, .f32⟩ : BufTy).Contents (Elt F)),
    unary main_arg13 main_v282 (broadcastInDim S1x1 ![1] bcast_S1_S1x1_1 : (⟨S1, .f32⟩ : BufTy).Contents (Elt F) → (⟨S1x1, .f32⟩ : BufTy).Contents (Elt F)),
    unary main_v282 main_v283 (broadcastInDim S128x1 ![0, 1] bcast_S1x1_S128x1_0_1 : (⟨S1x1, .f32⟩ : BufTy).Contents (Elt F) → (⟨S128x1, .f32⟩ : BufTy).Contents (Elt F)),
    binary main_v281 main_v283 main_v284 (addf : (⟨S128x1, .f32⟩ : BufTy).Contents (Elt F) → (⟨S128x1, .f32⟩ : BufTy).Contents (Elt F) → (⟨S128x1, .f32⟩ : BufTy).Contents (Elt F)) ]

abbrev tailW : List (Ref sig .tc) :=
  [main_v248, main_v249, main_v250, main_v251, main_v252, main_call12_cst, main_call12_v0, main_v253, main_v254, main_v255, main_v256, main_v257, main_v258, main_v259, main_v260, main_v261, main_call13_cst, main_call13_v0, main_v262, main_v263, main_v264, main_v265, main_v266, main_v267, main_v268, main_v269, main_v270, main_call14_cst, main_call14_v0, main_v271, main_v272, main_v273, main_v274, main_v275, main_v276, main_v277, main_v278, main_v279, main_call15_cst, main_call15_v0, main_v280, main_v281, main_v282, main_v283, main_v284]

theorem tail_writes : (tail (F := F)).Forall fun op => op.writes ⊆ (tailW.map (Proc.devRef (τ := τ) .tc)).toFinset :=
  ⟨writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list, writes_in_list⟩

theorem tail_sub : (tail (F := F)).Forall fun op => op.bufs ⊆ tcRefs τ sig :=
  ⟨binary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem tail_fresh : (tail (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem tail_val (V : Valuation τ sig (Elt F)) :
    after tail V (Proc.devRef .tc main_v284) =
      tailR (V (Proc.devRef .tc main_v123)) (V (Proc.devRef .tc main_v247)) (V (Proc.devRef .tc main_arg8)) (V (Proc.devRef .tc main_arg9)) (V (Proc.devRef .tc main_arg10)) (V (Proc.devRef .tc main_arg11))
        (V (Proc.devRef .tc main_arg12)) (V (Proc.devRef .tc main_arg13)) := by
  after_results_simp <;> (try simp only [TRef.ofBuf, TRef.toBuf, cast_eq]) <;> (try unfold tailR denseR) <;> rfl

theorem tail_keep (V : Valuation τ sig (Elt F)) {r : Ref sig .tc} (hr : r ∉ tailW) :
    after tail V (Proc.devRef .tc r) = V (Proc.devRef .tc r) :=
  after_of_writes_sub tail V tail_writes hr

theorem tail_keepArgs (V : Valuation τ sig (Elt F)) :
    ∀ r ∈ argsL, after tail V (Proc.devRef .tc r) = V (Proc.devRef .tc r) :=
  fun r hr => tail_keep V ((by decide : ∀ r ∈ argsL, r ∉ tailW) r hr)

end Cert.ReferenceIdeal.RefRun

end
-- ==== Proof.RefRun.lean ====
import proofs.«426140_j3899830305296_1_alg».proof.Proof.Ref.StreamA
import proofs.«426140_j3899830305296_1_alg».proof.Proof.Ref.StreamB
import proofs.«426140_j3899830305296_1_alg».proof.Proof.Ref.Tail
import proofs.«426140_j3899830305296_1_alg».proof.Proof.RefGnn
import Idealize.ShloMosaic.Lib.Pipeline.Frame
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

abbrev ops : List (HloOp τ sig (Elt F)) :=
  take1 ++ (layA0 ++ (layA1 ++ (layA2 ++ (layA3 ++ (layA4 ++ (layA5 ++ (pool1 ++ (take2 ++ (layB0 ++ (layB1 ++ (layB2 ++ (layB3 ++ (layB4 ++ (layB5 ++ (pool2 ++ (tail))))))))))))))))

theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem fa {α : Type} {P : α → Prop} {l₁ l₂ : List α} (h₁ : l₁.Forall P) (h₂ : l₂.Forall P) : (l₁ ++ l₂).Forall P :=
  List.forall_append.2 ⟨h₁, h₂⟩

theorem ops_sub : (ops : List (HloOp τ sig (Elt F))).Forall fun op => op.bufs ⊆ tcRefs τ sig :=
  fa take1_sub (fa layA0_sub (fa layA1_sub (fa layA2_sub (fa layA3_sub (fa layA4_sub (fa layA5_sub (fa pool1_sub (fa take2_sub (fa layB0_sub (fa layB1_sub (fa layB2_sub (fa layB3_sub (fa layB4_sub (fa layB5_sub (fa pool2_sub (tail_sub))))))))))))))))

theorem ops_fresh : ∀ op ∈ (ops : List (HloOp τ sig (Elt F))), op.fresh = ∅ :=
  List.forall_iff_forall_mem.1
    (fa take1_fresh (fa layA0_fresh (fa layA1_fresh (fa layA2_fresh (fa layA3_fresh (fa layA4_fresh (fa layA5_fresh (fa pool1_fresh (fa take2_fresh (fa layB0_fresh (fa layB1_fresh (fa layB2_fresh (fa layB3_fresh (fa layB4_fresh (fa layB5_fresh (fa pool2_fresh (tail_fresh)))))))))))))))))

theorem after_ops (V : Valuation τ sig (Elt F)) :
    after ops V (Proc.devRef .tc main_v284) =
        refResult (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13))
      ∧ ∀ r ∈ argsL, after ops V (Proc.devRef .tc r) = V (Proc.devRef .tc r) := by
  unfold ops
  simp only [StableHlo.after_append]

  have a1 := take1_val V
  have k1 : ∀ r ∈ argsL, after take1 V (Proc.devRef .tc r) = V (Proc.devRef .tc r) := take1_keepArgs V
  generalize after take1 V = V1 at a1 k1 ⊢

  have a2 := layA0_val V1
  rw [a1, k1 main_arg6 (by decide), k1 main_arg7 (by decide), k1 main_arg2 (by decide)] at a2
  have k2 : ∀ r ∈ argsL, after layA0 V1 (Proc.devRef .tc r) = V (Proc.devRef .tc r) :=
    fun r hr => (layA0_keepArgs V1 r hr).trans (k1 r hr)
  clear a1 k1
  generalize after layA0 V1 = V2 at a2 k2 ⊢

  have a3 := layA1_val V2
  rw [a2, k2 main_arg6 (by decide), k2 main_arg7 (by decide), k2 main_arg2 (by decide)] at a3
  have k3 : ∀ r ∈ argsL, after layA1 V2 (Proc.devRef .tc r) = V (Proc.devRef .tc r) :=
    fun r hr => (layA1_keepArgs V2 r hr).trans (k2 r hr)
  clear a2 k2
  generalize after layA1 V2 = V3 at a3 k3 ⊢

  have a4 := layA2_val V3
  rw [a3, k3 main_arg6 (by decide), k3 main_arg7 (by decide), k3 main_arg2 (by decide)] at a4
  have k4 : ∀ r ∈ argsL, after layA2 V3 (Proc.devRef .tc r) = V (Proc.devRef .tc r) :=
    fun r hr => (layA2_keepArgs V3 r hr).trans (k3 r hr)
  clear a3 k3
  generalize after layA2 V3 = V4 at a4 k4 ⊢

  have a5 := layA3_val V4
  rw [a4, k4 main_arg6 (by decide), k4 main_arg7 (by decide), k4 main_arg2 (by decide)] at a5
  have k5 : ∀ r ∈ argsL, after layA3 V4 (Proc.devRef .tc r) = V (Proc.devRef .tc r) :=
    fun r hr => (layA3_keepArgs V4 r hr).trans (k4 r hr)
  clear a4 k4
  generalize after layA3 V4 = V5 at a5 k5 ⊢

  have a6 := layA4_val V5
  rw [a5, k5 main_arg6 (by decide), k5 main_arg7 (by decide), k5 main_arg2 (by decide)] at a6
  have k6 : ∀ r ∈ argsL, after layA4 V5 (Proc.devRef .tc r) = V (Proc.devRef .tc r) :=
    fun r hr => (layA4_keepArgs V5 r hr).trans (k5 r hr)
  clear a5 k5
  generalize after layA4 V5 = V6 at a6 k6 ⊢

  have a7 := layA5_val V6
  rw [a6, k6 main_arg6 (by decide), k6 main_arg7 (by decide), k6 main_arg2 (by decide)] at a7
  have k7 : ∀ r ∈ argsL, after layA5 V6 (Proc.devRef .tc r) = V (Proc.devRef .tc r) :=
    fun r hr => (layA5_keepArgs V6 r hr).trans (k6 r hr)
  clear a6 k6
  generalize after layA5 V6 = V7 at a7 k7 ⊢

  have a8 := pool1_val V7
  rw [a7, k7 main_arg4 (by decide)] at a8
  have k8 : ∀ r ∈ argsL, after pool1 V7 (Proc.devRef .tc r) = V (Proc.devRef .tc r) :=
    fun r hr => (pool1_keepArgs V7 r hr).trans (k7 r hr)
  clear a7 k7
  generalize after pool1 V7 = V8 at a8 k8 ⊢

  have a9 := take2_val V8
  rw [k8 main_arg1 (by decide), k8 main_arg5 (by decide)] at a9
  have k9 : ∀ r ∈ argsL, after take2 V8 (Proc.devRef .tc r) = V (Proc.devRef .tc r) :=
    fun r hr => (take2_keepArgs V8 r hr).trans (k8 r hr)
  have p9 := (take2_keep V8 (r := main_v123) (by decide)).trans a8
  clear a8 k8
  generalize after take2 V8 = V9 at a9 k9 p9 ⊢

  have a10 := layB0_val V9
  rw [a9, k9 main_arg6 (by decide), k9 main_arg7 (by decide), k9 main_arg3 (by decide)] at a10
  have k10 : ∀ r ∈ argsL, after layB0 V9 (Proc.devRef .tc r) = V (Proc.devRef .tc r) :=
    fun r hr => (layB0_keepArgs V9 r hr).trans (k9 r hr)
  have p10 := (layB0_keep V9 (r := main_v123) (by decide)).trans p9
  clear a9 k9 p9
  generalize after layB0 V9 = V10 at a10 k10 p10 ⊢

  have a11 := layB1_val V10
  rw [a10, k10 main_arg6 (by decide), k10 main_arg7 (by decide), k10 main_arg3 (by decide)] at a11
  have k11 : ∀ r ∈ argsL, after layB1 V10 (Proc.devRef .tc r) = V (Proc.devRef .tc r) :=
    fun r hr => (layB1_keepArgs V10 r hr).trans (k10 r hr)
  have p11 := (layB1_keep V10 (r := main_v123) (by decide)).trans p10
  clear a10 k10 p10
  generalize after layB1 V10 = V11 at a11 k11 p11 ⊢

  have a12 := layB2_val V11
  rw [a11, k11 main_arg6 (by decide), k11 main_arg7 (by decide), k11 main_arg3 (by decide)] at a12
  have k12 : ∀ r ∈ argsL, after layB2 V11 (Proc.devRef .tc r) = V (Proc.devRef .tc r) :=
    fun r hr => (layB2_keepArgs V11 r hr).trans (k11 r hr)
  have p12 := (layB2_keep V11 (r := main_v123) (by decide)).trans p11
  clear a11 k11 p11
  generalize after layB2 V11 = V12 at a12 k12 p12 ⊢

  have a13 := layB3_val V12
  rw [a12, k12 main_arg6 (by decide), k12 main_arg7 (by decide), k12 main_arg3 (by decide)] at a13
  have k13 : ∀ r ∈ argsL, after layB3 V12 (Proc.devRef .tc r) = V (Proc.devRef .tc r) :=
    fun r hr => (layB3_keepArgs V12 r hr).trans (k12 r hr)
  have p13 := (layB3_keep V12 (r := main_v123) (by decide)).trans p12
  clear a12 k12 p12
  generalize after layB3 V12 = V13 at a13 k13 p13 ⊢

  have a14 := layB4_val V13
  rw [a13, k13 main_arg6 (by decide), k13 main_arg7 (by decide), k13 main_arg3 (by decide)] at a14
  have k14 : ∀ r ∈ argsL, after layB4 V13 (Proc.devRef .tc r) = V (Proc.devRef .tc r) :=
    fun r hr => (layB4_keepArgs V13 r hr).trans (k13 r hr)
  have p14 := (layB4_keep V13 (r := main_v123) (by decide)).trans p13
  clear a13 k13 p13
  generalize after layB4 V13 = V14 at a14 k14 p14 ⊢

  have a15 := layB5_val V14
  rw [a14, k14 main_arg6 (by decide), k14 main_arg7 (by decide), k14 main_arg3 (by decide)] at a15
  have k15 : ∀ r ∈ argsL, after layB5 V14 (Proc.devRef .tc r) = V (Proc.devRef .tc r) :=
    fun r hr => (layB5_keepArgs V14 r hr).trans (k14 r hr)
  have p15 := (layB5_keep V14 (r := main_v123) (by decide)).trans p14
  clear a14 k14 p14
  generalize after layB5 V14 = V15 at a15 k15 p15 ⊢

  have a16 := pool2_val V15
  rw [a15, k15 main_arg4 (by decide)] at a16
  have k16 : ∀ r ∈ argsL, after pool2 V15 (Proc.devRef .tc r) = V (Proc.devRef .tc r) :=
    fun r hr => (pool2_keepArgs V15 r hr).trans (k15 r hr)
  have p16 := (pool2_keep V15 (r := main_v123) (by decide)).trans p15
  clear a15 k15 p15
  generalize after pool2 V15 = V16 at a16 k16 p16 ⊢

  have a17 := tail_val V16
  rw [p16, a16, k16 main_arg8 (by decide), k16 main_arg9 (by decide), k16 main_arg10 (by decide), k16 main_arg11 (by decide), k16 main_arg12 (by decide), k16 main_arg13 (by decide)] at a17
  have k17 : ∀ r ∈ argsL, after tail V16 (Proc.devRef .tc r) = V (Proc.devRef .tc r) :=
    fun r hr => (tail_keepArgs V16 r hr).trans (k16 r hr)
  clear a16 k16 p16
  exact ⟨a17, k17⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v284) =
          refResult (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c main_v284).trans (after_ops (launchContents m c)).1,
        (h c main_arg0).trans ((after_ops (launchContents m c)).2 main_arg0 (by decide)),
        (h c main_arg1).trans ((after_ops (launchContents m c)).2 main_arg1 (by decide)),
        (h c main_arg2).trans ((after_ops (launchContents m c)).2 main_arg2 (by decide)),
        (h c main_arg3).trans ((after_ops (launchContents m c)).2 main_arg3 (by decide)),
        (h c main_arg4).trans ((after_ops (launchContents m c)).2 main_arg4 (by decide)),
        (h c main_arg5).trans ((after_ops (launchContents m c)).2 main_arg5 (by decide)),
        (h c main_arg6).trans ((after_ops (launchContents m c)).2 main_arg6 (by decide)),
        (h c main_arg7).trans ((after_ops (launchContents m c)).2 main_arg7 (by decide)),
        (h c main_arg8).trans ((after_ops (launchContents m c)).2 main_arg8 (by decide)),
        (h c main_arg9).trans ((after_ops (launchContents m c)).2 main_arg9 (by decide)),
        (h c main_arg10).trans ((after_ops (launchContents m c)).2 main_arg10 (by decide)),
        (h c main_arg11).trans ((after_ops (launchContents m c)).2 main_arg11 (by decide)),
        (h c main_arg12).trans ((after_ops (launchContents m c)).2 main_arg12 (by decide)),
        (h c main_arg13).trans ((after_ops (launchContents m c)).2 main_arg13 (by decide))⟩)
    (run_seq scopedRefs_eq scopedSems_eq defs main (fun _ => ops) main_eq (fun _ => ops_sub) m ρ (fun _ => ops_fresh))

end Cert.ReferenceIdeal.RefRun

end
-- ==== Proof.PreIdx.lean ====
import proofs.«426140_j3899830305296_1_alg».proof.Pre_finite_inputs
import Idealize.ShloMosaic.Lib.ReduceAll
import Idealize.ShloMosaic.Lib.ValueIdx

noncomputable section

namespace Cert.PreIdx

open Idealize.ShloMosaic Cert.Pre_finite_inputs

variable {F : FTy → Type} [FloatOps F] [Cert.Pre_finite_inputs.Facts]

instance subsingleton_scalar_idx : Subsingleton S_.Idx := ⟨fun a b => funext fun d => d.elim0⟩

theorem toInt_neg_tenThousand : (4294957296#32 : BitVec 32).toInt = -10000 := by decide

theorem toInt_tenThousand : (10000#32 : BitVec 32).toInt = 10000 := by decide

theorem lane_range (a : BitVec 32)
    (e : IntOp.andi (IntOp.cmpi .sge a 4294957296#32) (IntOp.cmpi .slt a 10000#32) = 1#1) :
    (-10000 : Int) ≤ a.toInt ∧ a.toInt < 10000 := by
  obtain ⟨h1, h2⟩ := IntOp.andi_eq_one.1 e
  rw [IntOp.cmpi_sge, toInt_neg_tenThousand] at h1
  rw [IntOp.cmpi_slt, toInt_tenThousand] at h2
  exact ⟨h1, h2⟩

theorem part3_range (a0 a1 : IVec S4096 32) (v48 : IVec S_ 1) (v49 v50 : FVec F S1 .f32)
    (e : fn_part3 (F := F) a0 a1 v48 v49 v50 ValueIdx.ix0 = 1#1) :
    (∀ i : S4096.Idx, (-10000 : Int) ≤ (a0 i).toInt ∧ (a0 i).toInt < 10000) ∧
      (∀ i : S4096.Idx, (-10000 : Int) ≤ (a1 i).toInt ∧ (a1 i).toInt < 10000) := by
  dsimp only [fn_part3, andi] at e
  obtain ⟨e', h1⟩ := IntOp.andi_eq_one.1 e
  obtain ⟨-, h0⟩ := IntOp.andi_eq_one.1 e'
  refine ⟨fun i => ?_, fun i => ?_⟩
  · exact lane_range (a0 i) (Host.reduce_andi_all _ _ _ _ _ h0 i)
  · exact lane_range (a1 i) (Host.reduce_andi_all _ _ _ _ _ h1 i)

theorem idx_range_of_pre (a0 : IVec S4096 32) (a1 : IVec S4096 32) (a2 : FVec F S4096x4096 .f32) (a3 : FVec F S4096x4096 .f32)
    (a4 : IVec S4096 32) (a5 : FVec F S10000x512 .f32) (a6 : FVec F S6x512x512 .f32) (a7 : FVec F S6x512 .f32)
    (a8 : FVec F S1024x512 .f32) (a9 : FVec F S512 .f32) (a10 : FVec F S3x512x512 .f32) (a11 : FVec F S3x512 .f32)
    (a12 : FVec F S512x1 .f32) (a13 : FVec F S1 .f32)
    (h : Cert.Pre_finite_inputs.fn (F := F) a0 a1 a2 a3 a4 a5 a6 a7 a8 a9 a10 a11 a12 a13 = fun _ => 1#1) :
    (∀ i : S4096.Idx, (-10000 : Int) ≤ (a0 i).toInt ∧ (a0 i).toInt < 10000) ∧
      (∀ i : S4096.Idx, (-10000 : Int) ≤ (a1 i).toInt ∧ (a1 i).toInt < 10000) := by
  have e := congrFun h ValueIdx.ix0
  dsimp only [fn, fn_part1, fn_part2] at e
  exact part3_range (F := F) a0 a1 _ _ _ e

end Cert.PreIdx

end
-- ==== Proof.lean ====
import proofs.«426140_j3899830305296_1_alg».proof.Defs
import proofs.«426140_j3899830305296_1_alg».proof.Proof.Gen.Kernel
import proofs.«426140_j3899830305296_1_alg».proof.Proof.Gen.KernelIdeal
import proofs.«426140_j3899830305296_1_alg».proof.Proof.Gen.ReferenceIdeal
import proofs.«426140_j3899830305296_1_alg».proof.Proof.Gen.Pre_finite_inputs
import proofs.«426140_j3899830305296_1_alg».proof.Proof.KB.Run6
import proofs.«426140_j3899830305296_1_alg».proof.Proof.KI.Chain
import proofs.«426140_j3899830305296_1_alg».proof.Proof.RefRun
import proofs.«426140_j3899830305296_1_alg».proof.Proof.PreIdx
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame6 (F := Bits) m ρ

theorem frame_ki : Cert.frame_KernelIdeal := fun m ρ _ => Cert.KernelIdeal.Gen.frame6 (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W23 (F := Ideal) m ρ c (Proc.devRef .tc Cert.KernelIdeal.main_v92),
    Cert.KernelIdeal.Gen.run6 (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨h0, h1, h2, h3, h4, h5, h6, h7, h8, h9, h10, h11, h12, h13⟩ := hagree c
  rw [h0, h1, h2, h3, h4, h5, h6, h7, h8, h9, h10, h11, h12, h13]
  have hr := Cert.PreIdx.idx_range_of_pre (F := Ideal) _ _ _ _ _ _ _ _ _ _ _ _ _ _ (hpre c)
  exact (Cert.KernelIdeal.Gen.result_eq m ρ c hr.1 hr.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
